-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S3x128 .f32) (main_arg7 : FVec F S128x128 .f32) (main_arg8 : FVec F S128 .f32) (main_arg9 : FVec F S128x1 .f32) (main_arg10 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x800000 32) (main_arg2 : IVec S100000 32) (main_arg3 : FVec F S3x128x128 .f32) (main_arg4 : FVec F S3x128 .f32) (main_arg5 : FVec F S3x128 .f32) (main_arg6 : FVec F S3x128 .f32) (main_arg7 : FVec F S128x128 .f32) (main_arg8 : FVec F S128 .f32) (main_arg9 : FVec F S128x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x800000 : Shape := ⟨2, ![2, 800000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S100000x1 : Shape := ⟨2, ![100000, 1]⟩
abbrev S1x128x128 : Shape := ⟨3, ![1, 128, 128]⟩
abbrev S800000x128 : Shape := ⟨2, ![800000, 128]⟩
abbrev S1x128 : Shape := ⟨2, ![1, 128]⟩
abbrev S2x1x128 : Shape := ⟨3, ![2, 1, 128]⟩
abbrev S2x512x128 : Shape := ⟨3, ![2, 512, 128]⟩
abbrev S2x1x512 : Shape := ⟨3, ![2, 1, 512]⟩
abbrev S512x128 : Shape := ⟨2, ![512, 128]⟩
abbrev S1x512 : Shape := ⟨2, ![1, 512]⟩
abbrev S512x1 : Shape := ⟨2, ![512, 1]⟩
abbrev S1x1 : Shape := ⟨2, ![1, 1]⟩
abbrev S2000x128 : Shape := ⟨2, ![2000, 128]⟩
abbrev S2000x1 : Shape := ⟨2, ![2000, 1]⟩
abbrev S1x1x128 : Shape := ⟨3, ![1, 1, 128]⟩
abbrev S1x512x128 : Shape := ⟨3, ![1, 512, 128]⟩
abbrev S1x1x512 : Shape := ⟨3, ![1, 1, 512]⟩
abbrev S2000x512 : Shape := ⟨2, ![2000, 512]⟩
abbrev S512 : Shape := ⟨1, ![512]⟩

abbrev nBuf : Space → Nat
  | .hbm => 197
  | .vmem => 89
  | .smem => 0
  | _ => 0

abbrev hbmTy0_0 (i : Nat) : BufTy := match i % 128 with
  | 0 => ⟨S100000x128, .f32⟩
  | 1 => ⟨S2x800000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S128x128, .f32⟩
  | 8 => ⟨S128, .f32⟩
  | 9 => ⟨S128x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S100000, .f32⟩
  | 19 => ⟨S800000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S800000x1, .f32⟩
  | 45 => ⟨S_, .f32⟩
  | 46 => ⟨S100000, .f32⟩
  | 47 => ⟨S100000, .f32⟩
  | 48 => ⟨S100000x1, .f32⟩
  | 49 => ⟨S100000x1, .i32⟩
  | 50 => ⟨S1x128x128, .f32⟩
  | 51 => ⟨S128x128, .f32⟩
  | 52 => ⟨S100000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x128, .f32⟩
  | 63 => ⟨S800000x128, .f32⟩
  | 64 => ⟨S_, .f32⟩
  | 65 => ⟨S100000x128, .f32⟩
  | 66 => ⟨S800000x1, .i32⟩
  | 67 => ⟨S100000x128, .f32⟩
  | 68 => ⟨S1x128, .f32⟩
  | 69 => ⟨S128, .f32⟩
  | 70 => ⟨S1x128, .f32⟩
  | 71 => ⟨S1x128, .f32⟩
  | 72 => ⟨S128, .f32⟩
  | 73 => ⟨S1x128, .f32⟩
  | 74 => ⟨S1x128, .f32⟩
  | 75 => ⟨S128, .f32⟩
  | 76 => ⟨S1x128, .f32⟩
  | 77 => ⟨S100000x128, .f32⟩
  | 78 => ⟨S2x1x128, .f32⟩
  | 79 => ⟨S_, .f32⟩
  | 80 => ⟨S1x128, .f32⟩
  | 81 => ⟨S_, .f32⟩
  | 82 => ⟨S1x128, .f32⟩
  | 83 => ⟨S1x128, .f32⟩
  | 84 => ⟨S2x1x128, .f32⟩
  | 85 => ⟨S_, .f32⟩
  | 86 => ⟨S1x128, .f32⟩
  | 87 => ⟨S_, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S1x128, .f32⟩
  | 94 => ⟨S1x128x128, .f32⟩
  | 95 => ⟨S128x128, .f32⟩
  | 96 => ⟨S100000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S800000x128, .f32⟩
  | 107 => ⟨S800000x128, .f32⟩
  | 108 => ⟨S_, .f32⟩
  | 109 => ⟨S100000x128, .f32⟩
  | 110 => ⟨S800000x1, .i32⟩
  | 111 => ⟨S100000x128, .f32⟩
  | 112 => ⟨S1x128, .f32⟩
  | 113 => ⟨S128, .f32⟩
  | 114 => ⟨S1x128, .f32⟩
  | 115 => ⟨S1x128, .f32⟩
  | 116 => ⟨S128, .f32⟩
  | 117 => ⟨S1x128, .f32⟩
  | 118 => ⟨S1x128, .f32⟩
  | 119 => ⟨S128, .f32⟩
  | 120 => ⟨S1x128, .f32⟩
  | 121 => ⟨S100000x128, .f32⟩
  | 122 => ⟨S2x1x128, .f32⟩
  | 123 => ⟨S_, .f32⟩
  | 124 => ⟨S1x128, .f32⟩
  | 125 => ⟨S_, .f32⟩
  | 126 => ⟨S1x128, .f32⟩
  | 127 => ⟨S1x128, .f32⟩
  | _ => ⟨S100000x128, .f32⟩

abbrev hbmTy0_1 (i : Nat) : BufTy := match i % 128 with
  | 0 => ⟨S2x1x128, .f32⟩
  | 1 => ⟨S_, .f32⟩
  | 2 => ⟨S1x128, .f32⟩
  | 3 => ⟨S_, .f32⟩
  | 4 => ⟨S1x128, .f32⟩
  | 5 => ⟨S1x128, .f32⟩
  | 6 => ⟨S_, .f32⟩
  | 7 => ⟨S1x128, .f32⟩
  | 8 => ⟨S1x128, .f32⟩
  | 9 => ⟨S1x128, .f32⟩
  | 10 => ⟨S1x128x128, .f32⟩
  | 11 => ⟨S128x128, .f32⟩
  | 12 => ⟨S100000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x128, .f32⟩
  | 23 => ⟨S800000x128, .f32⟩
  | 24 => ⟨S_, .f32⟩
  | 25 => ⟨S100000x128, .f32⟩
  | 26 => ⟨S800000x1, .i32⟩
  | 27 => ⟨S100000x128, .f32⟩
  | 28 => ⟨S1x128, .f32⟩
  | 29 => ⟨S128, .f32⟩
  | 30 => ⟨S1x128, .f32⟩
  | 31 => ⟨S1x128, .f32⟩
  | 32 => ⟨S128, .f32⟩
  | 33 => ⟨S1x128, .f32⟩
  | 34 => ⟨S1x128, .f32⟩
  | 35 => ⟨S128, .f32⟩
  | 36 => ⟨S1x128, .f32⟩
  | 37 => ⟨S100000x128, .f32⟩
  | 38 => ⟨S2x1x128, .f32⟩
  | 39 => ⟨S_, .f32⟩
  | 40 => ⟨S1x128, .f32⟩
  | 41 => ⟨S_, .f32⟩
  | 42 => ⟨S1x128, .f32⟩
  | 43 => ⟨S1x128, .f32⟩
  | 44 => ⟨S2x1x128, .f32⟩
  | 45 => ⟨S_, .f32⟩
  | 46 => ⟨S1x128, .f32⟩
  | 47 => ⟨S_, .f32⟩
  | 48 => ⟨S1x128, .f32⟩
  | 49 => ⟨S1x128, .f32⟩
  | 50 => ⟨S_, .f32⟩
  | 51 => ⟨S1x128, .f32⟩
  | 52 => ⟨S1x128, .f32⟩
  | 53 => ⟨S1x128, .f32⟩
  | 54 => ⟨S2x512x128, .f32⟩
  | 55 => ⟨S2x1x512, .f32⟩
  | 56 => ⟨S_, .f32⟩
  | 57 => ⟨S512x128, .f32⟩
  | 58 => ⟨S_, .f32⟩
  | 59 => ⟨S1x512, .f32⟩
  | 60 => ⟨S512x1, .f32⟩
  | 61 => ⟨S_, .f32⟩
  | 62 => ⟨S512x1, .f32⟩
  | 63 => ⟨S512x1, .f32⟩
  | 64 => ⟨S512x128, .f32⟩
  | 65 => ⟨S512x128, .f32⟩
  | 66 => ⟨S1x128, .f32⟩
  | 67 => ⟨S1x1, .f32⟩
  | 68 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x1x128, .f32⟩
  | .local _ .vmem, ⟨15, _⟩ => ⟨S1x1x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x1x128, .f32⟩
  | .local _ .vmem, ⟨20, _⟩ => ⟨S1x1x128, .f32⟩
  | .local _ .vmem, ⟨21, _⟩ => ⟨S2000x128, .f32⟩
  | .local _ .vmem, ⟨22, _⟩ => ⟨S2000x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S128x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x1, .f32⟩
  | .local _ .vmem, ⟨35, _⟩ => ⟨S2000x1, .f32⟩
  | .local _ .vmem, ⟨36, _⟩ => ⟨S1x128, .f32⟩
  | .local _ .vmem, ⟨37, _⟩ => ⟨S2000x128, .f32⟩
  | .local _ .vmem, ⟨38, _⟩ => ⟨S2000x128, .f32⟩
  | .local _ .vmem, ⟨39, _⟩ => ⟨S1x1x128, .f32⟩
  | .local _ .vmem, ⟨40, _⟩ => ⟨S1x1x128, .f32⟩
  | .local _ .vmem, ⟨41, _⟩ => ⟨S2000x128, .f32⟩
  | .local _ .vmem, ⟨42, _⟩ => ⟨S2000x128, .f32⟩
  | .local _ .vmem, ⟨43, _⟩ => ⟨S1x128, .f32⟩
  | .local _ .vmem, ⟨44, _⟩ => ⟨S1x1x128, .f32⟩
  | .local _ .vmem, ⟨45, _⟩ => ⟨S1x1x128, .f32⟩
  | .local _ .vmem, ⟨46, _⟩ => ⟨S2000x128, .f32⟩
  | .local _ .vmem, ⟨47, _⟩ => ⟨S2000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S128x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x1, .f32⟩
  | .local _ .vmem, ⟨60, _⟩ => ⟨S2000x1, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | .local _ .vmem, ⟨64, _⟩ => ⟨S1x1x128, .f32⟩
  | .local _ .vmem, ⟨65, _⟩ => ⟨S1x1x128, .f32⟩
  | .local _ .vmem, ⟨66, _⟩ => ⟨S2000x128, .f32⟩
  | .local _ .vmem, ⟨67, _⟩ => ⟨S2000x128, .f32⟩
  | .local _ .vmem, ⟨68, _⟩ => ⟨S1x128, .f32⟩
  | .local _ .vmem, ⟨69, _⟩ => ⟨S1x1x128, .f32⟩
  | .local _ .vmem, ⟨70, _⟩ => ⟨S1x1x128, .f32⟩
  | .local _ .vmem, ⟨71, _⟩ => ⟨S2000x128, .f32⟩
  | .local _ .vmem, ⟨72, _⟩ => ⟨S2000x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S2000x1, .i32⟩
  | .local _ .vmem, ⟨78, _⟩ => ⟨S2000x1, .i32⟩
  | .local _ .vmem, ⟨79, _⟩ => ⟨S1x512x128, .f32⟩
  | .local _ .vmem, ⟨80, _⟩ => ⟨S1x512x128, .f32⟩
  | .local _ .vmem, ⟨81, _⟩ => ⟨S1x1x512, .f32⟩
  | .local _ .vmem, ⟨82, _⟩ => ⟨S1x1x512, .f32⟩
  | .local _ .vmem, ⟨83, _⟩ => ⟨S512x128, .f32⟩
  | .local _ .vmem, ⟨84, _⟩ => ⟨S128x128, .f32⟩
  | .local _ .vmem, ⟨85, _⟩ => ⟨S1x128, .f32⟩
  | .local _ .vmem, ⟨86, _⟩ => ⟨S128x1, .f32⟩
  | .local _ .vmem, ⟨87, _⟩ => ⟨S1x1, .f32⟩
  | .local _ .vmem, ⟨88, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | _, _ => false

abbrev semScoped : Fin 0 → Bool
  | ⟨_, h⟩ => absurd h (Nat.not_lt_zero _)

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  ofTc nBuf bufTy 0 89 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_cst : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_c : Ref sig .tc := ⟨.hbm, 25, rfl⟩
abbrev main_call0_v11 : Ref sig .tc := ⟨.hbm, 26, rfl⟩
abbrev main_call0_v12 : Ref sig .tc := ⟨.hbm, 27, rfl⟩
abbrev main_call0_c_2 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_c_3 : Ref sig .tc := ⟨.hbm, 34, rfl⟩
abbrev main_call0_v18 : Ref sig .tc := ⟨.hbm, 35, rfl⟩
abbrev main_call0_v19 : Ref sig .tc := ⟨.hbm, 36, rfl⟩
abbrev main_call0_c_4 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_cst_5 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_c_6 : Ref sig .tc := ⟨.hbm, 53, rfl⟩
abbrev main_call0_v34 : Ref sig .tc := ⟨.hbm, 54, rfl⟩
abbrev main_call0_v35 : Ref sig .tc := ⟨.hbm, 55, rfl⟩
abbrev main_call0_c_7 : Ref sig .tc := ⟨.hbm, 56, rfl⟩
abbrev main_call0_v36 : Ref sig .tc := ⟨.hbm, 57, rfl⟩
abbrev main_call0_v37 : Ref sig .tc := ⟨.hbm, 58, rfl⟩
abbrev main_call0_v38 : Ref sig .tc := ⟨.hbm, 59, rfl⟩
abbrev main_call0_v39 : Ref sig .tc := ⟨.hbm, 60, rfl⟩
abbrev main_call0_v40 : Ref sig .tc := ⟨.hbm, 61, rfl⟩
abbrev main_call0_v41 : Ref sig .tc := ⟨.hbm, 62, rfl⟩
abbrev main_call0_v42 : Ref sig .tc := ⟨.hbm, 63, rfl⟩
abbrev main_call0_cst_8 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_call0_v48 : Ref sig .tc := ⟨.hbm, 70, rfl⟩
abbrev main_call0_v49 : Ref sig .tc := ⟨.hbm, 71, rfl⟩
abbrev main_call0_v50 : Ref sig .tc := ⟨.hbm, 72, rfl⟩
abbrev main_call0_v51 : Ref sig .tc := ⟨.hbm, 73, rfl⟩
abbrev main_call0_v52 : Ref sig .tc := ⟨.hbm, 74, rfl⟩
abbrev main_call0_v53 : Ref sig .tc := ⟨.hbm, 75, rfl⟩
abbrev main_call0_v54 : Ref sig .tc := ⟨.hbm, 76, rfl⟩
abbrev main_call0_v55_0 : Ref sig .tc := ⟨.hbm, 77, rfl⟩
abbrev main_call0_v55_1 : Ref sig .tc := ⟨.hbm, 78, rfl⟩
abbrev main_call0_cst_9 : Ref sig .tc := ⟨.hbm, 79, rfl⟩
abbrev main_call0_v56 : Ref sig .tc := ⟨.hbm, 80, rfl⟩
abbrev main_call0_cst_10 : Ref sig .tc := ⟨.hbm, 81, rfl⟩
abbrev main_call0_v57 : Ref sig .tc := ⟨.hbm, 82, rfl⟩
abbrev main_call0_v58 : Ref sig .tc := ⟨.hbm, 83, rfl⟩
abbrev main_call0_v59 : Ref sig .tc := ⟨.hbm, 84, rfl⟩
abbrev main_call0_cst_11 : Ref sig .tc := ⟨.hbm, 85, rfl⟩
abbrev main_call0_v60 : Ref sig .tc := ⟨.hbm, 86, rfl⟩
abbrev main_call0_cst_12 : Ref sig .tc := ⟨.hbm, 87, rfl⟩
abbrev main_call0_v61 : Ref sig .tc := ⟨.hbm, 88, rfl⟩
abbrev main_call0_v62 : Ref sig .tc := ⟨.hbm, 89, rfl⟩
abbrev main_call0_cst_13 : Ref sig .tc := ⟨.hbm, 90, rfl⟩
abbrev main_call0_v63 : Ref sig .tc := ⟨.hbm, 91, rfl⟩
abbrev main_call0_v64 : Ref sig .tc := ⟨.hbm, 92, rfl⟩
abbrev main_call0_v65 : Ref sig .tc := ⟨.hbm, 93, rfl⟩
abbrev main_call0_v66 : Ref sig .tc := ⟨.hbm, 94, rfl⟩
abbrev main_call0_v67 : Ref sig .tc := ⟨.hbm, 95, rfl⟩
abbrev main_call0_v68 : Ref sig .tc := ⟨.hbm, 96, rfl⟩
abbrev main_call0_c_14 : Ref sig .tc := ⟨.hbm, 97, rfl⟩
abbrev main_call0_v69 : Ref sig .tc := ⟨.hbm, 98, rfl⟩
abbrev main_call0_v70 : Ref sig .tc := ⟨.hbm, 99, rfl⟩
abbrev main_call0_c_15 : Ref sig .tc := ⟨.hbm, 100, rfl⟩
abbrev main_call0_v71 : Ref sig .tc := ⟨.hbm, 101, rfl⟩
abbrev main_call0_v72 : Ref sig .tc := ⟨.hbm, 102, rfl⟩
abbrev main_call0_v73 : Ref sig .tc := ⟨.hbm, 103, rfl⟩
abbrev main_call0_v74 : Ref sig .tc := ⟨.hbm, 104, rfl⟩
abbrev main_call0_v75 : Ref sig .tc := ⟨.hbm, 105, rfl⟩
abbrev main_call0_v76 : Ref sig .tc := ⟨.hbm, 106, rfl⟩
abbrev main_call0_v77 : Ref sig .tc := ⟨.hbm, 107, rfl⟩
abbrev main_call0_cst_16 : Ref sig .tc := ⟨.hbm, 108, rfl⟩
abbrev main_call0_v78 : Ref sig .tc := ⟨.hbm, 109, rfl⟩
abbrev main_call0_v79 : Ref sig .tc := ⟨.hbm, 110, rfl⟩
abbrev main_call0_v80 : Ref sig .tc := ⟨.hbm, 111, rfl⟩
abbrev main_call0_v81 : Ref sig .tc := ⟨.hbm, 112, rfl⟩
abbrev main_call0_v82 : Ref sig .tc := ⟨.hbm, 113, rfl⟩
abbrev main_call0_v83 : Ref sig .tc := ⟨.hbm, 114, rfl⟩
abbrev main_call0_v84 : Ref sig .tc := ⟨.hbm, 115, rfl⟩
abbrev main_call0_v85 : Ref sig .tc := ⟨.hbm, 116, rfl⟩
abbrev main_call0_v86 : Ref sig .tc := ⟨.hbm, 117, rfl⟩
abbrev main_call0_v87 : Ref sig .tc := ⟨.hbm, 118, rfl⟩
abbrev main_call0_v88 : Ref sig .tc := ⟨.hbm, 119, rfl⟩
abbrev main_call0_v89 : Ref sig .tc := ⟨.hbm, 120, rfl⟩
abbrev main_call0_v90_0 : Ref sig .tc := ⟨.hbm, 121, rfl⟩
abbrev main_call0_v90_1 : Ref sig .tc := ⟨.hbm, 122, rfl⟩
abbrev main_call0_cst_17 : Ref sig .tc := ⟨.hbm, 123, rfl⟩
abbrev main_call0_v91 : Ref sig .tc := ⟨.hbm, 124, rfl⟩
abbrev main_call0_cst_18 : Ref sig .tc := ⟨.hbm, 125, rfl⟩
abbrev main_call0_v92 : Ref sig .tc := ⟨.hbm, 126, rfl⟩
abbrev main_call0_v93 : Ref sig .tc := ⟨.hbm, 127, rfl⟩
abbrev main_call0_v94 : Ref sig .tc := ⟨.hbm, 128, rfl⟩
abbrev main_call0_cst_19 : Ref sig .tc := ⟨.hbm, 129, rfl⟩
abbrev main_call0_v95 : Ref sig .tc := ⟨.hbm, 130, rfl⟩
abbrev main_call0_cst_20 : Ref sig .tc := ⟨.hbm, 131, rfl⟩
abbrev main_call0_v96 : Ref sig .tc := ⟨.hbm, 132, rfl⟩
abbrev main_call0_v97 : Ref sig .tc := ⟨.hbm, 133, rfl⟩
abbrev main_call0_cst_21 : Ref sig .tc := ⟨.hbm, 134, rfl⟩
abbrev main_call0_v98 : Ref sig .tc := ⟨.hbm, 135, rfl⟩
abbrev main_call0_v99 : Ref sig .tc := ⟨.hbm, 136, rfl⟩
abbrev main_call0_v100 : Ref sig .tc := ⟨.hbm, 137, rfl⟩
abbrev main_call0_v101 : Ref sig .tc := ⟨.hbm, 138, rfl⟩
abbrev main_call0_v102 : Ref sig .tc := ⟨.hbm, 139, rfl⟩
abbrev main_call0_v103 : Ref sig .tc := ⟨.hbm, 140, rfl⟩
abbrev main_call0_c_22 : Ref sig .tc := ⟨.hbm, 141, rfl⟩
abbrev main_call0_v104 : Ref sig .tc := ⟨.hbm, 142, rfl⟩
abbrev main_call0_v105 : Ref sig .tc := ⟨.hbm, 143, rfl⟩
abbrev main_call0_c_23 : Ref sig .tc := ⟨.hbm, 144, rfl⟩
abbrev main_call0_v106 : Ref sig .tc := ⟨.hbm, 145, rfl⟩
abbrev main_call0_v107 : Ref sig .tc := ⟨.hbm, 146, rfl⟩
abbrev main_call0_v108 : Ref sig .tc := ⟨.hbm, 147, rfl⟩
abbrev main_call0_v109 : Ref sig .tc := ⟨.hbm, 148, rfl⟩
abbrev main_call0_v110 : Ref sig .tc := ⟨.hbm, 149, rfl⟩
abbrev main_call0_v111 : Ref sig .tc := ⟨.hbm, 150, rfl⟩
abbrev main_call0_v112 : Ref sig .tc := ⟨.hbm, 151, rfl⟩
abbrev main_call0_cst_24 : Ref sig .tc := ⟨.hbm, 152, rfl⟩
abbrev main_call0_v113 : Ref sig .tc := ⟨.hbm, 153, rfl⟩
abbrev main_call0_v114 : Ref sig .tc := ⟨.hbm, 154, rfl⟩
abbrev main_call0_v115 : Ref sig .tc := ⟨.hbm, 155, rfl⟩
abbrev main_call0_v116 : Ref sig .tc := ⟨.hbm, 156, rfl⟩
abbrev main_call0_v117 : Ref sig .tc := ⟨.hbm, 157, rfl⟩
abbrev main_call0_v118 : Ref sig .tc := ⟨.hbm, 158, rfl⟩
abbrev main_call0_v119 : Ref sig .tc := ⟨.hbm, 159, rfl⟩
abbrev main_call0_v120 : Ref sig .tc := ⟨.hbm, 160, rfl⟩
abbrev main_call0_v121 : Ref sig .tc := ⟨.hbm, 161, rfl⟩
abbrev main_call0_v122 : Ref sig .tc := ⟨.hbm, 162, rfl⟩
abbrev main_call0_v123 : Ref sig .tc := ⟨.hbm, 163, rfl⟩
abbrev main_call0_v124 : Ref sig .tc := ⟨.hbm, 164, rfl⟩
abbrev main_call0_v125_0 : Ref sig .tc := ⟨.hbm, 165, rfl⟩
abbrev main_call0_v125_1 : Ref sig .tc := ⟨.hbm, 166, rfl⟩
abbrev main_call0_cst_25 : Ref sig .tc := ⟨.hbm, 167, rfl⟩
abbrev main_call0_v126 : Ref sig .tc := ⟨.hbm, 168, rfl⟩
abbrev main_call0_cst_26 : Ref sig .tc := ⟨.hbm, 169, rfl⟩
abbrev main_call0_v127 : Ref sig .tc := ⟨.hbm, 170, rfl⟩
abbrev main_call0_v128 : Ref sig .tc := ⟨.hbm, 171, rfl⟩
abbrev main_call0_v129 : Ref sig .tc := ⟨.hbm, 172, rfl⟩
abbrev main_call0_cst_27 : Ref sig .tc := ⟨.hbm, 173, rfl⟩
abbrev main_call0_v130 : Ref sig .tc := ⟨.hbm, 174, rfl⟩
abbrev main_call0_cst_28 : Ref sig .tc := ⟨.hbm, 175, rfl⟩
abbrev main_call0_v131 : Ref sig .tc := ⟨.hbm, 176, rfl⟩
abbrev main_call0_v132 : Ref sig .tc := ⟨.hbm, 177, rfl⟩
abbrev main_call0_cst_29 : Ref sig .tc := ⟨.hbm, 178, rfl⟩
abbrev main_call0_v133 : Ref sig .tc := ⟨.hbm, 179, rfl⟩
abbrev main_call0_v134 : Ref sig .tc := ⟨.hbm, 180, rfl⟩
abbrev main_call0_v135 : Ref sig .tc := ⟨.hbm, 181, rfl⟩
abbrev main_call0_v136_0 : Ref sig .tc := ⟨.hbm, 182, rfl⟩
abbrev main_call0_v136_1 : Ref sig .tc := ⟨.hbm, 183, rfl⟩
abbrev main_call0_cst_30 : Ref sig .tc := ⟨.hbm, 184, rfl⟩
abbrev main_call0_v137 : Ref sig .tc := ⟨.hbm, 185, rfl⟩
abbrev main_call0_cst_31 : Ref sig .tc := ⟨.hbm, 186, rfl⟩
abbrev main_call0_v138 : Ref sig .tc := ⟨.hbm, 187, rfl⟩
abbrev main_call0_v139 : Ref sig .tc := ⟨.hbm, 188, rfl⟩
abbrev main_call0_cst_32 : Ref sig .tc := ⟨.hbm, 189, rfl⟩
abbrev main_call0_v140 : Ref sig .tc := ⟨.hbm, 190, rfl⟩
abbrev main_call0_v141 : Ref sig .tc := ⟨.hbm, 191, rfl⟩
abbrev main_call0_v142 : Ref sig .tc := ⟨.hbm, 192, rfl⟩
abbrev main_call0_v143 : Ref sig .tc := ⟨.hbm, 193, rfl⟩
abbrev main_call0_v144 : Ref sig .tc := ⟨.hbm, 194, rfl⟩
abbrev main_call0_v145 : Ref sig .tc := ⟨.hbm, 195, rfl⟩
abbrev main_v0 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc4_stg5_0 : Ref sig .tc := ⟨.vmem, 39, rfl⟩
abbrev cc4_stg5_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg6_0 : Ref sig .tc := ⟨.vmem, 53, rfl⟩
abbrev cc6_stg6_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc7_stg5_0 : Ref sig .tc := ⟨.vmem, 64, rfl⟩
abbrev cc7_stg5_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg2_1 : Ref sig .tc := ⟨.vmem, 70, rfl⟩
abbrev cc9_stg0_0 : Ref sig .tc := ⟨.vmem, 71, rfl⟩
abbrev cc9_stg0_1 : Ref sig .tc := ⟨.vmem, 72, rfl⟩
abbrev cc9_stg1_0 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg5_0 : Ref sig .tc := ⟨.vmem, 77, rfl⟩
abbrev cc9_stg5_1 : Ref sig .tc := ⟨.vmem, 78, rfl⟩
abbrev cc9_stg6_0 : Ref sig .tc := ⟨.vmem, 79, rfl⟩
abbrev cc9_stg6_1 : Ref sig .tc := ⟨.vmem, 80, rfl⟩
abbrev cc9_stg7_0 : Ref sig .tc := ⟨.vmem, 81, rfl⟩
abbrev cc9_stg7_1 : Ref sig .tc := ⟨.vmem, 82, rfl⟩
abbrev cc10_stg0_0 : Ref sig .tc := ⟨.vmem, 83, rfl⟩
abbrev cc10_stg1_0 : Ref sig .tc := ⟨.vmem, 84, rfl⟩
abbrev cc10_stg2_0 : Ref sig .tc := ⟨.vmem, 85, rfl⟩
abbrev cc10_stg3_0 : Ref sig .tc := ⟨.vmem, 86, rfl⟩
abbrev cc10_stg4_0 : Ref sig .tc := ⟨.vmem, 87, rfl⟩
abbrev cc10_stg5_0 : Ref sig .tc := ⟨.vmem, 88, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem4_1 : DmaSem sig := 38
abbrev cc4_sem5_0 : DmaSem sig := 39
abbrev cc4_sem5_1 : DmaSem sig := 40
abbrev cc5_sem0_0 : DmaSem sig := 41
abbrev cc5_sem0_1 : DmaSem sig := 42
abbrev cc5_sem1_0 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem6_0 : DmaSem sig := 53
abbrev cc6_sem6_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem4_0 : DmaSem sig := 62
abbrev cc7_sem4_1 : DmaSem sig := 63
abbrev cc7_sem5_0 : DmaSem sig := 64
abbrev cc7_sem5_1 : DmaSem sig := 65
abbrev cc8_sem0_0 : DmaSem sig := 66
abbrev cc8_sem0_1 : DmaSem sig := 67
abbrev cc8_sem1_0 : DmaSem sig := 68
abbrev cc8_sem2_0 : DmaSem sig := 69
abbrev cc8_sem2_1 : DmaSem sig := 70
abbrev cc9_sem0_0 : DmaSem sig := 71
abbrev cc9_sem0_1 : DmaSem sig := 72
abbrev cc9_sem1_0 : DmaSem sig := 73
abbrev cc9_sem2_0 : DmaSem sig := 74
abbrev cc9_sem3_0 : DmaSem sig := 75
abbrev cc9_sem4_0 : DmaSem sig := 76
abbrev cc9_sem5_0 : DmaSem sig := 77
abbrev cc9_sem5_1 : DmaSem sig := 78
abbrev cc9_sem6_0 : DmaSem sig := 79
abbrev cc9_sem6_1 : DmaSem sig := 80
abbrev cc9_sem7_0 : DmaSem sig := 81
abbrev cc9_sem7_1 : DmaSem sig := 82
abbrev cc10_sem0_0 : DmaSem sig := 83
abbrev cc10_sem1_0 : DmaSem sig := 84
abbrev cc10_sem2_0 : DmaSem sig := 85
abbrev cc10_sem3_0 : DmaSem sig := 86
abbrev cc10_sem4_0 : DmaSem sig := 87
abbrev cc10_sem5_0 : DmaSem sig := 88

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![2, 25], ![false, false]⟩

def cc2_transform_0 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨2, ![2, 25], ![false, false]⟩

def cc4_transform_0 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x1x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev grid5 : Pipeline.Grid := ⟨2, ![2, 25], ![false, false]⟩

def cc5_transform_0 (i : grid5.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S1x1x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨2, ![2, 25], ![false, false]⟩

def cc7_transform_0 (i : grid7.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc7_transform_1 (i : grid7.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc7_transform_2 (i : grid7.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc7_transform_5 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S2000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S1x1x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false]

abbrev grid8 : Pipeline.Grid := ⟨2, ![2, 25], ![false, false]⟩

def cc8_transform_0 (i : grid8.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false]

abbrev stage8_2 : Fin 2 → Memref sig .tc .vmem S1x1x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨2, ![2, 25], ![false, false]⟩

def cc9_transform_0 (i : grid9.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc9_transform_6 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_7 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false, false]

abbrev stage9_5 : Fin 2 → Memref sig .tc .vmem S2000x1 .i32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, true]

abbrev stage9_6 : Fin 2 → Memref sig .tc .vmem S1x512x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true, false]

abbrev stage9_7 : Fin 2 → Memref sig .tc .vmem S1x1x512 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true, false]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S512x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S512x1 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  shapeCasts_S100000_S100000x1 : S100000.ShapeCasts S100000x1
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  reducesTo_S2x1x128_S1x128_d0 : S2x1x128.ReducesTo [0] S1x128
  h_S_ : 0 < S_.numel
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reducesTo_S2x512x128_S512x128_d0 : S2x512x128.ReducesTo [0] S512x128
  reducesTo_S2x1x512_S1x512_d0 : S2x1x512.ReducesTo [0] S1x512
  shapeCasts_S1x512_S512x1 : S1x512.ShapeCasts S512x1
  bcast_S_S512x1 : S_.BroadcastsInDim S512x1 (![] : Fin 0 → Fin S512x1.rank)
  bcast_S512x1_S512x128_0_1 : S512x1.BroadcastsInDim S512x128 (![0, 1] : Fin 2 → Fin S512x128.rank)
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S1x1x128_S1x1x128 : S1x1x128.ShapeCasts S1x1x128
  reduces_S2000x128_S128 : S2000x128.Reduces [0] S128
  shapeCasts_S1x128_S1x1x128 : S1x128.ShapeCasts S1x1x128
  inb_S1x512x128_S1x512x128_0_0_0 : ∀ a, (![0, 0, 0] : Fin 3 → Nat) a + S1x512x128.size a ≤ S1x512x128.size a
  h_S1x512x128 : 0 < S1x512x128.numel
  inb_S1x1x512_S1x1x512_0_0_0 : ∀ a, (![0, 0, 0] : Fin 3 → Nat) a + S1x1x512.size a ≤ S1x1x512.size a
  h_S1x1x512 : 0 < S1x1x512.numel
  iota_S1x512_d1_w32 : S1x512.Iotas .tc 32 [1]
  broadcasts_S2000x1_S2000x512 : S2000x1.Broadcasts S2000x512
  broadcasts_S1x512_S2000x512 : S1x512.Broadcasts S2000x512
  natLt_1_32 : 1 < 32
  shapeCasts_S1x512x128_S1x512x128 : S1x512x128.ShapeCasts S1x512x128
  shapeCasts_S512x128_S1x512x128 : S512x128.ShapeCasts S1x512x128
  shapeCasts_S1x1x512_S1x1x512 : S1x1x512.ShapeCasts S1x1x512
  reduces_S2000x512_S512 : S2000x512.Reduces [0] S512
  shapeCasts_S512_S1x512 : S512.ShapeCasts S1x512
  shapeCasts_S1x512_S1x1x512 : S1x512.ShapeCasts S1x1x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x128_S2000x128_1_0_0_1_n_n_wf : DotDims.WF S2000x128 S128x128 S2000x128 [1] [0] [0] [1] [] []
  dot_S2000x512_S2000x128_S512x128_0_0_1_1_n_n_wf : DotDims.WF S2000x512 S2000x128 S512x128 [0] [0] [1] [1] [] []
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S2x1x128.size a
  hwx1_5 : ∀ i : grid1.Coords, EltTy.bits .f32 = 32 ∨ (Rect.block (s := S2x1x128) S1x1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S2x1x128.size a
  hwx2_2 : ∀ i : grid2.Coords, EltTy.bits .f32 = 32 ∨ (Rect.block (s := S2x1x128) S1x1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S100000x128.size a
  hwx4_4 : ∀ i : grid4.Coords, EltTy.bits .f32 = 32 ∨ (Rect.block (s := S100000x128) S2000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x1x128.size a ≤ S2x1x128.size a
  hwx4_5 : ∀ i : grid4.Coords, EltTy.bits .f32 = 32 ∨ (Rect.block (s := S2x1x128) S1x1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1x128.size a ≤ S2x1x128.size a
  hwx5_2 : ∀ i : grid5.Coords, EltTy.bits .f32 = 32 ∨ (Rect.block (s := S2x1x128) S1x1x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S100000x128.size a
  hwx6_6 : ∀ i : grid6.Coords, EltTy.bits .f32 = 32 ∨ (Rect.block (s := S100000x128) S2000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S100000x128.size a
  hwx7_1 : ∀ i : grid7.Coords, EltTy.bits .f32 = 32 ∨ (Rect.block (s := S100000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S100000x1.size a
  hwx7_2 : ∀ i : grid7.Coords, EltTy.bits .f32 = 32 ∨ (Rect.block (s := S100000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x128.size a ≤ S100000x128.size a
  hwx7_4 : ∀ i : grid7.Coords, EltTy.bits .f32 = 32 ∨ (Rect.block (s := S100000x128) S2000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1x1x128.size a ≤ S2x1x128.size a
  hwx7_5 : ∀ i : grid7.Coords, EltTy.bits .f32 = 32 ∨ (Rect.block (s := S2x1x128) S1x1x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x1x128.size a ≤ S2x1x128.size a
  hwx8_2 : ∀ i : grid8.Coords, EltTy.bits .f32 = 32 ∨ (Rect.block (s := S2x1x128) S1x1x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S100000x128.size a
  hwx9_0 : ∀ i : grid9.Coords, EltTy.bits .f32 = 32 ∨ (Rect.block (s := S100000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x1.size a ≤ S100000x1.size a
  hwx9_5 : ∀ i : grid9.Coords, EltTy.bits .i32 = 32 ∨ (Rect.block (s := S100000x1) S2000x1.size (cc9_transform_5 i) (hinb9_5 i)).WholeWords (EltTy.packing .i32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1x512x128.size a ≤ S2x512x128.size a
  hwx9_6 : ∀ i : grid9.Coords, EltTy.bits .f32 = 32 ∨ (Rect.block (s := S2x512x128) S1x512x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S1x1x512.size a ≤ S2x1x512.size a
  hwx9_7 : ∀ i : grid9.Coords, EltTy.bits .f32 = 32 ∨ (Rect.block (s := S2x1x512) S1x1x512.size (cc9_transform_7 i) (hinb9_7 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S512x128.size a ≤ S512x128.size a
  hwx10_0 : ∀ i : grid10.Coords, EltTy.bits .f32 = 32 ∨ (Rect.block (s := S512x128) S512x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x1.size a ≤ S128x1.size a
  hwx10_3 : ∀ i : grid10.Coords, EltTy.bits .f32 = 32 ∨ (Rect.block (s := S128x1) S128x1.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x1.size a ≤ S1x1.size a
  hwx10_4 : ∀ i : grid10.Coords, EltTy.bits .f32 = 32 ∨ (Rect.block (s := S1x1) S1x1.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S512x1.size a ≤ S512x1.size a
  hwx10_5 : ∀ i : grid10.Coords, EltTy.bits .f32 = 32 ∨ (Rect.block (s := S512x1) S512x1.size (cc10_transform_5 i) (hinb10_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v33) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v29) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v55_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v55_1) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v55_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v59) S1x1x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v55_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v58) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v51) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v54) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v67) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v68) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_call0_v80) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v68) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v29) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_call0_v83) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v90_0) S2000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_call0_v90_1) S1x1x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_call0_v90_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v93) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_call0_v94) S1x1x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_call0_v90_0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v93) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_call0_v100) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call0_v86) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_call0_v89) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_call0_v102) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_call0_v103) S2000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_call0_v115) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call0_v103) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_call0_v29) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_call0_v118) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_call0_v125_0) S2000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_call0_v125_1) S1x1x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_call0_v125_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_call0_v128) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_call0_v129) S1x1x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_call0_v125_0) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_call0_v128) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_call0_v135) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_call0_v121) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_call0_v124) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_call0_v30) S2000x1.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_call0_v136_0) S1x512x128.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_call0_v136_1) S1x1x512.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_call0_v143) S512x128.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg7) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_call0_v144) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg9) S128x1.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_call0_v145) S1x1.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v0) S512x1.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S100000x1 : Shape := ⟨2, ![100000, 1]⟩
abbrev S1x128x128 : Shape := ⟨3, ![1, 128, 128]⟩
abbrev S800000x128 : Shape := ⟨2, ![800000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S1x1 : Shape := ⟨2, ![1, 1]⟩

abbrev nBuf : Space → Nat
  | .hbm => 265
  | .vmem => 0
  | .smem => 0
  | _ => 0

abbrev hbmTy0_0 (i : Nat) : BufTy := match i % 128 with
  | 0 => ⟨S100000x128, .f32⟩
  | 1 => ⟨S2x800000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S128x128, .f32⟩
  | 8 => ⟨S128, .f32⟩
  | 9 => ⟨S128x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S100000, .f32⟩
  | 19 => ⟨S800000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S800000x1, .f32⟩
  | 45 => ⟨S_, .f32⟩
  | 46 => ⟨S100000, .f32⟩
  | 47 => ⟨S100000, .f32⟩
  | 48 => ⟨S100000x1, .f32⟩
  | 49 => ⟨S1x128x128, .f32⟩
  | 50 => ⟨S128x128, .f32⟩
  | 51 => ⟨S100000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x128, .f32⟩
  | 62 => ⟨S800000x128, .f32⟩
  | 63 => ⟨S_, .f32⟩
  | 64 => ⟨S100000x128, .f32⟩
  | 65 => ⟨S800000x1, .i32⟩
  | 66 => ⟨S100000x128, .f32⟩
  | 67 => ⟨S100000x128, .f32⟩
  | 68 => ⟨S100000x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S128, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S1x128x128, .f32⟩
  | 113 => ⟨S128x128, .f32⟩
  | 114 => ⟨S100000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x128, .f32⟩
  | 125 => ⟨S800000x128, .f32⟩
  | 126 => ⟨S_, .f32⟩
  | 127 => ⟨S100000x128, .f32⟩
  | _ => ⟨S100000x128, .f32⟩

abbrev hbmTy0_1 (i : Nat) : BufTy := match i % 128 with
  | 0 => ⟨S800000x1, .i32⟩
  | 1 => ⟨S100000x128, .f32⟩
  | 2 => ⟨S100000x128, .f32⟩
  | 3 => ⟨S100000x128, .f32⟩
  | 4 => ⟨S100000x128, .f32⟩
  | 5 => ⟨S1x128, .f32⟩
  | 6 => ⟨S128, .f32⟩
  | 7 => ⟨S1x128, .f32⟩
  | 8 => ⟨S100000x128, .f32⟩
  | 9 => ⟨S100000x128, .f32⟩
  | 10 => ⟨S_, .f32⟩
  | 11 => ⟨S128, .f32⟩
  | 12 => ⟨S_, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S100000x128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S128, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S1x128x128, .f32⟩
  | 48 => ⟨S128x128, .f32⟩
  | 49 => ⟨S100000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x128, .f32⟩
  | 60 => ⟨S800000x128, .f32⟩
  | 61 => ⟨S_, .f32⟩
  | 62 => ⟨S100000x128, .f32⟩
  | 63 => ⟨S800000x1, .i32⟩
  | 64 => ⟨S100000x128, .f32⟩
  | 65 => ⟨S100000x128, .f32⟩
  | 66 => ⟨S100000x128, .f32⟩
  | 67 => ⟨S100000x128, .f32⟩
  | 68 => ⟨S1x128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S100000x128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S128, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S_, .f32⟩
  | 111 => ⟨S512x128, .f32⟩
  | 112 => ⟨S100000x1, .i32⟩
  | 113 => ⟨S512x128, .f32⟩
  | 114 => ⟨S_, .f32⟩
  | 115 => ⟨S100000, .f32⟩
  | 116 => ⟨S_, .f32⟩
  | 117 => ⟨S512, .f32⟩
  | 118 => ⟨S100000x1, .i32⟩
  | 119 => ⟨S512, .f32⟩
  | 120 => ⟨S_, .f32⟩
  | 121 => ⟨S512, .f32⟩
  | 122 => ⟨S512, .f32⟩
  | 123 => ⟨S512x1, .f32⟩
  | 124 => ⟨S512x128, .f32⟩
  | 125 => ⟨S512x128, .f32⟩
  | 126 => ⟨S512x128, .f32⟩
  | 127 => ⟨S1x128, .f32⟩
  | _ => ⟨S100000x128, .f32⟩

abbrev hbmTy0_2 (i : Nat) : BufTy := match i % 128 with
  | 0 => ⟨S512x128, .f32⟩
  | 1 => ⟨S512x128, .f32⟩
  | 2 => ⟨S_, .f32⟩
  | 3 => ⟨S512x128, .f32⟩
  | 4 => ⟨S512x128, .f32⟩
  | 5 => ⟨S512x1, .f32⟩
  | 6 => ⟨S1x1, .f32⟩
  | 7 => ⟨S512x1, .f32⟩
  | 8 => ⟨S512x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_call0_cst : Ref sig .tc := ⟨.hbm, 109, rfl⟩
abbrev main_call0_v0 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_14 : Ref sig .tc := ⟨.hbm, 115, rfl⟩
abbrev main_v86 : Ref sig .tc := ⟨.hbm, 116, rfl⟩
abbrev main_v87 : Ref sig .tc := ⟨.hbm, 117, rfl⟩
abbrev main_c_15 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_16 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_17 : Ref sig .tc := ⟨.hbm, 138, rfl⟩
abbrev main_v106 : Ref sig .tc := ⟨.hbm, 139, rfl⟩
abbrev main_cst_18 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_19 : Ref sig .tc := ⟨.hbm, 147, rfl⟩
abbrev main_v113 : Ref sig .tc := ⟨.hbm, 148, rfl⟩
abbrev main_cst_20 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_21 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_call1_cst : Ref sig .tc := ⟨.hbm, 172, rfl⟩
abbrev main_call1_v0 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_c_22 : Ref sig .tc := ⟨.hbm, 178, rfl⟩
abbrev main_v139 : Ref sig .tc := ⟨.hbm, 179, rfl⟩
abbrev main_v140 : Ref sig .tc := ⟨.hbm, 180, rfl⟩
abbrev main_c_23 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_24 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_cst_25 : Ref sig .tc := ⟨.hbm, 201, rfl⟩
abbrev main_v159 : Ref sig .tc := ⟨.hbm, 202, rfl⟩
abbrev main_cst_26 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_cst_27 : Ref sig .tc := ⟨.hbm, 210, rfl⟩
abbrev main_v166 : Ref sig .tc := ⟨.hbm, 211, rfl⟩
abbrev main_cst_28 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_cst_29 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_call2_cst : Ref sig .tc := ⟨.hbm, 235, rfl⟩
abbrev main_call2_v0 : Ref sig .tc := ⟨.hbm, 236, rfl⟩
abbrev main_v188 : Ref sig .tc := ⟨.hbm, 237, rfl⟩
abbrev main_cst_30 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_cst_31 : Ref sig .tc := ⟨.hbm, 242, rfl⟩
abbrev main_v192 : Ref sig .tc := ⟨.hbm, 243, rfl⟩
abbrev main_cst_32 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_cst_33 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_call3_cst : Ref sig .tc := ⟨.hbm, 258, rfl⟩
abbrev main_call3_v0 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.RefRunBase.lean ====
/-
  The reference program's @main as the list of its 254 host operations: five lists in a row, each ending at the one result
  the next list starts from.  Its run leaves every buffer at the fold of the operations' results over the launch contents.
-/
import proofs.«420895_j26731876451141_3_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev c0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_v1 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v13 (broadcastInDim S800000 ![] bcast_S_S800000 : (⟨S_, .i32⟩ : BufTy).Contents (Elt F) → (⟨S800000, .i32⟩ : BufTy).Contents (Elt F)),
    binary main_v1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_v10 main_v16 main_v17 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v18 (broadcastInDim S800000 ![] bcast_S_S800000 : (⟨S_, .i32⟩ : BufTy).Contents (Elt F) → (⟨S800000, .i32⟩ : BufTy).Contents (Elt F)),
    binary main_v3 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 100000#32),
    unary main_c_4 main_v20 (broadcastInDim S800000 ![] bcast_S_S800000 : (⟨S_, .i32⟩ : BufTy).Contents (Elt F) → (⟨S800000, .i32⟩ : BufTy).Contents (Elt F)),
    binary main_v3 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v10 main_v23 main_v24 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    binary main_v17 main_v24 main_v25 (mulf : (⟨S800000, .f32⟩ : BufTy).Contents (Elt F) → (⟨S800000, .f32⟩ : BufTy).Contents (Elt F) → (⟨S800000, .f32⟩ : BufTy).Contents (Elt F)),
    unary main_v25 main_v26 (broadcastInDim S800000x1 ![0] bcast_S800000_S800000x1_0 : (⟨S800000, .f32⟩ : BufTy).Contents (Elt F) → (⟨S800000x1, .f32⟩ : BufTy).Contents (Elt F)),
    nullary main_cst_5 (constant S_ .f32 0x3F800000#32),
    unary main_cst_5 main_v27 (broadcastInDim S100000 ![] bcast_S_S100000 : (⟨S_, .f32⟩ : BufTy).Contents (Elt F) → (⟨S100000, .f32⟩ : BufTy).Contents (Elt F)),
    binary main_v27 main_v9 main_v28 (Host.divf : (⟨S100000, .f32⟩ : BufTy).Contents (Elt F) → (⟨S100000, .f32⟩ : BufTy).Contents (Elt F) → (⟨S100000, .f32⟩ : BufTy).Contents (Elt F)),
    unary main_v28 main_v29 (broadcastInDim S100000x1 ![0] bcast_S100000_S100000x1_0 : (⟨S100000, .f32⟩ : BufTy).Contents (Elt F) → (⟨S100000x1, .f32⟩ : BufTy).Contents (Elt F)),
    unary main_arg3 main_v30 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v30 main_v31 rfl shapeCasts_S1x128x128_S128x128,
    binary main_arg0 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

abbrev c1 : List (HloOp τ sig (Elt F)) :=
  [ nullary main_c_6 (constantI S_ 32 0#32),
    unary main_c_6 main_v33 (broadcastInDim S800000 ![] bcast_S_S800000 : (⟨S_, .i32⟩ : BufTy).Contents (Elt F) → (⟨S800000, .i32⟩ : BufTy).Contents (Elt F)),
    binary main_v1 main_v33 main_v34 (cmpi .slt : (⟨S800000, .i32⟩ : BufTy).Contents (Elt F) → (⟨S800000, .i32⟩ : BufTy).Contents (Elt F) → (⟨S800000, .i1⟩ : BufTy).Contents (Elt F)),
    nullary main_c_7 (constantI S_ 32 100000#32),
    unary main_c_7 main_v35 (broadcastInDim S800000 ![] bcast_S_S800000 : (⟨S_, .i32⟩ : BufTy).Contents (Elt F) → (⟨S800000, .i32⟩ : BufTy).Contents (Elt F)),
    binary main_v1 main_v35 main_v36 (addi : (⟨S800000, .i32⟩ : BufTy).Contents (Elt F) → (⟨S800000, .i32⟩ : BufTy).Contents (Elt F) → (⟨S800000, .i32⟩ : BufTy).Contents (Elt F)),
    ternary main_v34 main_v36 main_v1 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v37 main_v38 (broadcastInDim S800000x1 ![0] bcast_S800000_S800000x1_0 : (⟨S800000, .i32⟩ : BufTy).Contents (Elt F) → (⟨S800000x1, .i32⟩ : BufTy).Contents (Elt F)),
    binary main_v32 main_v38 main_v39 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v26 main_v40 (broadcastInDim S800000x128 ![0, 1] bcast_S800000x1_S800000x128_0_1 : (⟨S800000x1, .f32⟩ : BufTy).Contents (Elt F) → (⟨S800000x128, .f32⟩ : BufTy).Contents (Elt F)),
    binary main_v40 main_v39 main_v41 (mulf : (⟨S800000x128, .f32⟩ : BufTy).Contents (Elt F) → (⟨S800000x128, .f32⟩ : BufTy).Contents (Elt F) → (⟨S800000x128, .f32⟩ : BufTy).Contents (Elt F)),
    nullary main_cst_8 (constant S_ .f32 0x00000000#32),
    unary main_cst_8 main_v42 (broadcastInDim S100000x128 ![] bcast_S_S100000x128 : (⟨S_, .f32⟩ : BufTy).Contents (Elt F) → (⟨S100000x128, .f32⟩ : BufTy).Contents (Elt F)),
    unary main_v3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_v29 main_v45 (broadcastInDim S100000x128 ![0, 1] bcast_S100000x1_S100000x128_0_1 : (⟨S100000x1, .f32⟩ : BufTy).Contents (Elt F) → (⟨S100000x128, .f32⟩ : BufTy).Contents (Elt F)),
    binary main_v32 main_v45 main_v46 (mulf : (⟨S100000x128, .f32⟩ : BufTy).Contents (Elt F) → (⟨S100000x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    unary main_arg4 main_v48 ((extractStridedSlice S1x128 ![0, 0] · slices_S3x128_S1x128_0_0) : (⟨S3x128, .f32⟩ : BufTy).Contents (Elt F) → (⟨S1x128, .f32⟩ : BufTy).Contents (Elt F)),
    reshape main_v48 main_v49 rfl shapeCasts_S1x128_S128,
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v47 main_v51 main_v52 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v52 main_cst_9 main_v53 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v54 (broadcastInDim S128 ![] bcast_S_S128 : (⟨S_, .f32⟩ : BufTy).Contents (Elt F) → (⟨S128, .f32⟩ : BufTy).Contents (Elt F)),
    binary main_v53 main_v54 main_v55 (Host.divf : (⟨S128, .f32⟩ : BufTy).Contents (Elt F) → (⟨S128, .f32⟩ : BufTy).Contents (Elt F) → (⟨S128, .f32⟩ : BufTy).Contents (Elt F)),
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v52 main_v57 main_v58 (subf : (⟨S100000x128, .f32⟩ : BufTy).Contents (Elt F) → (⟨S100000x128, .f32⟩ : BufTy).Contents (Elt F) → (⟨S100000x128, .f32⟩ : BufTy).Contents (Elt F)),
    binary main_v58 main_v58 main_v59 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v59 main_cst_11 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v61 (broadcastInDim S128 ![] bcast_S_S128 : (⟨S_, .f32⟩ : BufTy).Contents (Elt F) → (⟨S128, .f32⟩ : BufTy).Contents (Elt F)),
    binary main_v60 main_v61 main_v62 (Host.divf : (⟨S128, .f32⟩ : BufTy).Contents (Elt F) → (⟨S128, .f32⟩ : BufTy).Contents (Elt F) → (⟨S128, .f32⟩ : BufTy).Contents (Elt F)),
    unary main_v55 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v52 main_v64 main_v65 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v66 (broadcastInDim S128 ![] bcast_S_S128 : (⟨S_, .f32⟩ : BufTy).Contents (Elt F) → (⟨S128, .f32⟩ : BufTy).Contents (Elt F)),
    binary main_v62 main_v66 main_v67 (addf : (⟨S128, .f32⟩ : BufTy).Contents (Elt F) → (⟨S128, .f32⟩ : BufTy).Contents (Elt F) → (⟨S128, .f32⟩ : BufTy).Contents (Elt F)),
    unary main_v67 main_v68 (Host.rsqrt : (⟨S128, .f32⟩ : BufTy).Contents (Elt F) → (⟨S128, .f32⟩ : BufTy).Contents (Elt F)),
    unary main_v68 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v65 main_v70 main_v71 (mulf : (⟨S100000x128, .f32⟩ : BufTy).Contents (Elt F) → (⟨S100000x128, .f32⟩ : BufTy).Contents (Elt F) → (⟨S100000x128, .f32⟩ : BufTy).Contents (Elt F)),
    unary main_arg5 main_v72 ((extractStridedSlice S1x128 ![0, 0] · slices_S3x128_S1x128_0_0) : (⟨S3x128, .f32⟩ : BufTy).Contents (Elt F) → (⟨S1x128, .f32⟩ : BufTy).Contents (Elt F)),
    reshape main_v72 main_v73 rfl shapeCasts_S1x128_S128,
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v71 main_v75 main_v76 (mulf : (⟨S100000x128, .f32⟩ : BufTy).Contents (Elt F) → (⟨S100000x128, .f32⟩ : BufTy).Contents (Elt F) → (⟨S100000x128, .f32⟩ : BufTy).Contents (Elt F)),
    unary main_arg6 main_v77 ((extractStridedSlice S1x128 ![0, 0] · slices_S3x128_S1x128_0_0) : (⟨S3x128, .f32⟩ : BufTy).Contents (Elt F) → (⟨S1x128, .f32⟩ : BufTy).Contents (Elt F)),
    reshape main_v77 main_v78 rfl shapeCasts_S1x128_S128,
    unary main_v78 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v76 main_v80 main_v81 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v81) (TRef.of (T := ⟨S100000x128, .f32⟩) main_call0_v0) (TRef.of (T := ⟨S100000x128, .f32⟩) main_v82) maximumf,
    unary main_arg3 main_v83 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v83 main_v84 rfl shapeCasts_S1x128x128_S128x128,
    binary main_v82 main_v84 main_v85 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

abbrev c2 : List (HloOp τ sig (Elt F)) :=
  [ nullary main_c_14 (constantI S_ 32 0#32),
    unary main_c_14 main_v86 (broadcastInDim S800000 ![] bcast_S_S800000 : (⟨S_, .i32⟩ : BufTy).Contents (Elt F) → (⟨S800000, .i32⟩ : BufTy).Contents (Elt F)),
    binary main_v1 main_v86 main_v87 (cmpi .slt : (⟨S800000, .i32⟩ : BufTy).Contents (Elt F) → (⟨S800000, .i32⟩ : BufTy).Contents (Elt F) → (⟨S800000, .i1⟩ : BufTy).Contents (Elt F)),
    nullary main_c_15 (constantI S_ 32 100000#32),
    unary main_c_15 main_v88 (broadcastInDim S800000 ![] bcast_S_S800000 : (⟨S_, .i32⟩ : BufTy).Contents (Elt F) → (⟨S800000, .i32⟩ : BufTy).Contents (Elt F)),
    binary main_v1 main_v88 main_v89 (addi : (⟨S800000, .i32⟩ : BufTy).Contents (Elt F) → (⟨S800000, .i32⟩ : BufTy).Contents (Elt F) → (⟨S800000, .i32⟩ : BufTy).Contents (Elt F)),
    ternary main_v87 main_v89 main_v1 main_v90 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v90 main_v91 (broadcastInDim S800000x1 ![0] bcast_S800000_S800000x1_0 : (⟨S800000, .i32⟩ : BufTy).Contents (Elt F) → (⟨S800000x1, .i32⟩ : BufTy).Contents (Elt F)),
    binary main_v85 main_v91 main_v92 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v26 main_v93 (broadcastInDim S800000x128 ![0, 1] bcast_S800000x1_S800000x128_0_1 : (⟨S800000x1, .f32⟩ : BufTy).Contents (Elt F) → (⟨S800000x128, .f32⟩ : BufTy).Contents (Elt F)),
    binary main_v93 main_v92 main_v94 (mulf : (⟨S800000x128, .f32⟩ : BufTy).Contents (Elt F) → (⟨S800000x128, .f32⟩ : BufTy).Contents (Elt F) → (⟨S800000x128, .f32⟩ : BufTy).Contents (Elt F)),
    nullary main_cst_16 (constant S_ .f32 0x00000000#32),
    unary main_cst_16 main_v95 (broadcastInDim S100000x128 ![] bcast_S_S100000x128 : (⟨S_, .f32⟩ : BufTy).Contents (Elt F) → (⟨S100000x128, .f32⟩ : BufTy).Contents (Elt F)),
    unary main_v3 main_v96 (broadcastInDim S800000x1 ![0] bcast_S800000_S800000x1_0 : (⟨S800000, .i32⟩ : BufTy).Contents (Elt F) → (⟨S800000x1, .i32⟩ : BufTy).Contents (Elt F)),
    ternary main_v95 main_v96 main_v94 main_v97 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_v29 main_v98 (broadcastInDim S100000x128 ![0, 1] bcast_S100000x1_S100000x128_0_1 : (⟨S100000x1, .f32⟩ : BufTy).Contents (Elt F) → (⟨S100000x128, .f32⟩ : BufTy).Contents (Elt F)),
    binary main_v85 main_v98 main_v99 (mulf : (⟨S100000x128, .f32⟩ : BufTy).Contents (Elt F) → (⟨S100000x128, .f32⟩ : BufTy).Contents (Elt F) → (⟨S100000x128, .f32⟩ : BufTy).Contents (Elt F)),
    binary main_v97 main_v99 main_v100 (addf : (⟨S100000x128, .f32⟩ : BufTy).Contents (Elt F) → (⟨S100000x128, .f32⟩ : BufTy).Contents (Elt F) → (⟨S100000x128, .f32⟩ : BufTy).Contents (Elt F)),
    unary main_arg4 main_v101 ((extractStridedSlice S1x128 ![1, 0] · slices_S3x128_S1x128_1_0) : (⟨S3x128, .f32⟩ : BufTy).Contents (Elt F) → (⟨S1x128, .f32⟩ : BufTy).Contents (Elt F)),
    reshape main_v101 main_v102 rfl shapeCasts_S1x128_S128,
    unary main_v102 main_v103 (broadcastInDim S1x128 ![1] bcast_S128_S1x128_1 : (⟨S128, .f32⟩ : BufTy).Contents (Elt F) → (⟨S1x128, .f32⟩ : BufTy).Contents (Elt F)),
    unary main_v103 main_v104 (broadcastInDim S100000x128 ![0, 1] bcast_S1x128_S100000x128_0_1 : (⟨S1x128, .f32⟩ : BufTy).Contents (Elt F) → (⟨S100000x128, .f32⟩ : BufTy).Contents (Elt F)),
    binary main_v100 main_v104 main_v105 (addf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x00000000#32),
    binary main_v105 main_cst_17 main_v106 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_18 (constant S_ .f32 0x47C35000#32),
    unary main_cst_18 main_v107 (broadcastInDim S128 ![] bcast_S_S128 : (⟨S_, .f32⟩ : BufTy).Contents (Elt F) → (⟨S128, .f32⟩ : BufTy).Contents (Elt F)),
    binary main_v106 main_v107 main_v108 (Host.divf : (⟨S128, .f32⟩ : BufTy).Contents (Elt F) → (⟨S128, .f32⟩ : BufTy).Contents (Elt F) → (⟨S128, .f32⟩ : BufTy).Contents (Elt F)),
    unary main_v108 main_v109 (broadcastInDim S1x128 ![1] bcast_S128_S1x128_1 : (⟨S128, .f32⟩ : BufTy).Contents (Elt F) → (⟨S1x128, .f32⟩ : BufTy).Contents (Elt F)),
    unary main_v109 main_v110 (broadcastInDim S100000x128 ![0, 1] bcast_S1x128_S100000x128_0_1 : (⟨S1x128, .f32⟩ : BufTy).Contents (Elt F) → (⟨S100000x128, .f32⟩ : BufTy).Contents (Elt F)),
    binary main_v105 main_v110 main_v111 (subf : (⟨S100000x128, .f32⟩ : BufTy).Contents (Elt F) → (⟨S100000x128, .f32⟩ : BufTy).Contents (Elt F) → (⟨S100000x128, .f32⟩ : BufTy).Contents (Elt F)),
    binary main_v111 main_v111 main_v112 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v112 main_cst_19 main_v113 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_20 (constant S_ .f32 0x47C35000#32),
    unary main_cst_20 main_v114 (broadcastInDim S128 ![] bcast_S_S128 : (⟨S_, .f32⟩ : BufTy).Contents (Elt F) → (⟨S128, .f32⟩ : BufTy).Contents (Elt F)),
    binary main_v113 main_v114 main_v115 (Host.divf : (⟨S128, .f32⟩ : BufTy).Contents (Elt F) → (⟨S128, .f32⟩ : BufTy).Contents (Elt F) → (⟨S128, .f32⟩ : BufTy).Contents (Elt F)),
    unary main_v108 main_v116 (broadcastInDim S1x128 ![1] bcast_S128_S1x128_1 : (⟨S128, .f32⟩ : BufTy).Contents (Elt F) → (⟨S1x128, .f32⟩ : BufTy).Contents (Elt F)),
    unary main_v116 main_v117 (broadcastInDim S100000x128 ![0, 1] bcast_S1x128_S100000x128_0_1 : (⟨S1x128, .f32⟩ : BufTy).Contents (Elt F) → (⟨S100000x128, .f32⟩ : BufTy).Contents (Elt F)),
    binary main_v105 main_v117 main_v118 (subf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3727C5AC#32),
    unary main_cst_21 main_v119 (broadcastInDim S128 ![] bcast_S_S128 : (⟨S_, .f32⟩ : BufTy).Contents (Elt F) → (⟨S128, .f32⟩ : BufTy).Contents (Elt F)),
    binary main_v115 main_v119 main_v120 (addf : (⟨S128, .f32⟩ : BufTy).Contents (Elt F) → (⟨S128, .f32⟩ : BufTy).Contents (Elt F) → (⟨S128, .f32⟩ : BufTy).Contents (Elt F)),
    unary main_v120 main_v121 (Host.rsqrt : (⟨S128, .f32⟩ : BufTy).Contents (Elt F) → (⟨S128, .f32⟩ : BufTy).Contents (Elt F)),
    unary main_v121 main_v122 (broadcastInDim S1x128 ![1] bcast_S128_S1x128_1 : (⟨S128, .f32⟩ : BufTy).Contents (Elt F) → (⟨S1x128, .f32⟩ : BufTy).Contents (Elt F)),
    unary main_v122 main_v123 (broadcastInDim S100000x128 ![0, 1] bcast_S1x128_S100000x128_0_1 : (⟨S1x128, .f32⟩ : BufTy).Contents (Elt F) → (⟨S100000x128, .f32⟩ : BufTy).Contents (Elt F)),
    binary main_v118 main_v123 main_v124 (mulf : (⟨S100000x128, .f32⟩ : BufTy).Contents (Elt F) → (⟨S100000x128, .f32⟩ : BufTy).Contents (Elt F) → (⟨S100000x128, .f32⟩ : BufTy).Contents (Elt F)),
    unary main_arg5 main_v125 ((extractStridedSlice S1x128 ![1, 0] · slices_S3x128_S1x128_1_0) : (⟨S3x128, .f32⟩ : BufTy).Contents (Elt F) → (⟨S1x128, .f32⟩ : BufTy).Contents (Elt F)),
    reshape main_v125 main_v126 rfl shapeCasts_S1x128_S128,
    unary main_v126 main_v127 (broadcastInDim S1x128 ![1] bcast_S128_S1x128_1 : (⟨S128, .f32⟩ : BufTy).Contents (Elt F) → (⟨S1x128, .f32⟩ : BufTy).Contents (Elt F)),
    unary main_v127 main_v128 (broadcastInDim S100000x128 ![0, 1] bcast_S1x128_S100000x128_0_1 : (⟨S1x128, .f32⟩ : BufTy).Contents (Elt F) → (⟨S100000x128, .f32⟩ : BufTy).Contents (Elt F)),
    binary main_v124 main_v128 main_v129 (mulf : (⟨S100000x128, .f32⟩ : BufTy).Contents (Elt F) → (⟨S100000x128, .f32⟩ : BufTy).Contents (Elt F) → (⟨S100000x128, .f32⟩ : BufTy).Contents (Elt F)),
    unary main_arg6 main_v130 ((extractStridedSlice S1x128 ![1, 0] · slices_S3x128_S1x128_1_0) : (⟨S3x128, .f32⟩ : BufTy).Contents (Elt F) → (⟨S1x128, .f32⟩ : BufTy).Contents (Elt F)),
    reshape main_v130 main_v131 rfl shapeCasts_S1x128_S128,
    unary main_v131 main_v132 (broadcastInDim S1x128 ![1] bcast_S128_S1x128_1 : (⟨S128, .f32⟩ : BufTy).Contents (Elt F) → (⟨S1x128, .f32⟩ : BufTy).Contents (Elt F)),
    unary main_v132 main_v133 (broadcastInDim S100000x128 ![0, 1] bcast_S1x128_S100000x128_0_1 : (⟨S1x128, .f32⟩ : BufTy).Contents (Elt F) → (⟨S100000x128, .f32⟩ : BufTy).Contents (Elt F)),
    binary main_v129 main_v133 main_v134 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v134) (TRef.of (T := ⟨S100000x128, .f32⟩) main_call1_v0) (TRef.of (T := ⟨S100000x128, .f32⟩) main_v135) maximumf,
    unary main_arg3 main_v136 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v136 main_v137 rfl shapeCasts_S1x128x128_S128x128,
    binary main_v135 main_v137 main_v138 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

abbrev c3 : List (HloOp τ sig (Elt F)) :=
  [ nullary main_c_22 (constantI S_ 32 0#32),
    unary main_c_22 main_v139 (broadcastInDim S800000 ![] bcast_S_S800000 : (⟨S_, .i32⟩ : BufTy).Contents (Elt F) → (⟨S800000, .i32⟩ : BufTy).Contents (Elt F)),
    binary main_v1 main_v139 main_v140 (cmpi .slt : (⟨S800000, .i32⟩ : BufTy).Contents (Elt F) → (⟨S800000, .i32⟩ : BufTy).Contents (Elt F) → (⟨S800000, .i1⟩ : BufTy).Contents (Elt F)),
    nullary main_c_23 (constantI S_ 32 100000#32),
    unary main_c_23 main_v141 (broadcastInDim S800000 ![] bcast_S_S800000 : (⟨S_, .i32⟩ : BufTy).Contents (Elt F) → (⟨S800000, .i32⟩ : BufTy).Contents (Elt F)),
    binary main_v1 main_v141 main_v142 (addi : (⟨S800000, .i32⟩ : BufTy).Contents (Elt F) → (⟨S800000, .i32⟩ : BufTy).Contents (Elt F) → (⟨S800000, .i32⟩ : BufTy).Contents (Elt F)),
    ternary main_v140 main_v142 main_v1 main_v143 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v143 main_v144 (broadcastInDim S800000x1 ![0] bcast_S800000_S800000x1_0 : (⟨S800000, .i32⟩ : BufTy).Contents (Elt F) → (⟨S800000x1, .i32⟩ : BufTy).Contents (Elt F)),
    binary main_v138 main_v144 main_v145 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v26 main_v146 (broadcastInDim S800000x128 ![0, 1] bcast_S800000x1_S800000x128_0_1 : (⟨S800000x1, .f32⟩ : BufTy).Contents (Elt F) → (⟨S800000x128, .f32⟩ : BufTy).Contents (Elt F)),
    binary main_v146 main_v145 main_v147 (mulf : (⟨S800000x128, .f32⟩ : BufTy).Contents (Elt F) → (⟨S800000x128, .f32⟩ : BufTy).Contents (Elt F) → (⟨S800000x128, .f32⟩ : BufTy).Contents (Elt F)),
    nullary main_cst_24 (constant S_ .f32 0x00000000#32),
    unary main_cst_24 main_v148 (broadcastInDim S100000x128 ![] bcast_S_S100000x128 : (⟨S_, .f32⟩ : BufTy).Contents (Elt F) → (⟨S100000x128, .f32⟩ : BufTy).Contents (Elt F)),
    unary main_v3 main_v149 (broadcastInDim S800000x1 ![0] bcast_S800000_S800000x1_0 : (⟨S800000, .i32⟩ : BufTy).Contents (Elt F) → (⟨S800000x1, .i32⟩ : BufTy).Contents (Elt F)),
    ternary main_v148 main_v149 main_v147 main_v150 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_v29 main_v151 (broadcastInDim S100000x128 ![0, 1] bcast_S100000x1_S100000x128_0_1 : (⟨S100000x1, .f32⟩ : BufTy).Contents (Elt F) → (⟨S100000x128, .f32⟩ : BufTy).Contents (Elt F)),
    binary main_v138 main_v151 main_v152 (mulf : (⟨S100000x128, .f32⟩ : BufTy).Contents (Elt F) → (⟨S100000x128, .f32⟩ : BufTy).Contents (Elt F) → (⟨S100000x128, .f32⟩ : BufTy).Contents (Elt F)),
    binary main_v150 main_v152 main_v153 (addf : (⟨S100000x128, .f32⟩ : BufTy).Contents (Elt F) → (⟨S100000x128, .f32⟩ : BufTy).Contents (Elt F) → (⟨S100000x128, .f32⟩ : BufTy).Contents (Elt F)),
    unary main_arg4 main_v154 ((extractStridedSlice S1x128 ![2, 0] · slices_S3x128_S1x128_2_0) : (⟨S3x128, .f32⟩ : BufTy).Contents (Elt F) → (⟨S1x128, .f32⟩ : BufTy).Contents (Elt F)),
    reshape main_v154 main_v155 rfl shapeCasts_S1x128_S128,
    unary main_v155 main_v156 (broadcastInDim S1x128 ![1] bcast_S128_S1x128_1 : (⟨S128, .f32⟩ : BufTy).Contents (Elt F) → (⟨S1x128, .f32⟩ : BufTy).Contents (Elt F)),
    unary main_v156 main_v157 (broadcastInDim S100000x128 ![0, 1] bcast_S1x128_S100000x128_0_1 : (⟨S1x128, .f32⟩ : BufTy).Contents (Elt F) → (⟨S100000x128, .f32⟩ : BufTy).Contents (Elt F)),
    binary main_v153 main_v157 main_v158 (addf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x00000000#32),
    binary main_v158 main_cst_25 main_v159 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_26 (constant S_ .f32 0x47C35000#32),
    unary main_cst_26 main_v160 (broadcastInDim S128 ![] bcast_S_S128 : (⟨S_, .f32⟩ : BufTy).Contents (Elt F) → (⟨S128, .f32⟩ : BufTy).Contents (Elt F)),
    binary main_v159 main_v160 main_v161 (Host.divf : (⟨S128, .f32⟩ : BufTy).Contents (Elt F) → (⟨S128, .f32⟩ : BufTy).Contents (Elt F) → (⟨S128, .f32⟩ : BufTy).Contents (Elt F)),
    unary main_v161 main_v162 (broadcastInDim S1x128 ![1] bcast_S128_S1x128_1 : (⟨S128, .f32⟩ : BufTy).Contents (Elt F) → (⟨S1x128, .f32⟩ : BufTy).Contents (Elt F)),
    unary main_v162 main_v163 (broadcastInDim S100000x128 ![0, 1] bcast_S1x128_S100000x128_0_1 : (⟨S1x128, .f32⟩ : BufTy).Contents (Elt F) → (⟨S100000x128, .f32⟩ : BufTy).Contents (Elt F)),
    binary main_v158 main_v163 main_v164 (subf : (⟨S100000x128, .f32⟩ : BufTy).Contents (Elt F) → (⟨S100000x128, .f32⟩ : BufTy).Contents (Elt F) → (⟨S100000x128, .f32⟩ : BufTy).Contents (Elt F)),
    binary main_v164 main_v164 main_v165 (mulf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x00000000#32),
    binary main_v165 main_cst_27 main_v166 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_28 (constant S_ .f32 0x47C35000#32),
    unary main_cst_28 main_v167 (broadcastInDim S128 ![] bcast_S_S128 : (⟨S_, .f32⟩ : BufTy).Contents (Elt F) → (⟨S128, .f32⟩ : BufTy).Contents (Elt F)),
    binary main_v166 main_v167 main_v168 (Host.divf : (⟨S128, .f32⟩ : BufTy).Contents (Elt F) → (⟨S128, .f32⟩ : BufTy).Contents (Elt F) → (⟨S128, .f32⟩ : BufTy).Contents (Elt F)),
    unary main_v161 main_v169 (broadcastInDim S1x128 ![1] bcast_S128_S1x128_1 : (⟨S128, .f32⟩ : BufTy).Contents (Elt F) → (⟨S1x128, .f32⟩ : BufTy).Contents (Elt F)),
    unary main_v169 main_v170 (broadcastInDim S100000x128 ![0, 1] bcast_S1x128_S100000x128_0_1 : (⟨S1x128, .f32⟩ : BufTy).Contents (Elt F) → (⟨S100000x128, .f32⟩ : BufTy).Contents (Elt F)),
    binary main_v158 main_v170 main_v171 (subf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x3727C5AC#32),
    unary main_cst_29 main_v172 (broadcastInDim S128 ![] bcast_S_S128 : (⟨S_, .f32⟩ : BufTy).Contents (Elt F) → (⟨S128, .f32⟩ : BufTy).Contents (Elt F)),
    binary main_v168 main_v172 main_v173 (addf : (⟨S128, .f32⟩ : BufTy).Contents (Elt F) → (⟨S128, .f32⟩ : BufTy).Contents (Elt F) → (⟨S128, .f32⟩ : BufTy).Contents (Elt F)),
    unary main_v173 main_v174 (Host.rsqrt : (⟨S128, .f32⟩ : BufTy).Contents (Elt F) → (⟨S128, .f32⟩ : BufTy).Contents (Elt F)),
    unary main_v174 main_v175 (broadcastInDim S1x128 ![1] bcast_S128_S1x128_1 : (⟨S128, .f32⟩ : BufTy).Contents (Elt F) → (⟨S1x128, .f32⟩ : BufTy).Contents (Elt F)),
    unary main_v175 main_v176 (broadcastInDim S100000x128 ![0, 1] bcast_S1x128_S100000x128_0_1 : (⟨S1x128, .f32⟩ : BufTy).Contents (Elt F) → (⟨S100000x128, .f32⟩ : BufTy).Contents (Elt F)),
    binary main_v171 main_v176 main_v177 (mulf : (⟨S100000x128, .f32⟩ : BufTy).Contents (Elt F) → (⟨S100000x128, .f32⟩ : BufTy).Contents (Elt F) → (⟨S100000x128, .f32⟩ : BufTy).Contents (Elt F)),
    unary main_arg5 main_v178 ((extractStridedSlice S1x128 ![2, 0] · slices_S3x128_S1x128_2_0) : (⟨S3x128, .f32⟩ : BufTy).Contents (Elt F) → (⟨S1x128, .f32⟩ : BufTy).Contents (Elt F)),
    reshape main_v178 main_v179 rfl shapeCasts_S1x128_S128,
    unary main_v179 main_v180 (broadcastInDim S1x128 ![1] bcast_S128_S1x128_1 : (⟨S128, .f32⟩ : BufTy).Contents (Elt F) → (⟨S1x128, .f32⟩ : BufTy).Contents (Elt F)),
    unary main_v180 main_v181 (broadcastInDim S100000x128 ![0, 1] bcast_S1x128_S100000x128_0_1 : (⟨S1x128, .f32⟩ : BufTy).Contents (Elt F) → (⟨S100000x128, .f32⟩ : BufTy).Contents (Elt F)),
    binary main_v177 main_v181 main_v182 (mulf : (⟨S100000x128, .f32⟩ : BufTy).Contents (Elt F) → (⟨S100000x128, .f32⟩ : BufTy).Contents (Elt F) → (⟨S100000x128, .f32⟩ : BufTy).Contents (Elt F)),
    unary main_arg6 main_v183 ((extractStridedSlice S1x128 ![2, 0] · slices_S3x128_S1x128_2_0) : (⟨S3x128, .f32⟩ : BufTy).Contents (Elt F) → (⟨S1x128, .f32⟩ : BufTy).Contents (Elt F)),
    reshape main_v183 main_v184 rfl shapeCasts_S1x128_S128,
    unary main_v184 main_v185 (broadcastInDim S1x128 ![1] bcast_S128_S1x128_1 : (⟨S128, .f32⟩ : BufTy).Contents (Elt F) → (⟨S1x128, .f32⟩ : BufTy).Contents (Elt F)),
    unary main_v185 main_v186 (broadcastInDim S100000x128 ![0, 1] bcast_S1x128_S100000x128_0_1 : (⟨S1x128, .f32⟩ : BufTy).Contents (Elt F) → (⟨S100000x128, .f32⟩ : BufTy).Contents (Elt F)),
    binary main_v182 main_v186 main_v187 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v187) (TRef.of (T := ⟨S100000x128, .f32⟩) main_call2_v0) (TRef.of (T := ⟨S100000x128, .f32⟩) main_v188) maximumf ]

abbrev c4 : List (HloOp τ sig (Elt F)) :=
  [ nullary main_cst_30 (constant S_ .f32 0x00000000#32),
    unary main_cst_30 main_v189 (broadcastInDim S512x128 ![] bcast_S_S512x128 : (⟨S_, .f32⟩ : BufTy).Contents (Elt F) → (⟨S512x128, .f32⟩ : BufTy).Contents (Elt F)),
    unary main_arg2 main_v190 (broadcastInDim S100000x1 ![0] bcast_S100000_S100000x1_0 : (⟨S100000, .i32⟩ : BufTy).Contents (Elt F) → (⟨S100000x1, .i32⟩ : BufTy).Contents (Elt F)),
    ternary main_v189 main_v190 main_v188 main_v191 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_31 (constant S_ .f32 0x3F800000#32),
    unary main_cst_31 main_v192 (broadcastInDim S100000 ![] bcast_S_S100000 : (⟨S_, .f32⟩ : BufTy).Contents (Elt F) → (⟨S100000, .f32⟩ : BufTy).Contents (Elt F)),
    nullary main_cst_32 (constant S_ .f32 0x00000000#32),
    unary main_cst_32 main_v193 (broadcastInDim S512 ![] bcast_S_S512 : (⟨S_, .f32⟩ : BufTy).Contents (Elt F) → (⟨S512, .f32⟩ : BufTy).Contents (Elt F)),
    unary main_arg2 main_v194 (broadcastInDim S100000x1 ![0] bcast_S100000_S100000x1_0 : (⟨S100000, .i32⟩ : BufTy).Contents (Elt F) → (⟨S100000x1, .i32⟩ : BufTy).Contents (Elt F)),
    ternary main_v193 main_v194 main_v192 main_v195 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_33 (constant S_ .f32 0x3F800000#32),
    unary main_cst_33 main_v196 (broadcastInDim S512 ![] bcast_S_S512 : (⟨S_, .f32⟩ : BufTy).Contents (Elt F) → (⟨S512, .f32⟩ : BufTy).Contents (Elt F)),
    binary main_v195 main_v196 main_v197 (maximumf : (⟨S512, .f32⟩ : BufTy).Contents (Elt F) → (⟨S512, .f32⟩ : BufTy).Contents (Elt F) → (⟨S512, .f32⟩ : BufTy).Contents (Elt F)),
    unary main_v197 main_v198 (broadcastInDim S512x1 ![0] bcast_S512_S512x1_0 : (⟨S512, .f32⟩ : BufTy).Contents (Elt F) → (⟨S512x1, .f32⟩ : BufTy).Contents (Elt F)),
    unary main_v198 main_v199 (broadcastInDim S512x128 ![0, 1] bcast_S512x1_S512x128_0_1 : (⟨S512x1, .f32⟩ : BufTy).Contents (Elt F) → (⟨S512x128, .f32⟩ : BufTy).Contents (Elt F)),
    binary main_v191 main_v199 main_v200 (Host.divf : (⟨S512x128, .f32⟩ : BufTy).Contents (Elt F) → (⟨S512x128, .f32⟩ : BufTy).Contents (Elt F) → (⟨S512x128, .f32⟩ : BufTy).Contents (Elt F)),
    binary main_v200 main_arg7 main_v201 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_arg8 main_v202 (broadcastInDim S1x128 ![1] bcast_S128_S1x128_1 : (⟨S128, .f32⟩ : BufTy).Contents (Elt F) → (⟨S1x128, .f32⟩ : BufTy).Contents (Elt F)),
    unary main_v202 main_v203 (broadcastInDim S512x128 ![0, 1] bcast_S1x128_S512x128_0_1 : (⟨S1x128, .f32⟩ : BufTy).Contents (Elt F) → (⟨S512x128, .f32⟩ : BufTy).Contents (Elt F)),
    binary main_v201 main_v203 main_v204 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S512x128, .f32⟩) main_call3_v0) (broadcastInDim S512x128 ![] bcast_S_S512x128),
    TRef.binary (TRef.of (T := ⟨S512x128, .f32⟩) main_v204) (TRef.of (T := ⟨S512x128, .f32⟩) main_call3_v0) (TRef.of (T := ⟨S512x128, .f32⟩) main_v205) maximumf,
    binary main_v205 main_arg9 main_v206 ((fun l r => Host.dotGeneral dot_S512x128_S128x1_S512x1_1_0_0_1_n_n none l r) : (⟨S512x128, .f32⟩ : BufTy).Contents (Elt F) → (⟨S128x1, .f32⟩ : BufTy).Contents (Elt F) → (⟨S512x1, .f32⟩ : BufTy).Contents (Elt F)),
    unary main_arg10 main_v207 (broadcastInDim S1x1 ![1] bcast_S1_S1x1_1 : (⟨S1, .f32⟩ : BufTy).Contents (Elt F) → (⟨S1x1, .f32⟩ : BufTy).Contents (Elt F)),
    unary main_v207 main_v208 (broadcastInDim S512x1 ![0, 1] bcast_S1x1_S512x1_0_1 : (⟨S1x1, .f32⟩ : BufTy).Contents (Elt F) → (⟨S512x1, .f32⟩ : BufTy).Contents (Elt F)),
    binary main_v206 main_v208 main_v209 (addf : (⟨S512x1, .f32⟩ : BufTy).Contents (Elt F) → (⟨S512x1, .f32⟩ : BufTy).Contents (Elt F) → (⟨S512x1, .f32⟩ : BufTy).Contents (Elt F)) ]

set_option maxRecDepth 8192 in

abbrev ops : List (HloOp τ sig (Elt F)) := c0 ++ c1 ++ c2 ++ c3 ++ c4

/-- Lets a fact about every operation of @main be proved list by list. -/
theorem forall_ops {p : HloOp τ sig (Elt F) → Prop} (h0 : c0.Forall p) (h1 : c1.Forall p) (h2 : c2.Forall p)
    (h3 : c3.Forall p) (h4 : c4.Forall p) : (ops : List (HloOp τ sig (Elt F))).Forall p :=
  List.forall_append.mpr ⟨List.forall_append.mpr ⟨List.forall_append.mpr ⟨List.forall_append.mpr ⟨h0, h1⟩, h2⟩, h3⟩, h4⟩

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem c0_sub : (c0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., unary_bufs_sub .., unary_bufs_sub .., reshape_bufs_sub .., binary_bufs_sub ..⟩
theorem c1_sub : (c1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub ..⟩
theorem c2_sub : (c2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub ..⟩
theorem c3_sub : (c3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem c4_sub : (c4 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem c0_fresh : (c0 : List (HloOp τ sig (Elt F))).Forall fun op => op.fresh = ∅ := by
  simp only [List.Forall]; repeat' constructor
theorem c1_fresh : (c1 : List (HloOp τ sig (Elt F))).Forall fun op => op.fresh = ∅ := by
  simp only [List.Forall]; repeat' constructor
theorem c2_fresh : (c2 : List (HloOp τ sig (Elt F))).Forall fun op => op.fresh = ∅ := by
  simp only [List.Forall]; repeat' constructor
theorem c3_fresh : (c3 : List (HloOp τ sig (Elt F))).Forall fun op => op.fresh = ∅ := by
  simp only [List.Forall]; repeat' constructor
theorem c4_fresh : (c4 : List (HloOp τ sig (Elt F))).Forall fun op => op.fresh = ∅ := by
  simp only [List.Forall]; repeat' constructor

theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => forall_ops c0_sub c1_sub c2_sub c3_sub c4_sub) m ρ
    (fun _ => List.forall_iff_forall_mem.mp (forall_ops c0_fresh c1_fresh c2_fresh c3_fresh c4_fresh))

end Cert.ReferenceIdeal.Value

end
-- ==== Proof.RefRead.lean ====
/-
  The reference program one operation at a time: each operation's value as a function of the arguments it depends on, and,
  where an element of the result depends on one element of each operand (or is a sum over one axis), the value read at an
  index.
-/
import proofs.«420895_j26731876451141_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x800000, .i32⟩ : BufTy).Contents (Elt F)) : (⟨S1x800000, .i32⟩ : BufTy).Contents (Elt F) :=
  extractStridedSlice S1x800000 ![0, 0] (x1) slices_S2x800000_S1x800000_0_0

def val_main_v1 (x1 : (⟨S2x800000, .i32⟩ : BufTy).Contents (Elt F)) : (⟨S800000, .i32⟩ : BufTy).Contents (Elt F) :=
  shapeCast _ (val_main_v0 (F := F) x1) shapeCasts_S1x800000_S800000

def val_main_v2 (x1 : (⟨S2x800000, .i32⟩ : BufTy).Contents (Elt F)) : (⟨S1x800000, .i32⟩ : BufTy).Contents (Elt F) :=
  extractStridedSlice S1x800000 ![1, 0] (x1) slices_S2x800000_S1x800000_1_0

def val_main_v3 (x1 : (⟨S2x800000, .i32⟩ : BufTy).Contents (Elt F)) : (⟨S800000, .i32⟩ : BufTy).Contents (Elt F) :=
  shapeCast _ (val_main_v2 (F := F) x1) shapeCasts_S1x800000_S800000

def val_main_cst : (⟨S_, .f32⟩ : BufTy).Contents (Elt F) :=
  constant S_ .f32 0x3F800000#32

def val_main_v4 : (⟨S800000, .f32⟩ : BufTy).Contents (Elt F) :=
  broadcastInDim S800000 ![] bcast_S_S800000 (val_main_cst (F := F))

def val_main_cst_0 : (⟨S_, .f32⟩ : BufTy).Contents (Elt F) :=
  constant S_ .f32 0x00000000#32

def val_main_v5 : (⟨S100000, .f32⟩ : BufTy).Contents (Elt F) :=
  broadcastInDim S100000 ![] bcast_S_S100000 (val_main_cst_0 (F := F))

def val_main_v6 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v7 (x1 : (⟨S2x800000, .i32⟩ : BufTy).Contents (Elt F)) : (⟨S100000, .f32⟩ : BufTy).Contents (Elt F) :=
  Host.scatterAdd scatter_S100000_S800000x1_S800000_n_0_0_1 (val_main_v5 (F := F)) (val_main_v6 (F := F) x1) (val_main_v4 (F := F))

def val_main_cst_1 : (⟨S_, .f32⟩ : BufTy).Contents (Elt F) :=
  constant S_ .f32 0x3F800000#32

def val_main_v8 : (⟨S100000, .f32⟩ : BufTy).Contents (Elt F) :=
  broadcastInDim S100000 ![] bcast_S_S100000 (val_main_cst_1 (F := F))

def val_main_v9 (x1 : (⟨S2x800000, .i32⟩ : BufTy).Contents (Elt F)) : (⟨S100000, .f32⟩ : BufTy).Contents (Elt F) :=
  addf (val_main_v7 (F := F) x1) (val_main_v8 (F := F))

def val_main_v10 (x1 : (⟨S2x800000, .i32⟩ : BufTy).Contents (Elt F)) : (⟨S100000, .f32⟩ : BufTy).Contents (Elt F) :=
  Host.rsqrt (val_main_v9 (F := F) x1)

def val_main_c : (⟨S_, .i32⟩ : BufTy).Contents (Elt F) :=
  constantI S_ 32 0#32

def val_main_v11 : (⟨S800000, .i32⟩ : BufTy).Contents (Elt F) :=
  broadcastInDim S800000 ![] bcast_S_S800000 (val_main_c (F := F))

def val_main_v12 (x1 : (⟨S2x800000, .i32⟩ : BufTy).Contents (Elt F)) : (⟨S800000, .i1⟩ : BufTy).Contents (Elt F) :=
  cmpi .slt (val_main_v1 (F := F) x1) (val_main_v11 (F := F))

def val_main_c_2 : (⟨S_, .i32⟩ : BufTy).Contents (Elt F) :=
  constantI S_ 32 100000#32

def val_main_v13 : (⟨S800000, .i32⟩ : BufTy).Contents (Elt F) :=
  broadcastInDim S800000 ![] bcast_S_S800000 (val_main_c_2 (F := F))

def val_main_v14 (x1 : (⟨S2x800000, .i32⟩ : BufTy).Contents (Elt F)) : (⟨S800000, .i32⟩ : BufTy).Contents (Elt F) :=
  addi (val_main_v1 (F := F) x1) (val_main_v13 (F := F))

def val_main_v15 (x1 : (⟨S2x800000, .i32⟩ : BufTy).Contents (Elt F)) : (⟨S800000, .i32⟩ : BufTy).Contents (Elt F) :=
  select (val_main_v12 (F := F) x1) (val_main_v14 (F := F) x1) (val_main_v1 (F := F) x1)

def val_main_v16 (x1 : (⟨S2x800000, .i32⟩ : BufTy).Contents (Elt F)) : (⟨S800000x1, .i32⟩ : BufTy).Contents (Elt F) :=
  broadcastInDim S800000x1 ![0] bcast_S800000_S800000x1_0 (val_main_v15 (F := F) x1)

def val_main_v17 (x1 : (⟨S2x800000, .i32⟩ : BufTy).Contents (Elt F)) : (⟨S800000, .f32⟩ : BufTy).Contents (Elt F) :=
  Host.gather gather_S100000_S800000x1_S800000_n_0_n_n_0_1_1 (val_main_v10 (F := F) x1) (val_main_v16 (F := F) x1)

def val_main_c_3 : (⟨S_, .i32⟩ : BufTy).Contents (Elt F) :=
  constantI S_ 32 0#32

def val_main_v18 : (⟨S800000, .i32⟩ : BufTy).Contents (Elt F) :=
  broadcastInDim S800000 ![] bcast_S_S800000 (val_main_c_3 (F := F))

def val_main_v19 (x1 : (⟨S2x800000, .i32⟩ : BufTy).Contents (Elt F)) : (⟨S800000, .i1⟩ : BufTy).Contents (Elt F) :=
  cmpi .slt (val_main_v3 (F := F) x1) (val_main_v18 (F := F))

def val_main_c_4 : (⟨S_, .i32⟩ : BufTy).Contents (Elt F) :=
  constantI S_ 32 100000#32

def val_main_v20 : (⟨S800000, .i32⟩ : BufTy).Contents (Elt F) :=
  broadcastInDim S800000 ![] bcast_S_S800000 (val_main_c_4 (F := F))

def val_main_v21 (x1 : (⟨S2x800000, .i32⟩ : BufTy).Contents (Elt F)) : (⟨S800000, .i32⟩ : BufTy).Contents (Elt F) :=
  addi (val_main_v3 (F := F) x1) (val_main_v20 (F := F))

def val_main_v22 (x1 : (⟨S2x800000, .i32⟩ : BufTy).Contents (Elt F)) : (⟨S800000, .i32⟩ : BufTy).Contents (Elt F) :=
  select (val_main_v19 (F := F) x1) (val_main_v21 (F := F) x1) (val_main_v3 (F := F) x1)

def val_main_v23 (x1 : (⟨S2x800000, .i32⟩ : BufTy).Contents (Elt F)) : (⟨S800000x1, .i32⟩ : BufTy).Contents (Elt F) :=
  broadcastInDim S800000x1 ![0] bcast_S800000_S800000x1_0 (val_main_v22 (F := F) x1)

def val_main_v24 (x1 : (⟨S2x800000, .i32⟩ : BufTy).Contents (Elt F)) : (⟨S800000, .f32⟩ : BufTy).Contents (Elt F) :=
  Host.gather gather_S100000_S800000x1_S800000_n_0_n_n_0_1_1 (val_main_v10 (F := F) x1) (val_main_v23 (F := F) x1)

def val_main_v25 (x1 : (⟨S2x800000, .i32⟩ : BufTy).Contents (Elt F)) : (⟨S800000, .f32⟩ : BufTy).Contents (Elt F) :=
  mulf (val_main_v17 (F := F) x1) (val_main_v24 (F := F) x1)

def val_main_v26 (x1 : (⟨S2x800000, .i32⟩ : BufTy).Contents (Elt F)) : (⟨S800000x1, .f32⟩ : BufTy).Contents (Elt F) :=
  broadcastInDim S800000x1 ![0] bcast_S800000_S800000x1_0 (val_main_v25 (F := F) x1)

def val_main_cst_5 : (⟨S_, .f32⟩ : BufTy).Contents (Elt F) :=
  constant S_ .f32 0x3F800000#32

def val_main_v27 : (⟨S100000, .f32⟩ : BufTy).Contents (Elt F) :=
  broadcastInDim S100000 ![] bcast_S_S100000 (val_main_cst_5 (F := F))

def val_main_v28 (x1 : (⟨S2x800000, .i32⟩ : BufTy).Contents (Elt F)) : (⟨S100000, .f32⟩ : BufTy).Contents (Elt F) :=
  Host.divf (val_main_v27 (F := F)) (val_main_v9 (F := F) x1)

def val_main_v29 (x1 : (⟨S2x800000, .i32⟩ : BufTy).Contents (Elt F)) : (⟨S100000x1, .f32⟩ : BufTy).Contents (Elt F) :=
  broadcastInDim S100000x1 ![0] bcast_S100000_S100000x1_0 (val_main_v28 (F := F) x1)

def val_main_v30 (x3 : (⟨S3x128x128, .f32⟩ : BufTy).Contents (Elt F)) : (⟨S1x128x128, .f32⟩ : BufTy).Contents (Elt F) :=
  extractStridedSlice S1x128x128 ![0, 0, 0] (x3) slices_S3x128x128_S1x128x128_0_0_0

def val_main_v31 (x3 : (⟨S3x128x128, .f32⟩ : BufTy).Contents (Elt F)) : (⟨S128x128, .f32⟩ : BufTy).Contents (Elt F) :=
  shapeCast _ (val_main_v30 (F := F) x3) shapeCasts_S1x128x128_S128x128

def val_main_v32 (x0 : (⟨S100000x128, .f32⟩ : BufTy).Contents (Elt F)) (x3 : (⟨S3x128x128, .f32⟩ : BufTy).Contents (Elt F)) : (⟨S100000x128, .f32⟩ : BufTy).Contents (Elt F) :=
  Host.dotGeneral dot_S100000x128_S128x128_S100000x128_1_0_0_1_n_n none (x0) (val_main_v31 (F := F) x3)
theorem lhs_main_v32_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v32_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v32_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v32_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v32 (i : S100000x128.Idx) (k : Fin 128) : S100000x128.Idx := fun a => match a with
  | ⟨0, _⟩ => ⟨(i 0).val, (i 0).isLt⟩
  | ⟨1, _⟩ => ⟨k.val, k.isLt⟩
abbrev ridx_main_v32 (i : S100000x128.Idx) (k : Fin 128) : S128x128.Idx := fun a => match a with
  | ⟨0, _⟩ => ⟨k.val, k.isLt⟩
  | ⟨1, _⟩ => ⟨(i 1).val, (i 1).isLt⟩

theorem val_main_v32_apply (x0 : (⟨S100000x128, .f32⟩ : BufTy).Contents (Elt Ideal)) (x3 : (⟨S3x128x128, .f32⟩ : BufTy).Contents (Elt Ideal)) (i : S100000x128.Idx) :
    val_main_v32 (F := Ideal) x0 x3 i = ∑ k : Fin 128, x0 (lidx_main_v32 i k) * (val_main_v31 (F := Ideal) x3) (ridx_main_v32 i k) := by
  unfold val_main_v32
  generalize val_main_v31 (F := Ideal) x3 = y0
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v32 i k := funext fun a => Fin.ext (by
    match a with
    | ⟨0, _⟩ => exact lhs_main_v32_0 _ _
    | ⟨1, _⟩ => exact (lhs_main_v32_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v32 i k := funext fun a => Fin.ext (by
    match a with
    | ⟨0, _⟩ => exact (rhs_main_v32_0 _ _).trans hk
    | ⟨1, _⟩ => exact rhs_main_v32_1 _ _)
  rw [el, er]

def val_main_c_6 : (⟨S_, .i32⟩ : BufTy).Contents (Elt F) :=
  constantI S_ 32 0#32

def val_main_v33 : (⟨S800000, .i32⟩ : BufTy).Contents (Elt F) :=
  broadcastInDim S800000 ![] bcast_S_S800000 (val_main_c_6 (F := F))

def val_main_v34 (x1 : (⟨S2x800000, .i32⟩ : BufTy).Contents (Elt F)) : (⟨S800000, .i1⟩ : BufTy).Contents (Elt F) :=
  cmpi .slt (val_main_v1 (F := F) x1) (val_main_v33 (F := F))

def val_main_c_7 : (⟨S_, .i32⟩ : BufTy).Contents (Elt F) :=
  constantI S_ 32 100000#32

def val_main_v35 : (⟨S800000, .i32⟩ : BufTy).Contents (Elt F) :=
  broadcastInDim S800000 ![] bcast_S_S800000 (val_main_c_7 (F := F))

def val_main_v36 (x1 : (⟨S2x800000, .i32⟩ : BufTy).Contents (Elt F)) : (⟨S800000, .i32⟩ : BufTy).Contents (Elt F) :=
  addi (val_main_v1 (F := F) x1) (val_main_v35 (F := F))

def val_main_v37 (x1 : (⟨S2x800000, .i32⟩ : BufTy).Contents (Elt F)) : (⟨S800000, .i32⟩ : BufTy).Contents (Elt F) :=
  select (val_main_v34 (F := F) x1) (val_main_v36 (F := F) x1) (val_main_v1 (F := F) x1)

def val_main_v38 (x1 : (⟨S2x800000, .i32⟩ : BufTy).Contents (Elt F)) : (⟨S800000x1, .i32⟩ : BufTy).Contents (Elt F) :=
  broadcastInDim S800000x1 ![0] bcast_S800000_S800000x1_0 (val_main_v37 (F := F) x1)

def val_main_v39 (x0 : (⟨S100000x128, .f32⟩ : BufTy).Contents (Elt F)) (x1 : (⟨S2x800000, .i32⟩ : BufTy).Contents (Elt F)) (x3 : (⟨S3x128x128, .f32⟩ : BufTy).Contents (Elt F)) : (⟨S800000x128, .f32⟩ : BufTy).Contents (Elt F) :=
  Host.gather gather_S100000x128_S800000x1_S800000x128_1_0_n_n_0_1_1128 (val_main_v32 (F := F) x0 x3) (val_main_v38 (F := F) x1)

def val_main_v40 (x1 : (⟨S2x800000, .i32⟩ : BufTy).Contents (Elt F)) : (⟨S800000x128, .f32⟩ : BufTy).Contents (Elt F) :=
  broadcastInDim S800000x128 ![0, 1] bcast_S800000x1_S800000x128_0_1 (val_main_v26 (F := F) x1)

def val_main_v41 (x0 : (⟨S100000x128, .f32⟩ : BufTy).Contents (Elt F)) (x1 : (⟨S2x800000, .i32⟩ : BufTy).Contents (Elt F)) (x3 : (⟨S3x128x128, .f32⟩ : BufTy).Contents (Elt F)) : (⟨S800000x128, .f32⟩ : BufTy).Contents (Elt F) :=
  mulf (val_main_v40 (F := F) x1) (val_main_v39 (F := F) x0 x1 x3)

def val_main_cst_8 : (⟨S_, .f32⟩ : BufTy).Contents (Elt F) :=
  constant S_ .f32 0x00000000#32

def val_main_v42 : (⟨S100000x128, .f32⟩ : BufTy).Contents (Elt F) :=
  broadcastInDim S100000x128 ![] bcast_S_S100000x128 (val_main_cst_8 (F := F))

def val_main_v43 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v44 (x0 : (⟨S100000x128, .f32⟩ : BufTy).Contents (Elt F)) (x1 : (⟨S2x800000, .i32⟩ : BufTy).Contents (Elt F)) (x3 : (⟨S3x128x128, .f32⟩ : BufTy).Contents (Elt F)) : (⟨S100000x128, .f32⟩ : BufTy).Contents (Elt F) :=
  Host.scatterAdd scatter_S100000x128_S800000x1_S800000x128_1_0_0_1 (val_main_v42 (F := F)) (val_main_v43 (F := F) x1) (val_main_v41 (F := F) x0 x1 x3)

def val_main_v45 (x1 : (⟨S2x800000, .i32⟩ : BufTy).Contents (Elt F)) : (⟨S100000x128, .f32⟩ : BufTy).Contents (Elt F) :=
  broadcastInDim S100000x128 ![0, 1] bcast_S100000x1_S100000x128_0_1 (val_main_v29 (F := F) x1)
abbrev idx_main_v45 (i : S100000x128.Idx) : S100000x1.Idx := fun a => match a with
  | ⟨0, _⟩ => ⟨(i 0).val, (i 0).isLt⟩
  | ⟨1, _⟩ => ⟨0, Nat.one_pos⟩
theorem val_main_v45_apply (x1 : (⟨S2x800000, .i32⟩ : BufTy).Contents (Elt F)) (i : S100000x128.Idx) :
    val_main_v45 (F := F) x1 i = val_main_v29 (F := F) x1 (idx_main_v45 i) := by
  unfold val_main_v45
  generalize val_main_v29 (F := F) x1 = y
  exact broadcastInDim_apply _ bcast_S100000x1_S100000x128_0_1 y i (idx_main_v45 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_v46 (x0 : (⟨S100000x128, .f32⟩ : BufTy).Contents (Elt F)) (x1 : (⟨S2x800000, .i32⟩ : BufTy).Contents (Elt F)) (x3 : (⟨S3x128x128, .f32⟩ : BufTy).Contents (Elt F)) : (⟨S100000x128, .f32⟩ : BufTy).Contents (Elt F) :=
  mulf (val_main_v32 (F := F) x0 x3) (val_main_v45 (F := F) x1)
theorem val_main_v46_apply (x0 : (⟨S100000x128, .f32⟩ : BufTy).Contents (Elt F)) (x1 : (⟨S2x800000, .i32⟩ : BufTy).Contents (Elt F)) (x3 : (⟨S3x128x128, .f32⟩ : BufTy).Contents (Elt F)) (i : S100000x128.Idx) :
    val_main_v46 (F := F) x0 x1 x3 i = FloatOps.mulf (val_main_v32 (F := F) x0 x3 i) (val_main_v45 (F := F) x1 i) := rfl

def val_main_v47 (x0 : (⟨S100000x128, .f32⟩ : BufTy).Contents (Elt F)) (x1 : (⟨S2x800000, .i32⟩ : BufTy).Contents (Elt F)) (x3 : (⟨S3x128x128, .f32⟩ : BufTy).Contents (Elt F)) : (⟨S100000x128, .f32⟩ : BufTy).Contents (Elt F) :=
  addf (val_main_v44 (F := F) x0 x1 x3) (val_main_v46 (F := F) x0 x1 x3)
theorem val_main_v47_apply (x0 : (⟨S100000x128, .f32⟩ : BufTy).Contents (Elt F)) (x1 : (⟨S2x800000, .i32⟩ : BufTy).Contents (Elt F)) (x3 : (⟨S3x128x128, .f32⟩ : BufTy).Contents (Elt F)) (i : S100000x128.Idx) :
    val_main_v47 (F := F) x0 x1 x3 i = FloatOps.addf (val_main_v44 (F := F) x0 x1 x3 i) (val_main_v46 (F := F) x0 x1 x3 i) := rfl

def val_main_v48 (x4 : (⟨S3x128, .f32⟩ : BufTy).Contents (Elt F)) : (⟨S1x128, .f32⟩ : BufTy).Contents (Elt F) :=
  extractStridedSlice S1x128 ![0, 0] (x4) slices_S3x128_S1x128_0_0
abbrev idx_main_v48 (i : S1x128.Idx) : S3x128.Idx := fun a => match a with
  | ⟨0, _⟩ => ⟨(i 0).val, by have h0 : (i 0).val < 1 := (i 0).isLt; show (i 0).val < 3; omega⟩
  | ⟨1, _⟩ => ⟨(i 1).val, (i 1).isLt⟩
theorem val_main_v48_apply (x4 : (⟨S3x128, .f32⟩ : BufTy).Contents (Elt F)) (i : S1x128.Idx) :
    val_main_v48 (F := F) x4 i = x4 (idx_main_v48 i) := by
  unfold val_main_v48
  exact extractStridedSlice_apply ![0, 0] x4 slices_S3x128_S1x128_0_0 i (idx_main_v48 i) (fun a => match a with
    | ⟨0, _⟩ => by show (i 0).val = 0 + (i 0).val; omega
    | ⟨1, _⟩ => by show (i 1).val = 0 + (i 1).val; omega)

def val_main_v49 (x4 : (⟨S3x128, .f32⟩ : BufTy).Contents (Elt F)) : (⟨S128, .f32⟩ : BufTy).Contents (Elt F) :=
  shapeCast _ (val_main_v48 (F := F) x4) shapeCasts_S1x128_S128
abbrev idx_main_v49 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v49_apply (x4 : (⟨S3x128, .f32⟩ : BufTy).Contents (Elt F)) (i : S128.Idx) :
    val_main_v49 (F := F) x4 i = val_main_v48 (F := F) x4 (idx_main_v49 i) := by
  unfold val_main_v49
  generalize val_main_v48 (F := F) x4 = y
  exact shapeCast_apply y shapeCasts_S1x128_S128 i (idx_main_v49 i)
    (by rewrite [Shape.rowMajor_val_two, Shape.rowMajor_val_one]; have h0 : (i 0).val < 128 := (i 0).isLt; show 0 * 128 + ((i 0).val) % 128 = (i 0).val; omega)

def val_main_v50 (x4 : (⟨S3x128, .f32⟩ : BufTy).Contents (Elt F)) : (⟨S1x128, .f32⟩ : BufTy).Contents (Elt F) :=
  broadcastInDim S1x128 ![1] bcast_S128_S1x128_1 (val_main_v49 (F := F) x4)
abbrev idx_main_v50 (i : S1x128.Idx) : S128.Idx := fun a => match a with
  | ⟨0, _⟩ => ⟨(i 1).val, (i 1).isLt⟩
theorem val_main_v50_apply (x4 : (⟨S3x128, .f32⟩ : BufTy).Contents (Elt F)) (i : S1x128.Idx) :
    val_main_v50 (F := F) x4 i = val_main_v49 (F := F) x4 (idx_main_v50 i) := by
  unfold val_main_v50
  generalize val_main_v49 (F := F) x4 = y
  exact broadcastInDim_apply _ bcast_S128_S1x128_1 y i (idx_main_v50 i) (fun a => match a with
    | ⟨0, _⟩ => by show (i 1).val = if (128 : Nat) = 1 then 0 else (i 1).val; rw [if_neg (by decide)])

def val_main_v51 (x4 : (⟨S3x128, .f32⟩ : BufTy).Contents (Elt F)) : (⟨S100000x128, .f32⟩ : BufTy).Contents (Elt F) :=
  broadcastInDim S100000x128 ![0, 1] bcast_S1x128_S100000x128_0_1 (val_main_v50 (F := F) x4)
abbrev idx_main_v51 (i : S100000x128.Idx) : S1x128.Idx := fun a => match a with
  | ⟨0, _⟩ => ⟨0, Nat.one_pos⟩
  | ⟨1, _⟩ => ⟨(i 1).val, (i 1).isLt⟩
theorem val_main_v51_apply (x4 : (⟨S3x128, .f32⟩ : BufTy).Contents (Elt F)) (i : S100000x128.Idx) :
    val_main_v51 (F := F) x4 i = val_main_v50 (F := F) x4 (idx_main_v51 i) := by
  unfold val_main_v51
  generalize val_main_v50 (F := F) x4 = y
  exact broadcastInDim_apply _ bcast_S1x128_S100000x128_0_1 y i (idx_main_v51 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v52 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  addf (val_main_v47 (F := F) x0 x1 x3) (val_main_v51 (F := F) x4)
theorem val_main_v52_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S100000x128.Idx) :
    val_main_v52 (F := F) x0 x1 x3 x4 i = FloatOps.addf (val_main_v47 (F := F) x0 x1 x3 i) (val_main_v51 (F := F) x4 i) := rfl

def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

def val_main_v53 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S128, .f32⟩ : BufTy).Contents (Elt F) :=
  Host.reduceAdd (val_main_v52 (F := F) x0 x1 x3 x4) (val_main_cst_9 (F := F)) reducesTo_S100000x128_S128_d0 h_S_
abbrev idx_main_v53 (i : S128.Idx) (k : Fin 100000) : S100000x128.Idx := fun a => match a with
  | ⟨0, _⟩ => ⟨k.val, k.isLt⟩
  | ⟨1, _⟩ => ⟨(i 0).val, (i 0).isLt⟩

theorem val_main_v53_apply (x0 : (⟨S100000x128, .f32⟩ : BufTy).Contents (Elt Ideal)) (x1 : (⟨S2x800000, .i32⟩ : BufTy).Contents (Elt Ideal)) (x3 : (⟨S3x128x128, .f32⟩ : BufTy).Contents (Elt Ideal)) (x4 : (⟨S3x128, .f32⟩ : BufTy).Contents (Elt Ideal)) (i : S128.Idx) :
    val_main_v53 (F := Ideal) x0 x1 x3 x4 i = (val_main_cst_9 (F := Ideal)) (Shape.Idx.first h_S_) + ∑ k : Fin 100000, (val_main_v52 (F := Ideal) x0 x1 x3 x4) (idx_main_v53 i k) := by
  unfold val_main_v53
  generalize val_main_v52 (F := Ideal) x0 x1 x3 x4 = y0
  simp only [Host.reduceAdd, Ideal.hostReduceAdd_def]
  rw [Ideal.hostReduceAdd_single reducesTo_S100000x128_S128_d0 (by decide)]
  refine congrArg (_ + ·) (Finset.sum_congr rfl fun k _ => ?_)
  exact congrArg y0 (funext fun a => Fin.ext (by match a with | ⟨0, _⟩ => rfl | ⟨1, _⟩ => rfl))

def val_main_cst_10 : (⟨S_, .f32⟩ : BufTy).Contents (Elt F) :=
  constant S_ .f32 0x47C35000#32
theorem val_main_cst_10_apply (i : S_.Idx) :
    val_main_cst_10 (F := F) i = FloatOps.ofBits .f32 0x47C35000#32 := rfl

def val_main_v54 : (⟨S128, .f32⟩ : BufTy).Contents (Elt F) :=
  broadcastInDim S128 ![] bcast_S_S128 (val_main_cst_10 (F := F))
abbrev idx_main_v54 (i : S128.Idx) : S_.Idx := fun a => a.elim0
theorem val_main_v54_apply (i : S128.Idx) :
    val_main_v54 (F := F) i = val_main_cst_10 (F := F) (idx_main_v54 i) := by
  unfold val_main_v54
  generalize val_main_cst_10 (F := F) = y
  exact broadcastInDim_apply _ bcast_S_S128 y i (idx_main_v54 i) (fun a => a.elim0)

def val_main_v55 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S128, .f32⟩ : BufTy).Contents (Elt F) :=
  Host.divf (val_main_v53 (F := F) x0 x1 x3 x4) (val_main_v54 (F := F))
theorem val_main_v55_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S128.Idx) :
    val_main_v55 (F := F) x0 x1 x3 x4 i = FloatOps.hostDivf (val_main_v53 (F := F) x0 x1 x3 x4 i) (val_main_v54 (F := F) i) := rfl

def val_main_v56 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S1x128, .f32⟩ : BufTy).Contents (Elt F) :=
  broadcastInDim S1x128 ![1] bcast_S128_S1x128_1 (val_main_v55 (F := F) x0 x1 x3 x4)
abbrev idx_main_v56 (i : S1x128.Idx) : S128.Idx := fun a => match a with
  | ⟨0, _⟩ => ⟨(i 1).val, (i 1).isLt⟩
theorem val_main_v56_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S1x128.Idx) :
    val_main_v56 (F := F) x0 x1 x3 x4 i = val_main_v55 (F := F) x0 x1 x3 x4 (idx_main_v56 i) := by
  unfold val_main_v56
  generalize val_main_v55 (F := F) x0 x1 x3 x4 = y
  exact broadcastInDim_apply _ bcast_S128_S1x128_1 y i (idx_main_v56 i) (fun a => match a with
    | ⟨0, _⟩ => by show (i 1).val = if (128 : Nat) = 1 then 0 else (i 1).val; rw [if_neg (by decide)])

def val_main_v57 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  broadcastInDim S100000x128 ![0, 1] bcast_S1x128_S100000x128_0_1 (val_main_v56 (F := F) x0 x1 x3 x4)
abbrev idx_main_v57 (i : S100000x128.Idx) : S1x128.Idx := fun a => match a with
  | ⟨0, _⟩ => ⟨0, Nat.one_pos⟩
  | ⟨1, _⟩ => ⟨(i 1).val, (i 1).isLt⟩
theorem val_main_v57_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S100000x128.Idx) :
    val_main_v57 (F := F) x0 x1 x3 x4 i = val_main_v56 (F := F) x0 x1 x3 x4 (idx_main_v57 i) := by
  unfold val_main_v57
  generalize val_main_v56 (F := F) x0 x1 x3 x4 = y
  exact broadcastInDim_apply _ bcast_S1x128_S100000x128_0_1 y i (idx_main_v57 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v58 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  subf (val_main_v52 (F := F) x0 x1 x3 x4) (val_main_v57 (F := F) x0 x1 x3 x4)
theorem val_main_v58_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S100000x128.Idx) :
    val_main_v58 (F := F) x0 x1 x3 x4 i = FloatOps.subf (val_main_v52 (F := F) x0 x1 x3 x4 i) (val_main_v57 (F := F) x0 x1 x3 x4 i) := rfl

def val_main_v59 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  mulf (val_main_v58 (F := F) x0 x1 x3 x4) (val_main_v58 (F := F) x0 x1 x3 x4)
theorem val_main_v59_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S100000x128.Idx) :
    val_main_v59 (F := F) x0 x1 x3 x4 i = FloatOps.mulf (val_main_v58 (F := F) x0 x1 x3 x4 i) (val_main_v58 (F := F) x0 x1 x3 x4 i) := rfl

def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

def val_main_v60 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S128, .f32⟩ : BufTy).Contents (Elt F) :=
  Host.reduceAdd (val_main_v59 (F := F) x0 x1 x3 x4) (val_main_cst_11 (F := F)) reducesTo_S100000x128_S128_d0 h_S_
abbrev idx_main_v60 (i : S128.Idx) (k : Fin 100000) : S100000x128.Idx := fun a => match a with
  | ⟨0, _⟩ => ⟨k.val, k.isLt⟩
  | ⟨1, _⟩ => ⟨(i 0).val, (i 0).isLt⟩

theorem val_main_v60_apply (x0 : (⟨S100000x128, .f32⟩ : BufTy).Contents (Elt Ideal)) (x1 : (⟨S2x800000, .i32⟩ : BufTy).Contents (Elt Ideal)) (x3 : (⟨S3x128x128, .f32⟩ : BufTy).Contents (Elt Ideal)) (x4 : (⟨S3x128, .f32⟩ : BufTy).Contents (Elt Ideal)) (i : S128.Idx) :
    val_main_v60 (F := Ideal) x0 x1 x3 x4 i = (val_main_cst_11 (F := Ideal)) (Shape.Idx.first h_S_) + ∑ k : Fin 100000, (val_main_v59 (F := Ideal) x0 x1 x3 x4) (idx_main_v60 i k) := by
  unfold val_main_v60
  generalize val_main_v59 (F := Ideal) x0 x1 x3 x4 = y0
  simp only [Host.reduceAdd, Ideal.hostReduceAdd_def]
  rw [Ideal.hostReduceAdd_single reducesTo_S100000x128_S128_d0 (by decide)]
  refine congrArg (_ + ·) (Finset.sum_congr rfl fun k _ => ?_)
  exact congrArg y0 (funext fun a => Fin.ext (by match a with | ⟨0, _⟩ => rfl | ⟨1, _⟩ => rfl))

def val_main_cst_12 : (⟨S_, .f32⟩ : BufTy).Contents (Elt F) :=
  constant S_ .f32 0x47C35000#32
theorem val_main_cst_12_apply (i : S_.Idx) :
    val_main_cst_12 (F := F) i = FloatOps.ofBits .f32 0x47C35000#32 := rfl

def val_main_v61 : (⟨S128, .f32⟩ : BufTy).Contents (Elt F) :=
  broadcastInDim S128 ![] bcast_S_S128 (val_main_cst_12 (F := F))
abbrev idx_main_v61 (i : S128.Idx) : S_.Idx := fun a => a.elim0
theorem val_main_v61_apply (i : S128.Idx) :
    val_main_v61 (F := F) i = val_main_cst_12 (F := F) (idx_main_v61 i) := by
  unfold val_main_v61
  generalize val_main_cst_12 (F := F) = y
  exact broadcastInDim_apply _ bcast_S_S128 y i (idx_main_v61 i) (fun a => a.elim0)

def val_main_v62 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S128, .f32⟩ : BufTy).Contents (Elt F) :=
  Host.divf (val_main_v60 (F := F) x0 x1 x3 x4) (val_main_v61 (F := F))
theorem val_main_v62_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S128.Idx) :
    val_main_v62 (F := F) x0 x1 x3 x4 i = FloatOps.hostDivf (val_main_v60 (F := F) x0 x1 x3 x4 i) (val_main_v61 (F := F) i) := rfl

def val_main_v63 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S1x128, .f32⟩ : BufTy).Contents (Elt F) :=
  broadcastInDim S1x128 ![1] bcast_S128_S1x128_1 (val_main_v55 (F := F) x0 x1 x3 x4)

def val_main_v64 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  broadcastInDim S100000x128 ![0, 1] bcast_S1x128_S100000x128_0_1 (val_main_v63 (F := F) x0 x1 x3 x4)
abbrev idx_main_v64 (i : S100000x128.Idx) : S1x128.Idx := fun a => match a with
  | ⟨0, _⟩ => ⟨0, Nat.one_pos⟩
  | ⟨1, _⟩ => ⟨(i 1).val, (i 1).isLt⟩
theorem val_main_v64_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S100000x128.Idx) :
    val_main_v64 (F := F) x0 x1 x3 x4 i = val_main_v63 (F := F) x0 x1 x3 x4 (idx_main_v64 i) := by
  unfold val_main_v64
  generalize val_main_v63 (F := F) x0 x1 x3 x4 = y
  exact broadcastInDim_apply _ bcast_S1x128_S100000x128_0_1 y i (idx_main_v64 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v65 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  subf (val_main_v52 (F := F) x0 x1 x3 x4) (val_main_v64 (F := F) x0 x1 x3 x4)
theorem val_main_v65_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S100000x128.Idx) :
    val_main_v65 (F := F) x0 x1 x3 x4 i = FloatOps.subf (val_main_v52 (F := F) x0 x1 x3 x4 i) (val_main_v64 (F := F) x0 x1 x3 x4 i) := rfl

def val_main_cst_13 : (⟨S_, .f32⟩ : BufTy).Contents (Elt F) :=
  constant S_ .f32 0x3727C5AC#32
theorem val_main_cst_13_apply (i : S_.Idx) :
    val_main_cst_13 (F := F) i = FloatOps.ofBits .f32 0x3727C5AC#32 := rfl

def val_main_v66 : (⟨S128, .f32⟩ : BufTy).Contents (Elt F) :=
  broadcastInDim S128 ![] bcast_S_S128 (val_main_cst_13 (F := F))
abbrev idx_main_v66 (i : S128.Idx) : S_.Idx := fun a => a.elim0
theorem val_main_v66_apply (i : S128.Idx) :
    val_main_v66 (F := F) i = val_main_cst_13 (F := F) (idx_main_v66 i) := by
  unfold val_main_v66
  generalize val_main_cst_13 (F := F) = y
  exact broadcastInDim_apply _ bcast_S_S128 y i (idx_main_v66 i) (fun a => a.elim0)

def val_main_v67 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S128, .f32⟩ : BufTy).Contents (Elt F) :=
  addf (val_main_v62 (F := F) x0 x1 x3 x4) (val_main_v66 (F := F))
theorem val_main_v67_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S128.Idx) :
    val_main_v67 (F := F) x0 x1 x3 x4 i = FloatOps.addf (val_main_v62 (F := F) x0 x1 x3 x4 i) (val_main_v66 (F := F) i) := rfl

def val_main_v68 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S128, .f32⟩ : BufTy).Contents (Elt F) :=
  Host.rsqrt (val_main_v67 (F := F) x0 x1 x3 x4)
theorem val_main_v68_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S128.Idx) :
    val_main_v68 (F := F) x0 x1 x3 x4 i = FloatOps.hostUnary .rsqrt (val_main_v67 (F := F) x0 x1 x3 x4 i) := rfl

def val_main_v69 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S1x128, .f32⟩ : BufTy).Contents (Elt F) :=
  broadcastInDim S1x128 ![1] bcast_S128_S1x128_1 (val_main_v68 (F := F) x0 x1 x3 x4)
abbrev idx_main_v69 (i : S1x128.Idx) : S128.Idx := fun a => match a with
  | ⟨0, _⟩ => ⟨(i 1).val, (i 1).isLt⟩
theorem val_main_v69_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S1x128.Idx) :
    val_main_v69 (F := F) x0 x1 x3 x4 i = val_main_v68 (F := F) x0 x1 x3 x4 (idx_main_v69 i) := by
  unfold val_main_v69
  generalize val_main_v68 (F := F) x0 x1 x3 x4 = y
  exact broadcastInDim_apply _ bcast_S128_S1x128_1 y i (idx_main_v69 i) (fun a => match a with
    | ⟨0, _⟩ => by show (i 1).val = if (128 : Nat) = 1 then 0 else (i 1).val; rw [if_neg (by decide)])

def val_main_v70 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  broadcastInDim S100000x128 ![0, 1] bcast_S1x128_S100000x128_0_1 (val_main_v69 (F := F) x0 x1 x3 x4)
abbrev idx_main_v70 (i : S100000x128.Idx) : S1x128.Idx := fun a => match a with
  | ⟨0, _⟩ => ⟨0, Nat.one_pos⟩
  | ⟨1, _⟩ => ⟨(i 1).val, (i 1).isLt⟩
theorem val_main_v70_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S100000x128.Idx) :
    val_main_v70 (F := F) x0 x1 x3 x4 i = val_main_v69 (F := F) x0 x1 x3 x4 (idx_main_v70 i) := by
  unfold val_main_v70
  generalize val_main_v69 (F := F) x0 x1 x3 x4 = y
  exact broadcastInDim_apply _ bcast_S1x128_S100000x128_0_1 y i (idx_main_v70 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v71 (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  mulf (val_main_v65 (F := F) x0 x1 x3 x4) (val_main_v70 (F := F) x0 x1 x3 x4)
theorem val_main_v71_apply (x0 : (⟨S100000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (i : S100000x128.Idx) :
    val_main_v71 (F := F) x0 x1 x3 x4 i = FloatOps.mulf (val_main_v65 (F := F) x0 x1 x3 x4 i) (val_main_v70 (F := F) x0 x1 x3 x4 i) := rfl

def val_main_v72 (x5 : (⟨S3x128, .f32⟩ : BufTy).Contents (Elt F)) : (⟨S1x128, .f32⟩ : BufTy).Contents (Elt F) :=
  extractStridedSlice S1x128 ![0, 0] (x5) slices_S3x128_S1x128_0_0
abbrev idx_main_v72 (i : S1x128.Idx) : S3x128.Idx := fun a => match a with
  | ⟨0, _⟩ => ⟨(i 0).val, by have h0 : (i 0).val < 1 := (i 0).isLt; show (i 0).val < 3; omega⟩
  | ⟨1, _⟩ => ⟨(i 1).val, (i 1).isLt⟩
theorem val_main_v72_apply (x5 : (⟨S3x128, .f32⟩ : BufTy).Contents (Elt F)) (i : S1x128.Idx) :
    val_main_v72 (F := F) x5 i = x5 (idx_main_v72 i) := by
  unfold val_main_v72
  exact extractStridedSlice_apply ![0, 0] x5 slices_S3x128_S1x128_0_0 i (idx_main_v72 i) (fun a => match a with
    | ⟨0, _⟩ => by show (i 0).val = 0 + (i 0).val; omega
    | ⟨1, _⟩ => by show (i 1).val = 0 + (i 1).val; omega)

def val_main_v73 (x5 : (⟨S3x128, .f32⟩ : BufTy).Contents (Elt F)) : (⟨S128, .f32⟩ : BufTy).Contents (Elt F) :=
  shapeCast _ (val_main_v72 (F := F) x5) shapeCasts_S1x128_S128
abbrev idx_main_v73 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v73_apply (x5 : (⟨S3x128, .f32⟩ : BufTy).Contents (Elt F)) (i : S128.Idx) :
    val_main_v73 (F := F) x5 i = val_main_v72 (F := F) x5 (idx_main_v73 i) := by
  unfold val_main_v73
  generalize val_main_v72 (F := F) x5 = y
  exact shapeCast_apply y shapeCasts_S1x128_S128 i (idx_main_v73 i)
    (by rewrite [Shape.rowMajor_val_two, Shape.rowMajor_val_one]; have h0 : (i 0).val < 128 := (i 0).isLt; show 0 * 128 + ((i 0).val) % 128 = (i 0).val; omega)

def val_main_v74 (x5 : (⟨S3x128, .f32⟩ : BufTy).Contents (Elt F)) : (⟨S1x128, .f32⟩ : BufTy).Contents (Elt F) :=
  broadcastInDim S1x128 ![1] bcast_S128_S1x128_1 (val_main_v73 (F := F) x5)
abbrev idx_main_v74 (i : S1x128.Idx) : S128.Idx := fun a => match a with
  | ⟨0, _⟩ => ⟨(i 1).val, (i 1).isLt⟩
theorem val_main_v74_apply (x5 : (⟨S3x128, .f32⟩ : BufTy).Contents (Elt F)) (i : S1x128.Idx) :
    val_main_v74 (F := F) x5 i = val_main_v73 (F := F) x5 (idx_main_v74 i) := by
  unfold val_main_v74
  generalize val_main_v73 (F := F) x5 = y
  exact broadcastInDim_apply _ bcast_S128_S1x128_1 y i (idx_main_v74 i) (fun a => match a with
    | ⟨0, _⟩ => by show (i 1).val = if (128 : Nat) = 1 then 0 else (i 1).val; rw [if_neg (by decide)])

def val_main_v75 (x5 : (⟨S3x128, .f32⟩ : BufTy).Contents (Elt F)) : (⟨S100000x128, .f32⟩ : BufTy).Contents (Elt F) :=
  broadcastInDim S100000x128 ![0, 1] bcast_S1x128_S100000x128_0_1 (val_main_v74 (F := F) x5)
abbrev idx_main_v75 (i : S100000x128.Idx) : S1x128.Idx := fun a => match a with
  | ⟨0, _⟩ => ⟨0, Nat.one_pos⟩
  | ⟨1, _⟩ => ⟨(i 1).val, (i 1).isLt⟩
theorem val_main_v75_apply (x5 : (⟨S3x128, .f32⟩ : BufTy).Contents (Elt F)) (i : S100000x128.Idx) :
    val_main_v75 (F := F) x5 i = val_main_v74 (F := F) x5 (idx_main_v75 i) := by
  unfold val_main_v75
  generalize val_main_v74 (F := F) x5 = y
  exact broadcastInDim_apply _ bcast_S1x128_S100000x128_0_1 y i (idx_main_v75 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v76 (x0 : (⟨S100000x128, .f32⟩ : BufTy).Contents (Elt F)) (x1 : (⟨S2x800000, .i32⟩ : BufTy).Contents (Elt F)) (x3 : (⟨S3x128x128, .f32⟩ : BufTy).Contents (Elt F)) (x4 x5 : (⟨S3x128, .f32⟩ : BufTy).Contents (Elt F)) : (⟨S100000x128, .f32⟩ : BufTy).Contents (Elt F) :=
  mulf (val_main_v71 (F := F) x0 x1 x3 x4) (val_main_v75 (F := F) x5)
theorem val_main_v76_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 : (⟨S3x128, .f32⟩ : BufTy).Contents (Elt F)) (i : S100000x128.Idx) :
    val_main_v76 (F := F) x0 x1 x3 x4 x5 i = FloatOps.mulf (val_main_v71 (F := F) x0 x1 x3 x4 i) (val_main_v75 (F := F) x5 i) := rfl

def val_main_v77 (x6 : (⟨S3x128, .f32⟩ : BufTy).Contents (Elt F)) : (⟨S1x128, .f32⟩ : BufTy).Contents (Elt F) :=
  extractStridedSlice S1x128 ![0, 0] (x6) slices_S3x128_S1x128_0_0
abbrev idx_main_v77 (i : S1x128.Idx) : S3x128.Idx := fun a => match a with
  | ⟨0, _⟩ => ⟨(i 0).val, by have h0 : (i 0).val < 1 := (i 0).isLt; show (i 0).val < 3; omega⟩
  | ⟨1, _⟩ => ⟨(i 1).val, (i 1).isLt⟩
theorem val_main_v77_apply (x6 : (⟨S3x128, .f32⟩ : BufTy).Contents (Elt F)) (i : S1x128.Idx) :
    val_main_v77 (F := F) x6 i = x6 (idx_main_v77 i) := by
  unfold val_main_v77
  exact extractStridedSlice_apply ![0, 0] x6 slices_S3x128_S1x128_0_0 i (idx_main_v77 i) (fun a => match a with
    | ⟨0, _⟩ => by show (i 0).val = 0 + (i 0).val; omega
    | ⟨1, _⟩ => by show (i 1).val = 0 + (i 1).val; omega)

def val_main_v78 (x6 : (⟨S3x128, .f32⟩ : BufTy).Contents (Elt F)) : (⟨S128, .f32⟩ : BufTy).Contents (Elt F) :=
  shapeCast _ (val_main_v77 (F := F) x6) shapeCasts_S1x128_S128
abbrev idx_main_v78 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v78_apply (x6 : (⟨S3x128, .f32⟩ : BufTy).Contents (Elt F)) (i : S128.Idx) :
    val_main_v78 (F := F) x6 i = val_main_v77 (F := F) x6 (idx_main_v78 i) := by
  unfold val_main_v78
  generalize val_main_v77 (F := F) x6 = y
  exact shapeCast_apply y shapeCasts_S1x128_S128 i (idx_main_v78 i)
    (by rewrite [Shape.rowMajor_val_two, Shape.rowMajor_val_one]; have h0 : (i 0).val < 128 := (i 0).isLt; show 0 * 128 + ((i 0).val) % 128 = (i 0).val; omega)

def val_main_v79 (x6 : (⟨S3x128, .f32⟩ : BufTy).Contents (Elt F)) : (⟨S1x128, .f32⟩ : BufTy).Contents (Elt F) :=
  broadcastInDim S1x128 ![1] bcast_S128_S1x128_1 (val_main_v78 (F := F) x6)
abbrev idx_main_v79 (i : S1x128.Idx) : S128.Idx := fun a => match a with
  | ⟨0, _⟩ => ⟨(i 1).val, (i 1).isLt⟩
theorem val_main_v79_apply (x6 : (⟨S3x128, .f32⟩ : BufTy).Contents (Elt F)) (i : S1x128.Idx) :
    val_main_v79 (F := F) x6 i = val_main_v78 (F := F) x6 (idx_main_v79 i) := by
  unfold val_main_v79
  generalize val_main_v78 (F := F) x6 = y
  exact broadcastInDim_apply _ bcast_S128_S1x128_1 y i (idx_main_v79 i) (fun a => match a with
    | ⟨0, _⟩ => by show (i 1).val = if (128 : Nat) = 1 then 0 else (i 1).val; rw [if_neg (by decide)])

def val_main_v80 (x6 : (⟨S3x128, .f32⟩ : BufTy).Contents (Elt F)) : (⟨S100000x128, .f32⟩ : BufTy).Contents (Elt F) :=
  broadcastInDim S100000x128 ![0, 1] bcast_S1x128_S100000x128_0_1 (val_main_v79 (F := F) x6)
abbrev idx_main_v80 (i : S100000x128.Idx) : S1x128.Idx := fun a => match a with
  | ⟨0, _⟩ => ⟨0, Nat.one_pos⟩
  | ⟨1, _⟩ => ⟨(i 1).val, (i 1).isLt⟩
theorem val_main_v80_apply (x6 : (⟨S3x128, .f32⟩ : BufTy).Contents (Elt F)) (i : S100000x128.Idx) :
    val_main_v80 (F := F) x6 i = val_main_v79 (F := F) x6 (idx_main_v80 i) := by
  unfold val_main_v80
  generalize val_main_v79 (F := F) x6 = y
  exact broadcastInDim_apply _ bcast_S1x128_S100000x128_0_1 y i (idx_main_v80 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v81 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  addf (val_main_v76 (F := F) x0 x1 x3 x4 x5) (val_main_v80 (F := F) x6)
theorem val_main_v81_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v81 (F := F) x0 x1 x3 x4 x5 x6 i = FloatOps.addf (val_main_v76 (F := F) x0 x1 x3 x4 x5 i) (val_main_v80 (F := F) x6 i) := rfl

def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

def val_main_call0_v0 : (⟨S100000x128, .f32⟩ : BufTy).Contents (Elt F) :=
  broadcastInDim S100000x128 ![] bcast_S_S100000x128 (val_main_call0_cst (F := F))
abbrev idx_main_call0_v0 (i : S100000x128.Idx) : S_.Idx := fun a => a.elim0
theorem val_main_call0_v0_apply (i : S100000x128.Idx) :
    val_main_call0_v0 (F := F) i = val_main_call0_cst (F := F) (idx_main_call0_v0 i) := by
  unfold val_main_call0_v0
  generalize val_main_call0_cst (F := F) = y
  exact broadcastInDim_apply _ bcast_S_S100000x128 y i (idx_main_call0_v0 i) (fun a => a.elim0)

def val_main_v82 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  maximumf (val_main_v81 (F := F) x0 x1 x3 x4 x5 x6) (val_main_call0_v0 (F := F))
theorem val_main_v82_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v82 (F := F) x0 x1 x3 x4 x5 x6 i = FloatOps.maximumf (val_main_v81 (F := F) x0 x1 x3 x4 x5 x6 i) (val_main_call0_v0 (F := F) i) := rfl

def val_main_v83 (x3 : (⟨S3x128x128, .f32⟩ : BufTy).Contents (Elt F)) : (⟨S1x128x128, .f32⟩ : BufTy).Contents (Elt F) :=
  extractStridedSlice S1x128x128 ![1, 0, 0] (x3) slices_S3x128x128_S1x128x128_1_0_0

def val_main_v84 (x3 : (⟨S3x128x128, .f32⟩ : BufTy).Contents (Elt F)) : (⟨S128x128, .f32⟩ : BufTy).Contents (Elt F) :=
  shapeCast _ (val_main_v83 (F := F) x3) shapeCasts_S1x128x128_S128x128

def val_main_v85 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  Host.dotGeneral dot_S100000x128_S128x128_S100000x128_1_0_0_1_n_n none (val_main_v82 (F := F) x0 x1 x3 x4 x5 x6) (val_main_v84 (F := F) x3)
theorem lhs_main_v85_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v85_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v85_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v85_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v85 (i : S100000x128.Idx) (k : Fin 128) : S100000x128.Idx := fun a => match a with
  | ⟨0, _⟩ => ⟨(i 0).val, (i 0).isLt⟩
  | ⟨1, _⟩ => ⟨k.val, k.isLt⟩
abbrev ridx_main_v85 (i : S100000x128.Idx) (k : Fin 128) : S128x128.Idx := fun a => match a with
  | ⟨0, _⟩ => ⟨k.val, k.isLt⟩
  | ⟨1, _⟩ => ⟨(i 1).val, (i 1).isLt⟩

theorem val_main_v85_apply (x0 : (⟨S100000x128, .f32⟩ : BufTy).Contents (Elt Ideal)) (x1 : (⟨S2x800000, .i32⟩ : BufTy).Contents (Elt Ideal)) (x3 : (⟨S3x128x128, .f32⟩ : BufTy).Contents (Elt Ideal)) (x4 x5 x6 : (⟨S3x128, .f32⟩ : BufTy).Contents (Elt Ideal)) (i : S100000x128.Idx) :
    val_main_v85 (F := Ideal) x0 x1 x3 x4 x5 x6 i = ∑ k : Fin 128, (val_main_v82 (F := Ideal) x0 x1 x3 x4 x5 x6) (lidx_main_v85 i k) * (val_main_v84 (F := Ideal) x3) (ridx_main_v85 i k) := by
  unfold val_main_v85
  generalize val_main_v82 (F := Ideal) x0 x1 x3 x4 x5 x6 = y0
  generalize val_main_v84 (F := Ideal) x3 = y1
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v85 i k := funext fun a => Fin.ext (by
    match a with
    | ⟨0, _⟩ => exact lhs_main_v85_0 _ _
    | ⟨1, _⟩ => exact (lhs_main_v85_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v85 i k := funext fun a => Fin.ext (by
    match a with
    | ⟨0, _⟩ => exact (rhs_main_v85_0 _ _).trans hk
    | ⟨1, _⟩ => exact rhs_main_v85_1 _ _)
  rw [el, er]

def val_main_c_14 : (⟨S_, .i32⟩ : BufTy).Contents (Elt F) :=
  constantI S_ 32 0#32

def val_main_v86 : (⟨S800000, .i32⟩ : BufTy).Contents (Elt F) :=
  broadcastInDim S800000 ![] bcast_S_S800000 (val_main_c_14 (F := F))

def val_main_v87 (x1 : (⟨S2x800000, .i32⟩ : BufTy).Contents (Elt F)) : (⟨S800000, .i1⟩ : BufTy).Contents (Elt F) :=
  cmpi .slt (val_main_v1 (F := F) x1) (val_main_v86 (F := F))

def val_main_c_15 : (⟨S_, .i32⟩ : BufTy).Contents (Elt F) :=
  constantI S_ 32 100000#32

def val_main_v88 : (⟨S800000, .i32⟩ : BufTy).Contents (Elt F) :=
  broadcastInDim S800000 ![] bcast_S_S800000 (val_main_c_15 (F := F))

def val_main_v89 (x1 : (⟨S2x800000, .i32⟩ : BufTy).Contents (Elt F)) : (⟨S800000, .i32⟩ : BufTy).Contents (Elt F) :=
  addi (val_main_v1 (F := F) x1) (val_main_v88 (F := F))

def val_main_v90 (x1 : (⟨S2x800000, .i32⟩ : BufTy).Contents (Elt F)) : (⟨S800000, .i32⟩ : BufTy).Contents (Elt F) :=
  select (val_main_v87 (F := F) x1) (val_main_v89 (F := F) x1) (val_main_v1 (F := F) x1)

def val_main_v91 (x1 : (⟨S2x800000, .i32⟩ : BufTy).Contents (Elt F)) : (⟨S800000x1, .i32⟩ : BufTy).Contents (Elt F) :=
  broadcastInDim S800000x1 ![0] bcast_S800000_S800000x1_0 (val_main_v90 (F := F) x1)

def val_main_v92 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S800000x128, .f32⟩ : BufTy).Contents (Elt F) :=
  Host.gather gather_S100000x128_S800000x1_S800000x128_1_0_n_n_0_1_1128 (val_main_v85 (F := F) x0 x1 x3 x4 x5 x6) (val_main_v91 (F := F) x1)

def val_main_v93 (x1 : (⟨S2x800000, .i32⟩ : BufTy).Contents (Elt F)) : (⟨S800000x128, .f32⟩ : BufTy).Contents (Elt F) :=
  broadcastInDim S800000x128 ![0, 1] bcast_S800000x1_S800000x128_0_1 (val_main_v26 (F := F) x1)

def val_main_v94 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S800000x128, .f32⟩ : BufTy).Contents (Elt F) :=
  mulf (val_main_v93 (F := F) x1) (val_main_v92 (F := F) x0 x1 x3 x4 x5 x6)

def val_main_cst_16 : (⟨S_, .f32⟩ : BufTy).Contents (Elt F) :=
  constant S_ .f32 0x00000000#32

def val_main_v95 : (⟨S100000x128, .f32⟩ : BufTy).Contents (Elt F) :=
  broadcastInDim S100000x128 ![] bcast_S_S100000x128 (val_main_cst_16 (F := F))

def val_main_v96 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v97 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  Host.scatterAdd scatter_S100000x128_S800000x1_S800000x128_1_0_0_1 (val_main_v95 (F := F)) (val_main_v96 (F := F) x1) (val_main_v94 (F := F) x0 x1 x3 x4 x5 x6)

def val_main_v98 (x1 : (⟨S2x800000, .i32⟩ : BufTy).Contents (Elt F)) : (⟨S100000x128, .f32⟩ : BufTy).Contents (Elt F) :=
  broadcastInDim S100000x128 ![0, 1] bcast_S100000x1_S100000x128_0_1 (val_main_v29 (F := F) x1)
abbrev idx_main_v98 (i : S100000x128.Idx) : S100000x1.Idx := fun a => match a with
  | ⟨0, _⟩ => ⟨(i 0).val, (i 0).isLt⟩
  | ⟨1, _⟩ => ⟨0, Nat.one_pos⟩
theorem val_main_v98_apply (x1 : (⟨S2x800000, .i32⟩ : BufTy).Contents (Elt F)) (i : S100000x128.Idx) :
    val_main_v98 (F := F) x1 i = val_main_v29 (F := F) x1 (idx_main_v98 i) := by
  unfold val_main_v98
  generalize val_main_v29 (F := F) x1 = y
  exact broadcastInDim_apply _ bcast_S100000x1_S100000x128_0_1 y i (idx_main_v98 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_v99 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  mulf (val_main_v85 (F := F) x0 x1 x3 x4 x5 x6) (val_main_v98 (F := F) x1)
theorem val_main_v99_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v99 (F := F) x0 x1 x3 x4 x5 x6 i = FloatOps.mulf (val_main_v85 (F := F) x0 x1 x3 x4 x5 x6 i) (val_main_v98 (F := F) x1 i) := rfl

def val_main_v100 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  addf (val_main_v97 (F := F) x0 x1 x3 x4 x5 x6) (val_main_v99 (F := F) x0 x1 x3 x4 x5 x6)
theorem val_main_v100_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v100 (F := F) x0 x1 x3 x4 x5 x6 i = FloatOps.addf (val_main_v97 (F := F) x0 x1 x3 x4 x5 x6 i) (val_main_v99 (F := F) x0 x1 x3 x4 x5 x6 i) := rfl

def val_main_v101 (x4 : (⟨S3x128, .f32⟩ : BufTy).Contents (Elt F)) : (⟨S1x128, .f32⟩ : BufTy).Contents (Elt F) :=
  extractStridedSlice S1x128 ![1, 0] (x4) slices_S3x128_S1x128_1_0
abbrev idx_main_v101 (i : S1x128.Idx) : S3x128.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
theorem val_main_v101_apply (x4 : (⟨S3x128, .f32⟩ : BufTy).Contents (Elt F)) (i : S1x128.Idx) :
    val_main_v101 (F := F) x4 i = x4 (idx_main_v101 i) := by
  unfold val_main_v101
  exact extractStridedSlice_apply ![1, 0] x4 slices_S3x128_S1x128_1_0 i (idx_main_v101 i) (fun a => match a with
    | ⟨0, _⟩ => by show 1 + (i 0).val = 1 + (i 0).val; omega
    | ⟨1, _⟩ => by show (i 1).val = 0 + (i 1).val; omega)

def val_main_v102 (x4 : (⟨S3x128, .f32⟩ : BufTy).Contents (Elt F)) : (⟨S128, .f32⟩ : BufTy).Contents (Elt F) :=
  shapeCast _ (val_main_v101 (F := F) x4) shapeCasts_S1x128_S128
abbrev idx_main_v102 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v102_apply (x4 : (⟨S3x128, .f32⟩ : BufTy).Contents (Elt F)) (i : S128.Idx) :
    val_main_v102 (F := F) x4 i = val_main_v101 (F := F) x4 (idx_main_v102 i) := by
  unfold val_main_v102
  generalize val_main_v101 (F := F) x4 = y
  exact shapeCast_apply y shapeCasts_S1x128_S128 i (idx_main_v102 i)
    (by rewrite [Shape.rowMajor_val_two, Shape.rowMajor_val_one]; have h0 : (i 0).val < 128 := (i 0).isLt; show 0 * 128 + ((i 0).val) % 128 = (i 0).val; omega)

def val_main_v103 (x4 : (⟨S3x128, .f32⟩ : BufTy).Contents (Elt F)) : (⟨S1x128, .f32⟩ : BufTy).Contents (Elt F) :=
  broadcastInDim S1x128 ![1] bcast_S128_S1x128_1 (val_main_v102 (F := F) x4)
abbrev idx_main_v103 (i : S1x128.Idx) : S128.Idx := fun a => match a with
  | ⟨0, _⟩ => ⟨(i 1).val, (i 1).isLt⟩
theorem val_main_v103_apply (x4 : (⟨S3x128, .f32⟩ : BufTy).Contents (Elt F)) (i : S1x128.Idx) :
    val_main_v103 (F := F) x4 i = val_main_v102 (F := F) x4 (idx_main_v103 i) := by
  unfold val_main_v103
  generalize val_main_v102 (F := F) x4 = y
  exact broadcastInDim_apply _ bcast_S128_S1x128_1 y i (idx_main_v103 i) (fun a => match a with
    | ⟨0, _⟩ => by show (i 1).val = if (128 : Nat) = 1 then 0 else (i 1).val; rw [if_neg (by decide)])

def val_main_v104 (x4 : (⟨S3x128, .f32⟩ : BufTy).Contents (Elt F)) : (⟨S100000x128, .f32⟩ : BufTy).Contents (Elt F) :=
  broadcastInDim S100000x128 ![0, 1] bcast_S1x128_S100000x128_0_1 (val_main_v103 (F := F) x4)
abbrev idx_main_v104 (i : S100000x128.Idx) : S1x128.Idx := fun a => match a with
  | ⟨0, _⟩ => ⟨0, Nat.one_pos⟩
  | ⟨1, _⟩ => ⟨(i 1).val, (i 1).isLt⟩
theorem val_main_v104_apply (x4 : (⟨S3x128, .f32⟩ : BufTy).Contents (Elt F)) (i : S100000x128.Idx) :
    val_main_v104 (F := F) x4 i = val_main_v103 (F := F) x4 (idx_main_v104 i) := by
  unfold val_main_v104
  generalize val_main_v103 (F := F) x4 = y
  exact broadcastInDim_apply _ bcast_S1x128_S100000x128_0_1 y i (idx_main_v104 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v105 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  addf (val_main_v100 (F := F) x0 x1 x3 x4 x5 x6) (val_main_v104 (F := F) x4)
theorem val_main_v105_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v105 (F := F) x0 x1 x3 x4 x5 x6 i = FloatOps.addf (val_main_v100 (F := F) x0 x1 x3 x4 x5 x6 i) (val_main_v104 (F := F) x4 i) := rfl

def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

def val_main_v106 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S128, .f32⟩ : BufTy).Contents (Elt F) :=
  Host.reduceAdd (val_main_v105 (F := F) x0 x1 x3 x4 x5 x6) (val_main_cst_17 (F := F)) reducesTo_S100000x128_S128_d0 h_S_
abbrev idx_main_v106 (i : S128.Idx) (k : Fin 100000) : S100000x128.Idx := fun a => match a with
  | ⟨0, _⟩ => ⟨k.val, k.isLt⟩
  | ⟨1, _⟩ => ⟨(i 0).val, (i 0).isLt⟩

theorem val_main_v106_apply (x0 : (⟨S100000x128, .f32⟩ : BufTy).Contents (Elt Ideal)) (x1 : (⟨S2x800000, .i32⟩ : BufTy).Contents (Elt Ideal)) (x3 : (⟨S3x128x128, .f32⟩ : BufTy).Contents (Elt Ideal)) (x4 x5 x6 : (⟨S3x128, .f32⟩ : BufTy).Contents (Elt Ideal)) (i : S128.Idx) :
    val_main_v106 (F := Ideal) x0 x1 x3 x4 x5 x6 i = (val_main_cst_17 (F := Ideal)) (Shape.Idx.first h_S_) + ∑ k : Fin 100000, (val_main_v105 (F := Ideal) x0 x1 x3 x4 x5 x6) (idx_main_v106 i k) := by
  unfold val_main_v106
  generalize val_main_v105 (F := Ideal) x0 x1 x3 x4 x5 x6 = y0
  simp only [Host.reduceAdd, Ideal.hostReduceAdd_def]
  rw [Ideal.hostReduceAdd_single reducesTo_S100000x128_S128_d0 (by decide)]
  refine congrArg (_ + ·) (Finset.sum_congr rfl fun k _ => ?_)
  exact congrArg y0 (funext fun a => Fin.ext (by match a with | ⟨0, _⟩ => rfl | ⟨1, _⟩ => rfl))

def val_main_cst_18 : (⟨S_, .f32⟩ : BufTy).Contents (Elt F) :=
  constant S_ .f32 0x47C35000#32
theorem val_main_cst_18_apply (i : S_.Idx) :
    val_main_cst_18 (F := F) i = FloatOps.ofBits .f32 0x47C35000#32 := rfl

def val_main_v107 : (⟨S128, .f32⟩ : BufTy).Contents (Elt F) :=
  broadcastInDim S128 ![] bcast_S_S128 (val_main_cst_18 (F := F))
abbrev idx_main_v107 (i : S128.Idx) : S_.Idx := fun a => a.elim0
theorem val_main_v107_apply (i : S128.Idx) :
    val_main_v107 (F := F) i = val_main_cst_18 (F := F) (idx_main_v107 i) := by
  unfold val_main_v107
  generalize val_main_cst_18 (F := F) = y
  exact broadcastInDim_apply _ bcast_S_S128 y i (idx_main_v107 i) (fun a => a.elim0)

def val_main_v108 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S128, .f32⟩ : BufTy).Contents (Elt F) :=
  Host.divf (val_main_v106 (F := F) x0 x1 x3 x4 x5 x6) (val_main_v107 (F := F))
theorem val_main_v108_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S128.Idx) :
    val_main_v108 (F := F) x0 x1 x3 x4 x5 x6 i = FloatOps.hostDivf (val_main_v106 (F := F) x0 x1 x3 x4 x5 x6 i) (val_main_v107 (F := F) i) := rfl

def val_main_v109 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S1x128, .f32⟩ : BufTy).Contents (Elt F) :=
  broadcastInDim S1x128 ![1] bcast_S128_S1x128_1 (val_main_v108 (F := F) x0 x1 x3 x4 x5 x6)
abbrev idx_main_v109 (i : S1x128.Idx) : S128.Idx := fun a => match a with
  | ⟨0, _⟩ => ⟨(i 1).val, (i 1).isLt⟩
theorem val_main_v109_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S1x128.Idx) :
    val_main_v109 (F := F) x0 x1 x3 x4 x5 x6 i = val_main_v108 (F := F) x0 x1 x3 x4 x5 x6 (idx_main_v109 i) := by
  unfold val_main_v109
  generalize val_main_v108 (F := F) x0 x1 x3 x4 x5 x6 = y
  exact broadcastInDim_apply _ bcast_S128_S1x128_1 y i (idx_main_v109 i) (fun a => match a with
    | ⟨0, _⟩ => by show (i 1).val = if (128 : Nat) = 1 then 0 else (i 1).val; rw [if_neg (by decide)])

def val_main_v110 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  broadcastInDim S100000x128 ![0, 1] bcast_S1x128_S100000x128_0_1 (val_main_v109 (F := F) x0 x1 x3 x4 x5 x6)
abbrev idx_main_v110 (i : S100000x128.Idx) : S1x128.Idx := fun a => match a with
  | ⟨0, _⟩ => ⟨0, Nat.one_pos⟩
  | ⟨1, _⟩ => ⟨(i 1).val, (i 1).isLt⟩
theorem val_main_v110_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v110 (F := F) x0 x1 x3 x4 x5 x6 i = val_main_v109 (F := F) x0 x1 x3 x4 x5 x6 (idx_main_v110 i) := by
  unfold val_main_v110
  generalize val_main_v109 (F := F) x0 x1 x3 x4 x5 x6 = y
  exact broadcastInDim_apply _ bcast_S1x128_S100000x128_0_1 y i (idx_main_v110 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v111 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  subf (val_main_v105 (F := F) x0 x1 x3 x4 x5 x6) (val_main_v110 (F := F) x0 x1 x3 x4 x5 x6)
theorem val_main_v111_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v111 (F := F) x0 x1 x3 x4 x5 x6 i = FloatOps.subf (val_main_v105 (F := F) x0 x1 x3 x4 x5 x6 i) (val_main_v110 (F := F) x0 x1 x3 x4 x5 x6 i) := rfl

def val_main_v112 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  mulf (val_main_v111 (F := F) x0 x1 x3 x4 x5 x6) (val_main_v111 (F := F) x0 x1 x3 x4 x5 x6)
theorem val_main_v112_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v112 (F := F) x0 x1 x3 x4 x5 x6 i = FloatOps.mulf (val_main_v111 (F := F) x0 x1 x3 x4 x5 x6 i) (val_main_v111 (F := F) x0 x1 x3 x4 x5 x6 i) := rfl

def val_main_cst_19 : (⟨S_, .f32⟩ : BufTy).Contents (Elt F) :=
  constant S_ .f32 0x00000000#32
theorem val_main_cst_19_apply (i : S_.Idx) :
    val_main_cst_19 (F := F) i = FloatOps.ofBits .f32 0x00000000#32 := rfl

def val_main_v113 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S128, .f32⟩ : BufTy).Contents (Elt F) :=
  Host.reduceAdd (val_main_v112 (F := F) x0 x1 x3 x4 x5 x6) (val_main_cst_19 (F := F)) reducesTo_S100000x128_S128_d0 h_S_
abbrev idx_main_v113 (i : S128.Idx) (k : Fin 100000) : S100000x128.Idx := fun a => match a with
  | ⟨0, _⟩ => ⟨k.val, k.isLt⟩
  | ⟨1, _⟩ => ⟨(i 0).val, (i 0).isLt⟩

theorem val_main_v113_apply (x0 : (⟨S100000x128, .f32⟩ : BufTy).Contents (Elt Ideal)) (x1 : (⟨S2x800000, .i32⟩ : BufTy).Contents (Elt Ideal)) (x3 : (⟨S3x128x128, .f32⟩ : BufTy).Contents (Elt Ideal)) (x4 x5 x6 : (⟨S3x128, .f32⟩ : BufTy).Contents (Elt Ideal)) (i : S128.Idx) :
    val_main_v113 (F := Ideal) x0 x1 x3 x4 x5 x6 i = (val_main_cst_19 (F := Ideal)) (Shape.Idx.first h_S_) + ∑ k : Fin 100000, (val_main_v112 (F := Ideal) x0 x1 x3 x4 x5 x6) (idx_main_v113 i k) := by
  unfold val_main_v113
  generalize val_main_v112 (F := Ideal) x0 x1 x3 x4 x5 x6 = y0
  simp only [Host.reduceAdd, Ideal.hostReduceAdd_def]
  rw [Ideal.hostReduceAdd_single reducesTo_S100000x128_S128_d0 (by decide)]
  refine congrArg (_ + ·) (Finset.sum_congr rfl fun k _ => ?_)
  exact congrArg y0 (funext fun a => Fin.ext (by match a with | ⟨0, _⟩ => rfl | ⟨1, _⟩ => rfl))

def val_main_cst_20 : (⟨S_, .f32⟩ : BufTy).Contents (Elt F) :=
  constant S_ .f32 0x47C35000#32
theorem val_main_cst_20_apply (i : S_.Idx) :
    val_main_cst_20 (F := F) i = FloatOps.ofBits .f32 0x47C35000#32 := rfl

def val_main_v114 : (⟨S128, .f32⟩ : BufTy).Contents (Elt F) :=
  broadcastInDim S128 ![] bcast_S_S128 (val_main_cst_20 (F := F))
abbrev idx_main_v114 (i : S128.Idx) : S_.Idx := fun a => a.elim0
theorem val_main_v114_apply (i : S128.Idx) :
    val_main_v114 (F := F) i = val_main_cst_20 (F := F) (idx_main_v114 i) := by
  unfold val_main_v114
  generalize val_main_cst_20 (F := F) = y
  exact broadcastInDim_apply _ bcast_S_S128 y i (idx_main_v114 i) (fun a => a.elim0)

def val_main_v115 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S128, .f32⟩ : BufTy).Contents (Elt F) :=
  Host.divf (val_main_v113 (F := F) x0 x1 x3 x4 x5 x6) (val_main_v114 (F := F))
theorem val_main_v115_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S128.Idx) :
    val_main_v115 (F := F) x0 x1 x3 x4 x5 x6 i = FloatOps.hostDivf (val_main_v113 (F := F) x0 x1 x3 x4 x5 x6 i) (val_main_v114 (F := F) i) := rfl

def val_main_v116 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S1x128, .f32⟩ : BufTy).Contents (Elt F) :=
  broadcastInDim S1x128 ![1] bcast_S128_S1x128_1 (val_main_v108 (F := F) x0 x1 x3 x4 x5 x6)

def val_main_v117 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  broadcastInDim S100000x128 ![0, 1] bcast_S1x128_S100000x128_0_1 (val_main_v116 (F := F) x0 x1 x3 x4 x5 x6)
abbrev idx_main_v117 (i : S100000x128.Idx) : S1x128.Idx := fun a => match a with
  | ⟨0, _⟩ => ⟨0, Nat.one_pos⟩
  | ⟨1, _⟩ => ⟨(i 1).val, (i 1).isLt⟩
theorem val_main_v117_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v117 (F := F) x0 x1 x3 x4 x5 x6 i = val_main_v116 (F := F) x0 x1 x3 x4 x5 x6 (idx_main_v117 i) := by
  unfold val_main_v117
  generalize val_main_v116 (F := F) x0 x1 x3 x4 x5 x6 = y
  exact broadcastInDim_apply _ bcast_S1x128_S100000x128_0_1 y i (idx_main_v117 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v118 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  subf (val_main_v105 (F := F) x0 x1 x3 x4 x5 x6) (val_main_v117 (F := F) x0 x1 x3 x4 x5 x6)
theorem val_main_v118_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v118 (F := F) x0 x1 x3 x4 x5 x6 i = FloatOps.subf (val_main_v105 (F := F) x0 x1 x3 x4 x5 x6 i) (val_main_v117 (F := F) x0 x1 x3 x4 x5 x6 i) := rfl

def val_main_cst_21 : (⟨S_, .f32⟩ : BufTy).Contents (Elt F) :=
  constant S_ .f32 0x3727C5AC#32
theorem val_main_cst_21_apply (i : S_.Idx) :
    val_main_cst_21 (F := F) i = FloatOps.ofBits .f32 0x3727C5AC#32 := rfl

def val_main_v119 : (⟨S128, .f32⟩ : BufTy).Contents (Elt F) :=
  broadcastInDim S128 ![] bcast_S_S128 (val_main_cst_21 (F := F))
abbrev idx_main_v119 (i : S128.Idx) : S_.Idx := fun a => a.elim0
theorem val_main_v119_apply (i : S128.Idx) :
    val_main_v119 (F := F) i = val_main_cst_21 (F := F) (idx_main_v119 i) := by
  unfold val_main_v119
  generalize val_main_cst_21 (F := F) = y
  exact broadcastInDim_apply _ bcast_S_S128 y i (idx_main_v119 i) (fun a => a.elim0)

def val_main_v120 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S128, .f32⟩ : BufTy).Contents (Elt F) :=
  addf (val_main_v115 (F := F) x0 x1 x3 x4 x5 x6) (val_main_v119 (F := F))
theorem val_main_v120_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S128.Idx) :
    val_main_v120 (F := F) x0 x1 x3 x4 x5 x6 i = FloatOps.addf (val_main_v115 (F := F) x0 x1 x3 x4 x5 x6 i) (val_main_v119 (F := F) i) := rfl

def val_main_v121 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S128, .f32⟩ : BufTy).Contents (Elt F) :=
  Host.rsqrt (val_main_v120 (F := F) x0 x1 x3 x4 x5 x6)
theorem val_main_v121_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S128.Idx) :
    val_main_v121 (F := F) x0 x1 x3 x4 x5 x6 i = FloatOps.hostUnary .rsqrt (val_main_v120 (F := F) x0 x1 x3 x4 x5 x6 i) := rfl

def val_main_v122 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S1x128, .f32⟩ : BufTy).Contents (Elt F) :=
  broadcastInDim S1x128 ![1] bcast_S128_S1x128_1 (val_main_v121 (F := F) x0 x1 x3 x4 x5 x6)
abbrev idx_main_v122 (i : S1x128.Idx) : S128.Idx := fun a => match a with
  | ⟨0, _⟩ => ⟨(i 1).val, (i 1).isLt⟩
theorem val_main_v122_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S1x128.Idx) :
    val_main_v122 (F := F) x0 x1 x3 x4 x5 x6 i = val_main_v121 (F := F) x0 x1 x3 x4 x5 x6 (idx_main_v122 i) := by
  unfold val_main_v122
  generalize val_main_v121 (F := F) x0 x1 x3 x4 x5 x6 = y
  exact broadcastInDim_apply _ bcast_S128_S1x128_1 y i (idx_main_v122 i) (fun a => match a with
    | ⟨0, _⟩ => by show (i 1).val = if (128 : Nat) = 1 then 0 else (i 1).val; rw [if_neg (by decide)])

def val_main_v123 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  broadcastInDim S100000x128 ![0, 1] bcast_S1x128_S100000x128_0_1 (val_main_v122 (F := F) x0 x1 x3 x4 x5 x6)
abbrev idx_main_v123 (i : S100000x128.Idx) : S1x128.Idx := fun a => match a with
  | ⟨0, _⟩ => ⟨0, Nat.one_pos⟩
  | ⟨1, _⟩ => ⟨(i 1).val, (i 1).isLt⟩
theorem val_main_v123_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v123 (F := F) x0 x1 x3 x4 x5 x6 i = val_main_v122 (F := F) x0 x1 x3 x4 x5 x6 (idx_main_v123 i) := by
  unfold val_main_v123
  generalize val_main_v122 (F := F) x0 x1 x3 x4 x5 x6 = y
  exact broadcastInDim_apply _ bcast_S1x128_S100000x128_0_1 y i (idx_main_v123 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v124 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  mulf (val_main_v118 (F := F) x0 x1 x3 x4 x5 x6) (val_main_v123 (F := F) x0 x1 x3 x4 x5 x6)
theorem val_main_v124_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v124 (F := F) x0 x1 x3 x4 x5 x6 i = FloatOps.mulf (val_main_v118 (F := F) x0 x1 x3 x4 x5 x6 i) (val_main_v123 (F := F) x0 x1 x3 x4 x5 x6 i) := rfl

def val_main_v125 (x5 : (⟨S3x128, .f32⟩ : BufTy).Contents (Elt F)) : (⟨S1x128, .f32⟩ : BufTy).Contents (Elt F) :=
  extractStridedSlice S1x128 ![1, 0] (x5) slices_S3x128_S1x128_1_0
abbrev idx_main_v125 (i : S1x128.Idx) : S3x128.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
theorem val_main_v125_apply (x5 : (⟨S3x128, .f32⟩ : BufTy).Contents (Elt F)) (i : S1x128.Idx) :
    val_main_v125 (F := F) x5 i = x5 (idx_main_v125 i) := by
  unfold val_main_v125
  exact extractStridedSlice_apply ![1, 0] x5 slices_S3x128_S1x128_1_0 i (idx_main_v125 i) (fun a => match a with
    | ⟨0, _⟩ => by show 1 + (i 0).val = 1 + (i 0).val; omega
    | ⟨1, _⟩ => by show (i 1).val = 0 + (i 1).val; omega)

def val_main_v126 (x5 : (⟨S3x128, .f32⟩ : BufTy).Contents (Elt F)) : (⟨S128, .f32⟩ : BufTy).Contents (Elt F) :=
  shapeCast _ (val_main_v125 (F := F) x5) shapeCasts_S1x128_S128
abbrev idx_main_v126 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v126_apply (x5 : (⟨S3x128, .f32⟩ : BufTy).Contents (Elt F)) (i : S128.Idx) :
    val_main_v126 (F := F) x5 i = val_main_v125 (F := F) x5 (idx_main_v126 i) := by
  unfold val_main_v126
  generalize val_main_v125 (F := F) x5 = y
  exact shapeCast_apply y shapeCasts_S1x128_S128 i (idx_main_v126 i)
    (by rewrite [Shape.rowMajor_val_two, Shape.rowMajor_val_one]; have h0 : (i 0).val < 128 := (i 0).isLt; show 0 * 128 + ((i 0).val) % 128 = (i 0).val; omega)

def val_main_v127 (x5 : (⟨S3x128, .f32⟩ : BufTy).Contents (Elt F)) : (⟨S1x128, .f32⟩ : BufTy).Contents (Elt F) :=
  broadcastInDim S1x128 ![1] bcast_S128_S1x128_1 (val_main_v126 (F := F) x5)
abbrev idx_main_v127 (i : S1x128.Idx) : S128.Idx := fun a => match a with
  | ⟨0, _⟩ => ⟨(i 1).val, (i 1).isLt⟩
theorem val_main_v127_apply (x5 : (⟨S3x128, .f32⟩ : BufTy).Contents (Elt F)) (i : S1x128.Idx) :
    val_main_v127 (F := F) x5 i = val_main_v126 (F := F) x5 (idx_main_v127 i) := by
  unfold val_main_v127
  generalize val_main_v126 (F := F) x5 = y
  exact broadcastInDim_apply _ bcast_S128_S1x128_1 y i (idx_main_v127 i) (fun a => match a with
    | ⟨0, _⟩ => by show (i 1).val = if (128 : Nat) = 1 then 0 else (i 1).val; rw [if_neg (by decide)])

def val_main_v128 (x5 : (⟨S3x128, .f32⟩ : BufTy).Contents (Elt F)) : (⟨S100000x128, .f32⟩ : BufTy).Contents (Elt F) :=
  broadcastInDim S100000x128 ![0, 1] bcast_S1x128_S100000x128_0_1 (val_main_v127 (F := F) x5)
abbrev idx_main_v128 (i : S100000x128.Idx) : S1x128.Idx := fun a => match a with
  | ⟨0, _⟩ => ⟨0, Nat.one_pos⟩
  | ⟨1, _⟩ => ⟨(i 1).val, (i 1).isLt⟩
theorem val_main_v128_apply (x5 : (⟨S3x128, .f32⟩ : BufTy).Contents (Elt F)) (i : S100000x128.Idx) :
    val_main_v128 (F := F) x5 i = val_main_v127 (F := F) x5 (idx_main_v128 i) := by
  unfold val_main_v128
  generalize val_main_v127 (F := F) x5 = y
  exact broadcastInDim_apply _ bcast_S1x128_S100000x128_0_1 y i (idx_main_v128 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v129 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  mulf (val_main_v124 (F := F) x0 x1 x3 x4 x5 x6) (val_main_v128 (F := F) x5)
theorem val_main_v129_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v129 (F := F) x0 x1 x3 x4 x5 x6 i = FloatOps.mulf (val_main_v124 (F := F) x0 x1 x3 x4 x5 x6 i) (val_main_v128 (F := F) x5 i) := rfl

def val_main_v130 (x6 : (⟨S3x128, .f32⟩ : BufTy).Contents (Elt F)) : (⟨S1x128, .f32⟩ : BufTy).Contents (Elt F) :=
  extractStridedSlice S1x128 ![1, 0] (x6) slices_S3x128_S1x128_1_0
abbrev idx_main_v130 (i : S1x128.Idx) : S3x128.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
theorem val_main_v130_apply (x6 : (⟨S3x128, .f32⟩ : BufTy).Contents (Elt F)) (i : S1x128.Idx) :
    val_main_v130 (F := F) x6 i = x6 (idx_main_v130 i) := by
  unfold val_main_v130
  exact extractStridedSlice_apply ![1, 0] x6 slices_S3x128_S1x128_1_0 i (idx_main_v130 i) (fun a => match a with
    | ⟨0, _⟩ => by show 1 + (i 0).val = 1 + (i 0).val; omega
    | ⟨1, _⟩ => by show (i 1).val = 0 + (i 1).val; omega)

def val_main_v131 (x6 : (⟨S3x128, .f32⟩ : BufTy).Contents (Elt F)) : (⟨S128, .f32⟩ : BufTy).Contents (Elt F) :=
  shapeCast _ (val_main_v130 (F := F) x6) shapeCasts_S1x128_S128
abbrev idx_main_v131 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v131_apply (x6 : (⟨S3x128, .f32⟩ : BufTy).Contents (Elt F)) (i : S128.Idx) :
    val_main_v131 (F := F) x6 i = val_main_v130 (F := F) x6 (idx_main_v131 i) := by
  unfold val_main_v131
  generalize val_main_v130 (F := F) x6 = y
  exact shapeCast_apply y shapeCasts_S1x128_S128 i (idx_main_v131 i)
    (by rewrite [Shape.rowMajor_val_two, Shape.rowMajor_val_one]; have h0 : (i 0).val < 128 := (i 0).isLt; show 0 * 128 + ((i 0).val) % 128 = (i 0).val; omega)

def val_main_v132 (x6 : (⟨S3x128, .f32⟩ : BufTy).Contents (Elt F)) : (⟨S1x128, .f32⟩ : BufTy).Contents (Elt F) :=
  broadcastInDim S1x128 ![1] bcast_S128_S1x128_1 (val_main_v131 (F := F) x6)
abbrev idx_main_v132 (i : S1x128.Idx) : S128.Idx := fun a => match a with
  | ⟨0, _⟩ => ⟨(i 1).val, (i 1).isLt⟩
theorem val_main_v132_apply (x6 : (⟨S3x128, .f32⟩ : BufTy).Contents (Elt F)) (i : S1x128.Idx) :
    val_main_v132 (F := F) x6 i = val_main_v131 (F := F) x6 (idx_main_v132 i) := by
  unfold val_main_v132
  generalize val_main_v131 (F := F) x6 = y
  exact broadcastInDim_apply _ bcast_S128_S1x128_1 y i (idx_main_v132 i) (fun a => match a with
    | ⟨0, _⟩ => by show (i 1).val = if (128 : Nat) = 1 then 0 else (i 1).val; rw [if_neg (by decide)])

def val_main_v133 (x6 : (⟨S3x128, .f32⟩ : BufTy).Contents (Elt F)) : (⟨S100000x128, .f32⟩ : BufTy).Contents (Elt F) :=
  broadcastInDim S100000x128 ![0, 1] bcast_S1x128_S100000x128_0_1 (val_main_v132 (F := F) x6)
abbrev idx_main_v133 (i : S100000x128.Idx) : S1x128.Idx := fun a => match a with
  | ⟨0, _⟩ => ⟨0, Nat.one_pos⟩
  | ⟨1, _⟩ => ⟨(i 1).val, (i 1).isLt⟩
theorem val_main_v133_apply (x6 : (⟨S3x128, .f32⟩ : BufTy).Contents (Elt F)) (i : S100000x128.Idx) :
    val_main_v133 (F := F) x6 i = val_main_v132 (F := F) x6 (idx_main_v133 i) := by
  unfold val_main_v133
  generalize val_main_v132 (F := F) x6 = y
  exact broadcastInDim_apply _ bcast_S1x128_S100000x128_0_1 y i (idx_main_v133 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v134 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  addf (val_main_v129 (F := F) x0 x1 x3 x4 x5 x6) (val_main_v133 (F := F) x6)
theorem val_main_v134_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v134 (F := F) x0 x1 x3 x4 x5 x6 i = FloatOps.addf (val_main_v129 (F := F) x0 x1 x3 x4 x5 x6 i) (val_main_v133 (F := F) x6 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S100000x128, .f32⟩ : BufTy).Contents (Elt F) :=
  broadcastInDim S100000x128 ![] bcast_S_S100000x128 (val_main_call1_cst (F := F))
abbrev idx_main_call1_v0 (i : S100000x128.Idx) : S_.Idx := fun a => a.elim0
theorem val_main_call1_v0_apply (i : S100000x128.Idx) :
    val_main_call1_v0 (F := F) i = val_main_call1_cst (F := F) (idx_main_call1_v0 i) := by
  unfold val_main_call1_v0
  generalize val_main_call1_cst (F := F) = y
  exact broadcastInDim_apply _ bcast_S_S100000x128 y i (idx_main_call1_v0 i) (fun a => a.elim0)

def val_main_v135 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  maximumf (val_main_v134 (F := F) x0 x1 x3 x4 x5 x6) (val_main_call1_v0 (F := F))
theorem val_main_v135_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v135 (F := F) x0 x1 x3 x4 x5 x6 i = FloatOps.maximumf (val_main_v134 (F := F) x0 x1 x3 x4 x5 x6 i) (val_main_call1_v0 (F := F) i) := rfl

def val_main_v136 (x3 : (⟨S3x128x128, .f32⟩ : BufTy).Contents (Elt F)) : (⟨S1x128x128, .f32⟩ : BufTy).Contents (Elt F) :=
  extractStridedSlice S1x128x128 ![2, 0, 0] (x3) slices_S3x128x128_S1x128x128_2_0_0

def val_main_v137 (x3 : (⟨S3x128x128, .f32⟩ : BufTy).Contents (Elt F)) : (⟨S128x128, .f32⟩ : BufTy).Contents (Elt F) :=
  shapeCast _ (val_main_v136 (F := F) x3) shapeCasts_S1x128x128_S128x128

def val_main_v138 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  Host.dotGeneral dot_S100000x128_S128x128_S100000x128_1_0_0_1_n_n none (val_main_v135 (F := F) x0 x1 x3 x4 x5 x6) (val_main_v137 (F := F) x3)
theorem lhs_main_v138_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v138_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v138_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v138_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v138 (i : S100000x128.Idx) (k : Fin 128) : S100000x128.Idx := fun a => match a with
  | ⟨0, _⟩ => ⟨(i 0).val, (i 0).isLt⟩
  | ⟨1, _⟩ => ⟨k.val, k.isLt⟩
abbrev ridx_main_v138 (i : S100000x128.Idx) (k : Fin 128) : S128x128.Idx := fun a => match a with
  | ⟨0, _⟩ => ⟨k.val, k.isLt⟩
  | ⟨1, _⟩ => ⟨(i 1).val, (i 1).isLt⟩

theorem val_main_v138_apply (x0 : (⟨S100000x128, .f32⟩ : BufTy).Contents (Elt Ideal)) (x1 : (⟨S2x800000, .i32⟩ : BufTy).Contents (Elt Ideal)) (x3 : (⟨S3x128x128, .f32⟩ : BufTy).Contents (Elt Ideal)) (x4 x5 x6 : (⟨S3x128, .f32⟩ : BufTy).Contents (Elt Ideal)) (i : S100000x128.Idx) :
    val_main_v138 (F := Ideal) x0 x1 x3 x4 x5 x6 i = ∑ k : Fin 128, (val_main_v135 (F := Ideal) x0 x1 x3 x4 x5 x6) (lidx_main_v138 i k) * (val_main_v137 (F := Ideal) x3) (ridx_main_v138 i k) := by
  unfold val_main_v138
  generalize val_main_v135 (F := Ideal) x0 x1 x3 x4 x5 x6 = y0
  generalize val_main_v137 (F := Ideal) x3 = y1
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v138 i k := funext fun a => Fin.ext (by
    match a with
    | ⟨0, _⟩ => exact lhs_main_v138_0 _ _
    | ⟨1, _⟩ => exact (lhs_main_v138_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v138 i k := funext fun a => Fin.ext (by
    match a with
    | ⟨0, _⟩ => exact (rhs_main_v138_0 _ _).trans hk
    | ⟨1, _⟩ => exact rhs_main_v138_1 _ _)
  rw [el, er]

def val_main_c_22 : (⟨S_, .i32⟩ : BufTy).Contents (Elt F) :=
  constantI S_ 32 0#32

def val_main_v139 : (⟨S800000, .i32⟩ : BufTy).Contents (Elt F) :=
  broadcastInDim S800000 ![] bcast_S_S800000 (val_main_c_22 (F := F))

def val_main_v140 (x1 : (⟨S2x800000, .i32⟩ : BufTy).Contents (Elt F)) : (⟨S800000, .i1⟩ : BufTy).Contents (Elt F) :=
  cmpi .slt (val_main_v1 (F := F) x1) (val_main_v139 (F := F))

def val_main_c_23 : (⟨S_, .i32⟩ : BufTy).Contents (Elt F) :=
  constantI S_ 32 100000#32

def val_main_v141 : (⟨S800000, .i32⟩ : BufTy).Contents (Elt F) :=
  broadcastInDim S800000 ![] bcast_S_S800000 (val_main_c_23 (F := F))

def val_main_v142 (x1 : (⟨S2x800000, .i32⟩ : BufTy).Contents (Elt F)) : (⟨S800000, .i32⟩ : BufTy).Contents (Elt F) :=
  addi (val_main_v1 (F := F) x1) (val_main_v141 (F := F))

def val_main_v143 (x1 : (⟨S2x800000, .i32⟩ : BufTy).Contents (Elt F)) : (⟨S800000, .i32⟩ : BufTy).Contents (Elt F) :=
  select (val_main_v140 (F := F) x1) (val_main_v142 (F := F) x1) (val_main_v1 (F := F) x1)

def val_main_v144 (x1 : (⟨S2x800000, .i32⟩ : BufTy).Contents (Elt F)) : (⟨S800000x1, .i32⟩ : BufTy).Contents (Elt F) :=
  broadcastInDim S800000x1 ![0] bcast_S800000_S800000x1_0 (val_main_v143 (F := F) x1)

def val_main_v145 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S800000x128, .f32⟩ : BufTy).Contents (Elt F) :=
  Host.gather gather_S100000x128_S800000x1_S800000x128_1_0_n_n_0_1_1128 (val_main_v138 (F := F) x0 x1 x3 x4 x5 x6) (val_main_v144 (F := F) x1)

def val_main_v146 (x1 : (⟨S2x800000, .i32⟩ : BufTy).Contents (Elt F)) : (⟨S800000x128, .f32⟩ : BufTy).Contents (Elt F) :=
  broadcastInDim S800000x128 ![0, 1] bcast_S800000x1_S800000x128_0_1 (val_main_v26 (F := F) x1)

def val_main_v147 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S800000x128, .f32⟩ : BufTy).Contents (Elt F) :=
  mulf (val_main_v146 (F := F) x1) (val_main_v145 (F := F) x0 x1 x3 x4 x5 x6)

def val_main_cst_24 : (⟨S_, .f32⟩ : BufTy).Contents (Elt F) :=
  constant S_ .f32 0x00000000#32

def val_main_v148 : (⟨S100000x128, .f32⟩ : BufTy).Contents (Elt F) :=
  broadcastInDim S100000x128 ![] bcast_S_S100000x128 (val_main_cst_24 (F := F))

def val_main_v149 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v150 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  Host.scatterAdd scatter_S100000x128_S800000x1_S800000x128_1_0_0_1 (val_main_v148 (F := F)) (val_main_v149 (F := F) x1) (val_main_v147 (F := F) x0 x1 x3 x4 x5 x6)

def val_main_v151 (x1 : (⟨S2x800000, .i32⟩ : BufTy).Contents (Elt F)) : (⟨S100000x128, .f32⟩ : BufTy).Contents (Elt F) :=
  broadcastInDim S100000x128 ![0, 1] bcast_S100000x1_S100000x128_0_1 (val_main_v29 (F := F) x1)
abbrev idx_main_v151 (i : S100000x128.Idx) : S100000x1.Idx := fun a => match a with
  | ⟨0, _⟩ => ⟨(i 0).val, (i 0).isLt⟩
  | ⟨1, _⟩ => ⟨0, Nat.one_pos⟩
theorem val_main_v151_apply (x1 : (⟨S2x800000, .i32⟩ : BufTy).Contents (Elt F)) (i : S100000x128.Idx) :
    val_main_v151 (F := F) x1 i = val_main_v29 (F := F) x1 (idx_main_v151 i) := by
  unfold val_main_v151
  generalize val_main_v29 (F := F) x1 = y
  exact broadcastInDim_apply _ bcast_S100000x1_S100000x128_0_1 y i (idx_main_v151 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_v152 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  mulf (val_main_v138 (F := F) x0 x1 x3 x4 x5 x6) (val_main_v151 (F := F) x1)
theorem val_main_v152_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v152 (F := F) x0 x1 x3 x4 x5 x6 i = FloatOps.mulf (val_main_v138 (F := F) x0 x1 x3 x4 x5 x6 i) (val_main_v151 (F := F) x1 i) := rfl

def val_main_v153 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  addf (val_main_v150 (F := F) x0 x1 x3 x4 x5 x6) (val_main_v152 (F := F) x0 x1 x3 x4 x5 x6)
theorem val_main_v153_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v153 (F := F) x0 x1 x3 x4 x5 x6 i = FloatOps.addf (val_main_v150 (F := F) x0 x1 x3 x4 x5 x6 i) (val_main_v152 (F := F) x0 x1 x3 x4 x5 x6 i) := rfl

def val_main_v154 (x4 : (⟨S3x128, .f32⟩ : BufTy).Contents (Elt F)) : (⟨S1x128, .f32⟩ : BufTy).Contents (Elt F) :=
  extractStridedSlice S1x128 ![2, 0] (x4) slices_S3x128_S1x128_2_0
abbrev idx_main_v154 (i : S1x128.Idx) : S3x128.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
theorem val_main_v154_apply (x4 : (⟨S3x128, .f32⟩ : BufTy).Contents (Elt F)) (i : S1x128.Idx) :
    val_main_v154 (F := F) x4 i = x4 (idx_main_v154 i) := by
  unfold val_main_v154
  exact extractStridedSlice_apply ![2, 0] x4 slices_S3x128_S1x128_2_0 i (idx_main_v154 i) (fun a => match a with
    | ⟨0, _⟩ => by show 2 + (i 0).val = 2 + (i 0).val; omega
    | ⟨1, _⟩ => by show (i 1).val = 0 + (i 1).val; omega)

def val_main_v155 (x4 : (⟨S3x128, .f32⟩ : BufTy).Contents (Elt F)) : (⟨S128, .f32⟩ : BufTy).Contents (Elt F) :=
  shapeCast _ (val_main_v154 (F := F) x4) shapeCasts_S1x128_S128
abbrev idx_main_v155 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v155_apply (x4 : (⟨S3x128, .f32⟩ : BufTy).Contents (Elt F)) (i : S128.Idx) :
    val_main_v155 (F := F) x4 i = val_main_v154 (F := F) x4 (idx_main_v155 i) := by
  unfold val_main_v155
  generalize val_main_v154 (F := F) x4 = y
  exact shapeCast_apply y shapeCasts_S1x128_S128 i (idx_main_v155 i)
    (by rewrite [Shape.rowMajor_val_two, Shape.rowMajor_val_one]; have h0 : (i 0).val < 128 := (i 0).isLt; show 0 * 128 + ((i 0).val) % 128 = (i 0).val; omega)

def val_main_v156 (x4 : (⟨S3x128, .f32⟩ : BufTy).Contents (Elt F)) : (⟨S1x128, .f32⟩ : BufTy).Contents (Elt F) :=
  broadcastInDim S1x128 ![1] bcast_S128_S1x128_1 (val_main_v155 (F := F) x4)
abbrev idx_main_v156 (i : S1x128.Idx) : S128.Idx := fun a => match a with
  | ⟨0, _⟩ => ⟨(i 1).val, (i 1).isLt⟩
theorem val_main_v156_apply (x4 : (⟨S3x128, .f32⟩ : BufTy).Contents (Elt F)) (i : S1x128.Idx) :
    val_main_v156 (F := F) x4 i = val_main_v155 (F := F) x4 (idx_main_v156 i) := by
  unfold val_main_v156
  generalize val_main_v155 (F := F) x4 = y
  exact broadcastInDim_apply _ bcast_S128_S1x128_1 y i (idx_main_v156 i) (fun a => match a with
    | ⟨0, _⟩ => by show (i 1).val = if (128 : Nat) = 1 then 0 else (i 1).val; rw [if_neg (by decide)])

def val_main_v157 (x4 : (⟨S3x128, .f32⟩ : BufTy).Contents (Elt F)) : (⟨S100000x128, .f32⟩ : BufTy).Contents (Elt F) :=
  broadcastInDim S100000x128 ![0, 1] bcast_S1x128_S100000x128_0_1 (val_main_v156 (F := F) x4)
abbrev idx_main_v157 (i : S100000x128.Idx) : S1x128.Idx := fun a => match a with
  | ⟨0, _⟩ => ⟨0, Nat.one_pos⟩
  | ⟨1, _⟩ => ⟨(i 1).val, (i 1).isLt⟩
theorem val_main_v157_apply (x4 : (⟨S3x128, .f32⟩ : BufTy).Contents (Elt F)) (i : S100000x128.Idx) :
    val_main_v157 (F := F) x4 i = val_main_v156 (F := F) x4 (idx_main_v157 i) := by
  unfold val_main_v157
  generalize val_main_v156 (F := F) x4 = y
  exact broadcastInDim_apply _ bcast_S1x128_S100000x128_0_1 y i (idx_main_v157 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v158 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  addf (val_main_v153 (F := F) x0 x1 x3 x4 x5 x6) (val_main_v157 (F := F) x4)
theorem val_main_v158_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v158 (F := F) x0 x1 x3 x4 x5 x6 i = FloatOps.addf (val_main_v153 (F := F) x0 x1 x3 x4 x5 x6 i) (val_main_v157 (F := F) x4 i) := rfl

def val_main_cst_25 : (⟨S_, .f32⟩ : BufTy).Contents (Elt F) :=
  constant S_ .f32 0x00000000#32
theorem val_main_cst_25_apply (i : S_.Idx) :
    val_main_cst_25 (F := F) i = FloatOps.ofBits .f32 0x00000000#32 := rfl

def val_main_v159 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S128, .f32⟩ : BufTy).Contents (Elt F) :=
  Host.reduceAdd (val_main_v158 (F := F) x0 x1 x3 x4 x5 x6) (val_main_cst_25 (F := F)) reducesTo_S100000x128_S128_d0 h_S_
abbrev idx_main_v159 (i : S128.Idx) (k : Fin 100000) : S100000x128.Idx := fun a => match a with
  | ⟨0, _⟩ => ⟨k.val, k.isLt⟩
  | ⟨1, _⟩ => ⟨(i 0).val, (i 0).isLt⟩

theorem val_main_v159_apply (x0 : (⟨S100000x128, .f32⟩ : BufTy).Contents (Elt Ideal)) (x1 : (⟨S2x800000, .i32⟩ : BufTy).Contents (Elt Ideal)) (x3 : (⟨S3x128x128, .f32⟩ : BufTy).Contents (Elt Ideal)) (x4 x5 x6 : (⟨S3x128, .f32⟩ : BufTy).Contents (Elt Ideal)) (i : S128.Idx) :
    val_main_v159 (F := Ideal) x0 x1 x3 x4 x5 x6 i = (val_main_cst_25 (F := Ideal)) (Shape.Idx.first h_S_) + ∑ k : Fin 100000, (val_main_v158 (F := Ideal) x0 x1 x3 x4 x5 x6) (idx_main_v159 i k) := by
  unfold val_main_v159
  generalize val_main_v158 (F := Ideal) x0 x1 x3 x4 x5 x6 = y0
  simp only [Host.reduceAdd, Ideal.hostReduceAdd_def]
  rw [Ideal.hostReduceAdd_single reducesTo_S100000x128_S128_d0 (by decide)]
  refine congrArg (_ + ·) (Finset.sum_congr rfl fun k _ => ?_)
  exact congrArg y0 (funext fun a => Fin.ext (by match a with | ⟨0, _⟩ => rfl | ⟨1, _⟩ => rfl))

def val_main_cst_26 : (⟨S_, .f32⟩ : BufTy).Contents (Elt F) :=
  constant S_ .f32 0x47C35000#32
theorem val_main_cst_26_apply (i : S_.Idx) :
    val_main_cst_26 (F := F) i = FloatOps.ofBits .f32 0x47C35000#32 := rfl

def val_main_v160 : (⟨S128, .f32⟩ : BufTy).Contents (Elt F) :=
  broadcastInDim S128 ![] bcast_S_S128 (val_main_cst_26 (F := F))
abbrev idx_main_v160 (i : S128.Idx) : S_.Idx := fun a => a.elim0
theorem val_main_v160_apply (i : S128.Idx) :
    val_main_v160 (F := F) i = val_main_cst_26 (F := F) (idx_main_v160 i) := by
  unfold val_main_v160
  generalize val_main_cst_26 (F := F) = y
  exact broadcastInDim_apply _ bcast_S_S128 y i (idx_main_v160 i) (fun a => a.elim0)

def val_main_v161 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S128, .f32⟩ : BufTy).Contents (Elt F) :=
  Host.divf (val_main_v159 (F := F) x0 x1 x3 x4 x5 x6) (val_main_v160 (F := F))
theorem val_main_v161_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S128.Idx) :
    val_main_v161 (F := F) x0 x1 x3 x4 x5 x6 i = FloatOps.hostDivf (val_main_v159 (F := F) x0 x1 x3 x4 x5 x6 i) (val_main_v160 (F := F) i) := rfl

def val_main_v162 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S1x128, .f32⟩ : BufTy).Contents (Elt F) :=
  broadcastInDim S1x128 ![1] bcast_S128_S1x128_1 (val_main_v161 (F := F) x0 x1 x3 x4 x5 x6)
abbrev idx_main_v162 (i : S1x128.Idx) : S128.Idx := fun a => match a with
  | ⟨0, _⟩ => ⟨(i 1).val, (i 1).isLt⟩
theorem val_main_v162_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S1x128.Idx) :
    val_main_v162 (F := F) x0 x1 x3 x4 x5 x6 i = val_main_v161 (F := F) x0 x1 x3 x4 x5 x6 (idx_main_v162 i) := by
  unfold val_main_v162
  generalize val_main_v161 (F := F) x0 x1 x3 x4 x5 x6 = y
  exact broadcastInDim_apply _ bcast_S128_S1x128_1 y i (idx_main_v162 i) (fun a => match a with
    | ⟨0, _⟩ => by show (i 1).val = if (128 : Nat) = 1 then 0 else (i 1).val; rw [if_neg (by decide)])

def val_main_v163 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  broadcastInDim S100000x128 ![0, 1] bcast_S1x128_S100000x128_0_1 (val_main_v162 (F := F) x0 x1 x3 x4 x5 x6)
abbrev idx_main_v163 (i : S100000x128.Idx) : S1x128.Idx := fun a => match a with
  | ⟨0, _⟩ => ⟨0, Nat.one_pos⟩
  | ⟨1, _⟩ => ⟨(i 1).val, (i 1).isLt⟩
theorem val_main_v163_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v163 (F := F) x0 x1 x3 x4 x5 x6 i = val_main_v162 (F := F) x0 x1 x3 x4 x5 x6 (idx_main_v163 i) := by
  unfold val_main_v163
  generalize val_main_v162 (F := F) x0 x1 x3 x4 x5 x6 = y
  exact broadcastInDim_apply _ bcast_S1x128_S100000x128_0_1 y i (idx_main_v163 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v164 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  subf (val_main_v158 (F := F) x0 x1 x3 x4 x5 x6) (val_main_v163 (F := F) x0 x1 x3 x4 x5 x6)
theorem val_main_v164_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v164 (F := F) x0 x1 x3 x4 x5 x6 i = FloatOps.subf (val_main_v158 (F := F) x0 x1 x3 x4 x5 x6 i) (val_main_v163 (F := F) x0 x1 x3 x4 x5 x6 i) := rfl

def val_main_v165 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  mulf (val_main_v164 (F := F) x0 x1 x3 x4 x5 x6) (val_main_v164 (F := F) x0 x1 x3 x4 x5 x6)
theorem val_main_v165_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v165 (F := F) x0 x1 x3 x4 x5 x6 i = FloatOps.mulf (val_main_v164 (F := F) x0 x1 x3 x4 x5 x6 i) (val_main_v164 (F := F) x0 x1 x3 x4 x5 x6 i) := rfl

def val_main_cst_27 : (⟨S_, .f32⟩ : BufTy).Contents (Elt F) :=
  constant S_ .f32 0x00000000#32
theorem val_main_cst_27_apply (i : S_.Idx) :
    val_main_cst_27 (F := F) i = FloatOps.ofBits .f32 0x00000000#32 := rfl

def val_main_v166 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S128, .f32⟩ : BufTy).Contents (Elt F) :=
  Host.reduceAdd (val_main_v165 (F := F) x0 x1 x3 x4 x5 x6) (val_main_cst_27 (F := F)) reducesTo_S100000x128_S128_d0 h_S_
abbrev idx_main_v166 (i : S128.Idx) (k : Fin 100000) : S100000x128.Idx := fun a => match a with
  | ⟨0, _⟩ => ⟨k.val, k.isLt⟩
  | ⟨1, _⟩ => ⟨(i 0).val, (i 0).isLt⟩

theorem val_main_v166_apply (x0 : (⟨S100000x128, .f32⟩ : BufTy).Contents (Elt Ideal)) (x1 : (⟨S2x800000, .i32⟩ : BufTy).Contents (Elt Ideal)) (x3 : (⟨S3x128x128, .f32⟩ : BufTy).Contents (Elt Ideal)) (x4 x5 x6 : (⟨S3x128, .f32⟩ : BufTy).Contents (Elt Ideal)) (i : S128.Idx) :
    val_main_v166 (F := Ideal) x0 x1 x3 x4 x5 x6 i = (val_main_cst_27 (F := Ideal)) (Shape.Idx.first h_S_) + ∑ k : Fin 100000, (val_main_v165 (F := Ideal) x0 x1 x3 x4 x5 x6) (idx_main_v166 i k) := by
  unfold val_main_v166
  generalize val_main_v165 (F := Ideal) x0 x1 x3 x4 x5 x6 = y0
  simp only [Host.reduceAdd, Ideal.hostReduceAdd_def]
  rw [Ideal.hostReduceAdd_single reducesTo_S100000x128_S128_d0 (by decide)]
  refine congrArg (_ + ·) (Finset.sum_congr rfl fun k _ => ?_)
  exact congrArg y0 (funext fun a => Fin.ext (by match a with | ⟨0, _⟩ => rfl | ⟨1, _⟩ => rfl))

def val_main_cst_28 : (⟨S_, .f32⟩ : BufTy).Contents (Elt F) :=
  constant S_ .f32 0x47C35000#32
theorem val_main_cst_28_apply (i : S_.Idx) :
    val_main_cst_28 (F := F) i = FloatOps.ofBits .f32 0x47C35000#32 := rfl

def val_main_v167 : (⟨S128, .f32⟩ : BufTy).Contents (Elt F) :=
  broadcastInDim S128 ![] bcast_S_S128 (val_main_cst_28 (F := F))
abbrev idx_main_v167 (i : S128.Idx) : S_.Idx := fun a => a.elim0
theorem val_main_v167_apply (i : S128.Idx) :
    val_main_v167 (F := F) i = val_main_cst_28 (F := F) (idx_main_v167 i) := by
  unfold val_main_v167
  generalize val_main_cst_28 (F := F) = y
  exact broadcastInDim_apply _ bcast_S_S128 y i (idx_main_v167 i) (fun a => a.elim0)

def val_main_v168 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S128, .f32⟩ : BufTy).Contents (Elt F) :=
  Host.divf (val_main_v166 (F := F) x0 x1 x3 x4 x5 x6) (val_main_v167 (F := F))
theorem val_main_v168_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S128.Idx) :
    val_main_v168 (F := F) x0 x1 x3 x4 x5 x6 i = FloatOps.hostDivf (val_main_v166 (F := F) x0 x1 x3 x4 x5 x6 i) (val_main_v167 (F := F) i) := rfl

def val_main_v169 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S1x128, .f32⟩ : BufTy).Contents (Elt F) :=
  broadcastInDim S1x128 ![1] bcast_S128_S1x128_1 (val_main_v161 (F := F) x0 x1 x3 x4 x5 x6)

def val_main_v170 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  broadcastInDim S100000x128 ![0, 1] bcast_S1x128_S100000x128_0_1 (val_main_v169 (F := F) x0 x1 x3 x4 x5 x6)
abbrev idx_main_v170 (i : S100000x128.Idx) : S1x128.Idx := fun a => match a with
  | ⟨0, _⟩ => ⟨0, Nat.one_pos⟩
  | ⟨1, _⟩ => ⟨(i 1).val, (i 1).isLt⟩
theorem val_main_v170_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v170 (F := F) x0 x1 x3 x4 x5 x6 i = val_main_v169 (F := F) x0 x1 x3 x4 x5 x6 (idx_main_v170 i) := by
  unfold val_main_v170
  generalize val_main_v169 (F := F) x0 x1 x3 x4 x5 x6 = y
  exact broadcastInDim_apply _ bcast_S1x128_S100000x128_0_1 y i (idx_main_v170 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v171 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  subf (val_main_v158 (F := F) x0 x1 x3 x4 x5 x6) (val_main_v170 (F := F) x0 x1 x3 x4 x5 x6)
theorem val_main_v171_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v171 (F := F) x0 x1 x3 x4 x5 x6 i = FloatOps.subf (val_main_v158 (F := F) x0 x1 x3 x4 x5 x6 i) (val_main_v170 (F := F) x0 x1 x3 x4 x5 x6 i) := rfl

def val_main_cst_29 : (⟨S_, .f32⟩ : BufTy).Contents (Elt F) :=
  constant S_ .f32 0x3727C5AC#32
theorem val_main_cst_29_apply (i : S_.Idx) :
    val_main_cst_29 (F := F) i = FloatOps.ofBits .f32 0x3727C5AC#32 := rfl

def val_main_v172 : (⟨S128, .f32⟩ : BufTy).Contents (Elt F) :=
  broadcastInDim S128 ![] bcast_S_S128 (val_main_cst_29 (F := F))
abbrev idx_main_v172 (i : S128.Idx) : S_.Idx := fun a => a.elim0
theorem val_main_v172_apply (i : S128.Idx) :
    val_main_v172 (F := F) i = val_main_cst_29 (F := F) (idx_main_v172 i) := by
  unfold val_main_v172
  generalize val_main_cst_29 (F := F) = y
  exact broadcastInDim_apply _ bcast_S_S128 y i (idx_main_v172 i) (fun a => a.elim0)

def val_main_v173 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S128, .f32⟩ : BufTy).Contents (Elt F) :=
  addf (val_main_v168 (F := F) x0 x1 x3 x4 x5 x6) (val_main_v172 (F := F))
theorem val_main_v173_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S128.Idx) :
    val_main_v173 (F := F) x0 x1 x3 x4 x5 x6 i = FloatOps.addf (val_main_v168 (F := F) x0 x1 x3 x4 x5 x6 i) (val_main_v172 (F := F) i) := rfl

def val_main_v174 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S128, .f32⟩ : BufTy).Contents (Elt F) :=
  Host.rsqrt (val_main_v173 (F := F) x0 x1 x3 x4 x5 x6)
theorem val_main_v174_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S128.Idx) :
    val_main_v174 (F := F) x0 x1 x3 x4 x5 x6 i = FloatOps.hostUnary .rsqrt (val_main_v173 (F := F) x0 x1 x3 x4 x5 x6 i) := rfl

def val_main_v175 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S1x128, .f32⟩ : BufTy).Contents (Elt F) :=
  broadcastInDim S1x128 ![1] bcast_S128_S1x128_1 (val_main_v174 (F := F) x0 x1 x3 x4 x5 x6)
abbrev idx_main_v175 (i : S1x128.Idx) : S128.Idx := fun a => match a with
  | ⟨0, _⟩ => ⟨(i 1).val, (i 1).isLt⟩
theorem val_main_v175_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S1x128.Idx) :
    val_main_v175 (F := F) x0 x1 x3 x4 x5 x6 i = val_main_v174 (F := F) x0 x1 x3 x4 x5 x6 (idx_main_v175 i) := by
  unfold val_main_v175
  generalize val_main_v174 (F := F) x0 x1 x3 x4 x5 x6 = y
  exact broadcastInDim_apply _ bcast_S128_S1x128_1 y i (idx_main_v175 i) (fun a => match a with
    | ⟨0, _⟩ => by show (i 1).val = if (128 : Nat) = 1 then 0 else (i 1).val; rw [if_neg (by decide)])

def val_main_v176 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  broadcastInDim S100000x128 ![0, 1] bcast_S1x128_S100000x128_0_1 (val_main_v175 (F := F) x0 x1 x3 x4 x5 x6)
abbrev idx_main_v176 (i : S100000x128.Idx) : S1x128.Idx := fun a => match a with
  | ⟨0, _⟩ => ⟨0, Nat.one_pos⟩
  | ⟨1, _⟩ => ⟨(i 1).val, (i 1).isLt⟩
theorem val_main_v176_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v176 (F := F) x0 x1 x3 x4 x5 x6 i = val_main_v175 (F := F) x0 x1 x3 x4 x5 x6 (idx_main_v176 i) := by
  unfold val_main_v176
  generalize val_main_v175 (F := F) x0 x1 x3 x4 x5 x6 = y
  exact broadcastInDim_apply _ bcast_S1x128_S100000x128_0_1 y i (idx_main_v176 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v177 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  mulf (val_main_v171 (F := F) x0 x1 x3 x4 x5 x6) (val_main_v176 (F := F) x0 x1 x3 x4 x5 x6)
theorem val_main_v177_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v177 (F := F) x0 x1 x3 x4 x5 x6 i = FloatOps.mulf (val_main_v171 (F := F) x0 x1 x3 x4 x5 x6 i) (val_main_v176 (F := F) x0 x1 x3 x4 x5 x6 i) := rfl

def val_main_v178 (x5 : (⟨S3x128, .f32⟩ : BufTy).Contents (Elt F)) : (⟨S1x128, .f32⟩ : BufTy).Contents (Elt F) :=
  extractStridedSlice S1x128 ![2, 0] (x5) slices_S3x128_S1x128_2_0
abbrev idx_main_v178 (i : S1x128.Idx) : S3x128.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
theorem val_main_v178_apply (x5 : (⟨S3x128, .f32⟩ : BufTy).Contents (Elt F)) (i : S1x128.Idx) :
    val_main_v178 (F := F) x5 i = x5 (idx_main_v178 i) := by
  unfold val_main_v178
  exact extractStridedSlice_apply ![2, 0] x5 slices_S3x128_S1x128_2_0 i (idx_main_v178 i) (fun a => match a with
    | ⟨0, _⟩ => by show 2 + (i 0).val = 2 + (i 0).val; omega
    | ⟨1, _⟩ => by show (i 1).val = 0 + (i 1).val; omega)

def val_main_v179 (x5 : (⟨S3x128, .f32⟩ : BufTy).Contents (Elt F)) : (⟨S128, .f32⟩ : BufTy).Contents (Elt F) :=
  shapeCast _ (val_main_v178 (F := F) x5) shapeCasts_S1x128_S128
abbrev idx_main_v179 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v179_apply (x5 : (⟨S3x128, .f32⟩ : BufTy).Contents (Elt F)) (i : S128.Idx) :
    val_main_v179 (F := F) x5 i = val_main_v178 (F := F) x5 (idx_main_v179 i) := by
  unfold val_main_v179
  generalize val_main_v178 (F := F) x5 = y
  exact shapeCast_apply y shapeCasts_S1x128_S128 i (idx_main_v179 i)
    (by rewrite [Shape.rowMajor_val_two, Shape.rowMajor_val_one]; have h0 : (i 0).val < 128 := (i 0).isLt; show 0 * 128 + ((i 0).val) % 128 = (i 0).val; omega)

def val_main_v180 (x5 : (⟨S3x128, .f32⟩ : BufTy).Contents (Elt F)) : (⟨S1x128, .f32⟩ : BufTy).Contents (Elt F) :=
  broadcastInDim S1x128 ![1] bcast_S128_S1x128_1 (val_main_v179 (F := F) x5)
abbrev idx_main_v180 (i : S1x128.Idx) : S128.Idx := fun a => match a with
  | ⟨0, _⟩ => ⟨(i 1).val, (i 1).isLt⟩
theorem val_main_v180_apply (x5 : (⟨S3x128, .f32⟩ : BufTy).Contents (Elt F)) (i : S1x128.Idx) :
    val_main_v180 (F := F) x5 i = val_main_v179 (F := F) x5 (idx_main_v180 i) := by
  unfold val_main_v180
  generalize val_main_v179 (F := F) x5 = y
  exact broadcastInDim_apply _ bcast_S128_S1x128_1 y i (idx_main_v180 i) (fun a => match a with
    | ⟨0, _⟩ => by show (i 1).val = if (128 : Nat) = 1 then 0 else (i 1).val; rw [if_neg (by decide)])

def val_main_v181 (x5 : (⟨S3x128, .f32⟩ : BufTy).Contents (Elt F)) : (⟨S100000x128, .f32⟩ : BufTy).Contents (Elt F) :=
  broadcastInDim S100000x128 ![0, 1] bcast_S1x128_S100000x128_0_1 (val_main_v180 (F := F) x5)
abbrev idx_main_v181 (i : S100000x128.Idx) : S1x128.Idx := fun a => match a with
  | ⟨0, _⟩ => ⟨0, Nat.one_pos⟩
  | ⟨1, _⟩ => ⟨(i 1).val, (i 1).isLt⟩
theorem val_main_v181_apply (x5 : (⟨S3x128, .f32⟩ : BufTy).Contents (Elt F)) (i : S100000x128.Idx) :
    val_main_v181 (F := F) x5 i = val_main_v180 (F := F) x5 (idx_main_v181 i) := by
  unfold val_main_v181
  generalize val_main_v180 (F := F) x5 = y
  exact broadcastInDim_apply _ bcast_S1x128_S100000x128_0_1 y i (idx_main_v181 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v182 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  mulf (val_main_v177 (F := F) x0 x1 x3 x4 x5 x6) (val_main_v181 (F := F) x5)
theorem val_main_v182_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v182 (F := F) x0 x1 x3 x4 x5 x6 i = FloatOps.mulf (val_main_v177 (F := F) x0 x1 x3 x4 x5 x6 i) (val_main_v181 (F := F) x5 i) := rfl

def val_main_v183 (x6 : (⟨S3x128, .f32⟩ : BufTy).Contents (Elt F)) : (⟨S1x128, .f32⟩ : BufTy).Contents (Elt F) :=
  extractStridedSlice S1x128 ![2, 0] (x6) slices_S3x128_S1x128_2_0
abbrev idx_main_v183 (i : S1x128.Idx) : S3x128.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
theorem val_main_v183_apply (x6 : (⟨S3x128, .f32⟩ : BufTy).Contents (Elt F)) (i : S1x128.Idx) :
    val_main_v183 (F := F) x6 i = x6 (idx_main_v183 i) := by
  unfold val_main_v183
  exact extractStridedSlice_apply ![2, 0] x6 slices_S3x128_S1x128_2_0 i (idx_main_v183 i) (fun a => match a with
    | ⟨0, _⟩ => by show 2 + (i 0).val = 2 + (i 0).val; omega
    | ⟨1, _⟩ => by show (i 1).val = 0 + (i 1).val; omega)

def val_main_v184 (x6 : (⟨S3x128, .f32⟩ : BufTy).Contents (Elt F)) : (⟨S128, .f32⟩ : BufTy).Contents (Elt F) :=
  shapeCast _ (val_main_v183 (F := F) x6) shapeCasts_S1x128_S128
abbrev idx_main_v184 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v184_apply (x6 : (⟨S3x128, .f32⟩ : BufTy).Contents (Elt F)) (i : S128.Idx) :
    val_main_v184 (F := F) x6 i = val_main_v183 (F := F) x6 (idx_main_v184 i) := by
  unfold val_main_v184
  generalize val_main_v183 (F := F) x6 = y
  exact shapeCast_apply y shapeCasts_S1x128_S128 i (idx_main_v184 i)
    (by rewrite [Shape.rowMajor_val_two, Shape.rowMajor_val_one]; have h0 : (i 0).val < 128 := (i 0).isLt; show 0 * 128 + ((i 0).val) % 128 = (i 0).val; omega)

def val_main_v185 (x6 : (⟨S3x128, .f32⟩ : BufTy).Contents (Elt F)) : (⟨S1x128, .f32⟩ : BufTy).Contents (Elt F) :=
  broadcastInDim S1x128 ![1] bcast_S128_S1x128_1 (val_main_v184 (F := F) x6)
abbrev idx_main_v185 (i : S1x128.Idx) : S128.Idx := fun a => match a with
  | ⟨0, _⟩ => ⟨(i 1).val, (i 1).isLt⟩
theorem val_main_v185_apply (x6 : (⟨S3x128, .f32⟩ : BufTy).Contents (Elt F)) (i : S1x128.Idx) :
    val_main_v185 (F := F) x6 i = val_main_v184 (F := F) x6 (idx_main_v185 i) := by
  unfold val_main_v185
  generalize val_main_v184 (F := F) x6 = y
  exact broadcastInDim_apply _ bcast_S128_S1x128_1 y i (idx_main_v185 i) (fun a => match a with
    | ⟨0, _⟩ => by show (i 1).val = if (128 : Nat) = 1 then 0 else (i 1).val; rw [if_neg (by decide)])

def val_main_v186 (x6 : (⟨S3x128, .f32⟩ : BufTy).Contents (Elt F)) : (⟨S100000x128, .f32⟩ : BufTy).Contents (Elt F) :=
  broadcastInDim S100000x128 ![0, 1] bcast_S1x128_S100000x128_0_1 (val_main_v185 (F := F) x6)
abbrev idx_main_v186 (i : S100000x128.Idx) : S1x128.Idx := fun a => match a with
  | ⟨0, _⟩ => ⟨0, Nat.one_pos⟩
  | ⟨1, _⟩ => ⟨(i 1).val, (i 1).isLt⟩
theorem val_main_v186_apply (x6 : (⟨S3x128, .f32⟩ : BufTy).Contents (Elt F)) (i : S100000x128.Idx) :
    val_main_v186 (F := F) x6 i = val_main_v185 (F := F) x6 (idx_main_v186 i) := by
  unfold val_main_v186
  generalize val_main_v185 (F := F) x6 = y
  exact broadcastInDim_apply _ bcast_S1x128_S100000x128_0_1 y i (idx_main_v186 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v187 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  addf (val_main_v182 (F := F) x0 x1 x3 x4 x5 x6) (val_main_v186 (F := F) x6)
theorem val_main_v187_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v187 (F := F) x0 x1 x3 x4 x5 x6 i = FloatOps.addf (val_main_v182 (F := F) x0 x1 x3 x4 x5 x6 i) (val_main_v186 (F := F) x6 i) := rfl

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v0 : (⟨S100000x128, .f32⟩ : BufTy).Contents (Elt F) :=
  broadcastInDim S100000x128 ![] bcast_S_S100000x128 (val_main_call2_cst (F := F))
abbrev idx_main_call2_v0 (i : S100000x128.Idx) : S_.Idx := fun a => a.elim0
theorem val_main_call2_v0_apply (i : S100000x128.Idx) :
    val_main_call2_v0 (F := F) i = val_main_call2_cst (F := F) (idx_main_call2_v0 i) := by
  unfold val_main_call2_v0
  generalize val_main_call2_cst (F := F) = y
  exact broadcastInDim_apply _ bcast_S_S100000x128 y i (idx_main_call2_v0 i) (fun a => a.elim0)

def val_main_v188 (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) : (⟨S100000x128, .f32⟩ : BufTy).Contents (Elt F) :=
  maximumf (val_main_v187 (F := F) x0 x1 x3 x4 x5 x6) (val_main_call2_v0 (F := F))
theorem val_main_v188_apply (x0 : (⟨S100000x128, .f32⟩ : BufTy).Contents (Elt F)) (x1 : (⟨S2x800000, .i32⟩ : BufTy).Contents (Elt F)) (x3 : (⟨S3x128x128, .f32⟩ : BufTy).Contents (Elt F)) (x4 x5 x6 : (⟨S3x128, .f32⟩ : BufTy).Contents (Elt F)) (i : S100000x128.Idx) :
    val_main_v188 (F := F) x0 x1 x3 x4 x5 x6 i = FloatOps.maximumf (val_main_v187 (F := F) x0 x1 x3 x4 x5 x6 i) (val_main_call2_v0 (F := F) i) := rfl

def val_main_cst_30 : (⟨S_, .f32⟩ : BufTy).Contents (Elt F) :=
  constant S_ .f32 0x00000000#32
theorem val_main_cst_30_apply (i : S_.Idx) :
    val_main_cst_30 (F := F) i = FloatOps.ofBits .f32 0x00000000#32 := rfl

def val_main_v189 : (⟨S512x128, .f32⟩ : BufTy).Contents (Elt F) :=
  broadcastInDim S512x128 ![] bcast_S_S512x128 (val_main_cst_30 (F := F))
abbrev idx_main_v189 (i : S512x128.Idx) : S_.Idx := fun a => a.elim0
theorem val_main_v189_apply (i : S512x128.Idx) :
    val_main_v189 (F := F) i = val_main_cst_30 (F := F) (idx_main_v189 i) := by
  unfold val_main_v189
  generalize val_main_cst_30 (F := F) = y
  exact broadcastInDim_apply _ bcast_S_S512x128 y i (idx_main_v189 i) (fun a => a.elim0)

def val_main_v190 (x2 : (⟨S100000, .i32⟩ : BufTy).Contents (Elt F)) : (⟨S100000x1, .i32⟩ : BufTy).Contents (Elt F) :=
  broadcastInDim S100000x1 ![0] bcast_S100000_S100000x1_0 (x2)
abbrev idx_main_v190 (i : S100000x1.Idx) : S100000.Idx := fun a => match a with
  | ⟨0, _⟩ => ⟨(i 0).val, (i 0).isLt⟩
theorem val_main_v190_apply (x2 : (⟨S100000, .i32⟩ : BufTy).Contents (Elt F)) (i : S100000x1.Idx) :
    val_main_v190 (F := F) x2 i = x2 (idx_main_v190 i) := by
  unfold val_main_v190
  exact broadcastInDim_apply _ bcast_S100000_S100000x1_0 x2 i (idx_main_v190 i) (fun a => match a with
    | ⟨0, _⟩ => by show (i 0).val = if (100000 : Nat) = 1 then 0 else (i 0).val; rw [if_neg (by decide)])

def val_main_v191 (x0 : (⟨S100000x128, .f32⟩ : BufTy).Contents (Elt F)) (x1 : (⟨S2x800000, .i32⟩ : BufTy).Contents (Elt F)) (x2 : (⟨S100000, .i32⟩ : BufTy).Contents (Elt F)) (x3 : (⟨S3x128x128, .f32⟩ : BufTy).Contents (Elt F)) (x4 x5 x6 : (⟨S3x128, .f32⟩ : BufTy).Contents (Elt F)) : (⟨S512x128, .f32⟩ : BufTy).Contents (Elt F) :=
  Host.scatterAdd scatter_S512x128_S100000x1_S100000x128_1_0_0_1 (val_main_v189 (F := F)) (val_main_v190 (F := F) x2) (val_main_v188 (F := F) x0 x1 x3 x4 x5 x6)

def val_main_cst_31 : (⟨S_, .f32⟩ : BufTy).Contents (Elt F) :=
  constant S_ .f32 0x3F800000#32
theorem val_main_cst_31_apply (i : S_.Idx) :
    val_main_cst_31 (F := F) i = FloatOps.ofBits .f32 0x3F800000#32 := rfl

def val_main_v192 : (⟨S100000, .f32⟩ : BufTy).Contents (Elt F) :=
  broadcastInDim S100000 ![] bcast_S_S100000 (val_main_cst_31 (F := F))
abbrev idx_main_v192 (i : S100000.Idx) : S_.Idx := fun a => a.elim0
theorem val_main_v192_apply (i : S100000.Idx) :
    val_main_v192 (F := F) i = val_main_cst_31 (F := F) (idx_main_v192 i) := by
  unfold val_main_v192
  generalize val_main_cst_31 (F := F) = y
  exact broadcastInDim_apply _ bcast_S_S100000 y i (idx_main_v192 i) (fun a => a.elim0)

def val_main_cst_32 : (⟨S_, .f32⟩ : BufTy).Contents (Elt F) :=
  constant S_ .f32 0x00000000#32
theorem val_main_cst_32_apply (i : S_.Idx) :
    val_main_cst_32 (F := F) i = FloatOps.ofBits .f32 0x00000000#32 := rfl

def val_main_v193 : (⟨S512, .f32⟩ : BufTy).Contents (Elt F) :=
  broadcastInDim S512 ![] bcast_S_S512 (val_main_cst_32 (F := F))
abbrev idx_main_v193 (i : S512.Idx) : S_.Idx := fun a => a.elim0
theorem val_main_v193_apply (i : S512.Idx) :
    val_main_v193 (F := F) i = val_main_cst_32 (F := F) (idx_main_v193 i) := by
  unfold val_main_v193
  generalize val_main_cst_32 (F := F) = y
  exact broadcastInDim_apply _ bcast_S_S512 y i (idx_main_v193 i) (fun a => a.elim0)

def val_main_v194 (x2 : (⟨S100000, .i32⟩ : BufTy).Contents (Elt F)) : (⟨S100000x1, .i32⟩ : BufTy).Contents (Elt F) :=
  broadcastInDim S100000x1 ![0] bcast_S100000_S100000x1_0 (x2)

def val_main_v195 (x2 : (⟨S100000, .i32⟩ : BufTy).Contents (Elt F)) : (⟨S512, .f32⟩ : BufTy).Contents (Elt F) :=
  Host.scatterAdd scatter_S512_S100000x1_S100000_n_0_0_1 (val_main_v193 (F := F)) (val_main_v194 (F := F) x2) (val_main_v192 (F := F))

def val_main_cst_33 : (⟨S_, .f32⟩ : BufTy).Contents (Elt F) :=
  constant S_ .f32 0x3F800000#32
theorem val_main_cst_33_apply (i : S_.Idx) :
    val_main_cst_33 (F := F) i = FloatOps.ofBits .f32 0x3F800000#32 := rfl

def val_main_v196 : (⟨S512, .f32⟩ : BufTy).Contents (Elt F) :=
  broadcastInDim S512 ![] bcast_S_S512 (val_main_cst_33 (F := F))
abbrev idx_main_v196 (i : S512.Idx) : S_.Idx := fun a => a.elim0
theorem val_main_v196_apply (i : S512.Idx) :
    val_main_v196 (F := F) i = val_main_cst_33 (F := F) (idx_main_v196 i) := by
  unfold val_main_v196
  generalize val_main_cst_33 (F := F) = y
  exact broadcastInDim_apply _ bcast_S_S512 y i (idx_main_v196 i) (fun a => a.elim0)

def val_main_v197 (x2 : (⟨S100000, .i32⟩ : BufTy).Contents (Elt F)) : (⟨S512, .f32⟩ : BufTy).Contents (Elt F) :=
  maximumf (val_main_v195 (F := F) x2) (val_main_v196 (F := F))
theorem val_main_v197_apply (x2 : (⟨S100000, .i32⟩ : BufTy).Contents (Elt F)) (i : S512.Idx) :
    val_main_v197 (F := F) x2 i = FloatOps.maximumf (val_main_v195 (F := F) x2 i) (val_main_v196 (F := F) i) := rfl

def val_main_v198 (x2 : (⟨S100000, .i32⟩ : BufTy).Contents (Elt F)) : (⟨S512x1, .f32⟩ : BufTy).Contents (Elt F) :=
  broadcastInDim S512x1 ![0] bcast_S512_S512x1_0 (val_main_v197 (F := F) x2)
abbrev idx_main_v198 (i : S512x1.Idx) : S512.Idx := fun a => match a with
  | ⟨0, _⟩ => ⟨(i 0).val, (i 0).isLt⟩
theorem val_main_v198_apply (x2 : (⟨S100000, .i32⟩ : BufTy).Contents (Elt F)) (i : S512x1.Idx) :
    val_main_v198 (F := F) x2 i = val_main_v197 (F := F) x2 (idx_main_v198 i) := by
  unfold val_main_v198
  generalize val_main_v197 (F := F) x2 = y
  exact broadcastInDim_apply _ bcast_S512_S512x1_0 y i (idx_main_v198 i) (fun a => match a with
    | ⟨0, _⟩ => by show (i 0).val = if (512 : Nat) = 1 then 0 else (i 0).val; rw [if_neg (by decide)])

def val_main_v199 (x2 : (⟨S100000, .i32⟩ : BufTy).Contents (Elt F)) : (⟨S512x128, .f32⟩ : BufTy).Contents (Elt F) :=
  broadcastInDim S512x128 ![0, 1] bcast_S512x1_S512x128_0_1 (val_main_v198 (F := F) x2)
abbrev idx_main_v199 (i : S512x128.Idx) : S512x1.Idx := fun a => match a with
  | ⟨0, _⟩ => ⟨(i 0).val, (i 0).isLt⟩
  | ⟨1, _⟩ => ⟨0, Nat.one_pos⟩
theorem val_main_v199_apply (x2 : (⟨S100000, .i32⟩ : BufTy).Contents (Elt F)) (i : S512x128.Idx) :
    val_main_v199 (F := F) x2 i = val_main_v198 (F := F) x2 (idx_main_v199 i) := by
  unfold val_main_v199
  generalize val_main_v198 (F := F) x2 = y
  exact broadcastInDim_apply _ bcast_S512x1_S512x128_0_1 y i (idx_main_v199 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

def val_main_v200 (x0 : (⟨S100000x128, .f32⟩ : BufTy).Contents (Elt F)) (x1 : (⟨S2x800000, .i32⟩ : BufTy).Contents (Elt F)) (x2 : (⟨S100000, .i32⟩ : BufTy).Contents (Elt F)) (x3 : (⟨S3x128x128, .f32⟩ : BufTy).Contents (Elt F)) (x4 x5 x6 : (⟨S3x128, .f32⟩ : BufTy).Contents (Elt F)) : (⟨S512x128, .f32⟩ : BufTy).Contents (Elt F) :=
  Host.divf (val_main_v191 (F := F) x0 x1 x2 x3 x4 x5 x6) (val_main_v199 (F := F) x2)
theorem val_main_v200_apply (x0 : (⟨S100000x128, .f32⟩ : BufTy).Contents (Elt F)) (x1 : (⟨S2x800000, .i32⟩ : BufTy).Contents (Elt F)) (x2 : (⟨S100000, .i32⟩ : BufTy).Contents (Elt F)) (x3 : (⟨S3x128x128, .f32⟩ : BufTy).Contents (Elt F)) (x4 x5 x6 : (⟨S3x128, .f32⟩ : BufTy).Contents (Elt F)) (i : S512x128.Idx) :
    val_main_v200 (F := F) x0 x1 x2 x3 x4 x5 x6 i = FloatOps.hostDivf (val_main_v191 (F := F) x0 x1 x2 x3 x4 x5 x6 i) (val_main_v199 (F := F) x2 i) := rfl

def val_main_v201 (x0 : (⟨S100000x128, .f32⟩ : BufTy).Contents (Elt F)) (x1 : (⟨S2x800000, .i32⟩ : BufTy).Contents (Elt F)) (x2 : (⟨S100000, .i32⟩ : BufTy).Contents (Elt F)) (x3 : (⟨S3x128x128, .f32⟩ : BufTy).Contents (Elt F)) (x4 x5 x6 : (⟨S3x128, .f32⟩ : BufTy).Contents (Elt F)) (x7 : (⟨S128x128, .f32⟩ : BufTy).Contents (Elt F)) : (⟨S512x128, .f32⟩ : BufTy).Contents (Elt F) :=
  Host.dotGeneral dot_S512x128_S128x128_S512x128_1_0_0_1_n_n none (val_main_v200 (F := F) x0 x1 x2 x3 x4 x5 x6) (x7)
theorem lhs_main_v201_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_main_v201_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_main_v201_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_main_v201_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl
abbrev lidx_main_v201 (i : S512x128.Idx) (k : Fin 128) : S512x128.Idx := fun a => match a with
  | ⟨0, _⟩ => ⟨(i 0).val, (i 0).isLt⟩
  | ⟨1, _⟩ => ⟨k.val, k.isLt⟩
abbrev ridx_main_v201 (i : S512x128.Idx) (k : Fin 128) : S128x128.Idx := fun a => match a with
  | ⟨0, _⟩ => ⟨k.val, k.isLt⟩
  | ⟨1, _⟩ => ⟨(i 1).val, (i 1).isLt⟩

theorem val_main_v201_apply (x0 : (⟨S100000x128, .f32⟩ : BufTy).Contents (Elt Ideal)) (x1 : (⟨S2x800000, .i32⟩ : BufTy).Contents (Elt Ideal)) (x2 : (⟨S100000, .i32⟩ : BufTy).Contents (Elt Ideal)) (x3 : (⟨S3x128x128, .f32⟩ : BufTy).Contents (Elt Ideal)) (x4 x5 x6 : (⟨S3x128, .f32⟩ : BufTy).Contents (Elt Ideal)) (x7 : (⟨S128x128, .f32⟩ : BufTy).Contents (Elt Ideal)) (i : S512x128.Idx) :
    val_main_v201 (F := Ideal) x0 x1 x2 x3 x4 x5 x6 x7 i = ∑ k : Fin 128, (val_main_v200 (F := Ideal) x0 x1 x2 x3 x4 x5 x6) (lidx_main_v201 i k) * x7 (ridx_main_v201 i k) := by
  unfold val_main_v201
  generalize val_main_v200 (F := Ideal) x0 x1 x2 x3 x4 x5 x6 = y0
  simp only [Host.dotGeneral]
  rw [Ideal.dotGeneral_apply, ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx i ((ValueIdx.contrEquiv1 dot_S512x128_S128x128_S512x128_1_0_0_1_n_n 128 rfl rfl).symm k) = lidx_main_v201 i k := funext fun a => Fin.ext (by
    match a with
    | ⟨0, _⟩ => exact lhs_main_v201_0 _ _
    | ⟨1, _⟩ => exact (lhs_main_v201_1 _ _).trans hk)
  have er : dot_S512x128_S128x128_S512x128_1_0_0_1_n_n.rhsIdx i ((ValueIdx.contrEquiv1 dot_S512x128_S128x128_S512x128_1_0_0_1_n_n 128 rfl rfl).symm k) = ridx_main_v201 i k := funext fun a => Fin.ext (by
    match a with
    | ⟨0, _⟩ => exact (rhs_main_v201_0 _ _).trans hk
    | ⟨1, _⟩ => exact rhs_main_v201_1 _ _)
  rw [el, er]

def val_main_v202 (x8 : (⟨S128, .f32⟩ : BufTy).Contents (Elt F)) : (⟨S1x128, .f32⟩ : BufTy).Contents (Elt F) :=
  broadcastInDim S1x128 ![1] bcast_S128_S1x128_1 (x8)
abbrev idx_main_v202 (i : S1x128.Idx) : S128.Idx := fun a => match a with
  | ⟨0, _⟩ => ⟨(i 1).val, (i 1).isLt⟩
theorem val_main_v202_apply (x8 : (⟨S128, .f32⟩ : BufTy).Contents (Elt F)) (i : S1x128.Idx) :
    val_main_v202 (F := F) x8 i = x8 (idx_main_v202 i) := by
  unfold val_main_v202
  exact broadcastInDim_apply _ bcast_S128_S1x128_1 x8 i (idx_main_v202 i) (fun a => match a with
    | ⟨0, _⟩ => by show (i 1).val = if (128 : Nat) = 1 then 0 else (i 1).val; rw [if_neg (by decide)])

def val_main_v203 (x8 : (⟨S128, .f32⟩ : BufTy).Contents (Elt F)) : (⟨S512x128, .f32⟩ : BufTy).Contents (Elt F) :=
  broadcastInDim S512x128 ![0, 1] bcast_S1x128_S512x128_0_1 (val_main_v202 (F := F) x8)
abbrev idx_main_v203 (i : S512x128.Idx) : S1x128.Idx := fun a => match a with
  | ⟨0, _⟩ => ⟨0, Nat.one_pos⟩
  | ⟨1, _⟩ => ⟨(i 1).val, (i 1).isLt⟩
theorem val_main_v203_apply (x8 : (⟨S128, .f32⟩ : BufTy).Contents (Elt F)) (i : S512x128.Idx) :
    val_main_v203 (F := F) x8 i = val_main_v202 (F := F) x8 (idx_main_v203 i) := by
  unfold val_main_v203
  generalize val_main_v202 (F := F) x8 = y
  exact broadcastInDim_apply _ bcast_S1x128_S512x128_0_1 y i (idx_main_v203 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v204 (x0 : (⟨S100000x128, .f32⟩ : BufTy).Contents (Elt F)) (x1 : (⟨S2x800000, .i32⟩ : BufTy).Contents (Elt F)) (x2 : (⟨S100000, .i32⟩ : BufTy).Contents (Elt F)) (x3 : (⟨S3x128x128, .f32⟩ : BufTy).Contents (Elt F)) (x4 x5 x6 : (⟨S3x128, .f32⟩ : BufTy).Contents (Elt F)) (x7 : (⟨S128x128, .f32⟩ : BufTy).Contents (Elt F)) (x8 : (⟨S128, .f32⟩ : BufTy).Contents (Elt F)) : (⟨S512x128, .f32⟩ : BufTy).Contents (Elt F) :=
  addf (val_main_v201 (F := F) x0 x1 x2 x3 x4 x5 x6 x7) (val_main_v203 (F := F) x8)
theorem val_main_v204_apply (x0 : (⟨S100000x128, .f32⟩ : BufTy).Contents (Elt F)) (x1 : (⟨S2x800000, .i32⟩ : BufTy).Contents (Elt F)) (x2 : (⟨S100000, .i32⟩ : BufTy).Contents (Elt F)) (x3 : (⟨S3x128x128, .f32⟩ : BufTy).Contents (Elt F)) (x4 x5 x6 : (⟨S3x128, .f32⟩ : BufTy).Contents (Elt F)) (x7 : (⟨S128x128, .f32⟩ : BufTy).Contents (Elt F)) (x8 : (⟨S128, .f32⟩ : BufTy).Contents (Elt F)) (i : S512x128.Idx) :
    val_main_v204 (F := F) x0 x1 x2 x3 x4 x5 x6 x7 x8 i = FloatOps.addf (val_main_v201 (F := F) x0 x1 x2 x3 x4 x5 x6 x7 i) (val_main_v203 (F := F) x8 i) := rfl

def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl

def val_main_call3_v0 : (⟨S512x128, .f32⟩ : BufTy).Contents (Elt F) :=
  broadcastInDim S512x128 ![] bcast_S_S512x128 (val_main_call3_cst (F := F))
abbrev idx_main_call3_v0 (i : S512x128.Idx) : S_.Idx := fun a => a.elim0
theorem val_main_call3_v0_apply (i : S512x128.Idx) :
    val_main_call3_v0 (F := F) i = val_main_call3_cst (F := F) (idx_main_call3_v0 i) := by
  unfold val_main_call3_v0
  generalize val_main_call3_cst (F := F) = y
  exact broadcastInDim_apply _ bcast_S_S512x128 y i (idx_main_call3_v0 i) (fun a => a.elim0)

def val_main_v205 (x0 : (⟨S100000x128, .f32⟩ : BufTy).Contents (Elt F)) (x1 : (⟨S2x800000, .i32⟩ : BufTy).Contents (Elt F)) (x2 : (⟨S100000, .i32⟩ : BufTy).Contents (Elt F)) (x3 : (⟨S3x128x128, .f32⟩ : BufTy).Contents (Elt F)) (x4 x5 x6 : (⟨S3x128, .f32⟩ : BufTy).Contents (Elt F)) (x7 : (⟨S128x128, .f32⟩ : BufTy).Contents (Elt F)) (x8 : (⟨S128, .f32⟩ : BufTy).Contents (Elt F)) : (⟨S512x128, .f32⟩ : BufTy).Contents (Elt F) :=
  maximumf (val_main_v204 (F := F) x0 x1 x2 x3 x4 x5 x6 x7 x8) (val_main_call3_v0 (F := F))
theorem val_main_v205_apply (x0 : (⟨S100000x128, .f32⟩ : BufTy).Contents (Elt F)) (x1 : (⟨S2x800000, .i32⟩ : BufTy).Contents (Elt F)) (x2 : (⟨S100000, .i32⟩ : BufTy).Contents (Elt F)) (x3 : (⟨S3x128x128, .f32⟩ : BufTy).Contents (Elt F)) (x4 x5 x6 : (⟨S3x128, .f32⟩ : BufTy).Contents (Elt F)) (x7 : (⟨S128x128, .f32⟩ : BufTy).Contents (Elt F)) (x8 : (⟨S128, .f32⟩ : BufTy).Contents (Elt F)) (i : S512x128.Idx) :
    val_main_v205 (F := F) x0 x1 x2 x3 x4 x5 x6 x7 x8 i = FloatOps.maximumf (val_main_v204 (F := F) x0 x1 x2 x3 x4 x5 x6 x7 x8 i) (val_main_call3_v0 (F := F) i) := rfl

def val_main_v206 (x0 : (⟨S100000x128, .f32⟩ : BufTy).Contents (Elt F)) (x1 : (⟨S2x800000, .i32⟩ : BufTy).Contents (Elt F)) (x2 : (⟨S100000, .i32⟩ : BufTy).Contents (Elt F)) (x3 : (⟨S3x128x128, .f32⟩ : BufTy).Contents (Elt F)) (x4 x5 x6 : (⟨S3x128, .f32⟩ : BufTy).Contents (Elt F)) (x7 : (⟨S128x128, .f32⟩ : BufTy).Contents (Elt F)) (x8 : (⟨S128, .f32⟩ : BufTy).Contents (Elt F)) (x9 : (⟨S128x1, .f32⟩ : BufTy).Contents (Elt F)) : (⟨S512x1, .f32⟩ : BufTy).Contents (Elt F) :=
  Host.dotGeneral dot_S512x128_S128x1_S512x1_1_0_0_1_n_n none (val_main_v205 (F := F) x0 x1 x2 x3 x4 x5 x6 x7 x8) (x9)
theorem lhs_main_v206_0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem lhs_main_v206_1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
theorem rhs_main_v206_0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
theorem rhs_main_v206_1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl
abbrev lidx_main_v206 (i : S512x1.Idx) (k : Fin 128) : S512x128.Idx := fun a => match a with
  | ⟨0, _⟩ => ⟨(i 0).val, (i 0).isLt⟩
  | ⟨1, _⟩ => ⟨k.val, k.isLt⟩
abbrev ridx_main_v206 (i : S512x1.Idx) (k : Fin 128) : S128x1.Idx := fun a => match a with
  | ⟨0, _⟩ => ⟨k.val, k.isLt⟩
  | ⟨1, _⟩ => ⟨(i 1).val, (i 1).isLt⟩

theorem val_main_v206_apply (x0 : (⟨S100000x128, .f32⟩ : BufTy).Contents (Elt Ideal)) (x1 : (⟨S2x800000, .i32⟩ : BufTy).Contents (Elt Ideal)) (x2 : (⟨S100000, .i32⟩ : BufTy).Contents (Elt Ideal)) (x3 : (⟨S3x128x128, .f32⟩ : BufTy).Contents (Elt Ideal)) (x4 x5 x6 : (⟨S3x128, .f32⟩ : BufTy).Contents (Elt Ideal)) (x7 : (⟨S128x128, .f32⟩ : BufTy).Contents (Elt Ideal)) (x8 : (⟨S128, .f32⟩ : BufTy).Contents (Elt Ideal)) (x9 : (⟨S128x1, .f32⟩ : BufTy).Contents (Elt Ideal)) (i : S512x1.Idx) :
    val_main_v206 (F := Ideal) x0 x1 x2 x3 x4 x5 x6 x7 x8 x9 i = ∑ k : Fin 128, (val_main_v205 (F := Ideal) x0 x1 x2 x3 x4 x5 x6 x7 x8) (lidx_main_v206 i k) * x9 (ridx_main_v206 i k) := by
  unfold val_main_v206
  generalize val_main_v205 (F := Ideal) x0 x1 x2 x3 x4 x5 x6 x7 x8 = y0
  simp only [Host.dotGeneral]
  rw [Ideal.dotGeneral_apply, ← Equiv.sum_comp (ValueIdx.contrEquiv1 dot_S512x128_S128x1_S512x1_1_0_0_1_n_n 128 rfl rfl).symm]
  refine Finset.sum_congr rfl fun k _ => ?_
  have hk := ValueIdx.contrEquiv1_symm_val dot_S512x128_S128x1_S512x1_1_0_0_1_n_n 128 rfl rfl k
  have el : dot_S512x128_S128x1_S512x1_1_0_0_1_n_n.lhsIdx i ((ValueIdx.contrEquiv1 dot_S512x128_S128x1_S512x1_1_0_0_1_n_n 128 rfl rfl).symm k) = lidx_main_v206 i k := funext fun a => Fin.ext (by
    match a with
    | ⟨0, _⟩ => exact lhs_main_v206_0 _ _
    | ⟨1, _⟩ => exact (lhs_main_v206_1 _ _).trans hk)
  have er : dot_S512x128_S128x1_S512x1_1_0_0_1_n_n.rhsIdx i ((ValueIdx.contrEquiv1 dot_S512x128_S128x1_S512x1_1_0_0_1_n_n 128 rfl rfl).symm k) = ridx_main_v206 i k := funext fun a => Fin.ext (by
    match a with
    | ⟨0, _⟩ => exact (rhs_main_v206_0 _ _).trans hk
    | ⟨1, _⟩ => exact rhs_main_v206_1 _ _)
  rw [el, er]

def val_main_v207 (x10 : (⟨S1, .f32⟩ : BufTy).Contents (Elt F)) : (⟨S1x1, .f32⟩ : BufTy).Contents (Elt F) :=
  broadcastInDim S1x1 ![1] bcast_S1_S1x1_1 (x10)
abbrev idx_main_v207 (i : S1x1.Idx) : S1.Idx := fun a => match a with
  | ⟨0, _⟩ => ⟨0, Nat.one_pos⟩
theorem val_main_v207_apply (x10 : (⟨S1, .f32⟩ : BufTy).Contents (Elt F)) (i : S1x1.Idx) :
    val_main_v207 (F := F) x10 i = x10 (idx_main_v207 i) := by
  unfold val_main_v207
  exact broadcastInDim_apply _ bcast_S1_S1x1_1 x10 i (idx_main_v207 i) (fun a => match a with
    | ⟨0, _⟩ => by show 0 = if (1 : Nat) = 1 then 0 else (i 1).val; rw [if_pos rfl])

def val_main_v208 (x10 : (⟨S1, .f32⟩ : BufTy).Contents (Elt F)) : (⟨S512x1, .f32⟩ : BufTy).Contents (Elt F) :=
  broadcastInDim S512x1 ![0, 1] bcast_S1x1_S512x1_0_1 (val_main_v207 (F := F) x10)
abbrev idx_main_v208 (i : S512x1.Idx) : S1x1.Idx := fun a => match a with
  | ⟨0, _⟩ => ⟨0, Nat.one_pos⟩
  | ⟨1, _⟩ => ⟨0, Nat.one_pos⟩
theorem val_main_v208_apply (x10 : (⟨S1, .f32⟩ : BufTy).Contents (Elt F)) (i : S512x1.Idx) :
    val_main_v208 (F := F) x10 i = val_main_v207 (F := F) x10 (idx_main_v208 i) := by
  unfold val_main_v208
  generalize val_main_v207 (F := F) x10 = y
  exact broadcastInDim_apply _ bcast_S1x1_S512x1_0_1 y i (idx_main_v208 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v209 (x0 : (⟨S100000x128, .f32⟩ : BufTy).Contents (Elt F)) (x1 : (⟨S2x800000, .i32⟩ : BufTy).Contents (Elt F)) (x2 : (⟨S100000, .i32⟩ : BufTy).Contents (Elt F)) (x3 : (⟨S3x128x128, .f32⟩ : BufTy).Contents (Elt F)) (x4 x5 x6 : (⟨S3x128, .f32⟩ : BufTy).Contents (Elt F)) (x7 : (⟨S128x128, .f32⟩ : BufTy).Contents (Elt F)) (x8 : (⟨S128, .f32⟩ : BufTy).Contents (Elt F)) (x9 : (⟨S128x1, .f32⟩ : BufTy).Contents (Elt F)) (x10 : (⟨S1, .f32⟩ : BufTy).Contents (Elt F)) : (⟨S512x1, .f32⟩ : BufTy).Contents (Elt F) :=
  addf (val_main_v206 (F := F) x0 x1 x2 x3 x4 x5 x6 x7 x8 x9) (val_main_v208 (F := F) x10)
theorem val_main_v209_apply (x0 : (⟨S100000x128, .f32⟩ : BufTy).Contents (Elt F)) (x1 : (⟨S2x800000, .i32⟩ : BufTy).Contents (Elt F)) (x2 : (⟨S100000, .i32⟩ : BufTy).Contents (Elt F)) (x3 : (⟨S3x128x128, .f32⟩ : BufTy).Contents (Elt F)) (x4 x5 x6 : (⟨S3x128, .f32⟩ : BufTy).Contents (Elt F)) (x7 : (⟨S128x128, .f32⟩ : BufTy).Contents (Elt F)) (x8 : (⟨S128, .f32⟩ : BufTy).Contents (Elt F)) (x9 : (⟨S128x1, .f32⟩ : BufTy).Contents (Elt F)) (x10 : (⟨S1, .f32⟩ : BufTy).Contents (Elt F)) (i : S512x1.Idx) :
    val_main_v209 (F := F) x0 x1 x2 x3 x4 x5 x6 x7 x8 x9 x10 i = FloatOps.addf (val_main_v206 (F := F) x0 x1 x2 x3 x4 x5 x6 x7 x8 x9 i) (val_main_v208 (F := F) x10 i) := rfl

end Cert.ReferenceIdeal.Read

end
-- ==== Proof.RefRun.lean ====
/-
  Folding the reference's operations from the launch contents leaves the result buffer at the last stage of the arguments.
  The fold goes list by list: the arguments and four shared results are carried across, each list's last result is read
  through the operations that feed it.
-/
import proofs.«420895_j26731876451141_3_alg».proof.Proof.RefRunBase
import proofs.«420895_j26731876451141_3_alg».proof.Proof.RefRead
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

theorem ops_eq : (ops : List (HloOp τ sig (Elt F))) = c0 ++ c1 ++ c2 ++ c3 ++ c4 := rfl

theorem wsub {y : Ref sig .tc} {Wl : List (Ref sig .tc)} (h : y ∈ Wl) :
    ({Proc.devRef .tc y} : Finset (DevRef τ sig)) ⊆ (Wl.map (Proc.devRef (τ := τ) .tc)).toFinset :=
  Finset.singleton_subset_iff.mpr (List.mem_toFinset.mpr (List.mem_map.mpr ⟨y, h, rfl⟩))

abbrev w0 : List (Ref sig .tc) :=
  [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_cst_5, main_v27, main_v28, main_v29, main_v30, main_v31, main_v32]

theorem c0_writes : (c0 : List (HloOp τ sig (Elt F))).Forall fun op => op.writes ⊆ (w0.map (Proc.devRef (τ := τ) .tc)).toFinset := by
  simp only [List.Forall]; repeat' apply And.intro
  all_goals exact wsub (by decide)

abbrev w1 : List (Ref sig .tc) :=
  [main_c_6, main_v33, main_v34, main_c_7, main_v35, main_v36, main_v37, main_v38, main_v39, main_v40, main_v41, main_cst_8, main_v42, main_v43, main_v44, main_v45, main_v46, main_v47, main_v48, main_v49, main_v50, main_v51, main_v52, main_cst_9, main_v53, main_cst_10, main_v54, main_v55, main_v56, main_v57, main_v58, main_v59, main_cst_11, main_v60, main_cst_12, main_v61, main_v62, main_v63, main_v64, main_v65, main_cst_13, main_v66, main_v67, main_v68, main_v69, main_v70, main_v71, main_v72, main_v73, main_v74, main_v75, main_v76, main_v77, main_v78, main_v79, main_v80, main_v81, main_call0_cst, main_call0_v0, main_v82, main_v83, main_v84, main_v85]

theorem c1_writes : (c1 : List (HloOp τ sig (Elt F))).Forall fun op => op.writes ⊆ (w1.map (Proc.devRef (τ := τ) .tc)).toFinset := by
  simp only [List.Forall]; repeat' apply And.intro
  all_goals exact wsub (by decide)

abbrev w2 : List (Ref sig .tc) :=
  [main_c_14, main_v86, main_v87, main_c_15, main_v88, main_v89, main_v90, main_v91, main_v92, main_v93, main_v94, main_cst_16, main_v95, main_v96, main_v97, main_v98, main_v99, main_v100, main_v101, main_v102, main_v103, main_v104, main_v105, main_cst_17, main_v106, main_cst_18, main_v107, main_v108, main_v109, main_v110, main_v111, main_v112, main_cst_19, main_v113, main_cst_20, main_v114, main_v115, main_v116, main_v117, main_v118, main_cst_21, main_v119, main_v120, main_v121, main_v122, main_v123, main_v124, main_v125, main_v126, main_v127, main_v128, main_v129, main_v130, main_v131, main_v132, main_v133, main_v134, main_call1_cst, main_call1_v0, main_v135, main_v136, main_v137, main_v138]

theorem c2_writes : (c2 : List (HloOp τ sig (Elt F))).Forall fun op => op.writes ⊆ (w2.map (Proc.devRef (τ := τ) .tc)).toFinset := by
  simp only [List.Forall]; repeat' apply And.intro
  all_goals exact wsub (by decide)

abbrev w3 : List (Ref sig .tc) :=
  [main_c_22, main_v139, main_v140, main_c_23, main_v141, main_v142, main_v143, main_v144, main_v145, main_v146, main_v147, main_cst_24, main_v148, main_v149, main_v150, main_v151, main_v152, main_v153, main_v154, main_v155, main_v156, main_v157, main_v158, main_cst_25, main_v159, main_cst_26, main_v160, main_v161, main_v162, main_v163, main_v164, main_v165, main_cst_27, main_v166, main_cst_28, main_v167, main_v168, main_v169, main_v170, main_v171, main_cst_29, main_v172, main_v173, main_v174, main_v175, main_v176, main_v177, main_v178, main_v179, main_v180, main_v181, main_v182, main_v183, main_v184, main_v185, main_v186, main_v187, main_call2_cst, main_call2_v0, main_v188]

theorem c3_writes : (c3 : List (HloOp τ sig (Elt F))).Forall fun op => op.writes ⊆ (w3.map (Proc.devRef (τ := τ) .tc)).toFinset := by
  simp only [List.Forall]; repeat' apply And.intro
  all_goals exact wsub (by decide)

abbrev w4 : List (Ref sig .tc) :=
  [main_cst_30, main_v189, main_v190, main_v191, main_cst_31, main_v192, main_cst_32, main_v193, main_v194, main_v195, main_cst_33, main_v196, main_v197, main_v198, main_v199, main_v200, main_v201, main_v202, main_v203, main_v204, main_call3_cst, main_call3_v0, main_v205, main_v206, main_v207, main_v208, main_v209]

theorem c4_writes : (c4 : List (HloOp τ sig (Elt F))).Forall fun op => op.writes ⊆ (w4.map (Proc.devRef (τ := τ) .tc)).toFinset := by
  simp only [List.Forall]; repeat' apply And.intro
  all_goals exact wsub (by decide)

def Args (V : Valuation τ sig (Elt F)) (x0 : (⟨S100000x128, .f32⟩ : BufTy).Contents (Elt F)) (x1 : (⟨S2x800000, .i32⟩ : BufTy).Contents (Elt F)) (x2 : (⟨S100000, .i32⟩ : BufTy).Contents (Elt F)) (x3 : (⟨S3x128x128, .f32⟩ : BufTy).Contents (Elt F)) (x4 : (⟨S3x128, .f32⟩ : BufTy).Contents (Elt F)) (x5 : (⟨S3x128, .f32⟩ : BufTy).Contents (Elt F)) (x6 : (⟨S3x128, .f32⟩ : BufTy).Contents (Elt F)) (x7 : (⟨S128x128, .f32⟩ : BufTy).Contents (Elt F)) (x8 : (⟨S128, .f32⟩ : BufTy).Contents (Elt F)) (x9 : (⟨S128x1, .f32⟩ : BufTy).Contents (Elt F)) (x10 : (⟨S1, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_arg7) = x7 ∧ V (Proc.devRef .tc main_arg8) = x8 ∧ V (Proc.devRef .tc main_arg9) = x9 ∧ V (Proc.devRef .tc main_arg10) = x10

def Car (V : Valuation τ sig (Elt F)) (x1 : (⟨S2x800000, .i32⟩ : BufTy).Contents (Elt F)) : Prop :=
  V (Proc.devRef .tc main_v1) = val_main_v1 (F := F) x1 ∧ V (Proc.devRef .tc main_v3) = val_main_v3 (F := F) x1 ∧ V (Proc.devRef .tc main_v26) = val_main_v26 (F := F) x1 ∧ V (Proc.devRef .tc main_v29) = val_main_v29 (F := F) x1

variable {V : Valuation τ sig (Elt F)} {x0 : (⟨S100000x128, .f32⟩ : BufTy).Contents (Elt F)} {x1 : (⟨S2x800000, .i32⟩ : BufTy).Contents (Elt F)} {x2 : (⟨S100000, .i32⟩ : BufTy).Contents (Elt F)} {x3 : (⟨S3x128x128, .f32⟩ : BufTy).Contents (Elt F)} {x4 : (⟨S3x128, .f32⟩ : BufTy).Contents (Elt F)} {x5 : (⟨S3x128, .f32⟩ : BufTy).Contents (Elt F)} {x6 : (⟨S3x128, .f32⟩ : BufTy).Contents (Elt F)} {x7 : (⟨S128x128, .f32⟩ : BufTy).Contents (Elt F)} {x8 : (⟨S128, .f32⟩ : BufTy).Contents (Elt F)} {x9 : (⟨S128x1, .f32⟩ : BufTy).Contents (Elt F)} {x10 : (⟨S1, .f32⟩ : BufTy).Contents (Elt F)}

section Pass
variable {c : List (HloOp τ sig (Elt F))} {w : List (Ref sig .tc)}
  (hw : c.Forall fun op => op.writes ⊆ (w.map (Proc.devRef (τ := τ) .tc)).toFinset)
include hw

theorem args_pass (h : ∀ r ∈ [main_arg0, main_arg1, main_arg2, main_arg3, main_arg4, main_arg5, main_arg6, main_arg7, main_arg8, main_arg9, main_arg10], r ∉ w)
    (hA : Args V x0 x1 x2 x3 x4 x5 x6 x7 x8 x9 x10) : Args (after c V) x0 x1 x2 x3 x4 x5 x6 x7 x8 x9 x10 :=
  ⟨(after_of_writes_sub c V hw (h _ (by decide))).trans hA.1,
   (after_of_writes_sub c V hw (h _ (by decide))).trans hA.2.1,
   (after_of_writes_sub c V hw (h _ (by decide))).trans hA.2.2.1,
   (after_of_writes_sub c V hw (h _ (by decide))).trans hA.2.2.2.1,
   (after_of_writes_sub c V hw (h _ (by decide))).trans hA.2.2.2.2.1,
   (after_of_writes_sub c V hw (h _ (by decide))).trans hA.2.2.2.2.2.1,
   (after_of_writes_sub c V hw (h _ (by decide))).trans hA.2.2.2.2.2.2.1,
   (after_of_writes_sub c V hw (h _ (by decide))).trans hA.2.2.2.2.2.2.2.1,
   (after_of_writes_sub c V hw (h _ (by decide))).trans hA.2.2.2.2.2.2.2.2.1,
   (after_of_writes_sub c V hw (h _ (by decide))).trans hA.2.2.2.2.2.2.2.2.2.1,
   (after_of_writes_sub c V hw (h _ (by decide))).trans hA.2.2.2.2.2.2.2.2.2.2⟩

theorem car_pass (h : ∀ r ∈ [main_v1, main_v3, main_v26, main_v29], r ∉ w) (hC : Car V x1) : Car (after c V) x1 :=
  ⟨(after_of_writes_sub c V hw (h _ (by decide))).trans hC.1, (after_of_writes_sub c V hw (h _ (by decide))).trans hC.2.1,
   (after_of_writes_sub c V hw (h _ (by decide))).trans hC.2.2.1, (after_of_writes_sub c V hw (h _ (by decide))).trans hC.2.2.2⟩

end Pass

theorem car_c0 (hA : Args V x0 x1 x2 x3 x4 x5 x6 x7 x8 x9 x10) : Car (after c0 V) x1 := by
  obtain ⟨rfl, rfl, rfl, rfl, rfl, rfl, rfl, rfl, rfl, rfl, rfl⟩ := hA
  refine ⟨?_, ?_, ?_, ?_⟩ <;> (after_results_simp; rfl)

theorem v32_c0 (hA : Args V x0 x1 x2 x3 x4 x5 x6 x7 x8 x9 x10) :
    after c0 V (Proc.devRef .tc main_v32) = val_main_v32 (F := F) x0 x3 := by
  obtain ⟨rfl, rfl, rfl, rfl, rfl, rfl, rfl, rfl, rfl, rfl, rfl⟩ := hA
  after_results_simp
  rfl

theorem v85_c1 (hA : Args V x0 x1 x2 x3 x4 x5 x6 x7 x8 x9 x10) (hC : Car V x1) (hP : V (Proc.devRef .tc main_v32) = val_main_v32 (F := F) x0 x3) :
    after c1 V (Proc.devRef .tc main_v85) = val_main_v85 (F := F) x0 x1 x3 x4 x5 x6 := by
  obtain ⟨rfl, rfl, rfl, rfl, rfl, rfl, rfl, rfl, rfl, rfl, rfl⟩ := hA
  after_results_simp
  simp only [hC.1, hC.2.1, hC.2.2.1, hC.2.2.2, hP]
  rfl

theorem v138_c2 (hA : Args V x0 x1 x2 x3 x4 x5 x6 x7 x8 x9 x10) (hC : Car V x1) (hP : V (Proc.devRef .tc main_v85) = val_main_v85 (F := F) x0 x1 x3 x4 x5 x6) :
    after c2 V (Proc.devRef .tc main_v138) = val_main_v138 (F := F) x0 x1 x3 x4 x5 x6 := by
  obtain ⟨rfl, rfl, rfl, rfl, rfl, rfl, rfl, rfl, rfl, rfl, rfl⟩ := hA
  after_results_simp
  simp only [hC.1, hC.2.1, hC.2.2.1, hC.2.2.2, hP]
  rfl

theorem v188_c3 (hA : Args V x0 x1 x2 x3 x4 x5 x6 x7 x8 x9 x10) (hC : Car V x1) (hP : V (Proc.devRef .tc main_v138) = val_main_v138 (F := F) x0 x1 x3 x4 x5 x6) :
    after c3 V (Proc.devRef .tc main_v188) = val_main_v188 (F := F) x0 x1 x3 x4 x5 x6 := by
  obtain ⟨rfl, rfl, rfl, rfl, rfl, rfl, rfl, rfl, rfl, rfl, rfl⟩ := hA
  after_results_simp
  simp only [hC.1, hC.2.1, hC.2.2.1, hC.2.2.2, hP]
  rfl

theorem v209_c4 (hA : Args V x0 x1 x2 x3 x4 x5 x6 x7 x8 x9 x10) (hP : V (Proc.devRef .tc main_v188) = val_main_v188 (F := F) x0 x1 x3 x4 x5 x6) :
    after c4 V (Proc.devRef .tc main_v209) = val_main_v209 (F := F) x0 x1 x2 x3 x4 x5 x6 x7 x8 x9 x10 := by
  obtain ⟨rfl, rfl, rfl, rfl, rfl, rfl, rfl, rfl, rfl, rfl, rfl⟩ := hA
  after_results_simp
  simp only [hP]
  rfl

theorem result_of_args (hA : Args V x0 x1 x2 x3 x4 x5 x6 x7 x8 x9 x10) :
    after ops V (Proc.devRef .tc main_v209) = val_main_v209 (F := F) x0 x1 x2 x3 x4 x5 x6 x7 x8 x9 x10 := by
  rw [ops_eq, after_append, after_append, after_append, after_append]
  have A1 := args_pass c0_writes (by decide) hA
  have C1 := car_c0 hA
  have A2 := args_pass c1_writes (by decide) A1
  have C2 := car_pass c1_writes (by decide) C1
  have A3 := args_pass c2_writes (by decide) A2
  have h138 := v138_c2 A2 C2 (v85_c1 A1 C1 (v32_c0 hA))
  exact v209_c4 (args_pass c3_writes (by decide) A3) (v188_c3 A3 (car_pass c2_writes (by decide) C2) h138)

theorem args_ops (hA : Args V x0 x1 x2 x3 x4 x5 x6 x7 x8 x9 x10) : Args (after ops V) x0 x1 x2 x3 x4 x5 x6 x7 x8 x9 x10 := by
  rw [ops_eq, after_append, after_append, after_append, after_append]
  exact args_pass c4_writes (by decide) (args_pass c3_writes (by decide) (args_pass c2_writes (by decide)
    (args_pass c1_writes (by decide) (args_pass c0_writes (by decide) hA))))

variable (m : (ℓ : Loc nD τ sig) → Buf (Elt F) ℓ) (d : Dev nD)

theorem launch_args : Args (launchContents m d) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) :=
  ⟨rfl, rfl, rfl, rfl, rfl, rfl, rfl, rfl, rfl, rfl, rfl⟩

theorem result_eq : after ops (launchContents m d) (Proc.devRef .tc main_v209)
    = val_main_v209 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) :=
  result_of_args (launch_args m d)

/-- The arguments' part of the posts of the reference's frame and of the pair claim. -/
theorem args_kept {r : (ℓ : Loc nD τ sig) → Buf (Elt F) ℓ}
    (h : ∀ b : Ref sig .tc, r ((d.tc : Thread nD τ).loc b) = after ops (launchContents m d) (Proc.devRef .tc b)) :
    r ((d.tc : Thread nD τ).loc main_arg0) = m ((d.tc : Thread nD τ).loc main_arg0)
    ∧ r ((d.tc : Thread nD τ).loc main_arg1) = m ((d.tc : Thread nD τ).loc main_arg1)
    ∧ r ((d.tc : Thread nD τ).loc main_arg2) = m ((d.tc : Thread nD τ).loc main_arg2)
    ∧ r ((d.tc : Thread nD τ).loc main_arg3) = m ((d.tc : Thread nD τ).loc main_arg3)
    ∧ r ((d.tc : Thread nD τ).loc main_arg4) = m ((d.tc : Thread nD τ).loc main_arg4)
    ∧ r ((d.tc : Thread nD τ).loc main_arg5) = m ((d.tc : Thread nD τ).loc main_arg5)
    ∧ r ((d.tc : Thread nD τ).loc main_arg6) = m ((d.tc : Thread nD τ).loc main_arg6)
    ∧ r ((d.tc : Thread nD τ).loc main_arg7) = m ((d.tc : Thread nD τ).loc main_arg7)
    ∧ r ((d.tc : Thread nD τ).loc main_arg8) = m ((d.tc : Thread nD τ).loc main_arg8)
    ∧ r ((d.tc : Thread nD τ).loc main_arg9) = m ((d.tc : Thread nD τ).loc main_arg9)
    ∧ r ((d.tc : Thread nD τ).loc main_arg10) = m ((d.tc : Thread nD τ).loc main_arg10) :=
  have A := args_ops (launch_args m d)
  ⟨(h _).trans A.1, (h _).trans A.2.1, (h _).trans A.2.2.1, (h _).trans A.2.2.2.1, (h _).trans A.2.2.2.2.1, (h _).trans A.2.2.2.2.2.1, (h _).trans A.2.2.2.2.2.2.1, (h _).trans A.2.2.2.2.2.2.2.1, (h _).trans A.2.2.2.2.2.2.2.2.1, (h _).trans A.2.2.2.2.2.2.2.2.2.1, (h _).trans A.2.2.2.2.2.2.2.2.2.2⟩

end Cert.ReferenceIdeal.RefRun

end
-- ==== Proof.KKeep.lean ====
/-
  Which buffers of the kernel program keep their contents across which boundaries of its @main.  Boundary n + 1 differs
  from boundary n only where the step between them writes: a stretch of host operations writes its results, a region its
  output windows' arrays.  So a buffer no step from boundary i up to boundary j writes holds at j what it held at i.
-/
import proofs.«420895_j26731876451141_3_alg».proof.Proof.Gen.KernelIdeal.Frame

noncomputable section

namespace Cert.KernelIdeal.Gen

open Idealize.ShloMosaic Idealize.ShloMosaic.TcCoe Idealize.SL.Sem

/-- What the step from boundary `n` to boundary `n + 1` writes (for region 9 all its windows' arrays are listed: no fact
    below follows one of its inputs across it). -/
def wr : ℕ → List (Ref sig .tc)
  | 0 => [
      main_call0_v0, main_call0_v1, main_call0_v2, main_call0_v3, main_call0_cst, main_call0_v4, main_call0_cst_0,
      main_call0_v5, main_call0_v6, main_call0_v7, main_call0_cst_1, main_call0_v8, main_call0_v9, main_call0_v10,
      main_call0_c, main_call0_v11, main_call0_v12, main_call0_c_2, main_call0_v13, main_call0_v14, main_call0_v15,
      main_call0_v16, main_call0_v17, main_call0_c_3, main_call0_v18, main_call0_v19, main_call0_c_4, main_call0_v20,
      main_call0_v21, main_call0_v22, main_call0_v23, main_call0_v24, main_call0_v25, main_call0_v26,
      main_call0_cst_5, main_call0_v27, main_call0_v28, main_call0_v29, main_call0_v30, main_call0_v31,
      main_call0_v32 ]
  | 1 => ((List.finRange cfg0.W).filter fun w => (cfg0.win w).isOut).map (Pipeline.arrRef spec0)
  | 2 => [
      main_call0_c_6, main_call0_v34, main_call0_v35, main_call0_c_7, main_call0_v36, main_call0_v37, main_call0_v38,
      main_call0_v39, main_call0_v40, main_call0_v41, main_call0_v42, main_call0_cst_8, main_call0_v43,
      main_call0_v44, main_call0_v45, main_call0_v46, main_call0_v47, main_call0_v48, main_call0_v49, main_call0_v50,
      main_call0_v51, main_call0_v52, main_call0_v53, main_call0_v54 ]
  | 3 => ((List.finRange cfg1.W).filter fun w => (cfg1.win w).isOut).map (Pipeline.arrRef spec1)
  | 4 => [
      main_call0_cst_9, main_call0_v56, main_call0_cst_10, main_call0_v57, main_call0_v58 ]
  | 5 => ((List.finRange cfg2.W).filter fun w => (cfg2.win w).isOut).map (Pipeline.arrRef spec2)
  | 6 => [
      main_call0_cst_11, main_call0_v60, main_call0_cst_12, main_call0_v61, main_call0_v62, main_call0_cst_13,
      main_call0_v63, main_call0_v64, main_call0_v65, main_call0_v66, main_call0_v67 ]
  | 7 => ((List.finRange cfg3.W).filter fun w => (cfg3.win w).isOut).map (Pipeline.arrRef spec3)
  | 8 => [
      main_call0_c_14, main_call0_v69, main_call0_v70, main_call0_c_15, main_call0_v71, main_call0_v72,
      main_call0_v73, main_call0_v74, main_call0_v75, main_call0_v76, main_call0_v77, main_call0_cst_16,
      main_call0_v78, main_call0_v79, main_call0_v80, main_call0_v81, main_call0_v82, main_call0_v83, main_call0_v84,
      main_call0_v85, main_call0_v86, main_call0_v87, main_call0_v88, main_call0_v89 ]
  | 9 => ((List.finRange cfg4.W).filter fun w => (cfg4.win w).isOut).map (Pipeline.arrRef spec4)
  | 10 => [
      main_call0_cst_17, main_call0_v91, main_call0_cst_18, main_call0_v92, main_call0_v93 ]
  | 11 => ((List.finRange cfg5.W).filter fun w => (cfg5.win w).isOut).map (Pipeline.arrRef spec5)
  | 12 => [
      main_call0_cst_19, main_call0_v95, main_call0_cst_20, main_call0_v96, main_call0_v97, main_call0_cst_21,
      main_call0_v98, main_call0_v99, main_call0_v100, main_call0_v101, main_call0_v102 ]
  | 13 => ((List.finRange cfg6.W).filter fun w => (cfg6.win w).isOut).map (Pipeline.arrRef spec6)
  | 14 => [
      main_call0_c_22, main_call0_v104, main_call0_v105, main_call0_c_23, main_call0_v106, main_call0_v107,
      main_call0_v108, main_call0_v109, main_call0_v110, main_call0_v111, main_call0_v112, main_call0_cst_24,
      main_call0_v113, main_call0_v114, main_call0_v115, main_call0_v116, main_call0_v117, main_call0_v118,
      main_call0_v119, main_call0_v120, main_call0_v121, main_call0_v122, main_call0_v123, main_call0_v124 ]
  | 15 => ((List.finRange cfg7.W).filter fun w => (cfg7.win w).isOut).map (Pipeline.arrRef spec7)
  | 16 => [
      main_call0_cst_25, main_call0_v126, main_call0_cst_26, main_call0_v127, main_call0_v128 ]
  | 17 => ((List.finRange cfg8.W).filter fun w => (cfg8.win w).isOut).map (Pipeline.arrRef spec8)
  | 18 => [
      main_call0_cst_27, main_call0_v130, main_call0_cst_28, main_call0_v131, main_call0_v132, main_call0_cst_29,
      main_call0_v133, main_call0_v134, main_call0_v135 ]
  | 19 => ((List.finRange cfg9.W).filter fun _ => true).map (Pipeline.arrRef spec9)
  | 20 => [
      main_call0_cst_30, main_call0_v137, main_call0_cst_31, main_call0_v138, main_call0_v139, main_call0_cst_32,
      main_call0_v140, main_call0_v141, main_call0_v142, main_call0_v143, main_call0_v144, main_call0_v145 ]
  | _ => []

variable {F : FTy → Type} [FloatOps F]
variable (m : (ℓ : Loc nD τ sig) → Buf (Elt F) ℓ) (ρ : Dev nD → PrngReg)

/-- The region step of the chains below, from the two facts the generated fold gives about a region's exit. -/
theorem region_keep {W : ℕ} {arr : Fin W → Ref sig .tc} {out : Fin W → Bool} {X Y : Valuation τ sig (Elt F)}
    (hne : ∀ b, (∀ w, arr w ≠ b) → X (Proc.devRef .tc b) = Y (Proc.devRef .tc b))
    (hin : ∀ w, out w = false → X (Proc.devRef .tc (arr w)) = Y (Proc.devRef .tc (arr w)))
    {r : Ref sig .tc} (h : r ∉ ((List.finRange W).filter out).map arr) : X (Proc.devRef .tc r) = Y (Proc.devRef .tc r) := by
  by_cases hr : ∃ w, arr w = r
  · obtain ⟨w, rfl⟩ := hr
    exact hin w (Bool.eq_false_iff.mpr fun ho =>
      h (List.mem_map.mpr ⟨w, List.mem_filter.mpr ⟨List.mem_finRange w, ho⟩, rfl⟩))
  · exact hne r fun w e => hr ⟨w, e⟩

theorem s0 (c : Dev nD) (r : Ref sig .tc) (h : r ∉ wr 0) : W1 m ρ c (Proc.devRef .tc r) = W0 m ρ c (Proc.devRef .tc r) := by
  refine StableHlo.after_of_writes_sub hostOps0 _ ?_ h
  simp only [wr, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem s1 (c : Dev nD) (r : Ref sig .tc) : r ∉ wr 1 → W2 m ρ c (Proc.devRef .tc r) = W1 m ρ c (Proc.devRef .tc r) :=
  region_keep (out := fun w => (cfg0.win w).isOut) (W2_of_ne m ρ c) fun w hw =>
    (W2_arr m ρ c w).trans (((dat0 (V1 m ρ) c).arrAt_in w hw _).trans (A_eq0 (V1 m ρ) c w))
theorem s2 (c : Dev nD) (r : Ref sig .tc) (h : r ∉ wr 2) : W3 m ρ c (Proc.devRef .tc r) = W2 m ρ c (Proc.devRef .tc r) := by
  refine StableHlo.after_of_writes_sub hostOps1 _ ?_ h
  simp only [wr, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem s3 (c : Dev nD) (r : Ref sig .tc) : r ∉ wr 3 → W4 m ρ c (Proc.devRef .tc r) = W3 m ρ c (Proc.devRef .tc r) :=
  region_keep (out := fun w => (cfg1.win w).isOut) (W4_of_ne m ρ c) fun w hw =>
    (W4_arr m ρ c w).trans (((dat1 (V3 m ρ) c).arrAt_in w hw _).trans (A_eq1 (V3 m ρ) c w))
theorem s4 (c : Dev nD) (r : Ref sig .tc) (h : r ∉ wr 4) : W5 m ρ c (Proc.devRef .tc r) = W4 m ρ c (Proc.devRef .tc r) := by
  refine StableHlo.after_of_writes_sub hostOps2 _ ?_ h
  simp only [wr, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem s5 (c : Dev nD) (r : Ref sig .tc) : r ∉ wr 5 → W6 m ρ c (Proc.devRef .tc r) = W5 m ρ c (Proc.devRef .tc r) :=
  region_keep (out := fun w => (cfg2.win w).isOut) (W6_of_ne m ρ c) fun w hw =>
    (W6_arr m ρ c w).trans (((dat2 (V5 m ρ) c).arrAt_in w hw _).trans (A_eq2 (V5 m ρ) c w))
theorem s6 (c : Dev nD) (r : Ref sig .tc) (h : r ∉ wr 6) : W7 m ρ c (Proc.devRef .tc r) = W6 m ρ c (Proc.devRef .tc r) := by
  refine StableHlo.after_of_writes_sub hostOps3 _ ?_ h
  simp only [wr, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem s7 (c : Dev nD) (r : Ref sig .tc) : r ∉ wr 7 → W8 m ρ c (Proc.devRef .tc r) = W7 m ρ c (Proc.devRef .tc r) :=
  region_keep (out := fun w => (cfg3.win w).isOut) (W8_of_ne m ρ c) fun w hw =>
    (W8_arr m ρ c w).trans (((dat3 (V7 m ρ) c).arrAt_in w hw _).trans (A_eq3 (V7 m ρ) c w))
theorem s8 (c : Dev nD) (r : Ref sig .tc) (h : r ∉ wr 8) : W9 m ρ c (Proc.devRef .tc r) = W8 m ρ c (Proc.devRef .tc r) := by
  refine StableHlo.after_of_writes_sub hostOps4 _ ?_ h
  simp only [wr, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem s9 (c : Dev nD) (r : Ref sig .tc) : r ∉ wr 9 → W10 m ρ c (Proc.devRef .tc r) = W9 m ρ c (Proc.devRef .tc r) :=
  region_keep (out := fun w => (cfg4.win w).isOut) (W10_of_ne m ρ c) fun w hw =>
    (W10_arr m ρ c w).trans (((dat4 (V9 m ρ) c).arrAt_in w hw _).trans (A_eq4 (V9 m ρ) c w))
theorem s10 (c : Dev nD) (r : Ref sig .tc) (h : r ∉ wr 10) : W11 m ρ c (Proc.devRef .tc r) = W10 m ρ c (Proc.devRef .tc r) := by
  refine StableHlo.after_of_writes_sub hostOps5 _ ?_ h
  simp only [wr, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem s11 (c : Dev nD) (r : Ref sig .tc) : r ∉ wr 11 → W12 m ρ c (Proc.devRef .tc r) = W11 m ρ c (Proc.devRef .tc r) :=
  region_keep (out := fun w => (cfg5.win w).isOut) (W12_of_ne m ρ c) fun w hw =>
    (W12_arr m ρ c w).trans (((dat5 (V11 m ρ) c).arrAt_in w hw _).trans (A_eq5 (V11 m ρ) c w))
theorem s12 (c : Dev nD) (r : Ref sig .tc) (h : r ∉ wr 12) : W13 m ρ c (Proc.devRef .tc r) = W12 m ρ c (Proc.devRef .tc r) := by
  refine StableHlo.after_of_writes_sub hostOps6 _ ?_ h
  simp only [wr, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem s13 (c : Dev nD) (r : Ref sig .tc) : r ∉ wr 13 → W14 m ρ c (Proc.devRef .tc r) = W13 m ρ c (Proc.devRef .tc r) :=
  region_keep (out := fun w => (cfg6.win w).isOut) (W14_of_ne m ρ c) fun w hw =>
    (W14_arr m ρ c w).trans (((dat6 (V13 m ρ) c).arrAt_in w hw _).trans (A_eq6 (V13 m ρ) c w))
theorem s14 (c : Dev nD) (r : Ref sig .tc) (h : r ∉ wr 14) : W15 m ρ c (Proc.devRef .tc r) = W14 m ρ c (Proc.devRef .tc r) := by
  refine StableHlo.after_of_writes_sub hostOps7 _ ?_ h
  simp only [wr, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem s15 (c : Dev nD) (r : Ref sig .tc) : r ∉ wr 15 → W16 m ρ c (Proc.devRef .tc r) = W15 m ρ c (Proc.devRef .tc r) :=
  region_keep (out := fun w => (cfg7.win w).isOut) (W16_of_ne m ρ c) fun w hw =>
    (W16_arr m ρ c w).trans (((dat7 (V15 m ρ) c).arrAt_in w hw _).trans (A_eq7 (V15 m ρ) c w))
theorem s16 (c : Dev nD) (r : Ref sig .tc) (h : r ∉ wr 16) : W17 m ρ c (Proc.devRef .tc r) = W16 m ρ c (Proc.devRef .tc r) := by
  refine StableHlo.after_of_writes_sub hostOps8 _ ?_ h
  simp only [wr, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem s17 (c : Dev nD) (r : Ref sig .tc) : r ∉ wr 17 → W18 m ρ c (Proc.devRef .tc r) = W17 m ρ c (Proc.devRef .tc r) :=
  region_keep (out := fun w => (cfg8.win w).isOut) (W18_of_ne m ρ c) fun w hw =>
    (W18_arr m ρ c w).trans (((dat8 (V17 m ρ) c).arrAt_in w hw _).trans (A_eq8 (V17 m ρ) c w))
theorem s18 (c : Dev nD) (r : Ref sig .tc) (h : r ∉ wr 18) : W19 m ρ c (Proc.devRef .tc r) = W18 m ρ c (Proc.devRef .tc r) := by
  refine StableHlo.after_of_writes_sub hostOps9 _ ?_ h
  simp only [wr, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem s19 (c : Dev nD) (r : Ref sig .tc) : r ∉ wr 19 → W20 m ρ c (Proc.devRef .tc r) = W19 m ρ c (Proc.devRef .tc r) :=
  region_keep (out := fun _ => true) (W20_of_ne m ρ c) fun _ hw => nomatch hw
theorem s20 (c : Dev nD) (r : Ref sig .tc) (h : r ∉ wr 20) : W21 m ρ c (Proc.devRef .tc r) = W20 m ρ c (Proc.devRef .tc r) := by
  refine StableHlo.after_of_writes_sub hostOps10 _ ?_ h
  simp only [wr, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep_arg0_0_1 (c : Dev nD) : W1 m ρ c (Proc.devRef .tc main_arg0) = W0 m ρ c (Proc.devRef .tc main_arg0) :=
  s0 m ρ c _ (by decide)
theorem keep_arg3_0_6 (c : Dev nD) : W6 m ρ c (Proc.devRef .tc main_arg3) = W0 m ρ c (Proc.devRef .tc main_arg3) :=
  (s5 m ρ c _ (by decide)).trans ((s4 m ρ c _ (by decide)).trans ((s3 m ρ c _ (by decide)).trans ((s2 m ρ c _ (by decide)).trans ((s1 m ρ c _ (by decide)).trans (s0 m ρ c _ (by decide))))))
theorem keep_arg3_6_12 (c : Dev nD) : W12 m ρ c (Proc.devRef .tc main_arg3) = W6 m ρ c (Proc.devRef .tc main_arg3) :=
  (s11 m ρ c _ (by decide)).trans ((s10 m ρ c _ (by decide)).trans ((s9 m ρ c _ (by decide)).trans ((s8 m ρ c _ (by decide)).trans ((s7 m ρ c _ (by decide)).trans (s6 m ρ c _ (by decide))))))
theorem keep_arg4_0_2 (c : Dev nD) : W2 m ρ c (Proc.devRef .tc main_arg4) = W0 m ρ c (Proc.devRef .tc main_arg4) :=
  (s1 m ρ c _ (by decide)).trans (s0 m ρ c _ (by decide))
theorem keep_arg4_2_8 (c : Dev nD) : W8 m ρ c (Proc.devRef .tc main_arg4) = W2 m ρ c (Proc.devRef .tc main_arg4) :=
  (s7 m ρ c _ (by decide)).trans ((s6 m ρ c _ (by decide)).trans ((s5 m ρ c _ (by decide)).trans ((s4 m ρ c _ (by decide)).trans ((s3 m ρ c _ (by decide)).trans (s2 m ρ c _ (by decide))))))
theorem keep_arg4_8_14 (c : Dev nD) : W14 m ρ c (Proc.devRef .tc main_arg4) = W8 m ρ c (Proc.devRef .tc main_arg4) :=
  (s13 m ρ c _ (by decide)).trans ((s12 m ρ c _ (by decide)).trans ((s11 m ρ c _ (by decide)).trans ((s10 m ρ c _ (by decide)).trans ((s9 m ρ c _ (by decide)).trans (s8 m ρ c _ (by decide))))))
theorem keep_arg5_0_2 (c : Dev nD) : W2 m ρ c (Proc.devRef .tc main_arg5) = W0 m ρ c (Proc.devRef .tc main_arg5) :=
  (s1 m ρ c _ (by decide)).trans (s0 m ρ c _ (by decide))
theorem keep_arg5_2_8 (c : Dev nD) : W8 m ρ c (Proc.devRef .tc main_arg5) = W2 m ρ c (Proc.devRef .tc main_arg5) :=
  (s7 m ρ c _ (by decide)).trans ((s6 m ρ c _ (by decide)).trans ((s5 m ρ c _ (by decide)).trans ((s4 m ρ c _ (by decide)).trans ((s3 m ρ c _ (by decide)).trans (s2 m ρ c _ (by decide))))))
theorem keep_arg5_8_14 (c : Dev nD) : W14 m ρ c (Proc.devRef .tc main_arg5) = W8 m ρ c (Proc.devRef .tc main_arg5) :=
  (s13 m ρ c _ (by decide)).trans ((s12 m ρ c _ (by decide)).trans ((s11 m ρ c _ (by decide)).trans ((s10 m ρ c _ (by decide)).trans ((s9 m ρ c _ (by decide)).trans (s8 m ρ c _ (by decide))))))
theorem keep_arg6_0_2 (c : Dev nD) : W2 m ρ c (Proc.devRef .tc main_arg6) = W0 m ρ c (Proc.devRef .tc main_arg6) :=
  (s1 m ρ c _ (by decide)).trans (s0 m ρ c _ (by decide))
theorem keep_arg6_2_8 (c : Dev nD) : W8 m ρ c (Proc.devRef .tc main_arg6) = W2 m ρ c (Proc.devRef .tc main_arg6) :=
  (s7 m ρ c _ (by decide)).trans ((s6 m ρ c _ (by decide)).trans ((s5 m ρ c _ (by decide)).trans ((s4 m ρ c _ (by decide)).trans ((s3 m ρ c _ (by decide)).trans (s2 m ρ c _ (by decide))))))
theorem keep_arg6_8_14 (c : Dev nD) : W14 m ρ c (Proc.devRef .tc main_arg6) = W8 m ρ c (Proc.devRef .tc main_arg6) :=
  (s13 m ρ c _ (by decide)).trans ((s12 m ρ c _ (by decide)).trans ((s11 m ρ c _ (by decide)).trans ((s10 m ρ c _ (by decide)).trans ((s9 m ρ c _ (by decide)).trans (s8 m ρ c _ (by decide))))))
theorem keep_arg8_0_20 (c : Dev nD) : W20 m ρ c (Proc.devRef .tc main_arg8) = W0 m ρ c (Proc.devRef .tc main_arg8) :=
  (s19 m ρ c _ (by decide)).trans ((s18 m ρ c _ (by decide)).trans ((s17 m ρ c _ (by decide)).trans ((s16 m ρ c _ (by decide)).trans ((s15 m ρ c _ (by decide)).trans ((s14 m ρ c _ (by decide)).trans ((s13 m ρ c _ (by decide)).trans ((s12 m ρ c _ (by decide)).trans ((s11 m ρ c _ (by decide)).trans ((s10 m ρ c _ (by decide)).trans ((s9 m ρ c _ (by decide)).trans ((s8 m ρ c _ (by decide)).trans ((s7 m ρ c _ (by decide)).trans ((s6 m ρ c _ (by decide)).trans ((s5 m ρ c _ (by decide)).trans ((s4 m ρ c _ (by decide)).trans ((s3 m ρ c _ (by decide)).trans ((s2 m ρ c _ (by decide)).trans ((s1 m ρ c _ (by decide)).trans (s0 m ρ c _ (by decide))))))))))))))))))))
theorem keep_arg10_0_20 (c : Dev nD) : W20 m ρ c (Proc.devRef .tc main_arg10) = W0 m ρ c (Proc.devRef .tc main_arg10) :=
  (s19 m ρ c _ (by decide)).trans ((s18 m ρ c _ (by decide)).trans ((s17 m ρ c _ (by decide)).trans ((s16 m ρ c _ (by decide)).trans ((s15 m ρ c _ (by decide)).trans ((s14 m ρ c _ (by decide)).trans ((s13 m ρ c _ (by decide)).trans ((s12 m ρ c _ (by decide)).trans ((s11 m ρ c _ (by decide)).trans ((s10 m ρ c _ (by decide)).trans ((s9 m ρ c _ (by decide)).trans ((s8 m ρ c _ (by decide)).trans ((s7 m ρ c _ (by decide)).trans ((s6 m ρ c _ (by decide)).trans ((s5 m ρ c _ (by decide)).trans ((s4 m ρ c _ (by decide)).trans ((s3 m ρ c _ (by decide)).trans ((s2 m ρ c _ (by decide)).trans ((s1 m ρ c _ (by decide)).trans (s0 m ρ c _ (by decide))))))))))))))))))))
theorem keep_arg7_0_21 (c : Dev nD) : W21 m ρ c (Proc.devRef .tc main_arg7) = W0 m ρ c (Proc.devRef .tc main_arg7) :=
  (s20 m ρ c _ (by decide)).trans ((s19 m ρ c _ (by decide)).trans ((s18 m ρ c _ (by decide)).trans ((s17 m ρ c _ (by decide)).trans ((s16 m ρ c _ (by decide)).trans ((s15 m ρ c _ (by decide)).trans ((s14 m ρ c _ (by decide)).trans ((s13 m ρ c _ (by decide)).trans ((s12 m ρ c _ (by decide)).trans ((s11 m ρ c _ (by decide)).trans ((s10 m ρ c _ (by decide)).trans ((s9 m ρ c _ (by decide)).trans ((s8 m ρ c _ (by decide)).trans ((s7 m ρ c _ (by decide)).trans ((s6 m ρ c _ (by decide)).trans ((s5 m ρ c _ (by decide)).trans ((s4 m ρ c _ (by decide)).trans ((s3 m ρ c _ (by decide)).trans ((s2 m ρ c _ (by decide)).trans ((s1 m ρ c _ (by decide)).trans (s0 m ρ c _ (by decide)))))))))))))))))))))
theorem keep_arg9_0_21 (c : Dev nD) : W21 m ρ c (Proc.devRef .tc main_arg9) = W0 m ρ c (Proc.devRef .tc main_arg9) :=
  (s20 m ρ c _ (by decide)).trans ((s19 m ρ c _ (by decide)).trans ((s18 m ρ c _ (by decide)).trans ((s17 m ρ c _ (by decide)).trans ((s16 m ρ c _ (by decide)).trans ((s15 m ρ c _ (by decide)).trans ((s14 m ρ c _ (by decide)).trans ((s13 m ρ c _ (by decide)).trans ((s12 m ρ c _ (by decide)).trans ((s11 m ρ c _ (by decide)).trans ((s10 m ρ c _ (by decide)).trans ((s9 m ρ c _ (by decide)).trans ((s8 m ρ c _ (by decide)).trans ((s7 m ρ c _ (by decide)).trans ((s6 m ρ c _ (by decide)).trans ((s5 m ρ c _ (by decide)).trans ((s4 m ρ c _ (by decide)).trans ((s3 m ρ c _ (by decide)).trans ((s2 m ρ c _ (by decide)).trans ((s1 m ρ c _ (by decide)).trans (s0 m ρ c _ (by decide)))))))))))))))))))))
theorem keep_v1_1_2 (c : Dev nD) : W2 m ρ c (Proc.devRef .tc main_call0_v1) = W1 m ρ c (Proc.devRef .tc main_call0_v1) :=
  s1 m ρ c _ (by decide)
theorem keep_v1_2_8 (c : Dev nD) : W8 m ρ c (Proc.devRef .tc main_call0_v1) = W2 m ρ c (Proc.devRef .tc main_call0_v1) :=
  (s7 m ρ c _ (by decide)).trans ((s6 m ρ c _ (by decide)).trans ((s5 m ρ c _ (by decide)).trans ((s4 m ρ c _ (by decide)).trans ((s3 m ρ c _ (by decide)).trans (s2 m ρ c _ (by decide))))))
theorem keep_v1_8_14 (c : Dev nD) : W14 m ρ c (Proc.devRef .tc main_call0_v1) = W8 m ρ c (Proc.devRef .tc main_call0_v1) :=
  (s13 m ρ c _ (by decide)).trans ((s12 m ρ c _ (by decide)).trans ((s11 m ρ c _ (by decide)).trans ((s10 m ρ c _ (by decide)).trans ((s9 m ρ c _ (by decide)).trans (s8 m ρ c _ (by decide))))))
theorem keep_v3_1_2 (c : Dev nD) : W2 m ρ c (Proc.devRef .tc main_call0_v3) = W1 m ρ c (Proc.devRef .tc main_call0_v3) :=
  s1 m ρ c _ (by decide)
theorem keep_v3_2_8 (c : Dev nD) : W8 m ρ c (Proc.devRef .tc main_call0_v3) = W2 m ρ c (Proc.devRef .tc main_call0_v3) :=
  (s7 m ρ c _ (by decide)).trans ((s6 m ρ c _ (by decide)).trans ((s5 m ρ c _ (by decide)).trans ((s4 m ρ c _ (by decide)).trans ((s3 m ρ c _ (by decide)).trans (s2 m ρ c _ (by decide))))))
theorem keep_v3_8_14 (c : Dev nD) : W14 m ρ c (Proc.devRef .tc main_call0_v3) = W8 m ρ c (Proc.devRef .tc main_call0_v3) :=
  (s13 m ρ c _ (by decide)).trans ((s12 m ρ c _ (by decide)).trans ((s11 m ρ c _ (by decide)).trans ((s10 m ρ c _ (by decide)).trans ((s9 m ρ c _ (by decide)).trans (s8 m ρ c _ (by decide))))))
theorem keep_v26_1_2 (c : Dev nD) : W2 m ρ c (Proc.devRef .tc main_call0_v26) = W1 m ρ c (Proc.devRef .tc main_call0_v26) :=
  s1 m ρ c _ (by decide)
theorem keep_v26_2_8 (c : Dev nD) : W8 m ρ c (Proc.devRef .tc main_call0_v26) = W2 m ρ c (Proc.devRef .tc main_call0_v26) :=
  (s7 m ρ c _ (by decide)).trans ((s6 m ρ c _ (by decide)).trans ((s5 m ρ c _ (by decide)).trans ((s4 m ρ c _ (by decide)).trans ((s3 m ρ c _ (by decide)).trans (s2 m ρ c _ (by decide))))))
theorem keep_v26_8_14 (c : Dev nD) : W14 m ρ c (Proc.devRef .tc main_call0_v26) = W8 m ρ c (Proc.devRef .tc main_call0_v26) :=
  (s13 m ρ c _ (by decide)).trans ((s12 m ρ c _ (by decide)).trans ((s11 m ρ c _ (by decide)).trans ((s10 m ρ c _ (by decide)).trans ((s9 m ρ c _ (by decide)).trans (s8 m ρ c _ (by decide))))))
theorem keep_v29_1_3 (c : Dev nD) : W3 m ρ c (Proc.devRef .tc main_call0_v29) = W1 m ρ c (Proc.devRef .tc main_call0_v29) :=
  (s2 m ρ c _ (by decide)).trans (s1 m ρ c _ (by decide))
theorem keep_v29_3_9 (c : Dev nD) : W9 m ρ c (Proc.devRef .tc main_call0_v29) = W3 m ρ c (Proc.devRef .tc main_call0_v29) :=
  (s8 m ρ c _ (by decide)).trans ((s7 m ρ c _ (by decide)).trans ((s6 m ρ c _ (by decide)).trans ((s5 m ρ c _ (by decide)).trans ((s4 m ρ c _ (by decide)).trans (s3 m ρ c _ (by decide))))))
theorem keep_v29_9_15 (c : Dev nD) : W15 m ρ c (Proc.devRef .tc main_call0_v29) = W9 m ρ c (Proc.devRef .tc main_call0_v29) :=
  (s14 m ρ c _ (by decide)).trans ((s13 m ρ c _ (by decide)).trans ((s12 m ρ c _ (by decide)).trans ((s11 m ρ c _ (by decide)).trans ((s10 m ρ c _ (by decide)).trans (s9 m ρ c _ (by decide))))))
theorem keep_v30_1_19 (c : Dev nD) : W19 m ρ c (Proc.devRef .tc main_call0_v30) = W1 m ρ c (Proc.devRef .tc main_call0_v30) :=
  (s18 m ρ c _ (by decide)).trans ((s17 m ρ c _ (by decide)).trans ((s16 m ρ c _ (by decide)).trans ((s15 m ρ c _ (by decide)).trans ((s14 m ρ c _ (by decide)).trans ((s13 m ρ c _ (by decide)).trans ((s12 m ρ c _ (by decide)).trans ((s11 m ρ c _ (by decide)).trans ((s10 m ρ c _ (by decide)).trans ((s9 m ρ c _ (by decide)).trans ((s8 m ρ c _ (by decide)).trans ((s7 m ρ c _ (by decide)).trans ((s6 m ρ c _ (by decide)).trans ((s5 m ρ c _ (by decide)).trans ((s4 m ρ c _ (by decide)).trans ((s3 m ρ c _ (by decide)).trans ((s2 m ρ c _ (by decide)).trans (s1 m ρ c _ (by decide))))))))))))))))))
theorem keep_v33_2_3 (c : Dev nD) : W3 m ρ c (Proc.devRef .tc main_call0_v33) = W2 m ρ c (Proc.devRef .tc main_call0_v33) :=
  s2 m ρ c _ (by decide)
theorem keep_v51_3_7 (c : Dev nD) : W7 m ρ c (Proc.devRef .tc main_call0_v51) = W3 m ρ c (Proc.devRef .tc main_call0_v51) :=
  (s6 m ρ c _ (by decide)).trans ((s5 m ρ c _ (by decide)).trans ((s4 m ρ c _ (by decide)).trans (s3 m ρ c _ (by decide))))
theorem keep_v54_3_7 (c : Dev nD) : W7 m ρ c (Proc.devRef .tc main_call0_v54) = W3 m ρ c (Proc.devRef .tc main_call0_v54) :=
  (s6 m ρ c _ (by decide)).trans ((s5 m ρ c _ (by decide)).trans ((s4 m ρ c _ (by decide)).trans (s3 m ρ c _ (by decide))))
theorem keep_v55_0_4_5 (c : Dev nD) : W5 m ρ c (Proc.devRef .tc main_call0_v55_0) = W4 m ρ c (Proc.devRef .tc main_call0_v55_0) :=
  s4 m ρ c _ (by decide)
theorem keep_v55_0_5_7 (c : Dev nD) : W7 m ρ c (Proc.devRef .tc main_call0_v55_0) = W5 m ρ c (Proc.devRef .tc main_call0_v55_0) :=
  (s6 m ρ c _ (by decide)).trans (s5 m ρ c _ (by decide))
theorem keep_v58_5_7 (c : Dev nD) : W7 m ρ c (Proc.devRef .tc main_call0_v58) = W5 m ρ c (Proc.devRef .tc main_call0_v58) :=
  (s6 m ρ c _ (by decide)).trans (s5 m ρ c _ (by decide))
theorem keep_v68_8_9 (c : Dev nD) : W9 m ρ c (Proc.devRef .tc main_call0_v68) = W8 m ρ c (Proc.devRef .tc main_call0_v68) :=
  s8 m ρ c _ (by decide)
theorem keep_v86_9_13 (c : Dev nD) : W13 m ρ c (Proc.devRef .tc main_call0_v86) = W9 m ρ c (Proc.devRef .tc main_call0_v86) :=
  (s12 m ρ c _ (by decide)).trans ((s11 m ρ c _ (by decide)).trans ((s10 m ρ c _ (by decide)).trans (s9 m ρ c _ (by decide))))
theorem keep_v89_9_13 (c : Dev nD) : W13 m ρ c (Proc.devRef .tc main_call0_v89) = W9 m ρ c (Proc.devRef .tc main_call0_v89) :=
  (s12 m ρ c _ (by decide)).trans ((s11 m ρ c _ (by decide)).trans ((s10 m ρ c _ (by decide)).trans (s9 m ρ c _ (by decide))))
theorem keep_v90_0_10_11 (c : Dev nD) : W11 m ρ c (Proc.devRef .tc main_call0_v90_0) = W10 m ρ c (Proc.devRef .tc main_call0_v90_0) :=
  s10 m ρ c _ (by decide)
theorem keep_v90_0_11_13 (c : Dev nD) : W13 m ρ c (Proc.devRef .tc main_call0_v90_0) = W11 m ρ c (Proc.devRef .tc main_call0_v90_0) :=
  (s12 m ρ c _ (by decide)).trans (s11 m ρ c _ (by decide))
theorem keep_v93_11_13 (c : Dev nD) : W13 m ρ c (Proc.devRef .tc main_call0_v93) = W11 m ρ c (Proc.devRef .tc main_call0_v93) :=
  (s12 m ρ c _ (by decide)).trans (s11 m ρ c _ (by decide))
theorem keep_v103_14_15 (c : Dev nD) : W15 m ρ c (Proc.devRef .tc main_call0_v103) = W14 m ρ c (Proc.devRef .tc main_call0_v103) :=
  s14 m ρ c _ (by decide)
theorem keep_v121_15_19 (c : Dev nD) : W19 m ρ c (Proc.devRef .tc main_call0_v121) = W15 m ρ c (Proc.devRef .tc main_call0_v121) :=
  (s18 m ρ c _ (by decide)).trans ((s17 m ρ c _ (by decide)).trans ((s16 m ρ c _ (by decide)).trans (s15 m ρ c _ (by decide))))
theorem keep_v124_15_19 (c : Dev nD) : W19 m ρ c (Proc.devRef .tc main_call0_v124) = W15 m ρ c (Proc.devRef .tc main_call0_v124) :=
  (s18 m ρ c _ (by decide)).trans ((s17 m ρ c _ (by decide)).trans ((s16 m ρ c _ (by decide)).trans (s15 m ρ c _ (by decide))))
theorem keep_v125_0_16_17 (c : Dev nD) : W17 m ρ c (Proc.devRef .tc main_call0_v125_0) = W16 m ρ c (Proc.devRef .tc main_call0_v125_0) :=
  s16 m ρ c _ (by decide)
theorem keep_v125_0_17_19 (c : Dev nD) : W19 m ρ c (Proc.devRef .tc main_call0_v125_0) = W17 m ρ c (Proc.devRef .tc main_call0_v125_0) :=
  (s18 m ρ c _ (by decide)).trans (s17 m ρ c _ (by decide))
theorem keep_v128_17_19 (c : Dev nD) : W19 m ρ c (Proc.devRef .tc main_call0_v128) = W17 m ρ c (Proc.devRef .tc main_call0_v128) :=
  (s18 m ρ c _ (by decide)).trans (s17 m ρ c _ (by decide))

end Cert.KernelIdeal.Gen

end
-- ==== Proof.Spec.lean ====
/-
  The graph network's layer, pool and head as whole-array functions over the extended reals; both programs' results
  are stated against these.
-/
import Idealize.ShloMosaic.PureOps.Ideal
import Idealize.ShloMosaic.Lib.ValueIdx

noncomputable section

namespace Cert.Spec

open Idealize.ShloMosaic Idealize.ShloMosaic.ValueIdx

abbrev A2 (a b : Nat) : Type := (⟨2, ![a, b]⟩ : Shape).Idx → EReal
abbrev A3 (a b c : Nat) : Type := (⟨3, ![a, b, c]⟩ : Shape).Idx → EReal

abbrev I2 (a b : Nat) : Type := (⟨2, ![a, b]⟩ : Shape).Idx → BitVec 32

def z : EReal := Ideal.ofBits .f32 0x00000000#32
def cN : EReal := Ideal.ofBits .f32 0x47C35000#32
def ceps : EReal := Ideal.ofBits .f32 0x3727C5AC#32
def cone : EReal := Ideal.ofBits .f32 0x3F800000#32

def rowOf (c : Fin 2) (i : Fin 25) (r : Fin 2000) : Fin 100000 :=
  ⟨(25 * c.val + i.val) * 2000 + r.val, by have := c.isLt; have := i.isLt; have := r.isLt; omega⟩

def mmE {n : Nat} (x : A2 n 128) (w : A2 128 128) (r : Fin n) (d : Fin 128) : EReal :=
  ∑ k : Fin 128, x (ix2 r k) * w (ix2 k d)
def mm {n : Nat} (x : A2 n 128) (w : A2 128 128) : A2 n 128 := fun i => mmE x w (i 0) (i 1)

def hbE (agg hlin : A2 100000 128) (sw : A2 100000 1) (bias : A2 1 128) (n : Fin 100000) (d : Fin 128) : EReal :=
  agg (ix2 n d) + hlin (ix2 n d) * sw (ix2 n 0) + bias (ix2 0 d)
def hb (agg hlin : A2 100000 128) (sw : A2 100000 1) (bias : A2 1 128) : A2 100000 128 :=
  fun i => hbE agg hlin sw bias (i 0) (i 1)

def colsum (h : A2 100000 128) (d : Fin 128) : EReal := ∑ n : Fin 100000, h (ix2 n d)
def psum (h : A2 100000 128) (c : Fin 2) (d : Fin 128) : EReal :=
  ∑ i : Fin 25, ∑ r : Fin 2000, h (ix2 (rowOf c i r) d)

def psumA (h : A2 100000 128) : A3 2 1 128 := fun j => psum h (j 0) (j 2)

def meanE (h : A2 100000 128) (d : Fin 128) : EReal := Ideal.div (colsum h d) cN
def mean (h : A2 100000 128) : A2 1 128 := fun j => meanE h (j 1)

def sqE (h : A2 100000 128) (mu : A2 1 128) (n : Fin 100000) (d : Fin 128) : EReal :=
  (h (ix2 n d) - mu (ix2 0 d)) * (h (ix2 n d) - mu (ix2 0 d))
def sq (h : A2 100000 128) (mu : A2 1 128) : A2 100000 128 := fun i => sqE h mu (i 0) (i 1)

def istdE (h : A2 100000 128) (mu : A2 1 128) (d : Fin 128) : EReal :=
  Ideal.rsqrt (Ideal.div (colsum (sq h mu) d) cN + ceps)
def istd (h : A2 100000 128) (mu : A2 1 128) : A2 1 128 := fun j => istdE h mu (j 1)

def yE (h : A2 100000 128) (mu is gamma beta : A2 1 128) (n : Fin 100000) (d : Fin 128) : EReal :=
  max ((h (ix2 n d) - mu (ix2 0 d)) * is (ix2 0 d) * gamma (ix2 0 d) + beta (ix2 0 d)) z
def y (h : A2 100000 128) (mu is gamma beta : A2 1 128) : A2 100000 128 :=
  fun i => yE h mu is gamma beta (i 0) (i 1)

def poolE (v : A2 100000 128) (b : I2 100000 1) (g : Fin 512) (d : Fin 128) : EReal :=
  ∑ n : Fin 100000, if b (ix2 n 0) = BitVec.ofNat 32 g.val then v (ix2 n d) else 0
def pool (v : A2 100000 128) (b : I2 100000 1) : A2 512 128 := fun i => poolE v b (i 0) (i 1)
def cntE (b : I2 100000 1) (g : Fin 512) : EReal :=
  ∑ n : Fin 100000, if b (ix2 n 0) = BitVec.ofNat 32 g.val then (1 : EReal) else 0

def ppoolE (v : A2 100000 128) (b : I2 100000 1) (c : Fin 2) (g : Fin 512) (d : Fin 128) : EReal :=
  ∑ i : Fin 25, ∑ r : Fin 2000, if b (ix2 (rowOf c i r) 0) = BitVec.ofNat 32 g.val then v (ix2 (rowOf c i r) d) else 0
def ppoolA (v : A2 100000 128) (b : I2 100000 1) : A3 2 512 128 := fun j => ppoolE v b (j 0) (j 1) (j 2)
def pcntE (b : I2 100000 1) (c : Fin 2) (g : Fin 512) : EReal :=
  ∑ i : Fin 25, ∑ r : Fin 2000, if b (ix2 (rowOf c i r) 0) = BitVec.ofNat 32 g.val then (1 : EReal) else 0
def pcntA (b : I2 100000 1) : A3 2 1 512 := fun j => pcntE b (j 0) (j 2)

def cnt1 (b : I2 100000 1) : A2 512 1 := fun i => max (cntE b (i 0)) cone

def zpE (sums : A2 512 128) (cnt1 : A2 512 1) (g : Fin 512) (d : Fin 128) : EReal :=
  Ideal.div (sums (ix2 g d)) (cnt1 (ix2 g 0))
def zp (sums : A2 512 128) (cnt1 : A2 512 1) : A2 512 128 := fun i => zpE sums cnt1 (i 0) (i 1)

abbrev A1 (a : Nat) : Type := (⟨1, ![a]⟩ : Shape).Idx → EReal
abbrev I1 (a : Nat) : Type := (⟨1, ![a]⟩ : Shape).Idx → BitVec 32

def row3 (t : A2 3 128) (l : Fin 3) : A2 1 128 := fun j => t (ix2 l (j 1))

def rowv (v : A1 128) : A2 1 128 := fun j => v (ix1 (j 1))
def one1 (v : A1 1) : A2 1 1 := fun _ => v (ix1 0)
def col1 (b : I1 100000) : I2 100000 1 := fun i => b (ix1 (i 0))

def hidE (zz : A2 512 128) (w1 : A2 128 128) (b1 : A2 1 128) (g : Fin 512) (k : Fin 128) : EReal :=
  max ((∑ k' : Fin 128, zz (ix2 g k') * w1 (ix2 k' k)) + b1 (ix2 0 k)) z
def headE (zz : A2 512 128) (w1 : A2 128 128) (b1 : A2 1 128) (w2 : A2 128 1) (b2 : A2 1 1) (g : Fin 512) : EReal :=
  (∑ k : Fin 128, hidE zz w1 b1 g k * w2 (ix2 k 0)) + b2 (ix2 0 0)
def head (zz : A2 512 128) (w1 : A2 128 128) (b1 : A2 1 128) (w2 : A2 128 1) (b2 : A2 1 1) : A2 512 1 :=
  fun i => headE zz w1 b1 w2 b2 (i 0)

end Cert.Spec

end
-- ==== Proof.K9.lean ====
/-
  Region 9: over a half's 25 tiles the two carried blocks end at the half's sums and counts by graph id; over the
  extended reals a 0/1 factor keeps or drops its term exactly.
-/
import proofs.«420895_j26731876451141_3_alg».proof.Proof.Gen.KernelIdeal.Frame
import proofs.«420895_j26731876451141_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.K9

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section Pieces

variable {F : FTy → Type} [FloatOps F]

theorem cnt_B (c : Dev nD) (i : grid9.Coords)
    (a2 : Memref sig .tc .vmem S2000x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S2000x1 .i32) (h7 : a7.IsWhole)
    (a8 : Memref sig .tc .vmem S1x512x128 .f32) (h8 : a8.IsWhole) (a9 : Memref sig .tc .vmem S1x1x512 .f32) (h9 : a9.IsWhole) (hc : ¬cond9_0 i)
    (x0 : Vec F S2000x128 .f32) (x1 : Vec F S1x128 .f32) (x2 : Vec F S1x128 .f32) (x3 : Vec F S1x128 .f32)
    (x4 : Vec F S1x128 .f32) (x5 : Vec F S2000x1 .i32) (xo6 : Vec F S1x512x128 .f32) (xo7 : Vec F S1x1x512 .f32) :
    out9_B_7 c i a2 h2 a3 h3 a4 h4 a5 h5 a6 h6 a7 h7 a8 h8 a9 h9 hc x0 x1 x2 x3 x4 x5 xo6 xo7 = k9_pay1 (k9_pay4 x5) xo7 := by
  unfold out9_B_7
  rw [View.read_writes_eq_canon _ _ _ (cover9_B_7 c i a2 h2 a3 h3 a4 h4 a5 h5 a6 h6 a7 h7 a8 h8 a9 h9 hc x0 x1 x2 x3 x4 x5 xo6 xo7)]
  unfold kernelRun9_B
  dsimp only
  sl_unfold_words
  rw [View.canon_unit_zero hz3]
  simp only [View.readAt_eq_ld, h7.read_unread, h9.read_unread, View.ld_unit_zero (S := S2000x1) hz2,
    View.ld_unit_zero (S := S1x1x512) hz3]

theorem sum_B (c : Dev nD) (i : grid9.Coords)
    (a2 : Memref sig .tc .vmem S2000x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S2000x1 .i32) (h7 : a7.IsWhole)
    (a8 : Memref sig .tc .vmem S1x512x128 .f32) (h8 : a8.IsWhole) (a9 : Memref sig .tc .vmem S1x1x512 .f32) (h9 : a9.IsWhole) (hc : ¬cond9_0 i)
    (x0 : Vec F S2000x128 .f32) (x1 : Vec F S1x128 .f32) (x2 : Vec F S1x128 .f32) (x3 : Vec F S1x128 .f32)
    (x4 : Vec F S1x128 .f32) (x5 : Vec F S2000x1 .i32) (xo6 : Vec F S1x512x128 .f32) (xo7 : Vec F S1x1x512 .f32) :
    out9_B_6 c i a2 h2 a3 h3 a4 h4 a5 h5 a6 h6 a7 h7 a8 h8 a9 h9 hc x0 x1 x2 x3 x4 x5 xo6 xo7 = k9_pay5 x0 x1 x2 x3 x4 x5 xo6 := by
  unfold out9_B_6
  rw [View.read_writes_eq_canon _ _ _ (cover9_B_6 c i a2 h2 a3 h3 a4 h4 a5 h5 a6 h6 a7 h7 a8 h8 a9 h9 hc x0 x1 x2 x3 x4 x5 xo6 xo7)]
  unfold kernelRun9_B
  dsimp only
  sl_unfold_words
  rw [View.canon_unit_zero hz3]
  simp only [View.readAt_eq_ld, h2.read_unread, h3.read_unread, h4.read_unread, h5.read_unread, h6.read_unread,
    h7.read_unread, h8.read_unread, View.ld_unit_zero (S := S2000x1) hz2, View.ld_unit_zero (S := S2000x128) hz2,
    View.ld_unit_zero (S := S1x128) hz2, View.ld_unit_zero (S := S1x512x128) hz3]

theorem cnt_A (c : Dev nD) (i : grid9.Coords)
    (a2 : Memref sig .tc .vmem S2000x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S2000x1 .i32) (h7 : a7.IsWhole)
    (a8 : Memref sig .tc .vmem S1x512x128 .f32) (h8 : a8.IsWhole) (a9 : Memref sig .tc .vmem S1x1x512 .f32) (h9 : a9.IsWhole) (hc : cond9_0 i)
    (x0 : Vec F S2000x128 .f32) (x1 : Vec F S1x128 .f32) (x2 : Vec F S1x128 .f32) (x3 : Vec F S1x128 .f32)
    (x4 : Vec F S1x128 .f32) (x5 : Vec F S2000x1 .i32) :
    out9_A_7 c i a2 h2 a3 h3 a4 h4 a5 h5 a6 h6 a7 h7 a8 h8 a9 h9 hc x0 x1 x2 x3 x4 x5 = k9_pay1 (k9_pay4 x5) (k9_pay3 (F := F)) := by
  unfold out9_A_7
  rw [View.read_writes_eq_canon _ _ _ (cover9_A_7 c i a2 h2 a3 h3 a4 h4 a5 h5 a6 h6 a7 h7 a8 h8 a9 h9 hc x0 x1 x2 x3 x4 x5)]
  unfold kernelRun9_A
  dsimp only
  sl_unfold_words
  rw [View.canon_cons_unit_zero (S := S1x1x512) hz3, View.readCov_unit_zero (S := S1x1x512) _ hz3]
  simp only [View.readAt_eq_ld, h7.read_unread, View.ld_unit_zero (S := S2000x1) hz2]

theorem sum_A (c : Dev nD) (i : grid9.Coords)
    (a2 : Memref sig .tc .vmem S2000x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S2000x1 .i32) (h7 : a7.IsWhole)
    (a8 : Memref sig .tc .vmem S1x512x128 .f32) (h8 : a8.IsWhole) (a9 : Memref sig .tc .vmem S1x1x512 .f32) (h9 : a9.IsWhole) (hc : cond9_0 i)
    (x0 : Vec F S2000x128 .f32) (x1 : Vec F S1x128 .f32) (x2 : Vec F S1x128 .f32) (x3 : Vec F S1x128 .f32)
    (x4 : Vec F S1x128 .f32) (x5 : Vec F S2000x1 .i32) :
    out9_A_6 c i a2 h2 a3 h3 a4 h4 a5 h5 a6 h6 a7 h7 a8 h8 a9 h9 hc x0 x1 x2 x3 x4 x5 = k9_pay5 x0 x1 x2 x3 x4 x5 (k9_pay2 (F := F)) := by
  unfold out9_A_6
  rw [View.read_writes_eq_canon _ _ _ (cover9_A_6 c i a2 h2 a3 h3 a4 h4 a5 h5 a6 h6 a7 h7 a8 h8 a9 h9 hc x0 x1 x2 x3 x4 x5)]
  unfold kernelRun9_A
  dsimp only
  sl_unfold_words
  rw [View.canon_cons_unit_zero (S := S1x512x128) hz3, View.readCov_unit_zero (S := S1x512x128) _ hz3]
  simp only [View.readAt_eq_ld, h2.read_unread, h3.read_unread, h4.read_unread, h5.read_unread, h6.read_unread,
    h7.read_unread, View.ld_unit_zero (S := S2000x1) hz2, View.ld_unit_zero (S := S2000x128) hz2,
    View.ld_unit_zero (S := S1x128) hz2]

end Pieces

section Payloads

theorem eq_word (x y : BitVec 32) :
    FloatOps.sitofp (F := Ideal) .f32 ((IntOp.cmpi .eq x y).setWidth 32) = if x = y then (1 : EReal) else 0 := by
  show ((((((IntOp.cmpi .eq x y).setWidth 32).toInt : ℤ) : ℝ)) : EReal) = _
  by_cases h : x = y
  · rw [if_pos h]
    have e : IntOp.cmpi .eq x y = 1#1 := by subst h; simp [IntOp.cmpi]
    rw [e]
    have e2 : ((1#1 : BitVec 1).setWidth 32).toInt = 1 := by decide
    rw [e2]; simp
  · rw [if_neg h]
    have hb : (x == y) = false := beq_eq_false_iff_ne.mpr h
    have e : IntOp.cmpi .eq x y = 0#1 := by simp only [IntOp.cmpi, hb]; rfl
    rw [e]
    have e2 : ((0#1 : BitVec 1).setWidth 32).toInt = 0 := by decide
    rw [e2]; simp

theorem bcast_col {α : Type} (v : S2000x1.Idx → α) (r : Fin 2000) (g : Fin 512) :
    broadcastTo S2000x512 v broadcasts_S2000x1_S2000x512 (ix2 r g) = v (ix2 r (0 : Fin 1)) := by
  refine broadcastTo_apply v broadcasts_S2000x1_S2000x512 (ix2 r g) (ix2 r (0 : Fin 1)) fun ax => ?_
  match ax with
  | ⟨0, _⟩ => rfl
  | ⟨1, _⟩ => rfl

theorem onehot_apply (b : Vec Ideal S2000x1 .i32) (r : Fin 2000) (g : Fin 512) :
    k9_pay4 (F := Ideal) b (ix2 r g) = if b (ix2 r (0 : Fin 1)) = BitVec.ofNat 32 g.val then (1 : EReal) else 0 := by
  unfold k9_pay4
  refine Eq.trans ?_ (eq_word (b (ix2 r (0 : Fin 1))) (BitVec.ofNat 32 g.val))
  show FloatOps.sitofp (F := Ideal) .f32 ((IntOp.cmpi .eq
      (broadcastTo S2000x512 (shapeCast S2000x1 b shapeCasts_S2000x1_S2000x1) broadcasts_S2000x1_S2000x512 (ix2 r g))
      (broadcastTo S2000x512 (iota .tc S1x512 32 [1] iota_S1x512_d1_w32) broadcasts_S1x512_S2000x512 (ix2 r g))).setWidth 32) = _
  rw [bcast_col, shapeCast_self, broadcastTo_1b_ab_apply, iota_single_apply]

theorem colsum_apply (src : FVec Ideal S2000x512 .f32) (g : Fin 512) :
    multiReduction (F := Ideal) .add [0] S512 src 0x00000000#32 reduces_S2000x512_S512 (.inl rfl) rfl (ix1 g)
      = ∑ k : Fin 2000, src (ix2 k g) := by
  refine (Ideal.multiReduction_add_single src 0x00000000#32 reduces_S2000x512_S512 (.inl rfl) rfl (ix1 g)).trans ?_
  show ∑ k : Fin 2000, src (reduces_S2000x512_S512.lift (ix1 g) k) = _
  refine Finset.sum_congr rfl fun k _ => congrArg src ?_
  funext a
  match a with
  | ⟨0, _⟩ => rfl
  | ⟨1, _⟩ => rfl

theorem cnt_apply (b : Vec Ideal S2000x1 .i32) (acc : Vec Ideal S1x1x512 .f32) (g : Fin 512) :
    k9_pay1 (F := Ideal) (k9_pay4 (F := Ideal) b) acc (ix3 (0 : Fin 1) (0 : Fin 1) g)
      = acc (ix3 (0 : Fin 1) (0 : Fin 1) g)
        + ∑ r : Fin 2000, if b (ix2 r (0 : Fin 1)) = BitVec.ofNat 32 g.val then (1 : EReal) else 0 := by
  unfold k9_pay1
  show shapeCast S1x1x512 acc shapeCasts_S1x1x512_S1x1x512 (ix3 (0 : Fin 1) (0 : Fin 1) g)
      + shapeCast S1x1x512 (shapeCast S1x512 (multiReduction (F := Ideal) .add [0] S512 (k9_pay4 (F := Ideal) b) 0x00000000#32
          reduces_S2000x512_S512 (.inl rfl) rfl) shapeCasts_S512_S1x512) shapeCasts_S1x512_S1x1x512 (ix3 (0 : Fin 1) (0 : Fin 1) g) = _
  rw [shapeCast_self, shapeCast_ab_1ab_apply, shapeCast_a_1a_apply, colsum_apply]
  exact congrArg (acc (ix3 (0 : Fin 1) (0 : Fin 1) g) + ·) (Finset.sum_congr rfl fun r _ => onehot_apply b r g)

theorem zero7_apply (j : S1x1x512.Idx) : k9_pay3 (F := Ideal) j = 0 := Ideal.ofBits_zero_f32
theorem zero6_apply (j : S1x512x128.Idx) : k9_pay2 (F := Ideal) j = 0 := Ideal.ofBits_zero_f32

end Payloads

section SumsPayload

def ytile (x0 : FVec Ideal S2000x128 .f32) (x1 x2 x3 x4 : FVec Ideal S1x128 .f32) : FVec Ideal S2000x128 .f32 :=
  maximumf (addf (mulf (mulf (subf (shapeCast S2000x128 x0 shapeCasts_S2000x128_S2000x128)
      (broadcastTo S2000x128 (shapeCast S1x128 x1 shapeCasts_S1x128_S1x128) broadcasts_S1x128_S2000x128))
      (broadcastTo S2000x128 (shapeCast S1x128 x2 shapeCasts_S1x128_S1x128) broadcasts_S1x128_S2000x128))
      (broadcastTo S2000x128 (shapeCast S1x128 x3 shapeCasts_S1x128_S1x128) broadcasts_S1x128_S2000x128))
      (broadcastTo S2000x128 (shapeCast S1x128 x4 shapeCasts_S1x128_S1x128) broadcasts_S1x128_S2000x128))
    (broadcast S2000x128 (Scalar.ofBits .f32 0x00000000#32))

theorem ytile_apply (x0 : FVec Ideal S2000x128 .f32) (x1 x2 x3 x4 : FVec Ideal S1x128 .f32) (r : Fin 2000) (d : Fin 128) :
    ytile x0 x1 x2 x3 x4 (ix2 r d)
      = max ((x0 (ix2 r d) - x1 (ix2 (0 : Fin 1) d)) * x2 (ix2 (0 : Fin 1) d) * x3 (ix2 (0 : Fin 1) d)
          + x4 (ix2 (0 : Fin 1) d)) Spec.z := by
  unfold ytile
  show max ((shapeCast S2000x128 x0 shapeCasts_S2000x128_S2000x128 (ix2 r d)
        - broadcastTo S2000x128 (shapeCast S1x128 x1 shapeCasts_S1x128_S1x128) broadcasts_S1x128_S2000x128 (ix2 r d))
        * broadcastTo S2000x128 (shapeCast S1x128 x2 shapeCasts_S1x128_S1x128) broadcasts_S1x128_S2000x128 (ix2 r d)
        * broadcastTo S2000x128 (shapeCast S1x128 x3 shapeCasts_S1x128_S1x128) broadcasts_S1x128_S2000x128 (ix2 r d)
        + broadcastTo S2000x128 (shapeCast S1x128 x4 shapeCasts_S1x128_S1x128) broadcasts_S1x128_S2000x128 (ix2 r d))
      (Ideal.ofBits .f32 0x00000000#32) = _
  simp only [shapeCast_self, broadcastTo_1b_ab_apply]
  rfl

theorem pay5_eq (x0 : FVec Ideal S2000x128 .f32) (x1 x2 x3 x4 : FVec Ideal S1x128 .f32) (b : Vec Ideal S2000x1 .i32)
    (acc : Vec Ideal S1x512x128 .f32) :
    k9_pay5 (F := Ideal) x0 x1 x2 x3 x4 b acc
      = addf (shapeCast S1x512x128 acc shapeCasts_S1x512x128_S1x512x128)
          (shapeCast S1x512x128 (matmul dot_S2000x512_S2000x128_S512x128_0_0_1_1_n_n (some .fp32) (k9_pay4 (F := Ideal) b)
            (ytile x0 x1 x2 x3 x4) (constant S512x128 .f32 0x00000000#32)) shapeCasts_S512x128_S1x512x128) := rfl

theorem lhs9_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
theorem lhs9_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide),
    dif_pos (show (1 : Fin S2000x512.rank) ∈ dot_S2000x512_S2000x128_S512x128_0_0_1_1_n_n.lhsNonContracting by decide)]
  rfl
theorem rhs9_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
theorem rhs9_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide),
    dif_pos (show (1 : Fin S2000x128.rank) ∈ dot_S2000x512_S2000x128_S512x128_0_0_1_1_n_n.rhsNonContracting by decide)]
  rfl

theorem mm_apply (L : FVec Ideal S2000x512 .f32) (R : FVec Ideal S2000x128 .f32) (g : Fin 512) (d : Fin 128) :
    matmul dot_S2000x512_S2000x128_S512x128_0_0_1_1_n_n (some .fp32) L R (constant S512x128 .f32 0x00000000#32) (ix2 g d)
      = ∑ k : Fin 2000, L (ix2 k g) * R (ix2 k d) := by
  simp only [matmul]
  rw [Ideal.matmul_constant_zero_apply,
    ← Equiv.sum_comp (contrEquiv1 dot_S2000x512_S2000x128_S512x128_0_0_1_1_n_n 2000 rfl rfl).symm]
  refine Finset.sum_congr rfl fun k _ => ?_
  have hk := contrEquiv1_symm_val dot_S2000x512_S2000x128_S512x128_0_0_1_1_n_n 2000 rfl rfl k
  have el : dot_S2000x512_S2000x128_S512x128_0_0_1_1_n_n.lhsIdx (ix2 g d)
      ((contrEquiv1 dot_S2000x512_S2000x128_S512x128_0_0_1_1_n_n 2000 rfl rfl).symm k) = ix2 k g :=
    funext fun a => Fin.ext (by
      match a with
      | ⟨0, _⟩ => exact (lhs9_0 _ _).trans hk
      | ⟨1, _⟩ => exact lhs9_1 _ _)
  have er : dot_S2000x512_S2000x128_S512x128_0_0_1_1_n_n.rhsIdx (ix2 g d)
      ((contrEquiv1 dot_S2000x512_S2000x128_S512x128_0_0_1_1_n_n 2000 rfl rfl).symm k) = ix2 k d :=
    funext fun a => Fin.ext (by
      match a with
      | ⟨0, _⟩ => exact (rhs9_0 _ _).trans hk
      | ⟨1, _⟩ => exact rhs9_1 _ _)
  rw [el, er]

theorem sum_apply (x0 : FVec Ideal S2000x128 .f32) (x1 x2 x3 x4 : FVec Ideal S1x128 .f32) (b : Vec Ideal S2000x1 .i32)
    (acc : Vec Ideal S1x512x128 .f32) (g : Fin 512) (d : Fin 128) :
    k9_pay5 (F := Ideal) x0 x1 x2 x3 x4 b acc (ix3 (0 : Fin 1) g d)
      = acc (ix3 (0 : Fin 1) g d)
        + ∑ r : Fin 2000, if b (ix2 r (0 : Fin 1)) = BitVec.ofNat 32 g.val then
            max ((x0 (ix2 r d) - x1 (ix2 (0 : Fin 1) d)) * x2 (ix2 (0 : Fin 1) d) * x3 (ix2 (0 : Fin 1) d)
              + x4 (ix2 (0 : Fin 1) d)) Spec.z
          else 0 := by
  rw [pay5_eq]
  show shapeCast S1x512x128 acc shapeCasts_S1x512x128_S1x512x128 (ix3 (0 : Fin 1) g d)
      + shapeCast S1x512x128 (matmul dot_S2000x512_S2000x128_S512x128_0_0_1_1_n_n (some .fp32) (k9_pay4 (F := Ideal) b)
          (ytile x0 x1 x2 x3 x4) (constant S512x128 .f32 0x00000000#32)) shapeCasts_S512x128_S1x512x128 (ix3 (0 : Fin 1) g d) = _
  rw [shapeCast_self, shapeCast_ab_1ab_apply, mm_apply]
  refine congrArg (acc (ix3 (0 : Fin 1) g d) + ·) (Finset.sum_congr rfl fun r _ => ?_)
  rw [onehot_apply, ytile_apply, ite_mul, one_mul, zero_mul]

end SumsPayload

variable (V : (c : Dev nD) → (b : Ref sig .tc) → Buf (Elt Ideal) ((c : Thread nD τ).loc b))

section Blocks

theorem idx_facts : ∀ t : Fin cfg9.N,
    win9_0.index t (0 : Fin 2) = t.val ∧ win9_0.index t (1 : Fin 2) = 0
    ∧ win9_5.index t (0 : Fin 2) = t.val ∧ win9_5.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_6.index t (0 : Fin 3) = t.val / 25 ∧ win9_6.index t (1 : Fin 3) = 0 ∧ win9_6.index t (2 : Fin 3) = 0
    ∧ win9_7.index t (0 : Fin 3) = t.val / 25 ∧ win9_7.index t (1 : Fin 3) = 0 ∧ win9_7.index t (2 : Fin 3) = 0 :=
  (by decide +kernel : ∀ t : Fin grid9.N, _)

def nodeOf (t : Fin cfg9.N) (r : Fin 2000) : Fin 100000 :=
  ⟨t.val * 2000 + r.val, by
    have := lt_of_lt_of_eq t.isLt (show cfg9.N = 50 from N_9); have := r.isLt; omega⟩

abbrev idBlk (c : Dev nD) (t : Fin cfg9.N) : Vec Ideal S2000x1 .i32 := iblk9 V c 5 t

theorem idBlk_apply (c : Dev nD) (t : Fin cfg9.N) (r : Fin 2000) :
    idBlk V c t (ix2 r (0 : Fin 1)) = V c main_call0_v30 (ix2 (nodeOf t r) (0 : Fin 1)) := by
  obtain ⟨-, -, e0, e1, -⟩ := idx_facts t
  show ((cfg9.win 5).blk t).view.read (Elt Ideal) (V c (Pipeline.arrRef spec9 5)) (ix2 r (0 : Fin 1)) = _
  rw [View.read_apply]
  show V c main_call0_v30 _ = V c main_call0_v30 _
  congr 1
  funext a
  apply Fin.ext
  match a with
  | ⟨0, _⟩ => show win9_5.index t (0 : Fin 2) * 2000 + 1 * r.val = t.val * 2000 + r.val; rw [e0]; omega
  | ⟨1, _⟩ => show win9_5.index t (1 : Fin 2) * 1 + 1 * 0 = 0; rw [e1]

end Blocks

section Blocks2

abbrev hbBlk (c : Dev nD) (t : Fin cfg9.N) : FVec Ideal S2000x128 .f32 := iblk9 V c 0 t

theorem hbBlk_apply (c : Dev nD) (t : Fin cfg9.N) (r : Fin 2000) (d : Fin 128) :
    hbBlk V c t (ix2 r d) = V c main_call0_v125_0 (ix2 (nodeOf t r) d) := by
  obtain ⟨e0, e1, -⟩ := idx_facts t
  show ((cfg9.win 0).blk t).view.read (Elt Ideal) (V c (Pipeline.arrRef spec9 0)) (ix2 r d) = _
  rw [View.read_apply]
  show V c main_call0_v125_0 _ = V c main_call0_v125_0 _
  congr 1
  funext a
  apply Fin.ext
  match a with
  | ⟨0, _⟩ => show win9_0.index t (0 : Fin 2) * 2000 + 1 * r.val = t.val * 2000 + r.val; rw [e0]; omega
  | ⟨1, _⟩ => show win9_0.index t (1 : Fin 2) * 128 + 1 * d.val = d.val; rw [e1]; omega

abbrev meanBlk (c : Dev nD) (t : Fin cfg9.N) : FVec Ideal S1x128 .f32 := iblk9 V c 1 t
theorem meanBlk_apply (c : Dev nD) (t : Fin cfg9.N) (d : Fin 128) :
    meanBlk V c t (ix2 (0 : Fin 1) d) = V c main_call0_v128 (ix2 (0 : Fin 1) d) := by
  obtain ⟨-, -, -, -, e0, e1, -⟩ := idx_facts t
  show ((cfg9.win 1).blk t).view.read (Elt Ideal) (V c (Pipeline.arrRef spec9 1)) (ix2 (0 : Fin 1) d) = _
  rw [View.read_apply]
  show V c main_call0_v128 _ = V c main_call0_v128 _
  congr 1
  funext a
  apply Fin.ext
  match a with
  | ⟨0, _⟩ => show win9_1.index t (0 : Fin 2) * 1 + 1 * 0 = 0; rw [e0]
  | ⟨1, _⟩ => show win9_1.index t (1 : Fin 2) * 128 + 1 * d.val = d.val; rw [e1]; omega

abbrev istdBlk (c : Dev nD) (t : Fin cfg9.N) : FVec Ideal S1x128 .f32 := iblk9 V c 2 t
theorem istdBlk_apply (c : Dev nD) (t : Fin cfg9.N) (d : Fin 128) :
    istdBlk V c t (ix2 (0 : Fin 1) d) = V c main_call0_v135 (ix2 (0 : Fin 1) d) := by
  obtain ⟨-, -, -, -, -, -, e0, e1, -⟩ := idx_facts t
  show ((cfg9.win 2).blk t).view.read (Elt Ideal) (V c (Pipeline.arrRef spec9 2)) (ix2 (0 : Fin 1) d) = _
  rw [View.read_apply]
  show V c main_call0_v135 _ = V c main_call0_v135 _
  congr 1
  funext a
  apply Fin.ext
  match a with
  | ⟨0, _⟩ => show win9_2.index t (0 : Fin 2) * 1 + 1 * 0 = 0; rw [e0]
  | ⟨1, _⟩ => show win9_2.index t (1 : Fin 2) * 128 + 1 * d.val = d.val; rw [e1]; omega

abbrev gammaBlk (c : Dev nD) (t : Fin cfg9.N) : FVec Ideal S1x128 .f32 := iblk9 V c 3 t
theorem gammaBlk_apply (c : Dev nD) (t : Fin cfg9.N) (d : Fin 128) :
    gammaBlk V c t (ix2 (0 : Fin 1) d) = V c main_call0_v121 (ix2 (0 : Fin 1) d) := by
  obtain ⟨-, -, -, -, -, -, -, -, e0, e1, -⟩ := idx_facts t
  show ((cfg9.win 3).blk t).view.read (Elt Ideal) (V c (Pipeline.arrRef spec9 3)) (ix2 (0 : Fin 1) d) = _
  rw [View.read_apply]
  show V c main_call0_v121 _ = V c main_call0_v121 _
  congr 1
  funext a
  apply Fin.ext
  match a with
  | ⟨0, _⟩ => show win9_3.index t (0 : Fin 2) * 1 + 1 * 0 = 0; rw [e0]
  | ⟨1, _⟩ => show win9_3.index t (1 : Fin 2) * 128 + 1 * d.val = d.val; rw [e1]; omega

abbrev betaBlk (c : Dev nD) (t : Fin cfg9.N) : FVec Ideal S1x128 .f32 := iblk9 V c 4 t
theorem betaBlk_apply (c : Dev nD) (t : Fin cfg9.N) (d : Fin 128) :
    betaBlk V c t (ix2 (0 : Fin 1) d) = V c main_call0_v124 (ix2 (0 : Fin 1) d) := by
  obtain ⟨-, -, -, -, -, -, -, -, -, -, e0, e1, -⟩ := idx_facts t
  show ((cfg9.win 4).blk t).view.read (Elt Ideal) (V c (Pipeline.arrRef spec9 4)) (ix2 (0 : Fin 1) d) = _
  rw [View.read_apply]
  show V c main_call0_v124 _ = V c main_call0_v124 _
  congr 1
  funext a
  apply Fin.ext
  match a with
  | ⟨0, _⟩ => show win9_4.index t (0 : Fin 2) * 1 + 1 * 0 = 0; rw [e0]
  | ⟨1, _⟩ => show win9_4.index t (1 : Fin 2) * 128 + 1 * d.val = d.val; rw [e1]; omega

end Blocks2

theorem acc_inv {ι : Type} (f : (n : ℕ) → n < cfg9.N → ι → EReal) (M : ℕ → ι → EReal)
    (hA : ∀ t : Fin cfg9.N, t.val % 25 = 0 → ∀ j, f t.val t.isLt j = M t.val j)
    (hB : ∀ t : Fin cfg9.N, ¬t.val % 25 = 0 → ∀ j,
      f t.val t.isLt j = f (t.val - 1) (Nat.lt_of_le_of_lt (Nat.sub_le _ _) t.isLt) j + M t.val j) :
    ∀ (n : ℕ) (h : n < cfg9.N) (j : ι), f n h j = ∑ s ∈ Finset.range (n % 25 + 1), M (n - n % 25 + s) j
  | 0, h, j => by
    refine (hA ⟨0, h⟩ rfl j).trans ?_
    simp
  | n + 1, h, j => by
    by_cases h0 : (n + 1) % 25 = 0
    · refine (hA ⟨n + 1, h⟩ h0 j).trans ?_
      rw [h0]
      simp
    · refine (hB ⟨n + 1, h⟩ h0 j).trans ?_
      show f n _ j + M (n + 1) j = _
      rw [acc_inv f M hA hB n _ j]
      have e1 : (n + 1) % 25 = n % 25 + 1 := by omega
      have e2 : n + 1 - (n % 25 + 1) = n - n % 25 := by omega
      have e3 : n - n % 25 + (n % 25 + 1) = n + 1 := by omega
      rw [e1, e2, Finset.sum_range_succ _ (n % 25 + 1), e3]

section Counts

def tileCnt (b : Spec.I2 100000 1) (m : ℕ) (g : Fin 512) : EReal :=
  if h : m < cfg9.N then
    ∑ r : Fin 2000, if b (ix2 (nodeOf ⟨m, h⟩ r) (0 : Fin 1)) = BitVec.ofNat 32 g.val then (1 : EReal) else 0
  else 0

theorem cnt_step_A (c : Dev nD) (t : Fin cfg9.N) (h0 : t.val % 25 = 0) (g : Fin 512) :
    (outsAt9 V c t.val t.isLt).2 (ix3 (0 : Fin 1) (0 : Fin 1) g) = tileCnt (V c main_call0_v30) t.val g := by
  rw [outsAt9_A V c t h0]
  dsimp only
  refine (congrFun (cnt_A (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) ((hcond9_0 t).mpr h0) (iblk9 V c 0 t) (iblk9 V c 1 t) (iblk9 V c 2 t) (iblk9 V c 3 t) (iblk9 V c 4 t) (iblk9 V c 5 t)) (ix3 (0 : Fin 1) (0 : Fin 1) g)).trans ?_
  refine (cnt_apply (idBlk V c t) (k9_pay3 (F := Ideal)) g).trans ?_
  rw [zero7_apply, zero_add]
  unfold tileCnt
  rw [dif_pos t.isLt]
  exact Finset.sum_congr rfl fun r _ => by rw [idBlk_apply]

theorem cnt_step_B (c : Dev nD) (t : Fin cfg9.N) (h0 : ¬t.val % 25 = 0) (g : Fin 512) :
    (outsAt9 V c t.val t.isLt).2 (ix3 (0 : Fin 1) (0 : Fin 1) g)
      = (outsAt9 V c (t.val - 1) (Nat.lt_of_le_of_lt (Nat.sub_le _ _) t.isLt)).2 (ix3 (0 : Fin 1) (0 : Fin 1) g)
        + tileCnt (V c main_call0_v30) t.val g := by
  rw [outsAt9_B V c t h0]
  dsimp only
  refine (congrFun (cnt_B (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (fun h => h0 ((hcond9_0 t).mp h)) (iblk9 V c 0 t) (iblk9 V c 1 t) (iblk9 V c 2 t) (iblk9 V c 3 t) (iblk9 V c 4 t) (iblk9 V c 5 t)
    (outsAt9 V c (t.val - 1) (Nat.lt_of_le_of_lt (Nat.sub_le _ _) t.isLt)).1
    (outsAt9 V c (t.val - 1) (Nat.lt_of_le_of_lt (Nat.sub_le _ _) t.isLt)).2) (ix3 (0 : Fin 1) (0 : Fin 1) g)).trans ?_
  refine (cnt_apply (idBlk V c t) _ g).trans ?_
  unfold tileCnt
  rw [dif_pos t.isLt]
  exact congrArg (_ + ·) (Finset.sum_congr rfl fun r _ => by rw [idBlk_apply])

theorem cnt_inv (c : Dev nD) (n : ℕ) (h : n < cfg9.N) (g : Fin 512) :
    (outsAt9 V c n h).2 (ix3 (0 : Fin 1) (0 : Fin 1) g)
      = ∑ s ∈ Finset.range (n % 25 + 1), tileCnt (V c main_call0_v30) (n - n % 25 + s) g :=
  acc_inv (fun n h (g : Fin 512) => (outsAt9 V c n h).2 (ix3 (0 : Fin 1) (0 : Fin 1) g))
    (tileCnt (V c main_call0_v30)) (cnt_step_A V c) (cnt_step_B V c) n h g

end Counts

section CountsFinal

theorem cnt_half (c : Dev nD) (t : Fin cfg9.N) (h24 : t.val % 25 = 24) (q : Fin 2) (hq : q.val = t.val / 25) (g : Fin 512) :
    (outsAt9 V c t.val t.isLt).2 (ix3 (0 : Fin 1) (0 : Fin 1) g) = Spec.pcntE (V c main_call0_v30) q g := by
  have hN : t.val < 50 := lt_of_lt_of_eq t.isLt (show cfg9.N = 50 from N_9)
  have h25 : t.val % 25 + 1 = 25 := by omega
  rw [cnt_inv V c t.val t.isLt g, h25, Finset.sum_range]
  unfold Spec.pcntE
  refine Finset.sum_congr rfl fun i _ => ?_
  have hi := i.isLt
  have hm : t.val - t.val % 25 + i.val < cfg9.N :=
    lt_of_lt_of_eq (show t.val - t.val % 25 + i.val < 50 by omega) (show (50 : ℕ) = cfg9.N from N_9.symm)
  unfold tileCnt
  rw [dif_pos hm]
  refine Finset.sum_congr rfl fun r _ => ?_
  have e : nodeOf ⟨t.val - t.val % 25 + i.val, hm⟩ r = Spec.rowOf q i r :=
    Fin.ext (by
      show (t.val - t.val % 25 + i.val) * 2000 + r.val = (25 * q.val + i.val) * 2000 + r.val
      rw [hq]; omega)
  rw [e]

theorem flushed7_eq (c : Dev nD) (t : Fin cfg9.N) (hf : (cfg9.win 7).flush t = true) :
    (dat9 V c).flushed 7 t = ((cfg9.win 7).blk t).view.read (Elt Ideal) (Spec.pcntA (V c main_call0_v30)) := by
  have hN : t.val < 50 := lt_of_lt_of_eq t.isLt (show cfg9.N = 50 from N_9)
  have h24 : t.val % 25 = 24 := (flush9_7 t).mp hf
  obtain ⟨-, -, -, -, -, -, -, -, -, -, -, -, -, -, -, e0, e1, e2⟩ := idx_facts t
  show (cfg9.win 7).cut (grid9.coords t) ((dat9 V c).after 7 t) = _
  rw [after9_7]
  funext y
  have hy0 : (y 0).val < 1 := (y 0).isLt
  have hy1 : (y 1).val < 1 := (y 1).isLt
  have hy2 : (y 2).val < 512 := (y 2).isLt
  have eL : (cfg9.win 7).xinj (grid9.coords t) y = ix3 (0 : Fin 1) (0 : Fin 1) (⟨(y 2).val, hy2⟩ : Fin 512) := by
    funext a
    apply Fin.ext
    match a with
    | ⟨0, _⟩ => show (y 0).val = 0; omega
    | ⟨1, _⟩ => show (y 1).val = 0; omega
    | ⟨2, _⟩ => rfl
  have eR : ((cfg9.win 7).blk t).view.emb y
      = ix3 (⟨t.val / 25, by omega⟩ : Fin 2) (0 : Fin 1) (⟨(y 2).val, hy2⟩ : Fin 512) := by
    funext a
    apply Fin.ext
    match a with
    | ⟨0, _⟩ => show win9_7.index t (0 : Fin 3) * 1 + 1 * (y 0).val = t.val / 25; rw [e0]; omega
    | ⟨1, _⟩ => show win9_7.index t (1 : Fin 3) * 1 + 1 * (y 1).val = 0; rw [e1]; omega
    | ⟨2, _⟩ => show win9_7.index t (2 : Fin 3) * 512 + 1 * (y 2).val = (y 2).val; rw [e2]; omega
  show (outsAt9 V c t.val t.isLt).2 ((cfg9.win 7).xinj (grid9.coords t) y)
    = Spec.pcntA (V c main_call0_v30) (((cfg9.win 7).blk t).view.emb y)
  rw [eL, eR]
  exact cnt_half V c t h24 ⟨t.val / 25, by omega⟩ rfl ⟨(y 2).val, hy2⟩

theorem cover7 (i : S2x1x512.Idx) :
    ∃ t : Fin cfg9.N, (cfg9.win 7).flush t = true ∧ i ∈ ((cfg9.win 7).blk t).view.set := by
  have h0 : (i 0).val < 2 := (i 0).isLt
  have h1 : (i 1).val < 1 := (i 1).isLt
  have h2 : (i 2).val < 512 := (i 2).isLt
  have hN : cfg9.N = 50 := N_9
  have hlt : 25 * (i 0).val + 24 < cfg9.N := by rw [hN]; omega
  obtain ⟨-, -, -, -, -, -, -, -, -, -, -, -, -, -, -, e0, e1, e2⟩ := idx_facts ⟨25 * (i 0).val + 24, hlt⟩
  have e0' : win9_7.index ⟨25 * (i 0).val + 24, hlt⟩ (0 : Fin 3) = (25 * (i 0).val + 24) / 25 := e0
  refine ⟨⟨25 * (i 0).val + 24, hlt⟩, (flush9_7 _).mpr (by show (25 * (i 0).val + 24) % 25 = 24; omega), ?_⟩
  show i ∈ ((View.whole main_call0_v136_1).slice (win9_7.rect ⟨25 * (i 0).val + 24, hlt⟩)).set
  rw [View.set_slice_whole, Rect.mem_set_unit]
  intro a
  match a with
  | ⟨0, _⟩ =>
    show win9_7.index ⟨25 * (i 0).val + 24, hlt⟩ (0 : Fin 3) * 1 ≤ (i 0).val
      ∧ (i 0).val < win9_7.index ⟨25 * (i 0).val + 24, hlt⟩ (0 : Fin 3) * 1 + 1
    rw [e0']; omega
  | ⟨1, _⟩ =>
    show win9_7.index ⟨25 * (i 0).val + 24, hlt⟩ (1 : Fin 3) * 1 ≤ (i 1).val
      ∧ (i 1).val < win9_7.index ⟨25 * (i 0).val + 24, hlt⟩ (1 : Fin 3) * 1 + 1
    rw [e1]; omega
  | ⟨2, _⟩ =>
    show win9_7.index ⟨25 * (i 0).val + 24, hlt⟩ (2 : Fin 3) * 512 ≤ (i 2).val
      ∧ (i 2).val < win9_7.index ⟨25 * (i 0).val + 24, hlt⟩ (2 : Fin 3) * 512 + 512
    rw [e2]; omega

end CountsFinal

theorem arr9_c (c : Dev nD) : (dat9 (F := Ideal) V c).arrAt 7 cfg9.N = Spec.pcntA (V c main_call0_v30) :=
  (dat9 V c).arrAt_eq_of_cover 7 (Spec.pcntA (V c main_call0_v30)) (flushed7_eq V c) cover7

section Sums

abbrev yArr (c : Dev nD) : Spec.A2 100000 128 :=
  Spec.y (V c main_call0_v125_0) (V c main_call0_v128) (V c main_call0_v135) (V c main_call0_v121) (V c main_call0_v124)

def tileSum (yv : Spec.A2 100000 128) (b : Spec.I2 100000 1) (m : ℕ) (j : Fin 512 × Fin 128) : EReal :=
  if h : m < cfg9.N then
    ∑ r : Fin 2000, if b (ix2 (nodeOf ⟨m, h⟩ r) (0 : Fin 1)) = BitVec.ofNat 32 j.1.val then
      yv (ix2 (nodeOf ⟨m, h⟩ r) j.2) else 0
  else 0

theorem sum_tile (c : Dev nD) (t : Fin cfg9.N) (acc : Vec Ideal S1x512x128 .f32) (j : Fin 512 × Fin 128) :
    k9_pay5 (F := Ideal) (hbBlk V c t) (meanBlk V c t) (istdBlk V c t) (gammaBlk V c t) (betaBlk V c t) (idBlk V c t) acc
        (ix3 (0 : Fin 1) j.1 j.2)
      = acc (ix3 (0 : Fin 1) j.1 j.2) + tileSum (yArr V c) (V c main_call0_v30) t.val j := by
  refine (sum_apply (hbBlk V c t) (meanBlk V c t) (istdBlk V c t) (gammaBlk V c t) (betaBlk V c t) (idBlk V c t) acc j.1 j.2).trans ?_
  unfold tileSum
  rw [dif_pos t.isLt]
  refine congrArg (acc (ix3 (0 : Fin 1) j.1 j.2) + ·) (Finset.sum_congr rfl fun r _ => ?_)
  rw [idBlk_apply, hbBlk_apply, meanBlk_apply, istdBlk_apply, gammaBlk_apply, betaBlk_apply]
  rfl

theorem sum_step_A (c : Dev nD) (t : Fin cfg9.N) (h0 : t.val % 25 = 0) (j : Fin 512 × Fin 128) :
    (outsAt9 V c t.val t.isLt).1 (ix3 (0 : Fin 1) j.1 j.2) = tileSum (yArr V c) (V c main_call0_v30) t.val j := by
  rw [outsAt9_A V c t h0]
  dsimp only
  refine (congrFun (sum_A (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) ((hcond9_0 t).mpr h0) (iblk9 V c 0 t) (iblk9 V c 1 t) (iblk9 V c 2 t) (iblk9 V c 3 t) (iblk9 V c 4 t) (iblk9 V c 5 t)) (ix3 (0 : Fin 1) j.1 j.2)).trans ?_
  refine (sum_tile V c t (k9_pay2 (F := Ideal)) j).trans ?_
  rw [zero6_apply, zero_add]

theorem sum_step_B (c : Dev nD) (t : Fin cfg9.N) (h0 : ¬t.val % 25 = 0) (j : Fin 512 × Fin 128) :
    (outsAt9 V c t.val t.isLt).1 (ix3 (0 : Fin 1) j.1 j.2)
      = (outsAt9 V c (t.val - 1) (Nat.lt_of_le_of_lt (Nat.sub_le _ _) t.isLt)).1 (ix3 (0 : Fin 1) j.1 j.2)
        + tileSum (yArr V c) (V c main_call0_v30) t.val j := by
  rw [outsAt9_B V c t h0]
  dsimp only
  refine (congrFun (sum_B (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (fun h => h0 ((hcond9_0 t).mp h)) (iblk9 V c 0 t) (iblk9 V c 1 t) (iblk9 V c 2 t) (iblk9 V c 3 t) (iblk9 V c 4 t) (iblk9 V c 5 t)
    (outsAt9 V c (t.val - 1) (Nat.lt_of_le_of_lt (Nat.sub_le _ _) t.isLt)).1
    (outsAt9 V c (t.val - 1) (Nat.lt_of_le_of_lt (Nat.sub_le _ _) t.isLt)).2) (ix3 (0 : Fin 1) j.1 j.2)).trans ?_
  exact sum_tile V c t _ j

theorem sum_half (c : Dev nD) (t : Fin cfg9.N) (h24 : t.val % 25 = 24) (q : Fin 2) (hq : q.val = t.val / 25)
    (g : Fin 512) (d : Fin 128) :
    (outsAt9 V c t.val t.isLt).1 (ix3 (0 : Fin 1) g d) = Spec.ppoolE (yArr V c) (V c main_call0_v30) q g d := by
  have hN : t.val < 50 := lt_of_lt_of_eq t.isLt (show cfg9.N = 50 from N_9)
  have h25 : t.val % 25 + 1 = 25 := by omega
  rw [acc_inv (fun n h (j : Fin 512 × Fin 128) => (outsAt9 V c n h).1 (ix3 (0 : Fin 1) j.1 j.2))
    (tileSum (yArr V c) (V c main_call0_v30)) (sum_step_A V c) (sum_step_B V c) t.val t.isLt (g, d), h25, Finset.sum_range]
  unfold Spec.ppoolE
  refine Finset.sum_congr rfl fun i _ => ?_
  have hi := i.isLt
  have hm : t.val - t.val % 25 + i.val < cfg9.N :=
    lt_of_lt_of_eq (show t.val - t.val % 25 + i.val < 50 by omega) (show (50 : ℕ) = cfg9.N from N_9.symm)
  unfold tileSum
  rw [dif_pos hm]
  refine Finset.sum_congr rfl fun r _ => ?_
  have e : nodeOf ⟨t.val - t.val % 25 + i.val, hm⟩ r = Spec.rowOf q i r :=
    Fin.ext (by
      show (t.val - t.val % 25 + i.val) * 2000 + r.val = (25 * q.val + i.val) * 2000 + r.val
      rw [hq]; omega)
  rw [e]

theorem flushed6_eq (c : Dev nD) (t : Fin cfg9.N) (hf : (cfg9.win 6).flush t = true) :
    (dat9 V c).flushed 6 t
      = ((cfg9.win 6).blk t).view.read (Elt Ideal) (Spec.ppoolA (yArr V c) (V c main_call0_v30)) := by
  have hN : t.val < 50 := lt_of_lt_of_eq t.isLt (show cfg9.N = 50 from N_9)
  have h24 : t.val % 25 = 24 := (flush9_6 t).mp hf
  obtain ⟨-, -, -, -, -, -, -, -, -, -, -, -, e0, e1, e2, -⟩ := idx_facts t
  show (cfg9.win 6).cut (grid9.coords t) ((dat9 V c).after 6 t) = _
  rw [after9_6]
  funext y
  have hy0 : (y 0).val < 1 := (y 0).isLt
  have hy1 : (y 1).val < 512 := (y 1).isLt
  have hy2 : (y 2).val < 128 := (y 2).isLt
  have eL : (cfg9.win 6).xinj (grid9.coords t) y
      = ix3 (0 : Fin 1) (⟨(y 1).val, hy1⟩ : Fin 512) (⟨(y 2).val, hy2⟩ : Fin 128) := by
    funext a
    apply Fin.ext
    match a with
    | ⟨0, _⟩ => show (y 0).val = 0; omega
    | ⟨1, _⟩ => rfl
    | ⟨2, _⟩ => rfl
  have eR : ((cfg9.win 6).blk t).view.emb y
      = ix3 (⟨t.val / 25, by omega⟩ : Fin 2) (⟨(y 1).val, hy1⟩ : Fin 512) (⟨(y 2).val, hy2⟩ : Fin 128) := by
    funext a
    apply Fin.ext
    match a with
    | ⟨0, _⟩ => show win9_6.index t (0 : Fin 3) * 1 + 1 * (y 0).val = t.val / 25; rw [e0]; omega
    | ⟨1, _⟩ => show win9_6.index t (1 : Fin 3) * 512 + 1 * (y 1).val = (y 1).val; rw [e1]; omega
    | ⟨2, _⟩ => show win9_6.index t (2 : Fin 3) * 128 + 1 * (y 2).val = (y 2).val; rw [e2]; omega
  show (outsAt9 V c t.val t.isLt).1 ((cfg9.win 6).xinj (grid9.coords t) y)
    = Spec.ppoolA (yArr V c) (V c main_call0_v30) (((cfg9.win 6).blk t).view.emb y)
  rw [eL, eR]
  exact sum_half V c t h24 ⟨t.val / 25, by omega⟩ rfl ⟨(y 1).val, hy1⟩ ⟨(y 2).val, hy2⟩

theorem cover6 (i : S2x512x128.Idx) :
    ∃ t : Fin cfg9.N, (cfg9.win 6).flush t = true ∧ i ∈ ((cfg9.win 6).blk t).view.set := by
  have h0 : (i 0).val < 2 := (i 0).isLt
  have h1 : (i 1).val < 512 := (i 1).isLt
  have h2 : (i 2).val < 128 := (i 2).isLt
  have hN : cfg9.N = 50 := N_9
  have hlt : 25 * (i 0).val + 24 < cfg9.N := by rw [hN]; omega
  obtain ⟨-, -, -, -, -, -, -, -, -, -, -, -, e0, e1, e2, -⟩ := idx_facts ⟨25 * (i 0).val + 24, hlt⟩
  have e0' : win9_6.index ⟨25 * (i 0).val + 24, hlt⟩ (0 : Fin 3) = (25 * (i 0).val + 24) / 25 := e0
  refine ⟨⟨25 * (i 0).val + 24, hlt⟩, (flush9_6 _).mpr (by show (25 * (i 0).val + 24) % 25 = 24; omega), ?_⟩
  show i ∈ ((View.whole main_call0_v136_0).slice (win9_6.rect ⟨25 * (i 0).val + 24, hlt⟩)).set
  rw [View.set_slice_whole, Rect.mem_set_unit]
  intro a
  match a with
  | ⟨0, _⟩ =>
    show win9_6.index ⟨25 * (i 0).val + 24, hlt⟩ (0 : Fin 3) * 1 ≤ (i 0).val
      ∧ (i 0).val < win9_6.index ⟨25 * (i 0).val + 24, hlt⟩ (0 : Fin 3) * 1 + 1
    rw [e0']; omega
  | ⟨1, _⟩ =>
    show win9_6.index ⟨25 * (i 0).val + 24, hlt⟩ (1 : Fin 3) * 512 ≤ (i 1).val
      ∧ (i 1).val < win9_6.index ⟨25 * (i 0).val + 24, hlt⟩ (1 : Fin 3) * 512 + 512
    rw [e1]; omega
  | ⟨2, _⟩ =>
    show win9_6.index ⟨25 * (i 0).val + 24, hlt⟩ (2 : Fin 3) * 128 ≤ (i 2).val
      ∧ (i 2).val < win9_6.index ⟨25 * (i 0).val + 24, hlt⟩ (2 : Fin 3) * 128 + 128
    rw [e2]; omega

end Sums

theorem arr9_s (c : Dev nD) : (dat9 (F := Ideal) V c).arrAt 6 cfg9.N
    = Spec.ppoolA (Spec.y (V c main_call0_v125_0) (V c main_call0_v128) (V c main_call0_v135) (V c main_call0_v121) (V c main_call0_v124))
        (V c main_call0_v30) :=
  (dat9 V c).arrAt_eq_of_cover 6 (Spec.ppoolA (yArr V c) (V c main_call0_v30)) (flushed6_eq V c) cover6

end Cert.KernelIdeal.K9

end
-- ==== Proof.K10.lean ====
/-
  Region 10: its one block is relu(Z W1 + b1) W2 + b2.
-/
import proofs.«420895_j26731876451141_3_alg».proof.Proof.Gen.KernelIdeal.Frame
import proofs.«420895_j26731876451141_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.K10

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Facts₀ Cert.KernelIdeal.Facts

theorem hz : (![0, 0] : Fin 2 → Nat) = fun _ => 0 := funext fun a => by fin_cases a <;> rfl

theorem lhsA_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl

theorem lhsA_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q

theorem rhsA_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q

theorem rhsA_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

theorem lhsB_0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl

theorem lhsB_1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q

theorem rhsB_0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q

theorem rhsB_1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

theorem mmA_apply (a : FVec Ideal S512x128 .f32) (w : FVec Ideal S128x128 .f32) (g : Fin 512) (k : Fin 128) :
    matmul dot_S512x128_S128x128_S512x128_1_0_0_1_n_n (some .fp32) a w (constant (F := Ideal) S512x128 .f32 0x00000000#32) (ix2 g k)
      = ∑ k' : Fin 128, a (ix2 g k') * w (ix2 k' k) := by
  show FloatOps.matmul dot_S512x128_S128x128_S512x128_1_0_0_1_n_n (some .fp32) a w (constant (F := Ideal) S512x128 .f32 0x00000000#32) (ix2 g k) = _
  rw [Ideal.matmul_constant_zero_apply, ← Equiv.sum_comp (ValueIdx.contrEquiv1 dot_S512x128_S128x128_S512x128_1_0_0_1_n_n 128 rfl rfl).symm]
  refine Finset.sum_congr rfl fun k' _ => ?_
  have hk := ValueIdx.contrEquiv1_symm_val dot_S512x128_S128x128_S512x128_1_0_0_1_n_n 128 rfl rfl k'
  have el : dot_S512x128_S128x128_S512x128_1_0_0_1_n_n.lhsIdx (ix2 g k) ((ValueIdx.contrEquiv1 dot_S512x128_S128x128_S512x128_1_0_0_1_n_n 128 rfl rfl).symm k') = ix2 g k' := funext fun x => Fin.ext (by
    match x with
    | ⟨0, _⟩ => exact lhsA_0 _ _
    | ⟨1, _⟩ => exact (lhsA_1 _ _).trans hk)
  have er : dot_S512x128_S128x128_S512x128_1_0_0_1_n_n.rhsIdx (ix2 g k) ((ValueIdx.contrEquiv1 dot_S512x128_S128x128_S512x128_1_0_0_1_n_n 128 rfl rfl).symm k') = ix2 k' k := funext fun x => Fin.ext (by
    match x with
    | ⟨0, _⟩ => exact (rhsA_0 _ _).trans hk
    | ⟨1, _⟩ => exact rhsA_1 _ _)
  rw [el, er]

theorem mmB_apply (a : FVec Ideal S512x128 .f32) (w : FVec Ideal S128x1 .f32) (g : Fin 512) (o : Fin 1) :
    matmul dot_S512x128_S128x1_S512x1_1_0_0_1_n_n (some .fp32) a w (constant (F := Ideal) S512x1 .f32 0x00000000#32) (ix2 g o)
      = ∑ k : Fin 128, a (ix2 g k) * w (ix2 k o) := by
  show FloatOps.matmul dot_S512x128_S128x1_S512x1_1_0_0_1_n_n (some .fp32) a w (constant (F := Ideal) S512x1 .f32 0x00000000#32) (ix2 g o) = _
  rw [Ideal.matmul_constant_zero_apply, ← Equiv.sum_comp (ValueIdx.contrEquiv1 dot_S512x128_S128x1_S512x1_1_0_0_1_n_n 128 rfl rfl).symm]
  refine Finset.sum_congr rfl fun k _ => ?_
  have hk := ValueIdx.contrEquiv1_symm_val dot_S512x128_S128x1_S512x1_1_0_0_1_n_n 128 rfl rfl k
  have el : dot_S512x128_S128x1_S512x1_1_0_0_1_n_n.lhsIdx (ix2 g o) ((ValueIdx.contrEquiv1 dot_S512x128_S128x1_S512x1_1_0_0_1_n_n 128 rfl rfl).symm k) = ix2 g k := funext fun x => Fin.ext (by
    match x with
    | ⟨0, _⟩ => exact lhsB_0 _ _
    | ⟨1, _⟩ => exact (lhsB_1 _ _).trans hk)
  have er : dot_S512x128_S128x1_S512x1_1_0_0_1_n_n.rhsIdx (ix2 g o) ((ValueIdx.contrEquiv1 dot_S512x128_S128x1_S512x1_1_0_0_1_n_n 128 rfl rfl).symm k) = ix2 k o := funext fun x => Fin.ext (by
    match x with
    | ⟨0, _⟩ => exact (rhsB_0 _ _).trans hk
    | ⟨1, _⟩ => exact rhsB_1 _ _)
  rw [el, er]

theorem hid_apply (zz : FVec Ideal S512x128 .f32) (w1 : FVec Ideal S128x128 .f32) (b1 : FVec Ideal S1x128 .f32) (g : Fin 512) (k : Fin 128) :
    maximumf (addf (matmul dot_S512x128_S128x128_S512x128_1_0_0_1_n_n (some .fp32) zz w1 (constant (F := Ideal) S512x128 .f32 0x00000000#32))
        (broadcastTo S512x128 b1 Gen.broadcasts_S1x128_S512x128))
      (broadcast S512x128 (Scalar.ofBits (F := Ideal) .f32 0x00000000#32)) (ix2 g k)
      = Spec.hidE zz w1 b1 g k := by
  rw [maximumf_apply, addf_apply, mmA_apply, broadcastTo_1b_ab_apply, broadcast_apply]
  rfl

theorem pay_apply (zz : FVec Ideal S512x128 .f32) (w1 : FVec Ideal S128x128 .f32) (b1 : FVec Ideal S1x128 .f32)
    (w2 : FVec Ideal S128x1 .f32) (b2 : FVec Ideal S1x1 .f32) (g : Fin 512) :
    k10_pay1 (F := Ideal) zz w1 b1 w2 b2 (ix2 g (0 : Fin 1)) = Spec.headE zz w1 b1 w2 b2 g := by
  unfold k10_pay1
  simp only [shapeCast_self]
  rw [addf_apply, mmB_apply, broadcastTo_1b_ab_apply]
  unfold Spec.headE
  refine congrArg (· + b2 (ix2 0 0)) (Finset.sum_congr rfl fun k _ => ?_)
  rw [hid_apply]

theorem out_eq (zz : Vec Ideal S512x128 .f32) (w1 : Vec Ideal S128x128 .f32) (b1 : Vec Ideal S1x128 .f32)
    (w2 : Vec Ideal S128x1 .f32) (b2 : Vec Ideal S1x1 .f32) :
    out10_5 (F := Ideal) zz w1 b1 w2 b2 = Spec.head zz w1 b1 w2 b2 := by
  unfold out10_5
  rw [View.canon_unit_zero hz]
  simp only [View.ld_unit_zero (S := S512x128) hz, View.ld_unit_zero (S := S128x128) hz, View.ld_unit_zero (S := S1x128) hz,
    View.ld_unit_zero (S := S128x1) hz, View.ld_unit_zero (S := S1x1) hz]
  funext j
  obtain ⟨g, o, rfl⟩ : ∃ (g : Fin 512) (o : Fin 1), j = ix2 g o := ⟨j 0, j 1, eq_ix2 j⟩
  obtain rfl : o = 0 := Subsingleton.elim _ _
  exact pay_apply zz w1 b1 w2 b2 g

variable (V : (c : Dev nD) → (b : Ref sig .tc) → Buf (Elt Ideal) ((c : Thread nD τ).loc b))

theorem blk_0 (c : Dev nD) : iblk10 (F := Ideal) V c 0 t10_0 = V c main_call0_v143 := by
  have hz' : (fun a => win10_0.index t10_0 a * main_call0_v143.ty.shape.size a) = fun _ => 0 := funext fun a => by fin_cases a <;> decide
  exact Memref.read_access_unit_zero (Elt Ideal) main_call0_v143 hz' (fun a => by rw [congrFun hz' a]; simp) (V c main_call0_v143)

theorem blk_1 (c : Dev nD) : iblk10 (F := Ideal) V c 1 t10_0 = V c main_arg7 := by
  have hz' : (fun a => win10_1.index t10_0 a * main_arg7.ty.shape.size a) = fun _ => 0 := funext fun a => by fin_cases a <;> decide
  exact Memref.read_access_unit_zero (Elt Ideal) main_arg7 hz' (fun a => by rw [congrFun hz' a]; simp) (V c main_arg7)

theorem blk_2 (c : Dev nD) : iblk10 (F := Ideal) V c 2 t10_0 = V c main_call0_v144 := by
  have hz' : (fun a => win10_2.index t10_0 a * main_call0_v144.ty.shape.size a) = fun _ => 0 := funext fun a => by fin_cases a <;> decide
  exact Memref.read_access_unit_zero (Elt Ideal) main_call0_v144 hz' (fun a => by rw [congrFun hz' a]; simp) (V c main_call0_v144)

theorem blk_3 (c : Dev nD) : iblk10 (F := Ideal) V c 3 t10_0 = V c main_arg9 := by
  have hz' : (fun a => win10_3.index t10_0 a * main_arg9.ty.shape.size a) = fun _ => 0 := funext fun a => by fin_cases a <;> decide
  exact Memref.read_access_unit_zero (Elt Ideal) main_arg9 hz' (fun a => by rw [congrFun hz' a]; simp) (V c main_arg9)

theorem blk_4 (c : Dev nD) : iblk10 (F := Ideal) V c 4 t10_0 = V c main_call0_v145 := by
  have hz' : (fun a => win10_4.index t10_0 a * main_call0_v145.ty.shape.size a) = fun _ => 0 := funext fun a => by fin_cases a <;> decide
  exact Memref.read_access_unit_zero (Elt Ideal) main_call0_v145 hz' (fun a => by rw [congrFun hz' a]; simp) (V c main_call0_v145)

theorem flushed_eq (c : Dev nD) (t : Fin cfg10.N) :
    (dat10 (F := Ideal) V c).flushed 5 t = ((cfg10.win 5).blk t).view.read (Elt Ideal)
      (Spec.head (V c main_call0_v143) (V c main_arg7) (V c main_call0_v144) (V c main_arg9) (V c main_call0_v145)) := by
  obtain rfl : t = t10_0 := fin_N10 t
  show (cfg10.win 5).cut (grid10.coords t10_0) ((dat10 V c).after 5 t10_0) = _
  rw [after10_5, blk_0 V c, blk_1 V c, blk_2 V c, blk_3 V c, blk_4 V c, out_eq]
  have hz' : (fun a => win10_5.index t10_0 a * main_v0.ty.shape.size a) = fun _ => 0 := funext fun a => by fin_cases a <;> decide
  exact (Memref.read_access_unit_zero (Elt Ideal) main_v0 hz' (fun a => by rw [congrFun hz' a]; simp)
    (Spec.head (V c main_call0_v143) (V c main_arg7) (V c main_call0_v144) (V c main_arg9) (V c main_call0_v145))).symm

theorem arr10 (c : Dev nD) : (dat10 (F := Ideal) V c).arrAt 5 cfg10.N
    = Spec.head (V c main_call0_v143) (V c main_arg7) (V c main_call0_v144) (V c main_arg9) (V c main_call0_v145) :=
  (dat10 V c).arrAt_eq_of_cover 5 _ (fun t _ => flushed_eq V c t) fun i =>
    ⟨t10_0, flush10_5 t10_0, by
      show i ∈ ((View.whole main_v0).slice (win10_5.rect t10_0)).set
      rw [View.set_slice_whole, Rect.mem_set_unit]
      intro a
      have h0 : (i 0 : Nat) < 512 := (i 0).isLt
      have h1 : (i 1 : Nat) < 1 := (i 1).isLt
      match a with
      | ⟨0, _⟩ =>
        show win10_5.index t10_0 0 * win10_5.size 0 ≤ (i 0 : Nat) ∧ (i 0 : Nat) < win10_5.index t10_0 0 * win10_5.size 0 + win10_5.xsize (grid10.coords t10_0) 0
        rw [show win10_5.index t10_0 0 * win10_5.size 0 = 0 from by decide +kernel, show win10_5.xsize (grid10.coords t10_0) 0 = 512 from by decide +kernel]; omega
      | ⟨1, _⟩ =>
        show win10_5.index t10_0 1 * win10_5.size 1 ≤ (i 1 : Nat) ∧ (i 1 : Nat) < win10_5.index t10_0 1 * win10_5.size 1 + win10_5.xsize (grid10.coords t10_0) 1
        rw [show win10_5.index t10_0 1 * win10_5.size 1 = 0 from by decide +kernel, show win10_5.xsize (grid10.coords t10_0) 1 = 1 from by decide +kernel]; omega⟩

end Cert.KernelIdeal.K10

end
-- ==== Proof.Algebra.lean ====
/-
  Each of the 100000 nodes is one row of one of the 25 tiles of one of the two halves, so a sum over the nodes is the
  sum of the halves' partial sums.
-/
import proofs.«420895_j26731876451141_3_alg».proof.Proof.Spec
import Idealize.ShloMosaic.PureOps.Ideal.Laws
import Mathlib.Algebra.BigOperators.Fin
import Mathlib.Logic.Equiv.Fin.Basic

noncomputable section

namespace Cert.Spec

open Idealize.ShloMosaic Idealize.ShloMosaic.ValueIdx

theorem rowOf_bijective :
    Function.Bijective (fun p : Fin 2 × Fin 25 × Fin 2000 => rowOf p.1 p.2.1 p.2.2) := by
  constructor
  · rintro ⟨c, i, r⟩ ⟨c', i', r'⟩ h
    have h' : (25 * c.val + i.val) * 2000 + r.val = (25 * c'.val + i'.val) * 2000 + r'.val :=
      congrArg Fin.val h
    have := c.isLt; have := i.isLt; have := r.isLt
    have := c'.isLt; have := i'.isLt; have := r'.isLt
    have hc : c = c' := Fin.ext (by omega)
    have hi : i = i' := Fin.ext (by omega)
    have hr : r = r' := Fin.ext (by omega)
    rw [hc, hi, hr]
  · intro n
    have := n.isLt
    refine ⟨(⟨n.val / 50000, by omega⟩, ⟨(n.val / 2000) % 25, by omega⟩, ⟨n.val % 2000, by omega⟩), ?_⟩
    apply Fin.ext
    show (25 * (n.val / 50000) + (n.val / 2000) % 25) * 2000 + n.val % 2000 = n.val
    omega

theorem sum_rows (f : Fin 100000 → EReal) : ∑ n : Fin 100000, f n = ∑ c : Fin 2, ∑ i : Fin 25, ∑ r : Fin 2000, f (rowOf c i r) := by
  rw [← Fintype.sum_bijective _ rowOf_bijective (fun p => f (rowOf p.1 p.2.1 p.2.2)) f (fun _ => rfl)]
  rw [Fintype.sum_prod_type]
  refine Finset.sum_congr rfl (fun c _ => ?_)
  rw [Fintype.sum_prod_type]

theorem colsum_split (h : A2 100000 128) (d : Fin 128) : colsum h d = psum h 0 d + psum h 1 d := by
  unfold colsum psum
  rw [sum_rows (fun n => h (ix2 n d)), Fin.sum_univ_two]

theorem poolE_split (v : A2 100000 128) (b : I2 100000 1) (g : Fin 512) (d : Fin 128) :
    poolE v b g d = ppoolE v b 0 g d + ppoolE v b 1 g d := by
  unfold poolE ppoolE
  rw [sum_rows (fun n => if b (ix2 n 0) = BitVec.ofNat 32 g.val then v (ix2 n d) else 0), Fin.sum_univ_two]

theorem cntE_split (b : I2 100000 1) (g : Fin 512) : cntE b g = pcntE b 0 g + pcntE b 1 g := by
  unfold cntE pcntE
  rw [sum_rows (fun n => if b (ix2 n 0) = BitVec.ofNat 32 g.val then (1 : EReal) else 0), Fin.sum_univ_two]

end Cert.Spec

end
-- ==== Proof.KHostTail.lean ====
/-
  The host operations around the pool: the halves added, max(count, 1), the quotient, and the small re-layouts.
-/
import proofs.«420895_j26731876451141_3_alg».proof.KernelIdeal
import proofs.«420895_j26731876451141_3_alg».proof.Proof.Gen.KernelIdeal
import proofs.«420895_j26731876451141_3_alg».proof.Proof.Spec
import proofs.«420895_j26731876451141_3_alg».proof.Proof.Algebra
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.KHostTail

open Cert.KernelIdeal Idealize.ShloMosaic Idealize.ShloMosaic.ValueIdx
open Cert.KernelIdeal.Facts₀ Cert.KernelIdeal.Facts

theorem lift_pool (hR : S2x512x128.Reduces [0] S512x128) (g : Fin 512) (d : Fin 128) (c : Fin 2) :
    hR.lift (ix2 g d) c = ix3 c g d := by
  funext a
  match a with
  | ⟨0, _⟩ => exact Fin.ext rfl
  | ⟨1, _⟩ => exact Fin.ext rfl
  | ⟨2, _⟩ => exact Fin.ext rfl

theorem lift_cnt (hR : S2x1x512.Reduces [0] S1x512) (o : Fin 1) (g : Fin 512) (c : Fin 2) :
    hR.lift (ix2 o g) c = ix3 c o g := by
  funext a
  match a with
  | ⟨0, _⟩ => exact Fin.ext rfl
  | ⟨1, _⟩ => exact Fin.ext rfl
  | ⟨2, _⟩ => exact Fin.ext rfl

theorem pool_eq (v : Spec.A2 100000 128) (b : Spec.I2 100000 1) :
    Host.reduceAdd (F := Ideal) (Spec.ppoolA v b) (constant (F := Ideal) S_ .f32 0x00000000#32) reducesTo_S2x512x128_S512x128_d0 h_S_ = Spec.pool v b := by
  have hR : S2x512x128.Reduces [0] S512x128 := by decide
  funext j
  obtain ⟨g, d, rfl⟩ : ∃ (g : Fin 512) (d : Fin 128), j = ix2 g d := ⟨j 0, j 1, eq_ix2 j⟩
  refine (hostReduceAdd_apply _ _ _ _ _).trans ?_
  refine (Ideal.hostReduceAdd_single _ hR _ _ _).trans ?_
  show Ideal.ofBits .f32 0x00000000#32 + ∑ k : Fin 2, Spec.ppoolA v b (hR.lift (ix2 g d) k) = Spec.poolE v b g d
  rw [Ideal.ofBits_zero_f32, zero_add, Fin.sum_univ_two, lift_pool hR g d 0, lift_pool hR g d 1]
  exact (Spec.poolE_split v b g d).symm

theorem cnt1_eq (b : Spec.I2 100000 1) :
    maximumf (shapeCast S512x1 (Host.reduceAdd (F := Ideal) (Spec.pcntA b) (constant (F := Ideal) S_ .f32 0x00000000#32) reducesTo_S2x1x512_S1x512_d0 h_S_) shapeCasts_S1x512_S512x1)
      (broadcastInDim S512x1 ![] bcast_S_S512x1 (constant (F := Ideal) S_ .f32 0x3F800000#32)) = Spec.cnt1 b := by
  have hR : S2x1x512.Reduces [0] S1x512 := by decide
  funext j
  obtain ⟨g, o, rfl⟩ : ∃ (g : Fin 512) (o : Fin 1), j = ix2 g o := ⟨j 0, j 1, eq_ix2 j⟩
  have ho : o.val = 0 := by have := o.isLt; omega
  refine (maximumf_apply _ _ _).trans ?_
  show max _ _ = max (Spec.cntE b g) Spec.cone
  refine congrArg₂ max ?_ ?_
  · refine (shapeCast_apply _ _ (ix2 g o) (ix2 (0 : Fin 1) g) ?_).trans ?_
    · rw [Shape.rowMajor_val_two, Shape.rowMajor_val_two]
      show 0 * 512 + g.val = g.val * 1 + o.val
      omega
    refine (hostReduceAdd_apply _ _ _ _ _).trans ?_
    refine (Ideal.hostReduceAdd_single _ hR _ _ _).trans ?_
    show Ideal.ofBits .f32 0x00000000#32 + ∑ k : Fin 2, Spec.pcntA b (hR.lift (ix2 (0 : Fin 1) g) k) = Spec.cntE b g
    rw [Ideal.ofBits_zero_f32, zero_add, Fin.sum_univ_two, lift_cnt hR 0 g 0, lift_cnt hR 0 g 1]
    exact (Spec.cntE_split b g).symm
  · exact broadcastInDim_scalar_apply _ _ _

theorem zp_eq (sums : Spec.A2 512 128) (cnt1 : Spec.A2 512 1) :
    Host.divf (F := Ideal) (φ := .f32) sums (broadcastInDim S512x128 ![0, 1] bcast_S512x1_S512x128_0_1 cnt1) = Spec.zp sums cnt1 := by
  funext j
  obtain ⟨g, d, rfl⟩ : ∃ (g : Fin 512) (d : Fin 128), j = ix2 g d := ⟨j 0, j 1, eq_ix2 j⟩
  refine (hostDivf_apply _ _ _).trans ?_
  show Ideal.div (sums (ix2 g d)) _ = Ideal.div (sums (ix2 g d)) (cnt1 (ix2 g 0))
  refine congrArg (Ideal.div (sums (ix2 g d))) ?_
  exact broadcastInDim_apply _ _ _ (ix2 g d) (ix2 g (0 : Fin 1)) (fun a => by
    match a with
    | ⟨0, _⟩ => rfl
    | ⟨1, _⟩ => rfl)

theorem row3_of (l : Fin 3) (t : Spec.A2 3 128) (hs : S3x128.Slices ![l.val, 0] S1x128) :
    shapeCast S1x128 (shapeCast S128 (extractStridedSlice S1x128 ![l.val, 0] t hs) shapeCasts_S1x128_S128) shapeCasts_S128_S1x128 = Spec.row3 t l := by
  funext j
  obtain ⟨o, d, rfl⟩ : ∃ (o : Fin 1) (d : Fin 128), j = ix2 o d := ⟨j 0, j 1, eq_ix2 j⟩
  have ho : o.val = 0 := by have := o.isLt; omega
  refine (shapeCast_apply _ _ (ix2 o d) (ix1 d) ?_).trans ?_
  · rw [Shape.rowMajor_val_one, Shape.rowMajor_val_two]
    show d.val = o.val * 128 + d.val
    omega
  refine (shapeCast_apply _ _ (ix1 d) (ix2 (0 : Fin 1) d) ?_).trans ?_
  · rw [Shape.rowMajor_val_two, Shape.rowMajor_val_one]
    show 0 * 128 + d.val = d.val
    omega
  exact extractStridedSlice_apply _ _ _ (ix2 (0 : Fin 1) d) (ix2 l d) (fun a => by
    match a with
    | ⟨0, _⟩ => show l.val = l.val + 0; rfl
    | ⟨1, _⟩ => show d.val = 0 + d.val; omega)

theorem row3_0 (t : Spec.A2 3 128) :
    shapeCast S1x128 (shapeCast S128 (extractStridedSlice S1x128 ![0, 0] t slices_S3x128_S1x128_0_0) shapeCasts_S1x128_S128) shapeCasts_S128_S1x128 = Spec.row3 t 0 :=
  row3_of 0 t slices_S3x128_S1x128_0_0
theorem row3_1 (t : Spec.A2 3 128) :
    shapeCast S1x128 (shapeCast S128 (extractStridedSlice S1x128 ![1, 0] t slices_S3x128_S1x128_1_0) shapeCasts_S1x128_S128) shapeCasts_S128_S1x128 = Spec.row3 t 1 :=
  row3_of 1 t slices_S3x128_S1x128_1_0
theorem row3_2 (t : Spec.A2 3 128) :
    shapeCast S1x128 (shapeCast S128 (extractStridedSlice S1x128 ![2, 0] t slices_S3x128_S1x128_2_0) shapeCasts_S1x128_S128) shapeCasts_S128_S1x128 = Spec.row3 t 2 :=
  row3_of 2 t slices_S3x128_S1x128_2_0

theorem col1_eq (b : Spec.I1 100000) : shapeCast S100000x1 b shapeCasts_S100000_S100000x1 = Spec.col1 b := by
  funext j
  obtain ⟨n, o, rfl⟩ : ∃ (n : Fin 100000) (o : Fin 1), j = ix2 n o := ⟨j 0, j 1, eq_ix2 j⟩
  have ho : o.val = 0 := by have := o.isLt; omega
  refine (shapeCast_apply _ _ (ix2 n o) (ix1 n) ?_).trans rfl
  rw [Shape.rowMajor_val_one, Shape.rowMajor_val_two]
  show n.val = n.val * 1 + o.val
  omega

theorem rowv_eq (v : Spec.A1 128) : shapeCast S1x128 v shapeCasts_S128_S1x128 = Spec.rowv v := by
  funext j
  obtain ⟨o, d, rfl⟩ : ∃ (o : Fin 1) (d : Fin 128), j = ix2 o d := ⟨j 0, j 1, eq_ix2 j⟩
  have ho : o.val = 0 := by have := o.isLt; omega
  refine (shapeCast_apply _ _ (ix2 o d) (ix1 d) ?_).trans rfl
  rw [Shape.rowMajor_val_one, Shape.rowMajor_val_two]
  show d.val = o.val * 128 + d.val
  omega

theorem one1_eq (v : Spec.A1 1) : shapeCast S1x1 v shapeCasts_S1_S1x1 = Spec.one1 v := by
  funext j
  obtain ⟨o, p, rfl⟩ : ∃ (o : Fin 1) (p : Fin 1), j = ix2 o p := ⟨j 0, j 1, eq_ix2 j⟩
  have ho : o.val = 0 := by have := o.isLt; omega
  have hp : p.val = 0 := by have := p.isLt; omega
  refine (shapeCast_apply _ _ (ix2 o p) (ix1 (0 : Fin 1)) ?_).trans rfl
  rw [Shape.rowMajor_val_one, Shape.rowMajor_val_two]
  show 0 = o.val * 1 + p.val
  omega

end Cert.KernelIdeal.KHostTail

end
-- ==== Proof.RefLayer.lean ====
/-
  The reference's operations of one layer are the specification's functions of the stages before them, index by index.
-/
import proofs.«420895_j26731876451141_3_alg».proof.Proof.RefRead
import proofs.«420895_j26731876451141_3_alg».proof.Proof.Spec
import Idealize.ShloMosaic.Lib.ValueLayout

noncomputable section

namespace Cert.ReferenceIdeal.RefLayer

open Cert.ReferenceIdeal Cert.ReferenceIdeal.Read Idealize.ShloMosaic Idealize.ShloMosaic.ValueIdx

variable (x0 : (⟨S100000x128, .f32⟩ : BufTy).Contents (Elt Ideal)) (x1 : (⟨S2x800000, .i32⟩ : BufTy).Contents (Elt Ideal))
  (x3 : (⟨S3x128x128, .f32⟩ : BufTy).Contents (Elt Ideal)) (x4 x5 x6 : (⟨S3x128, .f32⟩ : BufTy).Contents (Elt Ideal))

theorem v32_eq : val_main_v32 (F := Ideal) x0 x3 = Spec.mm x0 (val_main_v31 (F := Ideal) x3) := by
  funext i
  obtain ⟨n, d, rfl⟩ : ∃ (n : Fin 100000) (d : Fin 128), i = ix2 n d := ⟨i 0, i 1, eq_ix2 i⟩
  have hl : ∀ k : Fin 128, lidx_main_v32 (ix2 n d) k = ix2 n k := fun k =>
    funext fun a => Fin.ext (by match a with | ⟨0, _⟩ => rfl | ⟨1, _⟩ => rfl)
  have hr : ∀ k : Fin 128, ridx_main_v32 (ix2 n d) k = ix2 k d := fun k =>
    funext fun a => Fin.ext (by match a with | ⟨0, _⟩ => rfl | ⟨1, _⟩ => rfl)
  rw [val_main_v32_apply]
  simp only [hl, hr]
  rfl

theorem v50_eq : val_main_v50 (F := Ideal) x4 = Spec.row3 x4 0 := by
  funext j
  obtain ⟨a, d, rfl⟩ : ∃ (a : Fin 1) (d : Fin 128), j = ix2 a d := ⟨j 0, j 1, eq_ix2 j⟩
  rw [val_main_v50_apply, val_main_v49_apply, val_main_v48_apply]
  exact congrArg x4 (funext fun b => Fin.ext (by
    match b with
    | ⟨0, _⟩ => rfl
    | ⟨1, _⟩ => exact Nat.mod_eq_of_lt d.isLt))

theorem v52_eq : val_main_v52 (F := Ideal) x0 x1 x3 x4
    = Spec.hb (val_main_v44 (F := Ideal) x0 x1 x3) (val_main_v32 (F := Ideal) x0 x3) (val_main_v29 (F := Ideal) x1)
        (val_main_v50 (F := Ideal) x4) := by
  funext i
  obtain ⟨n, d, rfl⟩ : ∃ (n : Fin 100000) (d : Fin 128), i = ix2 n d := ⟨i 0, i 1, eq_ix2 i⟩
  have h45 : idx_main_v45 (ix2 n d) = ix2 n (0 : Fin 1) :=
    funext fun a => Fin.ext (by match a with | ⟨0, _⟩ => rfl | ⟨1, _⟩ => rfl)
  have h51 : idx_main_v51 (ix2 n d) = ix2 (0 : Fin 1) d :=
    funext fun a => Fin.ext (by match a with | ⟨0, _⟩ => rfl | ⟨1, _⟩ => rfl)
  rw [val_main_v52_apply, val_main_v47_apply, val_main_v46_apply, val_main_v45_apply, val_main_v51_apply, h45, h51]
  simp only [Ideal.addf_def, Ideal.mulf_def]
  rfl

theorem v56_eq : val_main_v56 (F := Ideal) x0 x1 x3 x4 = Spec.mean (val_main_v52 (F := Ideal) x0 x1 x3 x4) := by
  funext j
  obtain ⟨a, d, rfl⟩ : ∃ (a : Fin 1) (d : Fin 128), j = ix2 a d := ⟨j 0, j 1, eq_ix2 j⟩
  have h53 : ∀ k : Fin 100000, idx_main_v53 (idx_main_v56 (ix2 a d)) k = ix2 k d := fun k =>
    funext fun b => Fin.ext (by match b with | ⟨0, _⟩ => rfl | ⟨1, _⟩ => rfl)
  rw [val_main_v56_apply, val_main_v55_apply, val_main_v53_apply, val_main_v54_apply, val_main_cst_9_apply,
    val_main_cst_10_apply]
  simp only [h53, Ideal.hostDivf_def, Ideal.ofBits_def, Ideal.ofBits_zero_f32, zero_add]
  rfl

theorem v69_eq : val_main_v69 (F := Ideal) x0 x1 x3 x4
    = Spec.istd (val_main_v52 (F := Ideal) x0 x1 x3 x4) (val_main_v56 (F := Ideal) x0 x1 x3 x4) := by
  funext j
  obtain ⟨a, d, rfl⟩ : ∃ (a : Fin 1) (d : Fin 128), j = ix2 a d := ⟨j 0, j 1, eq_ix2 j⟩
  have h60 : ∀ k : Fin 100000, idx_main_v60 (idx_main_v69 (ix2 a d)) k = ix2 k d := fun k =>
    funext fun b => Fin.ext (by match b with | ⟨0, _⟩ => rfl | ⟨1, _⟩ => rfl)
  have h57 : ∀ k : Fin 100000, idx_main_v57 (ix2 k d) = ix2 (0 : Fin 1) d := fun k =>
    funext fun b => Fin.ext (by match b with | ⟨0, _⟩ => rfl | ⟨1, _⟩ => rfl)
  have hsq : ∀ k : Fin 100000, val_main_v59 (F := Ideal) x0 x1 x3 x4 (idx_main_v60 (idx_main_v69 (ix2 a d)) k)
      = Spec.sq (val_main_v52 (F := Ideal) x0 x1 x3 x4) (val_main_v56 (F := Ideal) x0 x1 x3 x4) (ix2 k d) := by
    intro k
    rw [h60 k, val_main_v59_apply, val_main_v58_apply, val_main_v57_apply, h57 k]
    simp only [Ideal.mulf_def, Ideal.subf_def]
    rfl
  have hsum : (∑ k : Fin 100000, val_main_v59 (F := Ideal) x0 x1 x3 x4 (idx_main_v60 (idx_main_v69 (ix2 a d)) k))
      = ∑ k : Fin 100000, Spec.sq (val_main_v52 (F := Ideal) x0 x1 x3 x4) (val_main_v56 (F := Ideal) x0 x1 x3 x4) (ix2 k d) :=
    Finset.sum_congr rfl (fun k _ => hsq k)
  rw [val_main_v69_apply, val_main_v68_apply, val_main_v67_apply, val_main_v62_apply, val_main_v60_apply,
    val_main_v61_apply, val_main_v66_apply, val_main_cst_11_apply, val_main_cst_12_apply, val_main_cst_13_apply, hsum]
  simp only [Ideal.hostUnary_rsqrt_def, Ideal.addf_def, Ideal.hostDivf_def, Ideal.ofBits_def, Ideal.ofBits_zero_f32,
    zero_add]
  rfl

theorem v74_eq : val_main_v74 (F := Ideal) x5 = Spec.row3 x5 0 := by
  funext j
  obtain ⟨a, d, rfl⟩ : ∃ (a : Fin 1) (d : Fin 128), j = ix2 a d := ⟨j 0, j 1, eq_ix2 j⟩
  rw [val_main_v74_apply, val_main_v73_apply, val_main_v72_apply]
  exact congrArg x5 (funext fun b => Fin.ext (by
    match b with
    | ⟨0, _⟩ => rfl
    | ⟨1, _⟩ => exact Nat.mod_eq_of_lt d.isLt))

theorem v79_eq : val_main_v79 (F := Ideal) x6 = Spec.row3 x6 0 := by
  funext j
  obtain ⟨a, d, rfl⟩ : ∃ (a : Fin 1) (d : Fin 128), j = ix2 a d := ⟨j 0, j 1, eq_ix2 j⟩
  rw [val_main_v79_apply, val_main_v78_apply, val_main_v77_apply]
  exact congrArg x6 (funext fun b => Fin.ext (by
    match b with
    | ⟨0, _⟩ => rfl
    | ⟨1, _⟩ => exact Nat.mod_eq_of_lt d.isLt))

theorem v63_eq : val_main_v63 (F := Ideal) x0 x1 x3 x4 = val_main_v56 (F := Ideal) x0 x1 x3 x4 := rfl

theorem v82_eq : val_main_v82 (F := Ideal) x0 x1 x3 x4 x5 x6
    = Spec.y (val_main_v52 (F := Ideal) x0 x1 x3 x4) (val_main_v56 (F := Ideal) x0 x1 x3 x4)
        (val_main_v69 (F := Ideal) x0 x1 x3 x4) (val_main_v74 (F := Ideal) x5) (val_main_v79 (F := Ideal) x6) := by
  funext i
  obtain ⟨n, d, rfl⟩ : ∃ (n : Fin 100000) (d : Fin 128), i = ix2 n d := ⟨i 0, i 1, eq_ix2 i⟩
  have h64 : idx_main_v64 (ix2 n d) = ix2 (0 : Fin 1) d :=
    funext fun a => Fin.ext (by match a with | ⟨0, _⟩ => rfl | ⟨1, _⟩ => rfl)
  have h70 : idx_main_v70 (ix2 n d) = ix2 (0 : Fin 1) d :=
    funext fun a => Fin.ext (by match a with | ⟨0, _⟩ => rfl | ⟨1, _⟩ => rfl)
  have h75 : idx_main_v75 (ix2 n d) = ix2 (0 : Fin 1) d :=
    funext fun a => Fin.ext (by match a with | ⟨0, _⟩ => rfl | ⟨1, _⟩ => rfl)
  have h80 : idx_main_v80 (ix2 n d) = ix2 (0 : Fin 1) d :=
    funext fun a => Fin.ext (by match a with | ⟨0, _⟩ => rfl | ⟨1, _⟩ => rfl)
  rw [val_main_v82_apply, val_main_v81_apply, val_main_v76_apply, val_main_v71_apply, val_main_v65_apply,
    val_main_v64_apply, val_main_v70_apply, val_main_v75_apply, val_main_v80_apply, val_main_call0_v0_apply,
    val_main_call0_cst_apply, h64, h70, h75, h80, v63_eq]
  simp only [Ideal.maximumf_def, Ideal.addf_def, Ideal.mulf_def, Ideal.subf_def, Ideal.ofBits_def]
  rfl

theorem v85_eq : val_main_v85 (F := Ideal) x0 x1 x3 x4 x5 x6
    = Spec.mm (val_main_v82 (F := Ideal) x0 x1 x3 x4 x5 x6) (val_main_v84 (F := Ideal) x3) := by
  funext i
  obtain ⟨n, d, rfl⟩ : ∃ (n : Fin 100000) (d : Fin 128), i = ix2 n d := ⟨i 0, i 1, eq_ix2 i⟩
  have hl : ∀ k : Fin 128, lidx_main_v85 (ix2 n d) k = ix2 n k := fun k =>
    funext fun a => Fin.ext (by match a with | ⟨0, _⟩ => rfl | ⟨1, _⟩ => rfl)
  have hr : ∀ k : Fin 128, ridx_main_v85 (ix2 n d) k = ix2 k d := fun k =>
    funext fun a => Fin.ext (by match a with | ⟨0, _⟩ => rfl | ⟨1, _⟩ => rfl)
  rw [val_main_v85_apply]
  simp only [hl, hr]
  rfl

theorem v103_eq : val_main_v103 (F := Ideal) x4 = Spec.row3 x4 1 := by
  funext j
  obtain ⟨a, d, rfl⟩ : ∃ (a : Fin 1) (d : Fin 128), j = ix2 a d := ⟨j 0, j 1, eq_ix2 j⟩
  rw [val_main_v103_apply, val_main_v102_apply, val_main_v101_apply]
  exact congrArg x4 (funext fun b => Fin.ext (by
    match b with
    | ⟨0, _⟩ => rfl
    | ⟨1, _⟩ => exact Nat.mod_eq_of_lt d.isLt))

theorem v105_eq : val_main_v105 (F := Ideal) x0 x1 x3 x4 x5 x6
    = Spec.hb (val_main_v97 (F := Ideal) x0 x1 x3 x4 x5 x6) (val_main_v85 (F := Ideal) x0 x1 x3 x4 x5 x6) (val_main_v29 (F := Ideal) x1)
        (val_main_v103 (F := Ideal) x4) := by
  funext i
  obtain ⟨n, d, rfl⟩ : ∃ (n : Fin 100000) (d : Fin 128), i = ix2 n d := ⟨i 0, i 1, eq_ix2 i⟩
  have h98 : idx_main_v98 (ix2 n d) = ix2 n (0 : Fin 1) :=
    funext fun a => Fin.ext (by match a with | ⟨0, _⟩ => rfl | ⟨1, _⟩ => rfl)
  have h104 : idx_main_v104 (ix2 n d) = ix2 (0 : Fin 1) d :=
    funext fun a => Fin.ext (by match a with | ⟨0, _⟩ => rfl | ⟨1, _⟩ => rfl)
  rw [val_main_v105_apply, val_main_v100_apply, val_main_v99_apply, val_main_v98_apply, val_main_v104_apply, h98, h104]
  simp only [Ideal.addf_def, Ideal.mulf_def]
  rfl

theorem v109_eq : val_main_v109 (F := Ideal) x0 x1 x3 x4 x5 x6 = Spec.mean (val_main_v105 (F := Ideal) x0 x1 x3 x4 x5 x6) := by
  funext j
  obtain ⟨a, d, rfl⟩ : ∃ (a : Fin 1) (d : Fin 128), j = ix2 a d := ⟨j 0, j 1, eq_ix2 j⟩
  have h106 : ∀ k : Fin 100000, idx_main_v106 (idx_main_v109 (ix2 a d)) k = ix2 k d := fun k =>
    funext fun b => Fin.ext (by match b with | ⟨0, _⟩ => rfl | ⟨1, _⟩ => rfl)
  rw [val_main_v109_apply, val_main_v108_apply, val_main_v106_apply, val_main_v107_apply, val_main_cst_17_apply,
    val_main_cst_18_apply]
  simp only [h106, Ideal.hostDivf_def, Ideal.ofBits_def, Ideal.ofBits_zero_f32, zero_add]
  rfl

theorem v122_eq : val_main_v122 (F := Ideal) x0 x1 x3 x4 x5 x6
    = Spec.istd (val_main_v105 (F := Ideal) x0 x1 x3 x4 x5 x6) (val_main_v109 (F := Ideal) x0 x1 x3 x4 x5 x6) := by
  funext j
  obtain ⟨a, d, rfl⟩ : ∃ (a : Fin 1) (d : Fin 128), j = ix2 a d := ⟨j 0, j 1, eq_ix2 j⟩
  have h113 : ∀ k : Fin 100000, idx_main_v113 (idx_main_v122 (ix2 a d)) k = ix2 k d := fun k =>
    funext fun b => Fin.ext (by match b with | ⟨0, _⟩ => rfl | ⟨1, _⟩ => rfl)
  have h110 : ∀ k : Fin 100000, idx_main_v110 (ix2 k d) = ix2 (0 : Fin 1) d := fun k =>
    funext fun b => Fin.ext (by match b with | ⟨0, _⟩ => rfl | ⟨1, _⟩ => rfl)
  have hsq : ∀ k : Fin 100000, val_main_v112 (F := Ideal) x0 x1 x3 x4 x5 x6 (idx_main_v113 (idx_main_v122 (ix2 a d)) k)
      = Spec.sq (val_main_v105 (F := Ideal) x0 x1 x3 x4 x5 x6) (val_main_v109 (F := Ideal) x0 x1 x3 x4 x5 x6) (ix2 k d) := by
    intro k
    rw [h113 k, val_main_v112_apply, val_main_v111_apply, val_main_v110_apply, h110 k]
    simp only [Ideal.mulf_def, Ideal.subf_def]
    rfl
  have hsum : (∑ k : Fin 100000, val_main_v112 (F := Ideal) x0 x1 x3 x4 x5 x6 (idx_main_v113 (idx_main_v122 (ix2 a d)) k))
      = ∑ k : Fin 100000, Spec.sq (val_main_v105 (F := Ideal) x0 x1 x3 x4 x5 x6) (val_main_v109 (F := Ideal) x0 x1 x3 x4 x5 x6) (ix2 k d) :=
    Finset.sum_congr rfl (fun k _ => hsq k)
  rw [val_main_v122_apply, val_main_v121_apply, val_main_v120_apply, val_main_v115_apply, val_main_v113_apply,
    val_main_v114_apply, val_main_v119_apply, val_main_cst_19_apply, val_main_cst_20_apply, val_main_cst_21_apply, hsum]
  simp only [Ideal.hostUnary_rsqrt_def, Ideal.addf_def, Ideal.hostDivf_def, Ideal.ofBits_def, Ideal.ofBits_zero_f32,
    zero_add]
  rfl

theorem v127_eq : val_main_v127 (F := Ideal) x5 = Spec.row3 x5 1 := by
  funext j
  obtain ⟨a, d, rfl⟩ : ∃ (a : Fin 1) (d : Fin 128), j = ix2 a d := ⟨j 0, j 1, eq_ix2 j⟩
  rw [val_main_v127_apply, val_main_v126_apply, val_main_v125_apply]
  exact congrArg x5 (funext fun b => Fin.ext (by
    match b with
    | ⟨0, _⟩ => rfl
    | ⟨1, _⟩ => exact Nat.mod_eq_of_lt d.isLt))

theorem v132_eq : val_main_v132 (F := Ideal) x6 = Spec.row3 x6 1 := by
  funext j
  obtain ⟨a, d, rfl⟩ : ∃ (a : Fin 1) (d : Fin 128), j = ix2 a d := ⟨j 0, j 1, eq_ix2 j⟩
  rw [val_main_v132_apply, val_main_v131_apply, val_main_v130_apply]
  exact congrArg x6 (funext fun b => Fin.ext (by
    match b with
    | ⟨0, _⟩ => rfl
    | ⟨1, _⟩ => exact Nat.mod_eq_of_lt d.isLt))

theorem v116_eq : val_main_v116 (F := Ideal) x0 x1 x3 x4 x5 x6 = val_main_v109 (F := Ideal) x0 x1 x3 x4 x5 x6 := rfl

theorem v135_eq : val_main_v135 (F := Ideal) x0 x1 x3 x4 x5 x6
    = Spec.y (val_main_v105 (F := Ideal) x0 x1 x3 x4 x5 x6) (val_main_v109 (F := Ideal) x0 x1 x3 x4 x5 x6)
        (val_main_v122 (F := Ideal) x0 x1 x3 x4 x5 x6) (val_main_v127 (F := Ideal) x5) (val_main_v132 (F := Ideal) x6) := by
  funext i
  obtain ⟨n, d, rfl⟩ : ∃ (n : Fin 100000) (d : Fin 128), i = ix2 n d := ⟨i 0, i 1, eq_ix2 i⟩
  have h117 : idx_main_v117 (ix2 n d) = ix2 (0 : Fin 1) d :=
    funext fun a => Fin.ext (by match a with | ⟨0, _⟩ => rfl | ⟨1, _⟩ => rfl)
  have h123 : idx_main_v123 (ix2 n d) = ix2 (0 : Fin 1) d :=
    funext fun a => Fin.ext (by match a with | ⟨0, _⟩ => rfl | ⟨1, _⟩ => rfl)
  have h128 : idx_main_v128 (ix2 n d) = ix2 (0 : Fin 1) d :=
    funext fun a => Fin.ext (by match a with | ⟨0, _⟩ => rfl | ⟨1, _⟩ => rfl)
  have h133 : idx_main_v133 (ix2 n d) = ix2 (0 : Fin 1) d :=
    funext fun a => Fin.ext (by match a with | ⟨0, _⟩ => rfl | ⟨1, _⟩ => rfl)
  rw [val_main_v135_apply, val_main_v134_apply, val_main_v129_apply, val_main_v124_apply, val_main_v118_apply,
    val_main_v117_apply, val_main_v123_apply, val_main_v128_apply, val_main_v133_apply, val_main_call1_v0_apply,
    val_main_call1_cst_apply, h117, h123, h128, h133, v116_eq]
  simp only [Ideal.maximumf_def, Ideal.addf_def, Ideal.mulf_def, Ideal.subf_def, Ideal.ofBits_def]
  rfl

theorem v138_eq : val_main_v138 (F := Ideal) x0 x1 x3 x4 x5 x6
    = Spec.mm (val_main_v135 (F := Ideal) x0 x1 x3 x4 x5 x6) (val_main_v137 (F := Ideal) x3) := by
  funext i
  obtain ⟨n, d, rfl⟩ : ∃ (n : Fin 100000) (d : Fin 128), i = ix2 n d := ⟨i 0, i 1, eq_ix2 i⟩
  have hl : ∀ k : Fin 128, lidx_main_v138 (ix2 n d) k = ix2 n k := fun k =>
    funext fun a => Fin.ext (by match a with | ⟨0, _⟩ => rfl | ⟨1, _⟩ => rfl)
  have hr : ∀ k : Fin 128, ridx_main_v138 (ix2 n d) k = ix2 k d := fun k =>
    funext fun a => Fin.ext (by match a with | ⟨0, _⟩ => rfl | ⟨1, _⟩ => rfl)
  rw [val_main_v138_apply]
  simp only [hl, hr]
  rfl

theorem v156_eq : val_main_v156 (F := Ideal) x4 = Spec.row3 x4 2 := by
  funext j
  obtain ⟨a, d, rfl⟩ : ∃ (a : Fin 1) (d : Fin 128), j = ix2 a d := ⟨j 0, j 1, eq_ix2 j⟩
  rw [val_main_v156_apply, val_main_v155_apply, val_main_v154_apply]
  exact congrArg x4 (funext fun b => Fin.ext (by
    match b with
    | ⟨0, _⟩ => rfl
    | ⟨1, _⟩ => exact Nat.mod_eq_of_lt d.isLt))

theorem v158_eq : val_main_v158 (F := Ideal) x0 x1 x3 x4 x5 x6
    = Spec.hb (val_main_v150 (F := Ideal) x0 x1 x3 x4 x5 x6) (val_main_v138 (F := Ideal) x0 x1 x3 x4 x5 x6) (val_main_v29 (F := Ideal) x1)
        (val_main_v156 (F := Ideal) x4) := by
  funext i
  obtain ⟨n, d, rfl⟩ : ∃ (n : Fin 100000) (d : Fin 128), i = ix2 n d := ⟨i 0, i 1, eq_ix2 i⟩
  have h151 : idx_main_v151 (ix2 n d) = ix2 n (0 : Fin 1) :=
    funext fun a => Fin.ext (by match a with | ⟨0, _⟩ => rfl | ⟨1, _⟩ => rfl)
  have h157 : idx_main_v157 (ix2 n d) = ix2 (0 : Fin 1) d :=
    funext fun a => Fin.ext (by match a with | ⟨0, _⟩ => rfl | ⟨1, _⟩ => rfl)
  rw [val_main_v158_apply, val_main_v153_apply, val_main_v152_apply, val_main_v151_apply, val_main_v157_apply, h151, h157]
  simp only [Ideal.addf_def, Ideal.mulf_def]
  rfl

theorem v162_eq : val_main_v162 (F := Ideal) x0 x1 x3 x4 x5 x6 = Spec.mean (val_main_v158 (F := Ideal) x0 x1 x3 x4 x5 x6) := by
  funext j
  obtain ⟨a, d, rfl⟩ : ∃ (a : Fin 1) (d : Fin 128), j = ix2 a d := ⟨j 0, j 1, eq_ix2 j⟩
  have h159 : ∀ k : Fin 100000, idx_main_v159 (idx_main_v162 (ix2 a d)) k = ix2 k d := fun k =>
    funext fun b => Fin.ext (by match b with | ⟨0, _⟩ => rfl | ⟨1, _⟩ => rfl)
  rw [val_main_v162_apply, val_main_v161_apply, val_main_v159_apply, val_main_v160_apply, val_main_cst_25_apply,
    val_main_cst_26_apply]
  simp only [h159, Ideal.hostDivf_def, Ideal.ofBits_def, Ideal.ofBits_zero_f32, zero_add]
  rfl

theorem v175_eq : val_main_v175 (F := Ideal) x0 x1 x3 x4 x5 x6
    = Spec.istd (val_main_v158 (F := Ideal) x0 x1 x3 x4 x5 x6) (val_main_v162 (F := Ideal) x0 x1 x3 x4 x5 x6) := by
  funext j
  obtain ⟨a, d, rfl⟩ : ∃ (a : Fin 1) (d : Fin 128), j = ix2 a d := ⟨j 0, j 1, eq_ix2 j⟩
  have h166 : ∀ k : Fin 100000, idx_main_v166 (idx_main_v175 (ix2 a d)) k = ix2 k d := fun k =>
    funext fun b => Fin.ext (by match b with | ⟨0, _⟩ => rfl | ⟨1, _⟩ => rfl)
  have h163 : ∀ k : Fin 100000, idx_main_v163 (ix2 k d) = ix2 (0 : Fin 1) d := fun k =>
    funext fun b => Fin.ext (by match b with | ⟨0, _⟩ => rfl | ⟨1, _⟩ => rfl)
  have hsq : ∀ k : Fin 100000, val_main_v165 (F := Ideal) x0 x1 x3 x4 x5 x6 (idx_main_v166 (idx_main_v175 (ix2 a d)) k)
      = Spec.sq (val_main_v158 (F := Ideal) x0 x1 x3 x4 x5 x6) (val_main_v162 (F := Ideal) x0 x1 x3 x4 x5 x6) (ix2 k d) := by
    intro k
    rw [h166 k, val_main_v165_apply, val_main_v164_apply, val_main_v163_apply, h163 k]
    simp only [Ideal.mulf_def, Ideal.subf_def]
    rfl
  have hsum : (∑ k : Fin 100000, val_main_v165 (F := Ideal) x0 x1 x3 x4 x5 x6 (idx_main_v166 (idx_main_v175 (ix2 a d)) k))
      = ∑ k : Fin 100000, Spec.sq (val_main_v158 (F := Ideal) x0 x1 x3 x4 x5 x6) (val_main_v162 (F := Ideal) x0 x1 x3 x4 x5 x6) (ix2 k d) :=
    Finset.sum_congr rfl (fun k _ => hsq k)
  rw [val_main_v175_apply, val_main_v174_apply, val_main_v173_apply, val_main_v168_apply, val_main_v166_apply,
    val_main_v167_apply, val_main_v172_apply, val_main_cst_27_apply, val_main_cst_28_apply, val_main_cst_29_apply, hsum]
  simp only [Ideal.hostUnary_rsqrt_def, Ideal.addf_def, Ideal.hostDivf_def, Ideal.ofBits_def, Ideal.ofBits_zero_f32,
    zero_add]
  rfl

theorem v180_eq : val_main_v180 (F := Ideal) x5 = Spec.row3 x5 2 := by
  funext j
  obtain ⟨a, d, rfl⟩ : ∃ (a : Fin 1) (d : Fin 128), j = ix2 a d := ⟨j 0, j 1, eq_ix2 j⟩
  rw [val_main_v180_apply, val_main_v179_apply, val_main_v178_apply]
  exact congrArg x5 (funext fun b => Fin.ext (by
    match b with
    | ⟨0, _⟩ => rfl
    | ⟨1, _⟩ => exact Nat.mod_eq_of_lt d.isLt))

theorem v185_eq : val_main_v185 (F := Ideal) x6 = Spec.row3 x6 2 := by
  funext j
  obtain ⟨a, d, rfl⟩ : ∃ (a : Fin 1) (d : Fin 128), j = ix2 a d := ⟨j 0, j 1, eq_ix2 j⟩
  rw [val_main_v185_apply, val_main_v184_apply, val_main_v183_apply]
  exact congrArg x6 (funext fun b => Fin.ext (by
    match b with
    | ⟨0, _⟩ => rfl
    | ⟨1, _⟩ => exact Nat.mod_eq_of_lt d.isLt))

theorem v169_eq : val_main_v169 (F := Ideal) x0 x1 x3 x4 x5 x6 = val_main_v162 (F := Ideal) x0 x1 x3 x4 x5 x6 := rfl

theorem v188_eq : val_main_v188 (F := Ideal) x0 x1 x3 x4 x5 x6
    = Spec.y (val_main_v158 (F := Ideal) x0 x1 x3 x4 x5 x6) (val_main_v162 (F := Ideal) x0 x1 x3 x4 x5 x6)
        (val_main_v175 (F := Ideal) x0 x1 x3 x4 x5 x6) (val_main_v180 (F := Ideal) x5) (val_main_v185 (F := Ideal) x6) := by
  funext i
  obtain ⟨n, d, rfl⟩ : ∃ (n : Fin 100000) (d : Fin 128), i = ix2 n d := ⟨i 0, i 1, eq_ix2 i⟩
  have h170 : idx_main_v170 (ix2 n d) = ix2 (0 : Fin 1) d :=
    funext fun a => Fin.ext (by match a with | ⟨0, _⟩ => rfl | ⟨1, _⟩ => rfl)
  have h176 : idx_main_v176 (ix2 n d) = ix2 (0 : Fin 1) d :=
    funext fun a => Fin.ext (by match a with | ⟨0, _⟩ => rfl | ⟨1, _⟩ => rfl)
  have h181 : idx_main_v181 (ix2 n d) = ix2 (0 : Fin 1) d :=
    funext fun a => Fin.ext (by match a with | ⟨0, _⟩ => rfl | ⟨1, _⟩ => rfl)
  have h186 : idx_main_v186 (ix2 n d) = ix2 (0 : Fin 1) d :=
    funext fun a => Fin.ext (by match a with | ⟨0, _⟩ => rfl | ⟨1, _⟩ => rfl)
  rw [val_main_v188_apply, val_main_v187_apply, val_main_v182_apply, val_main_v177_apply, val_main_v171_apply,
    val_main_v170_apply, val_main_v176_apply, val_main_v181_apply, val_main_v186_apply, val_main_call2_v0_apply,
    val_main_call2_cst_apply, h170, h176, h181, h186, v169_eq]
  simp only [Ideal.maximumf_def, Ideal.addf_def, Ideal.mulf_def, Ideal.subf_def, Ideal.ofBits_def]
  rfl

end Cert.ReferenceIdeal.RefLayer

end
-- ==== Proof.RefTail.lean ====
/-
  The reference's scatter-adds by graph id are the specification's pool sums and counts.
-/
import proofs.«420895_j26731876451141_3_alg».proof.Proof.RefRead
import proofs.«420895_j26731876451141_3_alg».proof.Proof.Spec
import Idealize.ShloMosaic.Lib.ValueLayout
import Idealize.ShloMosaic.Lib.IdealHost

noncomputable section

namespace Cert.ReferenceIdeal.RefTail

open Cert.ReferenceIdeal Cert.ReferenceIdeal.Read Idealize.ShloMosaic Idealize.ShloMosaic.ValueIdx

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have := h a
      rw [← e']
      show _ = ((d.start j idx a + (d.window j a : Int)).toNat : Int)
      omega
    · intro e
      refine congrArg some (funext fun a => Fin.ext ?_)
      have := e a
      show (d.start j idx a + (d.window j a : Int)).toNat = (i a).val
      omega
  · next h =>
    constructor
    · intro e; cases e
    · intro e
      exfalso
      apply h
      intro a
      have := e a
      have := (i a).isLt
      omega

theorem toInt_eq_iff (w : BitVec 32) (g : Nat) (hg : g < 512) : w.toInt = (g : Int) ↔ w = BitVec.ofNat 32 g := by
  constructor
  · intro e
    apply BitVec.eq_of_toNat_eq
    rw [BitVec.toInt_eq_toNat_cond] at e
    have := w.isLt
    rw [BitVec.toNat_ofNat]
    split at e <;> omega
  · intro e
    subst e
    rw [BitVec.toInt_eq_toNat_cond, BitVec.toNat_ofNat]
    have : g % 2 ^ 32 = g := Nat.mod_eq_of_lt (by omega)
    rw [this, if_pos (by omega)]

abbrev dP := scatter_S512x128_S100000x1_S100000x128_1_0_0_1

theorem dP_start0 (j : S100000x128.Idx) (idx : IVec S100000x1 32) :
    dP.start j idx 0 = (idx (ix2 (j 0) 0)).toInt := by
  unfold ScatterDims.start
  rw [dif_pos (by decide)]
  refine congrArg (fun k => (idx k).toInt) (funext fun b => Fin.ext ?_)
  match b with
  | ⟨0, _⟩ => rfl
  | ⟨1, _⟩ => rfl

theorem dP_start1 (j : S100000x128.Idx) (idx : IVec S100000x1 32) : dP.start j idx 1 = 0 := by
  unfold ScatterDims.start
  rw [dif_neg (by decide)]

theorem dP_window0 (j : S100000x128.Idx) : dP.window j 0 = 0 := by
  unfold ScatterDims.window
  rw [dif_neg (by decide)]

theorem dP_window1 (j : S100000x128.Idx) : dP.window j 1 = (j 1).val := by
  unfold ScatterDims.window
  rw [dif_pos (by decide)]
  rfl

theorem dP_lands (n : Fin 100000) (e : Fin 128) (idx : Spec.I2 100000 1) (g : Fin 512) (e' : Fin 128) :
    dP.resultIdx? (ix2 n e) idx = some (ix2 g e') ↔ (idx (ix2 n 0) = BitVec.ofNat 32 g.val ∧ e = e') := by
  rw [resultIdx?_eq_some_iff]
  constructor
  · intro h
    have h0 : (idx (ix2 n 0)).toInt + ((0 : ℕ) : ℤ) = ((g.val : ℕ) : ℤ) := by
      have := h 0; rw [dP_start0, dP_window0] at this; exact this
    have h1 : (0 : ℤ) + ((e.val : ℕ) : ℤ) = ((e'.val : ℕ) : ℤ) := by
      have := h 1; rw [dP_start1, dP_window1] at this; exact this
    exact ⟨(toInt_eq_iff _ _ g.isLt).1 (by omega), Fin.ext (by omega)⟩
  · rintro ⟨hw, rfl⟩
    have hg := (toInt_eq_iff _ _ g.isLt).2 hw
    refine Fin.forall_fin_two.2 ⟨?_, ?_⟩
    · rw [dP_start0, dP_window0]
      show (idx (ix2 n 0)).toInt + ((0 : ℕ) : ℤ) = ((g.val : ℕ) : ℤ)
      omega
    · rw [dP_start1, dP_window1]
      show (0 : ℤ) + ((e.val : ℕ) : ℤ) = ((e.val : ℕ) : ℤ)
      omega

theorem scatter_pool_apply (x : Spec.A2 512 128) (idx : Spec.I2 100000 1) (upd : Spec.A2 100000 128) (g : Fin 512) (e' : Fin 128) :
    Host.scatterAdd (F := Ideal) (φ := .f32) dP x idx upd (ix2 g e') = x (ix2 g e') + Spec.poolE upd idx g e' := by
  simp only [Host.scatterAdd]
  rw [Ideal.hostScatterAdd_def]
  unfold Ideal.hostScatterAdd
  refine congrArg (x (ix2 g e') + ·) ?_
  rw [Finset.sum_filter, sum_idx2]
  unfold Spec.poolE
  refine Finset.sum_congr rfl fun n _ => ?_
  by_cases hw : idx (ix2 n 0) = BitVec.ofNat 32 g.val
  · rw [if_pos hw, Finset.sum_eq_single e']
    · rw [if_pos ((dP_lands n e' idx g e').2 ⟨hw, rfl⟩)]
    · intro e _ he
      rw [if_neg (fun h => he ((dP_lands n e idx g e').1 h).2)]
    · intro h; exact absurd (Finset.mem_univ _) h
  · rw [if_neg hw]
    refine Finset.sum_eq_zero fun e _ => ?_
    rw [if_neg (fun h => hw ((dP_lands n e idx g e').1 h).1)]

abbrev dC := scatter_S512_S100000x1_S100000_n_0_0_1

theorem dC_start0 (j : S100000.Idx) (idx : IVec S100000x1 32) :
    dC.start j idx 0 = (idx (ix2 (j 0) 0)).toInt := by
  unfold ScatterDims.start
  rw [dif_pos (by decide)]
  refine congrArg (fun k => (idx k).toInt) (funext fun b => Fin.ext ?_)
  match b with
  | ⟨0, _⟩ => rfl
  | ⟨1, _⟩ => rfl

theorem dC_window0 (j : S100000.Idx) : dC.window j 0 = 0 := by
  unfold ScatterDims.window
  rw [dif_neg (by decide)]

theorem dC_lands (n : Fin 100000) (idx : Spec.I2 100000 1) (g : Fin 512) :
    dC.resultIdx? (ix1 n) idx = some (ix1 g) ↔ idx (ix2 n 0) = BitVec.ofNat 32 g.val := by
  rw [resultIdx?_eq_some_iff]
  constructor
  · intro h
    have h0 : (idx (ix2 n 0)).toInt + ((0 : ℕ) : ℤ) = ((g.val : ℕ) : ℤ) := by
      have := h 0; rw [dC_start0, dC_window0] at this; exact this
    exact (toInt_eq_iff _ _ g.isLt).1 (by omega)
  · intro hw
    have hg := (toInt_eq_iff _ _ g.isLt).2 hw
    intro a
    have ha : a = 0 := Fin.ext (by have h1 : a.val < 1 := a.isLt; show a.val = 0; omega)
    subst ha
    rw [dC_start0, dC_window0]
    show (idx (ix2 n 0)).toInt + ((0 : ℕ) : ℤ) = ((g.val : ℕ) : ℤ)
    omega

def idxEquiv1 {n : Nat} : (⟨1, ![n]⟩ : Shape).Idx ≃ Fin n where
  toFun i := i 0
  invFun a := ix1 a
  left_inv i := (eq_ix1 i).symm
  right_inv _ := rfl

theorem sum_idx1 {n : Nat} (f : (⟨1, ![n]⟩ : Shape).Idx → EReal) : ∑ i, f i = ∑ a : Fin n, f (ix1 a) := by
  rw [← Equiv.sum_comp (idxEquiv1 (n := n)).symm f]
  rfl

theorem scatter_cnt_apply (x : Spec.A1 512) (idx : Spec.I2 100000 1) (upd : Spec.A1 100000) (g : Fin 512) :
    Host.scatterAdd (F := Ideal) (φ := .f32) dC x idx upd (ix1 g)
      = x (ix1 g) + ∑ n : Fin 100000, if idx (ix2 n 0) = BitVec.ofNat 32 g.val then upd (ix1 n) else 0 := by
  simp only [Host.scatterAdd]
  rw [Ideal.hostScatterAdd_def]
  unfold Ideal.hostScatterAdd
  refine congrArg (x (ix1 g) + ·) ?_
  rw [Finset.sum_filter, sum_idx1]
  refine Finset.sum_congr rfl fun n _ => ?_
  by_cases hw : idx (ix2 n 0) = BitVec.ofNat 32 g.val
  · rw [if_pos hw, if_pos ((dC_lands n idx g).2 hw)]
  · rw [if_neg hw, if_neg (fun h => hw ((dC_lands n idx g).1 h))]

variable (x0 : (⟨S100000x128, .f32⟩ : BufTy).Contents (Elt Ideal)) (x1 : (⟨S2x800000, .i32⟩ : BufTy).Contents (Elt Ideal))
  (x2 : (⟨S100000, .i32⟩ : BufTy).Contents (Elt Ideal)) (x3 : (⟨S3x128x128, .f32⟩ : BufTy).Contents (Elt Ideal))
  (x4 x5 x6 : (⟨S3x128, .f32⟩ : BufTy).Contents (Elt Ideal))

theorem v190_eq : val_main_v190 (F := Ideal) x2 = Spec.col1 x2 := by
  funext i
  obtain ⟨n, o, rfl⟩ : ∃ (n : Fin 100000) (o : Fin 1), i = ix2 n o := ⟨i 0, i 1, eq_ix2 i⟩
  rw [val_main_v190_apply]
  exact congrArg x2 (funext fun a => match a with | ⟨0, _⟩ => rfl)

theorem v191_eq : val_main_v191 (F := Ideal) x0 x1 x2 x3 x4 x5 x6
    = Spec.pool (val_main_v188 (F := Ideal) x0 x1 x3 x4 x5 x6) (val_main_v190 (F := Ideal) x2) := by
  unfold val_main_v191
  generalize val_main_v188 (F := Ideal) x0 x1 x3 x4 x5 x6 = upd
  generalize val_main_v190 (F := Ideal) x2 = idx
  funext i
  obtain ⟨g, e, rfl⟩ : ∃ (g : Fin 512) (e : Fin 128), i = ix2 g e := ⟨i 0, i 1, eq_ix2 i⟩
  refine (scatter_pool_apply _ idx upd g e).trans ?_
  rw [val_main_v189_apply, val_main_cst_30_apply]
  show Ideal.ofBits .f32 0x00000000#32 + Spec.poolE upd idx g e = Spec.poolE upd idx g e
  rw [Ideal.ofBits_zero_f32, zero_add]

theorem v195_eq (g : Fin 512) : val_main_v195 (F := Ideal) x2 (ix1 g) = Spec.cntE (val_main_v190 (F := Ideal) x2) g := by
  unfold val_main_v195
  rw [show val_main_v194 (F := Ideal) x2 = val_main_v190 (F := Ideal) x2 from rfl]
  generalize val_main_v190 (F := Ideal) x2 = idx
  refine (scatter_cnt_apply _ idx _ g).trans ?_
  rw [val_main_v193_apply, val_main_cst_32_apply]
  unfold Spec.cntE
  show Ideal.ofBits .f32 0x00000000#32 + _ = _
  rw [Ideal.ofBits_zero_f32, zero_add]
  refine Finset.sum_congr rfl fun n _ => ?_
  rw [val_main_v192_apply, val_main_cst_31_apply]
  show (if _ then Ideal.ofBits .f32 0x3F800000#32 else 0) = _
  rw [Ideal.ofBits_one_f32]

theorem v198_eq : val_main_v198 (F := Ideal) x2 = Spec.cnt1 (val_main_v190 (F := Ideal) x2) := by
  funext i
  obtain ⟨g, o, rfl⟩ : ∃ (g : Fin 512) (o : Fin 1), i = ix2 g o := ⟨i 0, i 1, eq_ix2 i⟩
  rw [val_main_v198_apply, val_main_v197_apply,
    show idx_main_v198 (ix2 g o) = ix1 g from funext fun a => match a with | ⟨0, _⟩ => rfl,
    v195_eq, val_main_v196_apply, val_main_cst_33_apply]
  generalize val_main_v190 (F := Ideal) x2 = idx
  rfl

end Cert.ReferenceIdeal.RefTail

end
-- ==== Proof.RefHead.lean ====
/-
  The reference's pool quotient and head are the specification's functions of the stages before them.
-/
import proofs.«420895_j26731876451141_3_alg».proof.Proof.RefRead
import proofs.«420895_j26731876451141_3_alg».proof.Proof.Spec
import Idealize.ShloMosaic.Lib.ValueLayout

noncomputable section

namespace Cert.ReferenceIdeal.RefHead

open Cert.ReferenceIdeal Cert.ReferenceIdeal.Read Idealize.ShloMosaic Idealize.ShloMosaic.ValueIdx

theorem at199 (g : Fin 512) (d : Fin 128) : idx_main_v199 (ix2 g d) = ix2 g (0 : Fin 1) :=
  funext fun a => Fin.ext (by match a with | ⟨0, _⟩ => rfl | ⟨1, _⟩ => rfl)

theorem lat201 (g : Fin 512) (k k' : Fin 128) : lidx_main_v201 (ix2 g k) k' = ix2 g k' :=
  funext fun a => Fin.ext (by match a with | ⟨0, _⟩ => rfl | ⟨1, _⟩ => rfl)

theorem rat201 (g : Fin 512) (k k' : Fin 128) : ridx_main_v201 (ix2 g k) k' = ix2 k' k :=
  funext fun a => Fin.ext (by match a with | ⟨0, _⟩ => rfl | ⟨1, _⟩ => rfl)

theorem at203 (g : Fin 512) (k : Fin 128) : idx_main_v202 (idx_main_v203 (ix2 g k)) = ix1 k :=
  funext fun a => Fin.ext (by match a with | ⟨0, _⟩ => rfl)

theorem lat206 (g : Fin 512) (k : Fin 128) : lidx_main_v206 (ix2 g (0 : Fin 1)) k = ix2 g k :=
  funext fun a => Fin.ext (by match a with | ⟨0, _⟩ => rfl | ⟨1, _⟩ => rfl)

theorem rat206 (g : Fin 512) (k : Fin 128) : ridx_main_v206 (ix2 g (0 : Fin 1)) k = ix2 k (0 : Fin 1) :=
  funext fun a => Fin.ext (by match a with | ⟨0, _⟩ => rfl | ⟨1, _⟩ => rfl)

theorem at208 (g : Fin 512) : idx_main_v207 (idx_main_v208 (ix2 g (0 : Fin 1))) = ix1 (0 : Fin 1) :=
  funext fun a => Fin.ext (by match a with | ⟨0, _⟩ => rfl)

variable (x0 : (⟨S100000x128, .f32⟩ : BufTy).Contents (Elt Ideal)) (x1 : (⟨S2x800000, .i32⟩ : BufTy).Contents (Elt Ideal))
  (x2 : (⟨S100000, .i32⟩ : BufTy).Contents (Elt Ideal)) (x3 : (⟨S3x128x128, .f32⟩ : BufTy).Contents (Elt Ideal))
  (x4 x5 x6 : (⟨S3x128, .f32⟩ : BufTy).Contents (Elt Ideal)) (x7 : (⟨S128x128, .f32⟩ : BufTy).Contents (Elt Ideal))
  (x8 : (⟨S128, .f32⟩ : BufTy).Contents (Elt Ideal)) (x9 : (⟨S128x1, .f32⟩ : BufTy).Contents (Elt Ideal))
  (x10 : (⟨S1, .f32⟩ : BufTy).Contents (Elt Ideal))

theorem v200_eq : val_main_v200 (F := Ideal) x0 x1 x2 x3 x4 x5 x6
    = Spec.zp (val_main_v191 (F := Ideal) x0 x1 x2 x3 x4 x5 x6) (val_main_v198 (F := Ideal) x2) := by
  funext i
  obtain ⟨g, d, rfl⟩ : ∃ (g : Fin 512) (d : Fin 128), i = ix2 g d := ⟨i 0, i 1, eq_ix2 i⟩
  rw [val_main_v200_apply, val_main_v199_apply, at199, Ideal.hostDivf_def]
  rfl

theorem v205_at (g : Fin 512) (k : Fin 128) : val_main_v205 (F := Ideal) x0 x1 x2 x3 x4 x5 x6 x7 x8 (ix2 g k)
    = Spec.hidE (val_main_v200 (F := Ideal) x0 x1 x2 x3 x4 x5 x6) x7 (Spec.rowv x8) g k := by
  rw [val_main_v205_apply, val_main_v204_apply, val_main_v201_apply, val_main_v203_apply, val_main_v202_apply,
    val_main_call3_v0_apply, val_main_call3_cst_apply, at203]
  simp only [lat201, rat201, Ideal.maximumf_def, Ideal.addf_def, Ideal.ofBits_def]
  rfl

theorem v209_eq : val_main_v209 (F := Ideal) x0 x1 x2 x3 x4 x5 x6 x7 x8 x9 x10
    = Spec.head (val_main_v200 (F := Ideal) x0 x1 x2 x3 x4 x5 x6) x7 (Spec.rowv x8) x9 (Spec.one1 x10) := by
  funext i
  obtain ⟨g, o, rfl⟩ : ∃ (g : Fin 512) (o : Fin 1), i = ix2 g o := ⟨i 0, i 1, eq_ix2 i⟩
  obtain rfl : o = 0 := Subsingleton.elim _ _
  rw [val_main_v209_apply, val_main_v206_apply, val_main_v208_apply, val_main_v207_apply, at208, Ideal.addf_def]
  simp only [lat206, rat206, v205_at]
  rfl

end Cert.ReferenceIdeal.RefHead

end
-- ==== Proof.KAgg.lean ====
/-
  The edge aggregate: every edge adds its weighted source row into its target row.
-/
import proofs.«420895_j26731876451141_3_alg».proof.Proof.Gen.KernelIdeal

noncomputable section

namespace Cert.KernelIdeal.KAgg

open Cert.KernelIdeal Cert.KernelIdeal.Gen Idealize.ShloMosaic

variable {F : FTy → Type} [FloatOps F]

def agg (dst : Vec F S800000 .i32) (en : Vec F S800000x1 .f32) (hlin : Vec F S100000x128 .f32)
    (src : Vec F S800000 .i32) : Vec F S100000x128 .f32 :=
  Host.scatterAdd (F := F) scatter_S100000x128_S800000x1_S800000x128_1_0_0_1
    (broadcastInDim S100000x128 ![] bcast_S_S100000x128 (constant (F := F) S_ .f32 0x00000000#32))
    (broadcastInDim S800000x1 ![0] bcast_S800000_S800000x1_0 dst)
    (mulf (broadcastInDim S800000x128 ![0, 1] bcast_S800000x1_S800000x128_0_1 en)
      (Host.gather gather_S100000x128_S800000x1_S800000x128_1_0_n_n_0_1_1128 hlin
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 100000#32))) src))))

end Cert.KernelIdeal.KAgg

end
-- ==== Proof.KHostStat.lean ====
/-
  The halves' partial sums added and divided by 100000 are the mean; likewise the variance, then rsqrt(var + eps).
-/
import proofs.«420895_j26731876451141_3_alg».proof.KernelIdeal
import proofs.«420895_j26731876451141_3_alg».proof.Proof.Gen.KernelIdeal
import proofs.«420895_j26731876451141_3_alg».proof.Proof.Spec
import proofs.«420895_j26731876451141_3_alg».proof.Proof.Algebra
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KHostStat

open Cert.KernelIdeal Idealize.ShloMosaic Idealize.ShloMosaic.ValueIdx
open Cert.KernelIdeal.Facts₀ Cert.KernelIdeal.Facts

theorem reduce_psumA (h : Spec.A2 100000 128) (d : Fin 128) :
    Host.reduceAdd (F := Ideal) (Spec.psumA h) (constant (F := Ideal) S_ .f32 0x00000000#32) reducesTo_S2x1x128_S1x128_d0 h_S_ (ix2 (0 : Fin 1) d)
      = Spec.colsum h d := by
  have hR : S2x1x128.Reduces [0] S1x128 := by decide
  have e : ∀ k : Fin 2, Spec.psumA h (hR.lift (ix2 (0 : Fin 1) d) k) = Spec.psum h k d := fun k =>
    congrArg₂ (Spec.psum h) (Fin.ext rfl) (Fin.ext rfl)
  show Ideal.hostReduceAdd reducesTo_S2x1x128_S1x128_d0 (Spec.psumA h) (Ideal.ofBits .f32 0x00000000#32) (ix2 (0 : Fin 1) d) = _
  rw [Ideal.hostReduceAdd_single _ hR, Ideal.ofBits_zero_f32, zero_add, Spec.colsum_split]
  show ∑ k : Fin 2, Spec.psumA h (hR.lift (ix2 (0 : Fin 1) d) k) = _
  rw [Fin.sum_univ_two, e 0, e 1]

theorem bcast_const (b : BitVec 32) (j : S1x128.Idx) :
    broadcastInDim S1x128 ![] bcast_S_S1x128 (constant (F := Ideal) S_ .f32 b) j = Ideal.ofBits .f32 b := rfl

theorem mean_eq (h : Spec.A2 100000 128) :
    Host.divf (F := Ideal) (Host.reduceAdd (F := Ideal) (Spec.psumA h) (constant (F := Ideal) S_ .f32 0x00000000#32) reducesTo_S2x1x128_S1x128_d0 h_S_)
      (broadcastInDim S1x128 ![] bcast_S_S1x128 (constant (F := Ideal) S_ .f32 0x47C35000#32)) = Spec.mean h := by
  funext j
  obtain ⟨a, d, rfl⟩ : ∃ (a : Fin 1) (d : Fin 128), j = ix2 a d := ⟨j 0, j 1, eq_ix2 j⟩
  obtain rfl : a = 0 := Subsingleton.elim _ _
  show Ideal.div (Host.reduceAdd (F := Ideal) (Spec.psumA h) (constant (F := Ideal) S_ .f32 0x00000000#32) reducesTo_S2x1x128_S1x128_d0 h_S_ (ix2 (0 : Fin 1) d))
    (broadcastInDim S1x128 ![] bcast_S_S1x128 (constant (F := Ideal) S_ .f32 0x47C35000#32) (ix2 (0 : Fin 1) d)) = _
  rw [reduce_psumA, bcast_const]
  rfl

theorem istd_eq (h : Spec.A2 100000 128) (mu : Spec.A2 1 128) :
    Host.rsqrt (F := Ideal) (addf (Host.divf (F := Ideal) (Host.reduceAdd (F := Ideal) (Spec.psumA (Spec.sq h mu)) (constant (F := Ideal) S_ .f32 0x00000000#32) reducesTo_S2x1x128_S1x128_d0 h_S_)
      (broadcastInDim S1x128 ![] bcast_S_S1x128 (constant (F := Ideal) S_ .f32 0x47C35000#32)))
      (broadcastInDim S1x128 ![] bcast_S_S1x128 (constant (F := Ideal) S_ .f32 0x3727C5AC#32))) = Spec.istd h mu := by
  funext j
  obtain ⟨a, d, rfl⟩ : ∃ (a : Fin 1) (d : Fin 128), j = ix2 a d := ⟨j 0, j 1, eq_ix2 j⟩
  obtain rfl : a = 0 := Subsingleton.elim _ _
  show Ideal.rsqrt (Ideal.div (Host.reduceAdd (F := Ideal) (Spec.psumA (Spec.sq h mu)) (constant (F := Ideal) S_ .f32 0x00000000#32) reducesTo_S2x1x128_S1x128_d0 h_S_ (ix2 (0 : Fin 1) d))
    (broadcastInDim S1x128 ![] bcast_S_S1x128 (constant (F := Ideal) S_ .f32 0x47C35000#32) (ix2 (0 : Fin 1) d))
    + broadcastInDim S1x128 ![] bcast_S_S1x128 (constant (F := Ideal) S_ .f32 0x3727C5AC#32) (ix2 (0 : Fin 1) d)) = _
  rw [reduce_psumA, bcast_const, bcast_const]
  rfl

end Cert.KernelIdeal.KHostStat

end
-- ==== Proof.K7.lean ====
import proofs.«420895_j26731876451141_3_alg».proof.Proof.Gen.KernelIdeal.Frame
import proofs.«420895_j26731876451141_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.K7

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Facts₀ Cert.KernelIdeal.Facts

section Pieces
variable {F : FTy → Type} [FloatOps F]

theorem hzB : (![0, 0] : Fin 2 → Nat) = fun _ => 0 := funext fun a => by fin_cases a <;> rfl
theorem hzC : (![0, 0, 0] : Fin 3 → Nat) = fun _ => 0 := funext fun a => by fin_cases a <;> rfl

/-- Reset case, the features' buffer: its one covering store holds the tile of agg + h_lin * sw + bias. -/
theorem outAFeat_eq (c : Dev nD) (i : grid7.Coords) (ma : Memref sig .tc .vmem S2000x128 .f32) (wa : ma.IsWhole) (mb : Memref sig .tc .vmem S2000x128 .f32) (wb : mb.IsWhole) (mc : Memref sig .tc .vmem S2000x1 .f32) (wc : mc.IsWhole) (md : Memref sig .tc .vmem S1x128 .f32) (wd : md.IsWhole) (me : Memref sig .tc .vmem S2000x128 .f32) (we : me.IsWhole) (mf : Memref sig .tc .vmem S1x1x128 .f32) (wf : mf.IsWhole) (hc : cond7_0 i)
    (xa : Vec F S2000x128 .f32) (xb : Vec F S2000x128 .f32) (xc : Vec F S2000x1 .f32) (xd : Vec F S1x128 .f32) :
    out7_A_4 c i ma wa mb wb mc wc md wd me we mf wf hc xa xb xc xd = k7_pay2 xa xb xc xd := by
  unfold out7_A_4
  rw [View.read_writes_eq_canon _ _ _ (cover7_A_4 c i ma wa mb wb mc wc md wd me we mf wf hc xa xb xc xd)]
  unfold kernelRun7_A
  dsimp only
  sl_unfold_words
  rw [View.canon_unit_zero hzB]
  simp only [View.readAt_eq_ld, wa.read_unread, wb.read_unread, wc.read_unread, wd.read_unread,
    View.ld_unit_zero (S := S2000x128) hzB, View.ld_unit_zero (S := S2000x1) hzB, View.ld_unit_zero (S := S1x128) hzB]

/-- Accumulating case, the features' buffer: the same store. -/
theorem outBFeat_eq (c : Dev nD) (i : grid7.Coords) (ma : Memref sig .tc .vmem S2000x128 .f32) (wa : ma.IsWhole) (mb : Memref sig .tc .vmem S2000x128 .f32) (wb : mb.IsWhole) (mc : Memref sig .tc .vmem S2000x1 .f32) (wc : mc.IsWhole) (md : Memref sig .tc .vmem S1x128 .f32) (wd : md.IsWhole) (me : Memref sig .tc .vmem S2000x128 .f32) (we : me.IsWhole) (mf : Memref sig .tc .vmem S1x1x128 .f32) (wf : mf.IsWhole) (hc : ¬cond7_0 i)
    (xa : Vec F S2000x128 .f32) (xb : Vec F S2000x128 .f32) (xc : Vec F S2000x1 .f32) (xd : Vec F S1x128 .f32) (xo : Vec F S1x1x128 .f32) :
    out7_B_4 c i ma wa mb wb mc wc md wd me we mf wf hc xa xb xc xd xo = k7_pay2 xa xb xc xd := by
  unfold out7_B_4
  rw [View.read_writes_eq_canon _ _ _ (cover7_B_4 c i ma wa mb wb mc wc md wd me we mf wf hc xa xb xc xd xo)]
  unfold kernelRun7_B
  dsimp only
  sl_unfold_words
  rw [View.canon_unit_zero hzB]
  simp only [View.readAt_eq_ld, wa.read_unread, wb.read_unread, wc.read_unread, wd.read_unread,
    View.ld_unit_zero (S := S2000x128) hzB, View.ld_unit_zero (S := S2000x1) hzB, View.ld_unit_zero (S := S1x128) hzB]

/-- Accumulating case, the carried column sums: what the point before left, plus this tile's column sums. -/
theorem outBSum_eq (c : Dev nD) (i : grid7.Coords) (ma : Memref sig .tc .vmem S2000x128 .f32) (wa : ma.IsWhole) (mb : Memref sig .tc .vmem S2000x128 .f32) (wb : mb.IsWhole) (mc : Memref sig .tc .vmem S2000x1 .f32) (wc : mc.IsWhole) (md : Memref sig .tc .vmem S1x128 .f32) (wd : md.IsWhole) (me : Memref sig .tc .vmem S2000x128 .f32) (we : me.IsWhole) (mf : Memref sig .tc .vmem S1x1x128 .f32) (wf : mf.IsWhole) (hc : ¬cond7_0 i)
    (xa : Vec F S2000x128 .f32) (xb : Vec F S2000x128 .f32) (xc : Vec F S2000x1 .f32) (xd : Vec F S1x128 .f32) (xo : Vec F S1x1x128 .f32) :
    out7_B_5 c i ma wa mb wb mc wc md wd me we mf wf hc xa xb xc xd xo = k7_pay3 xa xb xc xd xo := by
  unfold out7_B_5
  rw [View.read_writes_eq_canon _ _ _ (cover7_B_5 c i ma wa mb wb mc wc md wd me we mf wf hc xa xb xc xd xo)]
  unfold kernelRun7_B
  dsimp only
  sl_unfold_words
  rw [View.canon_unit_zero hzC]
  simp only [View.readAt_eq_ld, wa.read_unread, wb.read_unread, wc.read_unread, wd.read_unread, wf.read_unread,
    View.ld_unit_zero (S := S2000x128) hzB, View.ld_unit_zero (S := S2000x1) hzB, View.ld_unit_zero (S := S1x128) hzB,
    View.ld_unit_zero (S := S1x1x128) hzC]

/-- Reset case, the carried column sums: the zero block, read back, plus this tile's column sums. -/
theorem outASum_eq (c : Dev nD) (i : grid7.Coords) (ma : Memref sig .tc .vmem S2000x128 .f32) (wa : ma.IsWhole) (mb : Memref sig .tc .vmem S2000x128 .f32) (wb : mb.IsWhole) (mc : Memref sig .tc .vmem S2000x1 .f32) (wc : mc.IsWhole) (md : Memref sig .tc .vmem S1x128 .f32) (wd : md.IsWhole) (me : Memref sig .tc .vmem S2000x128 .f32) (we : me.IsWhole) (mf : Memref sig .tc .vmem S1x1x128 .f32) (wf : mf.IsWhole) (hc : cond7_0 i)
    (xa : Vec F S2000x128 .f32) (xb : Vec F S2000x128 .f32) (xc : Vec F S2000x1 .f32) (xd : Vec F S1x128 .f32) :
    out7_A_5 c i ma wa mb wb mc wc md wd me we mf wf hc xa xb xc xd = k7_pay3 xa xb xc xd (k7_pay1 (F := F)) := by
  unfold out7_A_5
  rw [View.read_writes_eq_canon _ _ _ (cover7_A_5 c i ma wa mb wb mc wc md wd me we mf wf hc xa xb xc xd)]
  unfold kernelRun7_A
  dsimp only
  sl_unfold_words
  rw [View.canon_cons_unit_zero (S := S1x1x128) hzC, View.readCov_unit_zero (S := S1x1x128) _ hzC]
  simp only [View.readAt_eq_ld, wa.read_unread, wb.read_unread, wc.read_unread, wd.read_unread,
    View.ld_unit_zero (S := S2000x128) hzB, View.ld_unit_zero (S := S2000x1) hzB, View.ld_unit_zero (S := S1x128) hzB]

end Pieces

/-! ## The payloads at an index, over the extended reals -/

section Payload

/-- A column [a, 1] broadcast along a second axis reads, at (p, q), the column's entry of row p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The features' payload at (r, d): agg + h_lin * sw + bias of the blocks, entry by entry. -/
theorem featPay_apply (xa xb : FVec Ideal S2000x128 .f32) (xc : FVec Ideal S2000x1 .f32) (xd : FVec Ideal S1x128 .f32)
    (r : Fin 2000) (d : Fin 128) :
    k7_pay2 (F := Ideal) xa xb xc xd (ix2 r d) = xa (ix2 r d) + xb (ix2 r d) * xc (ix2 r 0) + xd (ix2 0 d) := by
  unfold k7_pay2
  simp only [shapeCast_self]
  show xa (ix2 r d) + xb (ix2 r d) * broadcastTo S2000x128 xc _ (ix2 r d) + broadcastTo S2000x128 xd _ (ix2 r d) = _
  rw [broadcastTo_col_apply, broadcastTo_1b_ab_apply]

/-- A sum over the rows of a [2000, 128] block, read at column d. -/
theorem colRed_apply (src : FVec Ideal S2000x128 .f32) (h : S2000x128.Reduces [0] S128) (hφ : FKind.Formats .f32)
    (hacc : (0x00000000#32 : BitVec 32) = FKind.add.neutral .f32 hφ) (d : Fin 128) :
    multiReduction .add [0] S128 src 0x00000000#32 h hφ hacc (ix1 d) = ∑ r : Fin 2000, src (ix2 r d) := by
  refine (Ideal.multiReduction_add_single src 0x00000000#32 h hφ hacc (ix1 d)).trans ?_
  refine Finset.sum_congr rfl fun k _ => congrArg src ?_
  funext a
  match a with
  | ⟨0, _⟩ => rfl
  | ⟨1, _⟩ => rfl

/-- The carried payload at lane d: what was carried, plus the block's column sum. -/
theorem sumPay_apply (xa xb : FVec Ideal S2000x128 .f32) (xc : FVec Ideal S2000x1 .f32) (xd : FVec Ideal S1x128 .f32)
    (xo : FVec Ideal S1x1x128 .f32) (u v : Fin 1) (d : Fin 128) :
    k7_pay3 (F := Ideal) xa xb xc xd xo (ix3 u v d)
      = xo (ix3 u v d) + ∑ r : Fin 2000, k7_pay2 (F := Ideal) xa xb xc xd (ix2 r d) := by
  unfold k7_pay3
  simp only [shapeCast_self]
  show xo (ix3 u v d) + shapeCast S1x1x128 (shapeCast S1x128 (multiReduction .add [0] S128 (k7_pay2 (F := Ideal) xa xb xc xd) 0x00000000#32 _ _ _) _) _ (ix3 u v d) = _
  rw [shapeCast_ab_1ab_apply, shapeCast_a_1a_apply]
  exact congrArg (xo (ix3 u v d) + ·) (colRed_apply (k7_pay2 (F := Ideal) xa xb xc xd) _ _ _ d)

end Payload
-- the buffer contents when the region is entered: any
variable (V : (c : Dev nD) → (b : Ref sig .tc) → Buf (Elt Ideal) ((c : Thread nD τ).loc b))

/-! ## The blocks, read off the arrays -/

/-- Row r of tile n of the node axis: node 2000 n + r (taken modulo the axis' length so that it is total; a tile of
    the grid never wraps). -/
def tileRow (n : Nat) (r : Fin 2000) : Fin 100000 := ⟨(n * 2000 + r.val) % 100000, Nat.mod_lt _ (by decide)⟩

/-- The index maps over the grid: the three tiled operands and the features sit at block (t, 0), the bias at (0, 0),
    the carried column sums at (t / 25, 0, 0). -/
theorem idxFacts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 3) = t.val / 25 ∧ win7_5.index t (1 : Fin 3) = 0 ∧ win7_5.index t (2 : Fin 3) = 0 :=
  (by decide +kernel : ∀ t : Fin grid7.N, _)

/-- The input blocks at a point and the arrays they are read off, at their literal types. -/
abbrev aggBlk (c : Dev nD) (t : Fin cfg7.N) : FVec Ideal S2000x128 .f32 := iblk7 V c 0 t
abbrev linBlk (c : Dev nD) (t : Fin cfg7.N) : FVec Ideal S2000x128 .f32 := iblk7 V c 1 t
abbrev swBlk (c : Dev nD) (t : Fin cfg7.N) : FVec Ideal S2000x1 .f32 := iblk7 V c 2 t
abbrev biasBlk (c : Dev nD) (t : Fin cfg7.N) : FVec Ideal S1x128 .f32 := iblk7 V c 3 t
abbrev aggArr (c : Dev nD) : Spec.A2 100000 128 := V c main_call0_v115
abbrev linArr (c : Dev nD) : Spec.A2 100000 128 := V c main_call0_v103
abbrev swArr (c : Dev nD) : Spec.A2 100000 1 := V c main_call0_v29
abbrev biasArr (c : Dev nD) : Spec.A2 1 128 := V c main_call0_v118

/-- Entry (r, d) of tile t of the aggregate is the array's entry at row 2000 t + r. -/
theorem aggBlk_apply (c : Dev nD) (t : Fin cfg7.N) (r : Fin 2000) (d : Fin 128) :
    aggBlk V c t (ix2 r d) = aggArr V c (ix2 (tileRow t.val r) d) := by
  obtain ⟨ea, eb, -⟩ := idxFacts t
  have hN : t.val < 50 := lt_of_lt_of_eq t.isLt (show cfg7.N = 50 from N_7)
  show V c main_call0_v115 (((cfg7.win 0).blk t).view.emb (ix2 r d)) = V c main_call0_v115 (ix2 (tileRow t.val r) d)
  refine congrArg _ ?_
  funext a; apply Fin.ext
  match a with
  | ⟨0, _⟩ => show win7_0.index t (0 : Fin 2) * 2000 + 1 * r.val = (t.val * 2000 + r.val) % 100000; rw [ea]; omega
  | ⟨1, _⟩ => show win7_0.index t (1 : Fin 2) * 128 + 1 * d.val = d.val; rw [eb]; omega

/-- Entry (r, d) of tile t of h_lin is the array's entry at row 2000 t + r. -/
theorem linBlk_apply (c : Dev nD) (t : Fin cfg7.N) (r : Fin 2000) (d : Fin 128) :
    linBlk V c t (ix2 r d) = linArr V c (ix2 (tileRow t.val r) d) := by
  obtain ⟨-, -, ea, eb, -⟩ := idxFacts t
  have hN : t.val < 50 := lt_of_lt_of_eq t.isLt (show cfg7.N = 50 from N_7)
  show V c main_call0_v103 (((cfg7.win 1).blk t).view.emb (ix2 r d)) = V c main_call0_v103 (ix2 (tileRow t.val r) d)
  refine congrArg _ ?_
  funext a; apply Fin.ext
  match a with
  | ⟨0, _⟩ => show win7_1.index t (0 : Fin 2) * 2000 + 1 * r.val = (t.val * 2000 + r.val) % 100000; rw [ea]; omega
  | ⟨1, _⟩ => show win7_1.index t (1 : Fin 2) * 128 + 1 * d.val = d.val; rw [eb]; omega

/-- Entry r of tile t of the column sw is the array's entry at row 2000 t + r. -/
theorem swBlk_apply (c : Dev nD) (t : Fin cfg7.N) (r : Fin 2000) :
    swBlk V c t (ix2 r 0) = swArr V c (ix2 (tileRow t.val r) 0) := by
  obtain ⟨-, -, -, -, ea, eb, -⟩ := idxFacts t
  have hN : t.val < 50 := lt_of_lt_of_eq t.isLt (show cfg7.N = 50 from N_7)
  show V c main_call0_v29 (((cfg7.win 2).blk t).view.emb (ix2 r 0)) = V c main_call0_v29 (ix2 (tileRow t.val r) 0)
  refine congrArg _ ?_
  funext a; apply Fin.ext
  match a with
  | ⟨0, _⟩ => show win7_2.index t (0 : Fin 2) * 2000 + 1 * r.val = (t.val * 2000 + r.val) % 100000; rw [ea]; omega
  | ⟨1, _⟩ => show win7_2.index t (1 : Fin 2) * 1 + 1 * 0 = 0; rw [eb]

/-- The bias block is the bias row at every point. -/
theorem biasBlk_apply (c : Dev nD) (t : Fin cfg7.N) (d : Fin 128) :
    biasBlk V c t (ix2 0 d) = biasArr V c (ix2 0 d) := by
  obtain ⟨-, -, -, -, -, -, ea, eb, -⟩ := idxFacts t
  show V c main_call0_v118 (((cfg7.win 3).blk t).view.emb (ix2 0 d)) = V c main_call0_v118 (ix2 0 d)
  refine congrArg _ ?_
  funext a; apply Fin.ext
  match a with
  | ⟨0, _⟩ => show win7_3.index t (0 : Fin 2) * 1 + 1 * 0 = 0; rw [ea]
  | ⟨1, _⟩ => show win7_3.index t (1 : Fin 2) * 128 + 1 * d.val = d.val; rw [eb]; omega

/-- The features of the whole arrays (the specification's), named. -/
abbrev feat (c : Dev nD) : Spec.A2 100000 128 := Spec.hb (aggArr V c) (linArr V c) (swArr V c) (biasArr V c)

/-- The features' payload of tile t's blocks at (r, d) is the features at row 2000 t + r. -/
theorem featTile_apply (c : Dev nD) (t : Fin cfg7.N) (r : Fin 2000) (d : Fin 128) :
    k7_pay2 (F := Ideal) (aggBlk V c t) (linBlk V c t) (swBlk V c t) (biasBlk V c t) (ix2 r d)
      = feat V c (ix2 (tileRow t.val r) d) := by
  rw [featPay_apply, aggBlk_apply, linBlk_apply, swBlk_apply, biasBlk_apply]
  rfl

/-- The column sums of tile n of the features. -/
def tileSum (c : Dev nD) (n : Nat) (d : Fin 128) : EReal := ∑ r : Fin 2000, feat V c (ix2 (tileRow n r) d)

/-! ## What the outputs hold after each point -/

/-- After every point the features' buffer holds the features' payload of that point's blocks. -/
theorem featAt_eq (c : Dev nD) (t : Fin cfg7.N) :
    (outsAt7 V c t.val t.isLt).1 = k7_pay2 (F := Ideal) (aggBlk V c t) (linBlk V c t) (swBlk V c t) (biasBlk V c t) := by
  by_cases hm : t.val % 25 = 0
  · rw [outsAt7_A V c t hm]
    dsimp only
    exact outAFeat_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr hm) (iblk7 V c 0 t) (iblk7 V c 1 t) (iblk7 V c 2 t) (iblk7 V c 3 t)
  · rw [outsAt7_B V c t hm]
    dsimp only
    exact outBFeat_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (fun h => hm ((hcond7_0 t).mp h)) (iblk7 V c 0 t) (iblk7 V c 1 t) (iblk7 V c 2 t) (iblk7 V c 3 t) (outsAt7 V c (t.val - 1) (Nat.lt_of_le_of_lt (Nat.sub_le _ _) t.isLt)).2

/-- At the first tile of a half the carried block is that tile's column sums (the zero block read back, plus them). -/
theorem sumsAt_A (c : Dev nD) (t : Fin cfg7.N) (hm : t.val % 25 = 0) (u v : Fin 1) (d : Fin 128) :
    (outsAt7 V c t.val t.isLt).2 (ix3 u v d) = tileSum V c t.val d := by
  rw [outsAt7_A V c t hm]
  dsimp only
  refine (congrFun (outASum_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr hm) (iblk7 V c 0 t) (iblk7 V c 1 t) (iblk7 V c 2 t) (iblk7 V c 3 t)) (ix3 u v d)).trans ?_
  refine (sumPay_apply (aggBlk V c t) (linBlk V c t) (swBlk V c t) (biasBlk V c t) (k7_pay1 (F := Ideal)) u v d).trans ?_
  have hz : k7_pay1 (F := Ideal) (ix3 u v d) = 0 := Ideal.ofBits_zero_f32
  rw [hz, zero_add]
  exact Finset.sum_congr rfl fun r _ => featTile_apply V c t r d

/-- At a later tile the carried block is what the point before left plus this tile's column sums. -/
theorem sumsAt_B (c : Dev nD) (t : Fin cfg7.N) (hm : ¬t.val % 25 = 0) (u v : Fin 1) (d : Fin 128) :
    (outsAt7 V c t.val t.isLt).2 (ix3 u v d)
      = (outsAt7 V c (t.val - 1) (Nat.lt_of_le_of_lt (Nat.sub_le _ _) t.isLt)).2 (ix3 u v d) + tileSum V c t.val d := by
  rw [outsAt7_B V c t hm]
  dsimp only
  refine (congrFun (outBSum_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (fun h => hm ((hcond7_0 t).mp h)) (iblk7 V c 0 t) (iblk7 V c 1 t) (iblk7 V c 2 t) (iblk7 V c 3 t) (outsAt7 V c (t.val - 1) (Nat.lt_of_le_of_lt (Nat.sub_le _ _) t.isLt)).2) (ix3 u v d)).trans ?_
  refine (sumPay_apply (aggBlk V c t) (linBlk V c t) (swBlk V c t) (biasBlk V c t) (outsAt7 V c (t.val - 1) (Nat.lt_of_le_of_lt (Nat.sub_le _ _) t.isLt)).2 u v d).trans ?_
  exact congrArg (_ + ·) (Finset.sum_congr rfl fun r _ => featTile_apply V c t r d)

/-- So after point n the carried block is the sum of the column sums of the tiles of n's half up to n: the fold
    ((0 + S) + S') + ... in point order is the finite sum over the extended reals. -/
theorem sumsAt_eq (c : Dev nD) : ∀ (n : Nat) (h : n < cfg7.N) (u v : Fin 1) (d : Fin 128),
    (outsAt7 V c n h).2 (ix3 u v d) = ∑ s ∈ Finset.range (n % 25 + 1), tileSum V c (n - n % 25 + s) d
  | 0, h, u, v, d => by
    rw [sumsAt_A V c ⟨0, h⟩ rfl u v d]
    simp
  | n + 1, h, u, v, d => by
    by_cases hm : (n + 1) % 25 = 0
    · rw [sumsAt_A V c ⟨n + 1, h⟩ hm u v d]
      dsimp only
      rw [hm]
      simp
    · rw [sumsAt_B V c ⟨n + 1, h⟩ hm u v d]
      show (outsAt7 V c n _).2 (ix3 u v d) + tileSum V c (n + 1) d = _
      rw [sumsAt_eq c n _ u v d]
      have ea : (n + 1) % 25 = n % 25 + 1 := by omega
      have eb : n + 1 - (n % 25 + 1) = n - n % 25 := by omega
      have ec : n - n % 25 + (n % 25 + 1) = n + 1 := by omega
      rw [ea, eb, Finset.sum_range_succ _ (n % 25 + 1), ec]

/-! ## The write-backs and the arrays after the region -/

/-- What point t writes back to the features' array is block t of the features of the whole arrays. -/
theorem flushedFeat_eq (c : Dev nD) (t : Fin cfg7.N) :
    (dat7 (F := Ideal) V c).flushed 4 t = ((cfg7.win 4).blk t).view.read (Elt Ideal) (feat V c) := by
  obtain ⟨-, -, -, -, -, -, -, -, ea, eb, -⟩ := idxFacts t
  have hN : t.val < 50 := lt_of_lt_of_eq t.isLt (show cfg7.N = 50 from N_7)
  show (cfg7.win 4).cut (grid7.coords t) ((dat7 (F := Ideal) V c).after 4 t) = _
  rw [after7_4, featAt_eq]
  have key : ∀ y : S2000x128.Idx,
      k7_pay2 (F := Ideal) (aggBlk V c t) (linBlk V c t) (swBlk V c t) (biasBlk V c t) y
        = feat V c (((cfg7.win 4).blk t).view.emb y) := fun y => by
    obtain ⟨r, d, rfl⟩ : ∃ (r : Fin 2000) (d : Fin 128), y = ix2 r d := ⟨y 0, y 1, eq_ix2 y⟩
    rw [featTile_apply]
    refine congrArg (feat V c) ?_
    funext a; apply Fin.ext
    match a with
    | ⟨0, _⟩ => show (t.val * 2000 + r.val) % 100000 = win7_4.index t (0 : Fin 2) * 2000 + 1 * r.val; rw [ea]; omega
    | ⟨1, _⟩ => show d.val = win7_4.index t (1 : Fin 2) * 128 + 1 * d.val; rw [eb]; omega
  funext j
  exact key j

/-- An index of the features' array is in point t's block iff each coordinate is in the block's range on its axis. -/
theorem mem_featBlk (t : Fin cfg7.N) (i : S100000x128.Idx) :
    i ∈ ((cfg7.win 4).blk t).view.set ↔ ∀ a : Fin 2, win7_4.index t a * S2000x128.size a ≤ (i a).val
      ∧ (i a).val < win7_4.index t a * S2000x128.size a + S2000x128.size a := by
  show i ∈ ((View.whole main_call0_v125_0).slice (win7_4.rect t)).set ↔ _
  rw [View.set_slice_whole, Rect.mem_set_unit]
  exact Iff.rfl

/-- Region 7, the features: every point writes its tile of agg + h_lin * sw + bias whole. -/
theorem arr7_hb (c : Dev nD) : (dat7 (F := Ideal) V c).arrAt 4 cfg7.N
    = Spec.hb (V c main_call0_v115) (V c main_call0_v103) (V c main_call0_v29) (V c main_call0_v118) :=
  (dat7 (F := Ideal) V c).arrAt_eq_of_cover 4 (feat V c) (fun t _ => flushedFeat_eq V c t) fun i => by
    have hi : ∀ j : S100000x128.Idx, ∃ t : Fin cfg7.N, (cfg7.win 4).flush t = true ∧ j ∈ ((cfg7.win 4).blk t).view.set := fun j => by
      have ha : (j 0).val < 100000 := (j 0).isLt
      have hb : (j 1).val < 128 := (j 1).isLt
      have hlt : (j 0).val / 2000 < cfg7.N := by rw [show cfg7.N = 50 from N_7]; omega
      obtain ⟨-, -, -, -, -, -, -, -, ea, eb, -⟩ := idxFacts ⟨(j 0).val / 2000, hlt⟩
      refine ⟨⟨(j 0).val / 2000, hlt⟩, flush7_4 _, ?_⟩
      rw [mem_featBlk]
      intro a
      match a with
      | ⟨0, _⟩ =>
        show win7_4.index ⟨(j 0).val / 2000, hlt⟩ (0 : Fin 2) * 2000 ≤ (j 0).val
          ∧ (j 0).val < win7_4.index ⟨(j 0).val / 2000, hlt⟩ (0 : Fin 2) * 2000 + 2000
        rw [ea]; dsimp only; omega
      | ⟨1, _⟩ =>
        show win7_4.index ⟨(j 0).val / 2000, hlt⟩ (1 : Fin 2) * 128 ≤ (j 1).val
          ∧ (j 1).val < win7_4.index ⟨(j 0).val / 2000, hlt⟩ (1 : Fin 2) * 128 + 128
        rw [eb]; omega
    exact hi i

/-- What the last point of a half writes back to the column sums' array is that half's block of the specification's
    partial sums: the carried block after 25 tiles is the sum of their column sums. -/
theorem flushedSum_eq (c : Dev nD) (t : Fin cfg7.N) (hf : (cfg7.win 5).flush t = true) :
    (dat7 (F := Ideal) V c).flushed 5 t = ((cfg7.win 5).blk t).view.read (Elt Ideal) (Spec.psumA (feat V c)) := by
  have hlast : t.val % 25 = 24 := (flush7_5 t).mp hf
  have hN : t.val < 50 := lt_of_lt_of_eq t.isLt (show cfg7.N = 50 from N_7)
  obtain ⟨-, -, -, -, -, -, -, -, -, -, ea, eb, ec⟩ := idxFacts t
  show (cfg7.win 5).cut (grid7.coords t) ((dat7 (F := Ideal) V c).after 5 t) = _
  rw [after7_5]
  have key : ∀ y : S1x1x128.Idx,
      (outsAt7 V c t.val t.isLt).2 y = Spec.psumA (feat V c) (((cfg7.win 5).blk t).view.emb y) := fun y => by
    obtain ⟨u, v, d, rfl⟩ : ∃ (u v : Fin 1) (d : Fin 128), y = ix3 u v d := ⟨y 0, y 1, y 2, eq_ix3 y⟩
    have he : ((cfg7.win 5).blk t).view.emb (ix3 u v d)
        = (ix3 (⟨t.val / 25, by omega⟩ : Fin 2) (0 : Fin 1) d : S2x1x128.Idx) := by
      funext a; apply Fin.ext
      match a with
      | ⟨0, _⟩ => show win7_5.index t (0 : Fin 3) * 1 + 1 * u.val = t.val / 25; rw [ea]; omega
      | ⟨1, _⟩ => show win7_5.index t (1 : Fin 3) * 1 + 1 * v.val = 0; rw [eb]; omega
      | ⟨2, _⟩ => show win7_5.index t (2 : Fin 3) * 128 + 1 * d.val = d.val; rw [ec]; omega
    rw [he, sumsAt_eq V c t.val t.isLt u v d, hlast]
    show ∑ s ∈ Finset.range 25, tileSum V c (t.val - 24 + s) d
      = ∑ i : Fin 25, ∑ r : Fin 2000, feat V c (ix2 (Spec.rowOf (⟨t.val / 25, by omega⟩ : Fin 2) i r) d)
    rw [Finset.sum_range]
    refine Finset.sum_congr rfl fun i _ => Finset.sum_congr rfl fun r _ => congrArg (fun n => feat V c (ix2 n d)) ?_
    apply Fin.ext
    have hi : i.val < 25 := i.isLt
    have hr : r.val < 2000 := r.isLt
    show ((t.val - 24 + i.val) * 2000 + r.val) % 100000 = (25 * (t.val / 25) + i.val) * 2000 + r.val
    omega
  funext j
  exact key j

/-- An index of the column sums' array is in point t's block iff each coordinate is in the block's range on its axis. -/
theorem mem_sumBlk (t : Fin cfg7.N) (i : S2x1x128.Idx) :
    i ∈ ((cfg7.win 5).blk t).view.set ↔ ∀ a : Fin 3, win7_5.index t a * S1x1x128.size a ≤ (i a).val
      ∧ (i a).val < win7_5.index t a * S1x1x128.size a + S1x1x128.size a := by
  show i ∈ ((View.whole main_call0_v125_1).slice (win7_5.rect t)).set ↔ _
  rw [View.set_slice_whole, Rect.mem_set_unit]
  exact Iff.rfl

/-- Region 7, the column sums: half c's block is reset at its first tile, takes each tile's column sums in turn and is
    written back after its 25th tile: the half's partial sum. -/
theorem arr7_ps (c : Dev nD) : (dat7 (F := Ideal) V c).arrAt 5 cfg7.N
    = Spec.psumA (Spec.hb (V c main_call0_v115) (V c main_call0_v103) (V c main_call0_v29) (V c main_call0_v118)) :=
  (dat7 (F := Ideal) V c).arrAt_eq_of_cover 5 (Spec.psumA (feat V c)) (flushedSum_eq V c) fun i => by
    have hi : ∀ j : S2x1x128.Idx, ∃ t : Fin cfg7.N, (cfg7.win 5).flush t = true ∧ j ∈ ((cfg7.win 5).blk t).view.set := fun j => by
      have ha : (j 0).val < 2 := (j 0).isLt
      have hb : (j 1).val < 1 := (j 1).isLt
      have hc : (j 2).val < 128 := (j 2).isLt
      have hlt : 25 * (j 0).val + 24 < cfg7.N := by rw [show cfg7.N = 50 from N_7]; omega
      obtain ⟨-, -, -, -, -, -, -, -, -, -, ea, eb, ec⟩ := idxFacts ⟨25 * (j 0).val + 24, hlt⟩
      refine ⟨⟨25 * (j 0).val + 24, hlt⟩, (flush7_5 _).mpr (by dsimp only; omega), ?_⟩
      rw [mem_sumBlk]
      intro a
      match a with
      | ⟨0, _⟩ =>
        show win7_5.index ⟨25 * (j 0).val + 24, hlt⟩ (0 : Fin 3) * 1 ≤ (j 0).val
          ∧ (j 0).val < win7_5.index ⟨25 * (j 0).val + 24, hlt⟩ (0 : Fin 3) * 1 + 1
        rw [ea]; dsimp only; omega
      | ⟨1, _⟩ =>
        show win7_5.index ⟨25 * (j 0).val + 24, hlt⟩ (1 : Fin 3) * 1 ≤ (j 1).val
          ∧ (j 1).val < win7_5.index ⟨25 * (j 0).val + 24, hlt⟩ (1 : Fin 3) * 1 + 1
        rw [eb]; omega
      | ⟨2, _⟩ =>
        show win7_5.index ⟨25 * (j 0).val + 24, hlt⟩ (2 : Fin 3) * 128 ≤ (j 2).val
          ∧ (j 2).val < win7_5.index ⟨25 * (j 0).val + 24, hlt⟩ (2 : Fin 3) * 128 + 128
        rw [ec]; omega
    exact hi i

end Cert.KernelIdeal.K7

end
-- ==== Proof.K8.lean ====
import proofs.«420895_j26731876451141_3_alg».proof.Proof.Gen.KernelIdeal.Frame
import proofs.«420895_j26731876451141_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.K8

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Facts₀ Cert.KernelIdeal.Facts

-- the buffer contents when the region is entered: any
variable (V : (c : Dev nD) → (b : Ref sig .tc) → Buf (Elt Ideal) ((c : Thread nD τ).loc b))

/-!
# Region 8: each half's partial column sums of the squared deviations from the mean

The grid has 2 × 25 points. Point `t = 25 q + i` reads tile `t` of the features (rows `2000 t … 2000 t + 1999`) and
the one mean row, and carries a `[1, 1, 128]` block from point to point: at the first point of a half (`i = 0`) the
block is set to zero; every point adds to it, at column `d`, the sum over its 2000 rows of `(h[n, d] - mean[d])²`; the
last point of the half (`i = 24`) writes it back as row `q` of the `[2, 1, 128]` result. Over the extended reals the
additions in point order are the finite sum over the half's tiles and rows, which is `Spec.psum` of `Spec.sq`.
-/

/-! ## What one point leaves in the carried block -/

theorem hzPair : (![0, 0] : Fin 2 → Nat) = fun _ => 0 := funext fun a => by fin_cases a <;> rfl
theorem hzTriple : (![0, 0, 0] : Fin 3 → Nat) = fun _ => 0 := funext fun a => by fin_cases a <;> rfl

/-- An accumulating point: over a carried block `acc`, a tile `x` and the mean row `mu`, the point's one store
    leaves the update of `acc` by the tile's column sums of squared deviations. -/
theorem out_B (c : Dev nD) (i : grid8.Coords) (a0 : Memref sig .tc .vmem S2000x128 .f32) (h0 : a0.IsWhole)
    (a1 : Memref sig .tc .vmem S1x128 .f32) (h1 : a1.IsWhole) (a3 : Memref sig .tc .vmem S1x1x128 .f32) (h3 : a3.IsWhole)
    (hc : ¬cond8_0 i) (x : Vec Ideal S2000x128 .f32) (mu : Vec Ideal S1x128 .f32) (acc : Vec Ideal S1x1x128 .f32) :
    out8_B_2 (F := Ideal) c i a0 h0 a1 h1 a3 h3 hc x mu acc = k8_pay2 x mu acc := by
  unfold out8_B_2
  rw [View.read_writes_eq_canon _ _ _ (cover8_B_2 c i a0 h0 a1 h1 a3 h3 hc x mu acc)]
  unfold kernelRun8_B
  dsimp only
  sl_unfold_words
  rw [View.canon_unit_zero hzTriple]
  simp only [View.readAt_eq_ld, h0.read_unread, h1.read_unread, h3.read_unread,
    View.ld_unit_zero (S := S2000x128) hzPair, View.ld_unit_zero (S := S1x128) hzPair,
    View.ld_unit_zero (S := S1x1x128) hzTriple]

/-- A resetting point: the block is first set to the zero block, read back, and updated as above. -/
theorem out_A (c : Dev nD) (i : grid8.Coords) (a0 : Memref sig .tc .vmem S2000x128 .f32) (h0 : a0.IsWhole)
    (a1 : Memref sig .tc .vmem S1x128 .f32) (h1 : a1.IsWhole) (a3 : Memref sig .tc .vmem S1x1x128 .f32) (h3 : a3.IsWhole)
    (hc : cond8_0 i) (x : Vec Ideal S2000x128 .f32) (mu : Vec Ideal S1x128 .f32) :
    out8_A_2 (F := Ideal) c i a0 h0 a1 h1 a3 h3 hc x mu = k8_pay2 x mu (k8_pay1 (F := Ideal)) := by
  unfold out8_A_2
  rw [View.read_writes_eq_canon _ _ _ (cover8_A_2 c i a0 h0 a1 h1 a3 h3 hc x mu)]
  unfold kernelRun8_A
  dsimp only
  sl_unfold_words
  rw [View.canon_cons_unit_zero (S := S1x1x128) hzTriple, View.readCov_unit_zero (S := S1x1x128) _ hzTriple]
  simp only [View.readAt_eq_ld, h0.read_unread, h1.read_unread,
    View.ld_unit_zero (S := S2000x128) hzPair, View.ld_unit_zero (S := S1x128) hzPair]

/-! ## The update at a column -/

/-- A column index of the reduced tile with a row coordinate put back is that row and column. -/
theorem lift_row (h : S2000x128.Reduces [0] S128) (d : Fin 128) (k : Fin 2000) :
    h.lift (ix1 d) k = ix2 k d := by
  funext a
  apply Fin.ext
  show h.liftVal (ix1 d) k.val a = (ix2 k d a).val
  unfold Shape.Reduces.liftVal
  match a with
  | ⟨0, _⟩ => rfl
  | ⟨1, _⟩ => rfl

/-- The add-reduction of a tile over its rows, at column `d`, is the sum over the 2000 rows. -/
theorem colred_apply (src : FVec Ideal S2000x128 .f32) (h : S2000x128.Reduces [0] S128) (hf : FKind.Formats .f32)
    (hacc : (0x00000000#32 : BitVec 32) = 0x00000000#32) (d : Fin 128) :
    multiReduction (F := Ideal) .add [0] S128 src 0x00000000#32 h hf hacc (ix1 d) = ∑ r : Fin 2000, src (ix2 r d) := by
  refine (Ideal.multiReduction_add_single src 0x00000000#32 h hf hacc (ix1 d)).trans ?_
  exact Finset.sum_congr rfl fun r _ => congrArg src (lift_row h d r)

/-- The deviation from the mean at row `r`, column `d` of a tile: the mean's one row is laid along every row. -/
theorem dev_apply (x : Spec.A2 2000 128) (mu : Spec.A2 1 128) (hx : S2000x128.ShapeCasts S2000x128)
    (hm : S1x128.ShapeCasts S1x128) (hb : S1x128.Broadcasts S2000x128) (r : Fin 2000) (d : Fin 128) :
    subf (F := Ideal) (φ := .f32) (shapeCast S2000x128 x hx) (broadcastTo S2000x128 (shapeCast S1x128 mu hm) hb) (ix2 r d)
      = x (ix2 r d) - mu (ix2 (0 : Fin 1) d) := by
  refine (subf_apply _ _ _).trans ?_
  refine congrArg₂ (· - ·) (congrFun (shapeCast_self x _) _) ?_
  refine (broadcastTo_1b_ab_apply _ _ r d).trans ?_
  exact congrFun (shapeCast_self mu _) _

/-- The point's update, at column `d`: the carried entry plus the tile's sum over rows of the squared deviation from the mean. -/
theorem pay_apply (x : Spec.A2 2000 128) (mu : Spec.A2 1 128) (acc : Spec.A3 1 1 128) (d : Fin 128) :
    k8_pay2 (F := Ideal) x mu acc (ix3 (0 : Fin 1) (0 : Fin 1) d)
      = acc (ix3 (0 : Fin 1) (0 : Fin 1) d)
        + ∑ r : Fin 2000, (x (ix2 r d) - mu (ix2 (0 : Fin 1) d)) * (x (ix2 r d) - mu (ix2 (0 : Fin 1) d)) := by
  unfold k8_pay2
  dsimp only
  refine (addf_apply _ _ _).trans ?_
  refine congrArg₂ (· + ·) (congrFun (shapeCast_self acc _) _) ?_
  refine (shapeCast_ab_1ab_apply _ _ (0 : Fin 1) (0 : Fin 1) d).trans ?_
  refine (shapeCast_a_1a_apply _ _ (0 : Fin 1) d).trans ?_
  refine (colred_apply _ _ _ _ d).trans ?_
  refine Finset.sum_congr rfl fun r _ => ?_
  refine (mulf_apply _ _ _).trans ?_
  exact congrArg₂ (· * ·) (dev_apply x mu _ _ _ r d) (dev_apply x mu _ _ _ r d)

/-- The zero block at any index is 0. -/
theorem zero_apply (j : S1x1x128.Idx) : k8_pay1 (F := Ideal) j = 0 := by
  unfold k8_pay1
  exact Ideal.ofBits_zero_f32

/-! ## The blocks the points read, as rows and columns of the whole arrays -/

/-- Tile `t` of the features and the mean row as the points read them; the arrays they are blocks of. -/
abbrev tile (c : Dev nD) (t : Fin cfg8.N) : Spec.A2 2000 128 := iblk8 V c 0 t
abbrev meanRow (c : Dev nD) (t : Fin cfg8.N) : Spec.A2 1 128 := iblk8 V c 1 t
abbrev feat (c : Dev nD) : Spec.A2 100000 128 := V c main_call0_v125_0
abbrev meanArr (c : Dev nD) : Spec.A2 1 128 := V c main_call0_v128

/-- The block indices, decided over the grid: point `t` reads tile `t` and the one mean row, and its output block
    is the half `t / 25`. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 3) = t.val / 25 ∧ win8_2.index t (1 : Fin 3) = 0 ∧ win8_2.index t (2 : Fin 3) = 0 :=
  (by decide +kernel : ∀ t : Fin grid8.N, _)

/-- Row `r` of tile `t` is row `2000 t + r` of the features. -/
theorem tile_apply (c : Dev nD) (t : Fin cfg8.N) (r : Fin 2000) (d : Fin 128) (n : Fin 100000)
    (hn : n.val = t.val * 2000 + r.val) : tile V c t (ix2 r d) = feat V c (ix2 n d) := by
  obtain ⟨ea, eb, -⟩ := idx_facts t
  show V c main_call0_v125_0 (((cfg8.win 0).blk t).view.emb (ix2 r d)) = V c main_call0_v125_0 (ix2 n d)
  refine congrArg _ (funext fun a => Fin.ext ?_)
  match a with
  | ⟨0, _⟩ => show win8_0.index t (0 : Fin 2) * 2000 + 1 * r.val = n.val; omega
  | ⟨1, _⟩ => show win8_0.index t (1 : Fin 2) * 128 + 1 * d.val = d.val; omega

/-- The mean row read at any point is the mean array's one row. -/
theorem meanRow_apply (c : Dev nD) (t : Fin cfg8.N) (d : Fin 128) :
    meanRow V c t (ix2 (0 : Fin 1) d) = meanArr V c (ix2 (0 : Fin 1) d) := by
  obtain ⟨-, -, ea, eb, -⟩ := idx_facts t
  show V c main_call0_v128 (((cfg8.win 1).blk t).view.emb (ix2 (0 : Fin 1) d)) = V c main_call0_v128 (ix2 (0 : Fin 1) d)
  refine congrArg _ (funext fun a => Fin.ext ?_)
  match a with
  | ⟨0, _⟩ => show win8_1.index t (0 : Fin 2) * 1 + 1 * 0 = 0; omega
  | ⟨1, _⟩ => show win8_1.index t (1 : Fin 2) * 128 + 1 * d.val = d.val; omega

/-- Tile `n`'s column sum of the squared deviations, read off the whole arrays (0 past the last tile). -/
def tileSum (c : Dev nD) (n : ℕ) (d : Fin 128) : EReal :=
  if h : n < 50 then
    ∑ r : Fin 2000, Spec.sqE (feat V c) (meanArr V c) ⟨n * 2000 + r.val, by have := r.isLt; omega⟩ d
  else 0

/-- A point's update adds its tile's column sums to the carried block. -/
theorem step_apply (c : Dev nD) (t : Fin cfg8.N) (acc : Spec.A3 1 1 128) (d : Fin 128) :
    k8_pay2 (F := Ideal) (tile V c t) (meanRow V c t) acc (ix3 (0 : Fin 1) (0 : Fin 1) d)
      = acc (ix3 (0 : Fin 1) (0 : Fin 1) d) + tileSum V c t.val d := by
  have hN : t.val < 50 := lt_of_lt_of_eq t.isLt (show cfg8.N = 50 from N_8)
  refine (pay_apply (tile V c t) (meanRow V c t) acc d).trans ?_
  unfold tileSum
  rw [dif_pos hN]
  refine congrArg _ (Finset.sum_congr rfl fun r _ => ?_)
  have e := tile_apply V c t r d ⟨t.val * 2000 + r.val, by have := r.isLt; omega⟩ rfl
  have e' := meanRow_apply V c t d
  unfold Spec.sqE
  rw [e, e']

/-! ## The carried block after each point: the sum of the half's tiles so far -/

/-- At a resetting point the carried block is that point's tile sum alone. -/
theorem at_reset (c : Dev nD) (n : ℕ) (hn : n < cfg8.N) (h0 : n % 25 = 0) (d : Fin 128) :
    (outsAt8 V c n hn : Spec.A3 1 1 128) (ix3 (0 : Fin 1) (0 : Fin 1) d) = tileSum V c n d := by
  refine (congrFun (outsAt8_A V c ⟨n, hn⟩ h0) _).trans ?_
  refine (congrFun (out_A c (grid8.coords ⟨n, hn⟩) (ms8_0 ⟨n, hn⟩) (hs8_0 ⟨n, hn⟩) (ms8_1 ⟨n, hn⟩) (hs8_1 ⟨n, hn⟩)
    (ms8_2 ⟨n, hn⟩) (hs8_2 ⟨n, hn⟩) ((hcond8_0 ⟨n, hn⟩).mpr h0) (iblk8 V c 0 ⟨n, hn⟩) (iblk8 V c 1 ⟨n, hn⟩)) _).trans ?_
  refine (step_apply V c ⟨n, hn⟩ (k8_pay1 (F := Ideal)) d).trans ?_
  rw [zero_apply, zero_add]

/-- At every other point it is what the point before left plus that point's tile sum. -/
theorem at_step (c : Dev nD) (n : ℕ) (hn : n + 1 < cfg8.N) (h0 : ¬(n + 1) % 25 = 0) (d : Fin 128) :
    (outsAt8 V c (n + 1) hn : Spec.A3 1 1 128) (ix3 (0 : Fin 1) (0 : Fin 1) d)
      = (outsAt8 V c n (Nat.lt_of_succ_lt hn) : Spec.A3 1 1 128) (ix3 (0 : Fin 1) (0 : Fin 1) d) + tileSum V c (n + 1) d := by
  refine (congrFun (outsAt8_B V c ⟨n + 1, hn⟩ h0) _).trans ?_
  refine (congrFun (out_B c (grid8.coords ⟨n + 1, hn⟩) (ms8_0 ⟨n + 1, hn⟩) (hs8_0 ⟨n + 1, hn⟩) (ms8_1 ⟨n + 1, hn⟩) (hs8_1 ⟨n + 1, hn⟩)
    (ms8_2 ⟨n + 1, hn⟩) (hs8_2 ⟨n + 1, hn⟩) (fun h => h0 ((hcond8_0 ⟨n + 1, hn⟩).mp h)) (iblk8 V c 0 ⟨n + 1, hn⟩) (iblk8 V c 1 ⟨n + 1, hn⟩)
    (outsAt8 V c n (Nat.lt_of_succ_lt hn))) _).trans ?_
  exact step_apply V c ⟨n + 1, hn⟩ (outsAt8 V c n (Nat.lt_of_succ_lt hn)) d

/-- So after point `n` the carried block holds, at column `d`, the sum of the tile sums of the half's tiles up to `n`:
    the additions in point order are the finite sum. -/
theorem carried_eq (c : Dev nD) : ∀ (n : ℕ) (hn : n < cfg8.N) (d : Fin 128),
    (outsAt8 V c n hn : Spec.A3 1 1 128) (ix3 (0 : Fin 1) (0 : Fin 1) d)
      = ∑ s ∈ Finset.range (n % 25 + 1), tileSum V c (n - n % 25 + s) d
  | 0, hn, d => by
    rw [at_reset V c 0 hn rfl d]
    simp only [Nat.zero_mod, Nat.zero_add, Nat.sub_zero, Finset.sum_range_one]
  | n + 1, hn, d => by
    by_cases h0 : (n + 1) % 25 = 0
    · rw [at_reset V c (n + 1) hn h0 d, h0]
      simp only [Nat.zero_add, Nat.sub_zero, Finset.sum_range_one, Nat.add_zero]
    · have hm : (n + 1) % 25 = n % 25 + 1 := by omega
      have hb : n + 1 - (n % 25 + 1) = n - n % 25 := by omega
      have hl : n - n % 25 + (n % 25 + 1) = n + 1 := by omega
      rw [at_step V c n hn h0 d, carried_eq c n (Nat.lt_of_succ_lt hn) d, hm, hb, Finset.sum_range_succ _ (n % 25 + 1), hl]

/-! ## The written-back blocks and the array -/

/-- What the array is to end holding: each half's partial column sums of the squared deviations. -/
abbrev target (c : Dev nD) : Spec.A3 2 1 128 := Spec.psumA (Spec.sq (feat V c) (meanArr V c))

/-- The sum of a half's 25 tile sums is its partial sum: tile `25 q + i`'s rows are the rows `rowOf q i r`. -/
theorem half_eq (c : Dev nD) (q : Fin 2) (d : Fin 128) :
    ∑ s ∈ Finset.range 25, tileSum V c (25 * q.val + s) d = Spec.psum (Spec.sq (feat V c) (meanArr V c)) q d := by
  have hq : q.val < 2 := q.isLt
  rw [Finset.sum_range]
  unfold Spec.psum
  refine Finset.sum_congr rfl fun i _ => ?_
  have hi : i.val < 25 := i.isLt
  unfold tileSum
  rw [dif_pos (by omega)]
  refine Finset.sum_congr rfl fun r _ => ?_
  show Spec.sqE (feat V c) (meanArr V c) _ d = Spec.sqE (feat V c) (meanArr V c) (Spec.rowOf q i r) d
  exact congrArg (fun n => Spec.sqE (feat V c) (meanArr V c) n d) (Fin.ext rfl)

/-- A point that writes its block back is the last of its half (`t % 25 = 24`), and what it writes is block
    `t / 25` of the target: the carried block then holds all 25 tile sums of the half. -/
theorem flushed_eq (c : Dev nD) (t : Fin cfg8.N) (hf : (cfg8.win 2).flush t = true) :
    (dat8 (F := Ideal) V c).flushed 2 t = ((cfg8.win 2).blk t).view.read (Elt Ideal) (target V c) := by
  have hl : t.val % 25 = 24 := (flush8_2 t).mp hf
  have hN : t.val < 50 := lt_of_lt_of_eq t.isLt (show cfg8.N = 50 from N_8)
  obtain ⟨-, -, -, -, ea, eb, ec⟩ := idx_facts t
  show (cfg8.win 2).cut (grid8.coords t) ((dat8 V c).after 2 t) = _
  rw [after8_2]
  funext y
  have hya : (y 0).val < 1 := (y 0).isLt
  have hyb : (y 1).val < 1 := (y 1).isLt
  have hyc : (y 2).val < 128 := (y 2).isLt
  have ey : (cfg8.win 2).xinj (grid8.coords t) y = ix3 (0 : Fin 1) (0 : Fin 1) (⟨(y 2).val, hyc⟩ : Fin 128) :=
    funext fun a => Fin.ext (by
      match a with
      | ⟨0, _⟩ => show (y 0).val = 0; omega
      | ⟨1, _⟩ => show (y 1).val = 0; omega
      | ⟨2, _⟩ => rfl)
  have eemb : ((cfg8.win 2).blk t).view.emb y
      = ix3 (⟨t.val / 25, by omega⟩ : Fin 2) (0 : Fin 1) (⟨(y 2).val, hyc⟩ : Fin 128) :=
    funext fun a => Fin.ext (by
      match a with
      | ⟨0, _⟩ => show win8_2.index t (0 : Fin 3) * 1 + 1 * (y 0).val = t.val / 25; omega
      | ⟨1, _⟩ => show win8_2.index t (1 : Fin 3) * 1 + 1 * (y 1).val = 0; omega
      | ⟨2, _⟩ => show win8_2.index t (2 : Fin 3) * 128 + 1 * (y 2).val = (y 2).val; omega)
  show (outsAt8 V c t.val t.isLt : Spec.A3 1 1 128) ((cfg8.win 2).xinj (grid8.coords t) y)
    = target V c (((cfg8.win 2).blk t).view.emb y)
  rw [ey, eemb, carried_eq V c t.val t.isLt, hl, show t.val - 24 = 25 * (t.val / 25) from by omega]
  exact half_eq V c ⟨t.val / 25, by omega⟩ ⟨(y 2).val, hyc⟩

/-- Region 8: half c's block accumulates, tile by tile, the column sums of the squared deviations from the mean. -/
theorem arr8 (c : Dev nD) : (dat8 (F := Ideal) V c).arrAt 2 cfg8.N
    = Spec.psumA (Spec.sq (V c main_call0_v125_0) (V c main_call0_v128)) :=
  (dat8 (F := Ideal) V c).arrAt_eq_of_cover 2 (target V c) (flushed_eq V c) fun i => by
    have hia : (i 0).val < 2 := (i 0).isLt
    have hib : (i 1).val < 1 := (i 1).isLt
    have hic : (i 2).val < 128 := (i 2).isLt
    have hN : cfg8.N = 50 := N_8
    have hlast : 25 * (i 0).val + 24 < cfg8.N := by omega
    obtain ⟨-, -, -, -, ea, eb, ec⟩ := idx_facts ⟨25 * (i 0).val + 24, hlast⟩
    refine ⟨⟨25 * (i 0).val + 24, hlast⟩, (flush8_2 _).mpr (by show (25 * (i 0).val + 24) % 25 = 24; omega), ?_⟩
    show i ∈ ((View.whole main_call0_v129).slice (win8_2.rect ⟨25 * (i 0).val + 24, hlast⟩)).set
    rw [View.set_slice_whole, Rect.mem_set_unit]
    intro a
    match a with
    | ⟨0, _⟩ =>
      show win8_2.index ⟨25 * (i 0).val + 24, hlast⟩ (0 : Fin 3) * 1 ≤ (i 0).val
        ∧ (i 0).val < win8_2.index ⟨25 * (i 0).val + 24, hlast⟩ (0 : Fin 3) * 1 + 1
      rw [ea]; show (25 * (i 0).val + 24) / 25 * 1 ≤ (i 0).val ∧ (i 0).val < (25 * (i 0).val + 24) / 25 * 1 + 1; omega
    | ⟨1, _⟩ =>
      show win8_2.index ⟨25 * (i 0).val + 24, hlast⟩ (1 : Fin 3) * 1 ≤ (i 1).val
        ∧ (i 1).val < win8_2.index ⟨25 * (i 0).val + 24, hlast⟩ (1 : Fin 3) * 1 + 1
      omega
    | ⟨2, _⟩ =>
      show win8_2.index ⟨25 * (i 0).val + 24, hlast⟩ (2 : Fin 3) * 128 ≤ (i 2).val
        ∧ (i 2).val < win8_2.index ⟨25 * (i 0).val + 24, hlast⟩ (2 : Fin 3) * 128 + 128
      omega

end Cert.KernelIdeal.K8

end
-- ==== Proof.K4.lean ====
import proofs.«420895_j26731876451141_3_alg».proof.Proof.Gen.KernelIdeal.Frame
import proofs.«420895_j26731876451141_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.K4

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Facts₀ Cert.KernelIdeal.Facts

section Pieces
variable {F : FTy → Type} [FloatOps F]

theorem hzB : (![0, 0] : Fin 2 → Nat) = fun _ => 0 := funext fun a => by fin_cases a <;> rfl
theorem hzC : (![0, 0, 0] : Fin 3 → Nat) = fun _ => 0 := funext fun a => by fin_cases a <;> rfl

/-- Reset case, the features' buffer: its one covering store holds the tile of agg + h_lin * sw + bias. -/
theorem outAFeat_eq (c : Dev nD) (i : grid4.Coords) (ma : Memref sig .tc .vmem S2000x128 .f32) (wa : ma.IsWhole) (mb : Memref sig .tc .vmem S2000x128 .f32) (wb : mb.IsWhole) (mc : Memref sig .tc .vmem S2000x1 .f32) (wc : mc.IsWhole) (md : Memref sig .tc .vmem S1x128 .f32) (wd : md.IsWhole) (me : Memref sig .tc .vmem S2000x128 .f32) (we : me.IsWhole) (mf : Memref sig .tc .vmem S1x1x128 .f32) (wf : mf.IsWhole) (hc : cond4_0 i)
    (xa : Vec F S2000x128 .f32) (xb : Vec F S2000x128 .f32) (xc : Vec F S2000x1 .f32) (xd : Vec F S1x128 .f32) :
    out4_A_4 c i ma wa mb wb mc wc md wd me we mf wf hc xa xb xc xd = k4_pay2 xa xb xc xd := by
  unfold out4_A_4
  rw [View.read_writes_eq_canon _ _ _ (cover4_A_4 c i ma wa mb wb mc wc md wd me we mf wf hc xa xb xc xd)]
  unfold kernelRun4_A
  dsimp only
  sl_unfold_words
  rw [View.canon_unit_zero hzB]
  simp only [View.readAt_eq_ld, wa.read_unread, wb.read_unread, wc.read_unread, wd.read_unread,
    View.ld_unit_zero (S := S2000x128) hzB, View.ld_unit_zero (S := S2000x1) hzB, View.ld_unit_zero (S := S1x128) hzB]

/-- Accumulating case, the features' buffer: the same store. -/
theorem outBFeat_eq (c : Dev nD) (i : grid4.Coords) (ma : Memref sig .tc .vmem S2000x128 .f32) (wa : ma.IsWhole) (mb : Memref sig .tc .vmem S2000x128 .f32) (wb : mb.IsWhole) (mc : Memref sig .tc .vmem S2000x1 .f32) (wc : mc.IsWhole) (md : Memref sig .tc .vmem S1x128 .f32) (wd : md.IsWhole) (me : Memref sig .tc .vmem S2000x128 .f32) (we : me.IsWhole) (mf : Memref sig .tc .vmem S1x1x128 .f32) (wf : mf.IsWhole) (hc : ¬cond4_0 i)
    (xa : Vec F S2000x128 .f32) (xb : Vec F S2000x128 .f32) (xc : Vec F S2000x1 .f32) (xd : Vec F S1x128 .f32) (xo : Vec F S1x1x128 .f32) :
    out4_B_4 c i ma wa mb wb mc wc md wd me we mf wf hc xa xb xc xd xo = k4_pay2 xa xb xc xd := by
  unfold out4_B_4
  rw [View.read_writes_eq_canon _ _ _ (cover4_B_4 c i ma wa mb wb mc wc md wd me we mf wf hc xa xb xc xd xo)]
  unfold kernelRun4_B
  dsimp only
  sl_unfold_words
  rw [View.canon_unit_zero hzB]
  simp only [View.readAt_eq_ld, wa.read_unread, wb.read_unread, wc.read_unread, wd.read_unread,
    View.ld_unit_zero (S := S2000x128) hzB, View.ld_unit_zero (S := S2000x1) hzB, View.ld_unit_zero (S := S1x128) hzB]

/-- Accumulating case, the carried column sums: what the point before left, plus this tile's column sums. -/
theorem outBSum_eq (c : Dev nD) (i : grid4.Coords) (ma : Memref sig .tc .vmem S2000x128 .f32) (wa : ma.IsWhole) (mb : Memref sig .tc .vmem S2000x128 .f32) (wb : mb.IsWhole) (mc : Memref sig .tc .vmem S2000x1 .f32) (wc : mc.IsWhole) (md : Memref sig .tc .vmem S1x128 .f32) (wd : md.IsWhole) (me : Memref sig .tc .vmem S2000x128 .f32) (we : me.IsWhole) (mf : Memref sig .tc .vmem S1x1x128 .f32) (wf : mf.IsWhole) (hc : ¬cond4_0 i)
    (xa : Vec F S2000x128 .f32) (xb : Vec F S2000x128 .f32) (xc : Vec F S2000x1 .f32) (xd : Vec F S1x128 .f32) (xo : Vec F S1x1x128 .f32) :
    out4_B_5 c i ma wa mb wb mc wc md wd me we mf wf hc xa xb xc xd xo = k4_pay3 xa xb xc xd xo := by
  unfold out4_B_5
  rw [View.read_writes_eq_canon _ _ _ (cover4_B_5 c i ma wa mb wb mc wc md wd me we mf wf hc xa xb xc xd xo)]
  unfold kernelRun4_B
  dsimp only
  sl_unfold_words
  rw [View.canon_unit_zero hzC]
  simp only [View.readAt_eq_ld, wa.read_unread, wb.read_unread, wc.read_unread, wd.read_unread, wf.read_unread,
    View.ld_unit_zero (S := S2000x128) hzB, View.ld_unit_zero (S := S2000x1) hzB, View.ld_unit_zero (S := S1x128) hzB,
    View.ld_unit_zero (S := S1x1x128) hzC]

/-- Reset case, the carried column sums: the zero block, read back, plus this tile's column sums. -/
theorem outASum_eq (c : Dev nD) (i : grid4.Coords) (ma : Memref sig .tc .vmem S2000x128 .f32) (wa : ma.IsWhole) (mb : Memref sig .tc .vmem S2000x128 .f32) (wb : mb.IsWhole) (mc : Memref sig .tc .vmem S2000x1 .f32) (wc : mc.IsWhole) (md : Memref sig .tc .vmem S1x128 .f32) (wd : md.IsWhole) (me : Memref sig .tc .vmem S2000x128 .f32) (we : me.IsWhole) (mf : Memref sig .tc .vmem S1x1x128 .f32) (wf : mf.IsWhole) (hc : cond4_0 i)
    (xa : Vec F S2000x128 .f32) (xb : Vec F S2000x128 .f32) (xc : Vec F S2000x1 .f32) (xd : Vec F S1x128 .f32) :
    out4_A_5 c i ma wa mb wb mc wc md wd me we mf wf hc xa xb xc xd = k4_pay3 xa xb xc xd (k4_pay1 (F := F)) := by
  unfold out4_A_5
  rw [View.read_writes_eq_canon _ _ _ (cover4_A_5 c i ma wa mb wb mc wc md wd me we mf wf hc xa xb xc xd)]
  unfold kernelRun4_A
  dsimp only
  sl_unfold_words
  rw [View.canon_cons_unit_zero (S := S1x1x128) hzC, View.readCov_unit_zero (S := S1x1x128) _ hzC]
  simp only [View.readAt_eq_ld, wa.read_unread, wb.read_unread, wc.read_unread, wd.read_unread,
    View.ld_unit_zero (S := S2000x128) hzB, View.ld_unit_zero (S := S2000x1) hzB, View.ld_unit_zero (S := S1x128) hzB]

end Pieces

/-! ## The payloads at an index, over the extended reals -/

section Payload

/-- A column [a, 1] broadcast along a second axis reads, at (p, q), the column's entry of row p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The features' payload at (r, d): agg + h_lin * sw + bias of the blocks, entry by entry. -/
theorem featPay_apply (xa xb : FVec Ideal S2000x128 .f32) (xc : FVec Ideal S2000x1 .f32) (xd : FVec Ideal S1x128 .f32)
    (r : Fin 2000) (d : Fin 128) :
    k4_pay2 (F := Ideal) xa xb xc xd (ix2 r d) = xa (ix2 r d) + xb (ix2 r d) * xc (ix2 r 0) + xd (ix2 0 d) := by
  unfold k4_pay2
  simp only [shapeCast_self]
  show xa (ix2 r d) + xb (ix2 r d) * broadcastTo S2000x128 xc _ (ix2 r d) + broadcastTo S2000x128 xd _ (ix2 r d) = _
  rw [broadcastTo_col_apply, broadcastTo_1b_ab_apply]

/-- A sum over the rows of a [2000, 128] block, read at column d. -/
theorem colRed_apply (src : FVec Ideal S2000x128 .f32) (h : S2000x128.Reduces [0] S128) (hφ : FKind.Formats .f32)
    (hacc : (0x00000000#32 : BitVec 32) = FKind.add.neutral .f32 hφ) (d : Fin 128) :
    multiReduction .add [0] S128 src 0x00000000#32 h hφ hacc (ix1 d) = ∑ r : Fin 2000, src (ix2 r d) := by
  refine (Ideal.multiReduction_add_single src 0x00000000#32 h hφ hacc (ix1 d)).trans ?_
  refine Finset.sum_congr rfl fun k _ => congrArg src ?_
  funext a
  match a with
  | ⟨0, _⟩ => rfl
  | ⟨1, _⟩ => rfl

/-- The carried payload at lane d: what was carried, plus the block's column sum. -/
theorem sumPay_apply (xa xb : FVec Ideal S2000x128 .f32) (xc : FVec Ideal S2000x1 .f32) (xd : FVec Ideal S1x128 .f32)
    (xo : FVec Ideal S1x1x128 .f32) (u v : Fin 1) (d : Fin 128) :
    k4_pay3 (F := Ideal) xa xb xc xd xo (ix3 u v d)
      = xo (ix3 u v d) + ∑ r : Fin 2000, k4_pay2 (F := Ideal) xa xb xc xd (ix2 r d) := by
  unfold k4_pay3
  simp only [shapeCast_self]
  show xo (ix3 u v d) + shapeCast S1x1x128 (shapeCast S1x128 (multiReduction .add [0] S128 (k4_pay2 (F := Ideal) xa xb xc xd) 0x00000000#32 _ _ _) _) _ (ix3 u v d) = _
  rw [shapeCast_ab_1ab_apply, shapeCast_a_1a_apply]
  exact congrArg (xo (ix3 u v d) + ·) (colRed_apply (k4_pay2 (F := Ideal) xa xb xc xd) _ _ _ d)

end Payload
-- the buffer contents when the region is entered: any
variable (V : (c : Dev nD) → (b : Ref sig .tc) → Buf (Elt Ideal) ((c : Thread nD τ).loc b))

/-! ## The blocks, read off the arrays -/

/-- Row r of tile n of the node axis: node 2000 n + r (taken modulo the axis' length so that it is total; a tile of
    the grid never wraps). -/
def tileRow (n : Nat) (r : Fin 2000) : Fin 100000 := ⟨(n * 2000 + r.val) % 100000, Nat.mod_lt _ (by decide)⟩

/-- The index maps over the grid: the three tiled operands and the features sit at block (t, 0), the bias at (0, 0),
    the carried column sums at (t / 25, 0, 0). -/
theorem idxFacts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 3) = t.val / 25 ∧ win4_5.index t (1 : Fin 3) = 0 ∧ win4_5.index t (2 : Fin 3) = 0 :=
  (by decide +kernel : ∀ t : Fin grid4.N, _)

/-- The input blocks at a point and the arrays they are read off, at their literal types. -/
abbrev aggBlk (c : Dev nD) (t : Fin cfg4.N) : FVec Ideal S2000x128 .f32 := iblk4 V c 0 t
abbrev linBlk (c : Dev nD) (t : Fin cfg4.N) : FVec Ideal S2000x128 .f32 := iblk4 V c 1 t
abbrev swBlk (c : Dev nD) (t : Fin cfg4.N) : FVec Ideal S2000x1 .f32 := iblk4 V c 2 t
abbrev biasBlk (c : Dev nD) (t : Fin cfg4.N) : FVec Ideal S1x128 .f32 := iblk4 V c 3 t
abbrev aggArr (c : Dev nD) : Spec.A2 100000 128 := V c main_call0_v80
abbrev linArr (c : Dev nD) : Spec.A2 100000 128 := V c main_call0_v68
abbrev swArr (c : Dev nD) : Spec.A2 100000 1 := V c main_call0_v29
abbrev biasArr (c : Dev nD) : Spec.A2 1 128 := V c main_call0_v83

/-- Entry (r, d) of tile t of the aggregate is the array's entry at row 2000 t + r. -/
theorem aggBlk_apply (c : Dev nD) (t : Fin cfg4.N) (r : Fin 2000) (d : Fin 128) :
    aggBlk V c t (ix2 r d) = aggArr V c (ix2 (tileRow t.val r) d) := by
  obtain ⟨ea, eb, -⟩ := idxFacts t
  have hN : t.val < 50 := lt_of_lt_of_eq t.isLt (show cfg4.N = 50 from N_4)
  show V c main_call0_v80 (((cfg4.win 0).blk t).view.emb (ix2 r d)) = V c main_call0_v80 (ix2 (tileRow t.val r) d)
  refine congrArg _ ?_
  funext a; apply Fin.ext
  match a with
  | ⟨0, _⟩ => show win4_0.index t (0 : Fin 2) * 2000 + 1 * r.val = (t.val * 2000 + r.val) % 100000; rw [ea]; omega
  | ⟨1, _⟩ => show win4_0.index t (1 : Fin 2) * 128 + 1 * d.val = d.val; rw [eb]; omega

/-- Entry (r, d) of tile t of h_lin is the array's entry at row 2000 t + r. -/
theorem linBlk_apply (c : Dev nD) (t : Fin cfg4.N) (r : Fin 2000) (d : Fin 128) :
    linBlk V c t (ix2 r d) = linArr V c (ix2 (tileRow t.val r) d) := by
  obtain ⟨-, -, ea, eb, -⟩ := idxFacts t
  have hN : t.val < 50 := lt_of_lt_of_eq t.isLt (show cfg4.N = 50 from N_4)
  show V c main_call0_v68 (((cfg4.win 1).blk t).view.emb (ix2 r d)) = V c main_call0_v68 (ix2 (tileRow t.val r) d)
  refine congrArg _ ?_
  funext a; apply Fin.ext
  match a with
  | ⟨0, _⟩ => show win4_1.index t (0 : Fin 2) * 2000 + 1 * r.val = (t.val * 2000 + r.val) % 100000; rw [ea]; omega
  | ⟨1, _⟩ => show win4_1.index t (1 : Fin 2) * 128 + 1 * d.val = d.val; rw [eb]; omega

/-- Entry r of tile t of the column sw is the array's entry at row 2000 t + r. -/
theorem swBlk_apply (c : Dev nD) (t : Fin cfg4.N) (r : Fin 2000) :
    swBlk V c t (ix2 r 0) = swArr V c (ix2 (tileRow t.val r) 0) := by
  obtain ⟨-, -, -, -, ea, eb, -⟩ := idxFacts t
  have hN : t.val < 50 := lt_of_lt_of_eq t.isLt (show cfg4.N = 50 from N_4)
  show V c main_call0_v29 (((cfg4.win 2).blk t).view.emb (ix2 r 0)) = V c main_call0_v29 (ix2 (tileRow t.val r) 0)
  refine congrArg _ ?_
  funext a; apply Fin.ext
  match a with
  | ⟨0, _⟩ => show win4_2.index t (0 : Fin 2) * 2000 + 1 * r.val = (t.val * 2000 + r.val) % 100000; rw [ea]; omega
  | ⟨1, _⟩ => show win4_2.index t (1 : Fin 2) * 1 + 1 * 0 = 0; rw [eb]

/-- The bias block is the bias row at every point. -/
theorem biasBlk_apply (c : Dev nD) (t : Fin cfg4.N) (d : Fin 128) :
    biasBlk V c t (ix2 0 d) = biasArr V c (ix2 0 d) := by
  obtain ⟨-, -, -, -, -, -, ea, eb, -⟩ := idxFacts t
  show V c main_call0_v83 (((cfg4.win 3).blk t).view.emb (ix2 0 d)) = V c main_call0_v83 (ix2 0 d)
  refine congrArg _ ?_
  funext a; apply Fin.ext
  match a with
  | ⟨0, _⟩ => show win4_3.index t (0 : Fin 2) * 1 + 1 * 0 = 0; rw [ea]
  | ⟨1, _⟩ => show win4_3.index t (1 : Fin 2) * 128 + 1 * d.val = d.val; rw [eb]; omega

/-- The features of the whole arrays (the specification's), named. -/
abbrev feat (c : Dev nD) : Spec.A2 100000 128 := Spec.hb (aggArr V c) (linArr V c) (swArr V c) (biasArr V c)

/-- The features' payload of tile t's blocks at (r, d) is the features at row 2000 t + r. -/
theorem featTile_apply (c : Dev nD) (t : Fin cfg4.N) (r : Fin 2000) (d : Fin 128) :
    k4_pay2 (F := Ideal) (aggBlk V c t) (linBlk V c t) (swBlk V c t) (biasBlk V c t) (ix2 r d)
      = feat V c (ix2 (tileRow t.val r) d) := by
  rw [featPay_apply, aggBlk_apply, linBlk_apply, swBlk_apply, biasBlk_apply]
  rfl

/-- The column sums of tile n of the features. -/
def tileSum (c : Dev nD) (n : Nat) (d : Fin 128) : EReal := ∑ r : Fin 2000, feat V c (ix2 (tileRow n r) d)

/-! ## What the outputs hold after each point -/

/-- After every point the features' buffer holds the features' payload of that point's blocks. -/
theorem featAt_eq (c : Dev nD) (t : Fin cfg4.N) :
    (outsAt4 V c t.val t.isLt).1 = k4_pay2 (F := Ideal) (aggBlk V c t) (linBlk V c t) (swBlk V c t) (biasBlk V c t) := by
  by_cases hm : t.val % 25 = 0
  · rw [outsAt4_A V c t hm]
    dsimp only
    exact outAFeat_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr hm) (iblk4 V c 0 t) (iblk4 V c 1 t) (iblk4 V c 2 t) (iblk4 V c 3 t)
  · rw [outsAt4_B V c t hm]
    dsimp only
    exact outBFeat_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => hm ((hcond4_0 t).mp h)) (iblk4 V c 0 t) (iblk4 V c 1 t) (iblk4 V c 2 t) (iblk4 V c 3 t) (outsAt4 V c (t.val - 1) (Nat.lt_of_le_of_lt (Nat.sub_le _ _) t.isLt)).2

/-- At the first tile of a half the carried block is that tile's column sums (the zero block read back, plus them). -/
theorem sumsAt_A (c : Dev nD) (t : Fin cfg4.N) (hm : t.val % 25 = 0) (u v : Fin 1) (d : Fin 128) :
    (outsAt4 V c t.val t.isLt).2 (ix3 u v d) = tileSum V c t.val d := by
  rw [outsAt4_A V c t hm]
  dsimp only
  refine (congrFun (outASum_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr hm) (iblk4 V c 0 t) (iblk4 V c 1 t) (iblk4 V c 2 t) (iblk4 V c 3 t)) (ix3 u v d)).trans ?_
  refine (sumPay_apply (aggBlk V c t) (linBlk V c t) (swBlk V c t) (biasBlk V c t) (k4_pay1 (F := Ideal)) u v d).trans ?_
  have hz : k4_pay1 (F := Ideal) (ix3 u v d) = 0 := Ideal.ofBits_zero_f32
  rw [hz, zero_add]
  exact Finset.sum_congr rfl fun r _ => featTile_apply V c t r d

/-- At a later tile the carried block is what the point before left plus this tile's column sums. -/
theorem sumsAt_B (c : Dev nD) (t : Fin cfg4.N) (hm : ¬t.val % 25 = 0) (u v : Fin 1) (d : Fin 128) :
    (outsAt4 V c t.val t.isLt).2 (ix3 u v d)
      = (outsAt4 V c (t.val - 1) (Nat.lt_of_le_of_lt (Nat.sub_le _ _) t.isLt)).2 (ix3 u v d) + tileSum V c t.val d := by
  rw [outsAt4_B V c t hm]
  dsimp only
  refine (congrFun (outBSum_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => hm ((hcond4_0 t).mp h)) (iblk4 V c 0 t) (iblk4 V c 1 t) (iblk4 V c 2 t) (iblk4 V c 3 t) (outsAt4 V c (t.val - 1) (Nat.lt_of_le_of_lt (Nat.sub_le _ _) t.isLt)).2) (ix3 u v d)).trans ?_
  refine (sumPay_apply (aggBlk V c t) (linBlk V c t) (swBlk V c t) (biasBlk V c t) (outsAt4 V c (t.val - 1) (Nat.lt_of_le_of_lt (Nat.sub_le _ _) t.isLt)).2 u v d).trans ?_
  exact congrArg (_ + ·) (Finset.sum_congr rfl fun r _ => featTile_apply V c t r d)

/-- So after point n the carried block is the sum of the column sums of the tiles of n's half up to n: the fold
    ((0 + S) + S') + ... in point order is the finite sum over the extended reals. -/
theorem sumsAt_eq (c : Dev nD) : ∀ (n : Nat) (h : n < cfg4.N) (u v : Fin 1) (d : Fin 128),
    (outsAt4 V c n h).2 (ix3 u v d) = ∑ s ∈ Finset.range (n % 25 + 1), tileSum V c (n - n % 25 + s) d
  | 0, h, u, v, d => by
    rw [sumsAt_A V c ⟨0, h⟩ rfl u v d]
    simp
  | n + 1, h, u, v, d => by
    by_cases hm : (n + 1) % 25 = 0
    · rw [sumsAt_A V c ⟨n + 1, h⟩ hm u v d]
      dsimp only
      rw [hm]
      simp
    · rw [sumsAt_B V c ⟨n + 1, h⟩ hm u v d]
      show (outsAt4 V c n _).2 (ix3 u v d) + tileSum V c (n + 1) d = _
      rw [sumsAt_eq c n _ u v d]
      have ea : (n + 1) % 25 = n % 25 + 1 := by omega
      have eb : n + 1 - (n % 25 + 1) = n - n % 25 := by omega
      have ec : n - n % 25 + (n % 25 + 1) = n + 1 := by omega
      rw [ea, eb, Finset.sum_range_succ _ (n % 25 + 1), ec]

/-! ## The write-backs and the arrays after the region -/

/-- What point t writes back to the features' array is block t of the features of the whole arrays. -/
theorem flushedFeat_eq (c : Dev nD) (t : Fin cfg4.N) :
    (dat4 (F := Ideal) V c).flushed 4 t = ((cfg4.win 4).blk t).view.read (Elt Ideal) (feat V c) := by
  obtain ⟨-, -, -, -, -, -, -, -, ea, eb, -⟩ := idxFacts t
  have hN : t.val < 50 := lt_of_lt_of_eq t.isLt (show cfg4.N = 50 from N_4)
  show (cfg4.win 4).cut (grid4.coords t) ((dat4 (F := Ideal) V c).after 4 t) = _
  rw [after4_4, featAt_eq]
  have key : ∀ y : S2000x128.Idx,
      k4_pay2 (F := Ideal) (aggBlk V c t) (linBlk V c t) (swBlk V c t) (biasBlk V c t) y
        = feat V c (((cfg4.win 4).blk t).view.emb y) := fun y => by
    obtain ⟨r, d, rfl⟩ : ∃ (r : Fin 2000) (d : Fin 128), y = ix2 r d := ⟨y 0, y 1, eq_ix2 y⟩
    rw [featTile_apply]
    refine congrArg (feat V c) ?_
    funext a; apply Fin.ext
    match a with
    | ⟨0, _⟩ => show (t.val * 2000 + r.val) % 100000 = win4_4.index t (0 : Fin 2) * 2000 + 1 * r.val; rw [ea]; omega
    | ⟨1, _⟩ => show d.val = win4_4.index t (1 : Fin 2) * 128 + 1 * d.val; rw [eb]; omega
  funext j
  exact key j

/-- An index of the features' array is in point t's block iff each coordinate is in the block's range on its axis. -/
theorem mem_featBlk (t : Fin cfg4.N) (i : S100000x128.Idx) :
    i ∈ ((cfg4.win 4).blk t).view.set ↔ ∀ a : Fin 2, win4_4.index t a * S2000x128.size a ≤ (i a).val
      ∧ (i a).val < win4_4.index t a * S2000x128.size a + S2000x128.size a := by
  show i ∈ ((View.whole main_call0_v90_0).slice (win4_4.rect t)).set ↔ _
  rw [View.set_slice_whole, Rect.mem_set_unit]
  exact Iff.rfl

/-- Region 4, the features: every point writes its tile of agg + h_lin * sw + bias whole. -/
theorem arr4_hb (c : Dev nD) : (dat4 (F := Ideal) V c).arrAt 4 cfg4.N
    = Spec.hb (V c main_call0_v80) (V c main_call0_v68) (V c main_call0_v29) (V c main_call0_v83) :=
  (dat4 (F := Ideal) V c).arrAt_eq_of_cover 4 (feat V c) (fun t _ => flushedFeat_eq V c t) fun i => by
    have hi : ∀ j : S100000x128.Idx, ∃ t : Fin cfg4.N, (cfg4.win 4).flush t = true ∧ j ∈ ((cfg4.win 4).blk t).view.set := fun j => by
      have ha : (j 0).val < 100000 := (j 0).isLt
      have hb : (j 1).val < 128 := (j 1).isLt
      have hlt : (j 0).val / 2000 < cfg4.N := by rw [show cfg4.N = 50 from N_4]; omega
      obtain ⟨-, -, -, -, -, -, -, -, ea, eb, -⟩ := idxFacts ⟨(j 0).val / 2000, hlt⟩
      refine ⟨⟨(j 0).val / 2000, hlt⟩, flush4_4 _, ?_⟩
      rw [mem_featBlk]
      intro a
      match a with
      | ⟨0, _⟩ =>
        show win4_4.index ⟨(j 0).val / 2000, hlt⟩ (0 : Fin 2) * 2000 ≤ (j 0).val
          ∧ (j 0).val < win4_4.index ⟨(j 0).val / 2000, hlt⟩ (0 : Fin 2) * 2000 + 2000
        rw [ea]; dsimp only; omega
      | ⟨1, _⟩ =>
        show win4_4.index ⟨(j 0).val / 2000, hlt⟩ (1 : Fin 2) * 128 ≤ (j 1).val
          ∧ (j 1).val < win4_4.index ⟨(j 0).val / 2000, hlt⟩ (1 : Fin 2) * 128 + 128
        rw [eb]; omega
    exact hi i

/-- What the last point of a half writes back to the column sums' array is that half's block of the specification's
    partial sums: the carried block after 25 tiles is the sum of their column sums. -/
theorem flushedSum_eq (c : Dev nD) (t : Fin cfg4.N) (hf : (cfg4.win 5).flush t = true) :
    (dat4 (F := Ideal) V c).flushed 5 t = ((cfg4.win 5).blk t).view.read (Elt Ideal) (Spec.psumA (feat V c)) := by
  have hlast : t.val % 25 = 24 := (flush4_5 t).mp hf
  have hN : t.val < 50 := lt_of_lt_of_eq t.isLt (show cfg4.N = 50 from N_4)
  obtain ⟨-, -, -, -, -, -, -, -, -, -, ea, eb, ec⟩ := idxFacts t
  show (cfg4.win 5).cut (grid4.coords t) ((dat4 (F := Ideal) V c).after 5 t) = _
  rw [after4_5]
  have key : ∀ y : S1x1x128.Idx,
      (outsAt4 V c t.val t.isLt).2 y = Spec.psumA (feat V c) (((cfg4.win 5).blk t).view.emb y) := fun y => by
    obtain ⟨u, v, d, rfl⟩ : ∃ (u v : Fin 1) (d : Fin 128), y = ix3 u v d := ⟨y 0, y 1, y 2, eq_ix3 y⟩
    have he : ((cfg4.win 5).blk t).view.emb (ix3 u v d)
        = (ix3 (⟨t.val / 25, by omega⟩ : Fin 2) (0 : Fin 1) d : S2x1x128.Idx) := by
      funext a; apply Fin.ext
      match a with
      | ⟨0, _⟩ => show win4_5.index t (0 : Fin 3) * 1 + 1 * u.val = t.val / 25; rw [ea]; omega
      | ⟨1, _⟩ => show win4_5.index t (1 : Fin 3) * 1 + 1 * v.val = 0; rw [eb]; omega
      | ⟨2, _⟩ => show win4_5.index t (2 : Fin 3) * 128 + 1 * d.val = d.val; rw [ec]; omega
    rw [he, sumsAt_eq V c t.val t.isLt u v d, hlast]
    show ∑ s ∈ Finset.range 25, tileSum V c (t.val - 24 + s) d
      = ∑ i : Fin 25, ∑ r : Fin 2000, feat V c (ix2 (Spec.rowOf (⟨t.val / 25, by omega⟩ : Fin 2) i r) d)
    rw [Finset.sum_range]
    refine Finset.sum_congr rfl fun i _ => Finset.sum_congr rfl fun r _ => congrArg (fun n => feat V c (ix2 n d)) ?_
    apply Fin.ext
    have hi : i.val < 25 := i.isLt
    have hr : r.val < 2000 := r.isLt
    show ((t.val - 24 + i.val) * 2000 + r.val) % 100000 = (25 * (t.val / 25) + i.val) * 2000 + r.val
    omega
  funext j
  exact key j

/-- An index of the column sums' array is in point t's block iff each coordinate is in the block's range on its axis. -/
theorem mem_sumBlk (t : Fin cfg4.N) (i : S2x1x128.Idx) :
    i ∈ ((cfg4.win 5).blk t).view.set ↔ ∀ a : Fin 3, win4_5.index t a * S1x1x128.size a ≤ (i a).val
      ∧ (i a).val < win4_5.index t a * S1x1x128.size a + S1x1x128.size a := by
  show i ∈ ((View.whole main_call0_v90_1).slice (win4_5.rect t)).set ↔ _
  rw [View.set_slice_whole, Rect.mem_set_unit]
  exact Iff.rfl

/-- Region 4, the column sums: half c's block is reset at its first tile, takes each tile's column sums in turn and is
    written back after its 25th tile: the half's partial sum. -/
theorem arr4_ps (c : Dev nD) : (dat4 (F := Ideal) V c).arrAt 5 cfg4.N
    = Spec.psumA (Spec.hb (V c main_call0_v80) (V c main_call0_v68) (V c main_call0_v29) (V c main_call0_v83)) :=
  (dat4 (F := Ideal) V c).arrAt_eq_of_cover 5 (Spec.psumA (feat V c)) (flushedSum_eq V c) fun i => by
    have hi : ∀ j : S2x1x128.Idx, ∃ t : Fin cfg4.N, (cfg4.win 5).flush t = true ∧ j ∈ ((cfg4.win 5).blk t).view.set := fun j => by
      have ha : (j 0).val < 2 := (j 0).isLt
      have hb : (j 1).val < 1 := (j 1).isLt
      have hc : (j 2).val < 128 := (j 2).isLt
      have hlt : 25 * (j 0).val + 24 < cfg4.N := by rw [show cfg4.N = 50 from N_4]; omega
      obtain ⟨-, -, -, -, -, -, -, -, -, -, ea, eb, ec⟩ := idxFacts ⟨25 * (j 0).val + 24, hlt⟩
      refine ⟨⟨25 * (j 0).val + 24, hlt⟩, (flush4_5 _).mpr (by dsimp only; omega), ?_⟩
      rw [mem_sumBlk]
      intro a
      match a with
      | ⟨0, _⟩ =>
        show win4_5.index ⟨25 * (j 0).val + 24, hlt⟩ (0 : Fin 3) * 1 ≤ (j 0).val
          ∧ (j 0).val < win4_5.index ⟨25 * (j 0).val + 24, hlt⟩ (0 : Fin 3) * 1 + 1
        rw [ea]; dsimp only; omega
      | ⟨1, _⟩ =>
        show win4_5.index ⟨25 * (j 0).val + 24, hlt⟩ (1 : Fin 3) * 1 ≤ (j 1).val
          ∧ (j 1).val < win4_5.index ⟨25 * (j 0).val + 24, hlt⟩ (1 : Fin 3) * 1 + 1
        rw [eb]; omega
      | ⟨2, _⟩ =>
        show win4_5.index ⟨25 * (j 0).val + 24, hlt⟩ (2 : Fin 3) * 128 ≤ (j 2).val
          ∧ (j 2).val < win4_5.index ⟨25 * (j 0).val + 24, hlt⟩ (2 : Fin 3) * 128 + 128
        rw [ec]; omega
    exact hi i

end Cert.KernelIdeal.K4

end
-- ==== Proof.K5.lean ====
import proofs.«420895_j26731876451141_3_alg».proof.Proof.Gen.KernelIdeal.Frame
import proofs.«420895_j26731876451141_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.K5

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Facts₀ Cert.KernelIdeal.Facts

-- the buffer contents when the region is entered: any
variable (V : (c : Dev nD) → (b : Ref sig .tc) → Buf (Elt Ideal) ((c : Thread nD τ).loc b))

/-!
# Region 5: each half's partial column sums of the squared deviations from the mean

The grid has 2 × 25 points. Point `t = 25 q + i` reads tile `t` of the features (rows `2000 t … 2000 t + 1999`) and
the one mean row, and carries a `[1, 1, 128]` block from point to point: at the first point of a half (`i = 0`) the
block is set to zero; every point adds to it, at column `d`, the sum over its 2000 rows of `(h[n, d] - mean[d])²`; the
last point of the half (`i = 24`) writes it back as row `q` of the `[2, 1, 128]` result. Over the extended reals the
additions in point order are the finite sum over the half's tiles and rows, which is `Spec.psum` of `Spec.sq`.
-/

/-! ## What one point leaves in the carried block -/

theorem hzPair : (![0, 0] : Fin 2 → Nat) = fun _ => 0 := funext fun a => by fin_cases a <;> rfl
theorem hzTriple : (![0, 0, 0] : Fin 3 → Nat) = fun _ => 0 := funext fun a => by fin_cases a <;> rfl

/-- An accumulating point: over a carried block `acc`, a tile `x` and the mean row `mu`, the point's one store
    leaves the update of `acc` by the tile's column sums of squared deviations. -/
theorem out_B (c : Dev nD) (i : grid5.Coords) (a0 : Memref sig .tc .vmem S2000x128 .f32) (h0 : a0.IsWhole)
    (a1 : Memref sig .tc .vmem S1x128 .f32) (h1 : a1.IsWhole) (a3 : Memref sig .tc .vmem S1x1x128 .f32) (h3 : a3.IsWhole)
    (hc : ¬cond5_0 i) (x : Vec Ideal S2000x128 .f32) (mu : Vec Ideal S1x128 .f32) (acc : Vec Ideal S1x1x128 .f32) :
    out5_B_2 (F := Ideal) c i a0 h0 a1 h1 a3 h3 hc x mu acc = k5_pay2 x mu acc := by
  unfold out5_B_2
  rw [View.read_writes_eq_canon _ _ _ (cover5_B_2 c i a0 h0 a1 h1 a3 h3 hc x mu acc)]
  unfold kernelRun5_B
  dsimp only
  sl_unfold_words
  rw [View.canon_unit_zero hzTriple]
  simp only [View.readAt_eq_ld, h0.read_unread, h1.read_unread, h3.read_unread,
    View.ld_unit_zero (S := S2000x128) hzPair, View.ld_unit_zero (S := S1x128) hzPair,
    View.ld_unit_zero (S := S1x1x128) hzTriple]

/-- A resetting point: the block is first set to the zero block, read back, and updated as above. -/
theorem out_A (c : Dev nD) (i : grid5.Coords) (a0 : Memref sig .tc .vmem S2000x128 .f32) (h0 : a0.IsWhole)
    (a1 : Memref sig .tc .vmem S1x128 .f32) (h1 : a1.IsWhole) (a3 : Memref sig .tc .vmem S1x1x128 .f32) (h3 : a3.IsWhole)
    (hc : cond5_0 i) (x : Vec Ideal S2000x128 .f32) (mu : Vec Ideal S1x128 .f32) :
    out5_A_2 (F := Ideal) c i a0 h0 a1 h1 a3 h3 hc x mu = k5_pay2 x mu (k5_pay1 (F := Ideal)) := by
  unfold out5_A_2
  rw [View.read_writes_eq_canon _ _ _ (cover5_A_2 c i a0 h0 a1 h1 a3 h3 hc x mu)]
  unfold kernelRun5_A
  dsimp only
  sl_unfold_words
  rw [View.canon_cons_unit_zero (S := S1x1x128) hzTriple, View.readCov_unit_zero (S := S1x1x128) _ hzTriple]
  simp only [View.readAt_eq_ld, h0.read_unread, h1.read_unread,
    View.ld_unit_zero (S := S2000x128) hzPair, View.ld_unit_zero (S := S1x128) hzPair]

/-! ## The update at a column -/

/-- A column index of the reduced tile with a row coordinate put back is that row and column. -/
theorem lift_row (h : S2000x128.Reduces [0] S128) (d : Fin 128) (k : Fin 2000) :
    h.lift (ix1 d) k = ix2 k d := by
  funext a
  apply Fin.ext
  show h.liftVal (ix1 d) k.val a = (ix2 k d a).val
  unfold Shape.Reduces.liftVal
  match a with
  | ⟨0, _⟩ => rfl
  | ⟨1, _⟩ => rfl

/-- The add-reduction of a tile over its rows, at column `d`, is the sum over the 2000 rows. -/
theorem colred_apply (src : FVec Ideal S2000x128 .f32) (h : S2000x128.Reduces [0] S128) (hf : FKind.Formats .f32)
    (hacc : (0x00000000#32 : BitVec 32) = 0x00000000#32) (d : Fin 128) :
    multiReduction (F := Ideal) .add [0] S128 src 0x00000000#32 h hf hacc (ix1 d) = ∑ r : Fin 2000, src (ix2 r d) := by
  refine (Ideal.multiReduction_add_single src 0x00000000#32 h hf hacc (ix1 d)).trans ?_
  exact Finset.sum_congr rfl fun r _ => congrArg src (lift_row h d r)

/-- The deviation from the mean at row `r`, column `d` of a tile: the mean's one row is laid along every row. -/
theorem dev_apply (x : Spec.A2 2000 128) (mu : Spec.A2 1 128) (hx : S2000x128.ShapeCasts S2000x128)
    (hm : S1x128.ShapeCasts S1x128) (hb : S1x128.Broadcasts S2000x128) (r : Fin 2000) (d : Fin 128) :
    subf (F := Ideal) (φ := .f32) (shapeCast S2000x128 x hx) (broadcastTo S2000x128 (shapeCast S1x128 mu hm) hb) (ix2 r d)
      = x (ix2 r d) - mu (ix2 (0 : Fin 1) d) := by
  refine (subf_apply _ _ _).trans ?_
  refine congrArg₂ (· - ·) (congrFun (shapeCast_self x _) _) ?_
  refine (broadcastTo_1b_ab_apply _ _ r d).trans ?_
  exact congrFun (shapeCast_self mu _) _

/-- The point's update, at column `d`: the carried entry plus the tile's sum over rows of the squared deviation from the mean. -/
theorem pay_apply (x : Spec.A2 2000 128) (mu : Spec.A2 1 128) (acc : Spec.A3 1 1 128) (d : Fin 128) :
    k5_pay2 (F := Ideal) x mu acc (ix3 (0 : Fin 1) (0 : Fin 1) d)
      = acc (ix3 (0 : Fin 1) (0 : Fin 1) d)
        + ∑ r : Fin 2000, (x (ix2 r d) - mu (ix2 (0 : Fin 1) d)) * (x (ix2 r d) - mu (ix2 (0 : Fin 1) d)) := by
  unfold k5_pay2
  dsimp only
  refine (addf_apply _ _ _).trans ?_
  refine congrArg₂ (· + ·) (congrFun (shapeCast_self acc _) _) ?_
  refine (shapeCast_ab_1ab_apply _ _ (0 : Fin 1) (0 : Fin 1) d).trans ?_
  refine (shapeCast_a_1a_apply _ _ (0 : Fin 1) d).trans ?_
  refine (colred_apply _ _ _ _ d).trans ?_
  refine Finset.sum_congr rfl fun r _ => ?_
  refine (mulf_apply _ _ _).trans ?_
  exact congrArg₂ (· * ·) (dev_apply x mu _ _ _ r d) (dev_apply x mu _ _ _ r d)

/-- The zero block at any index is 0. -/
theorem zero_apply (j : S1x1x128.Idx) : k5_pay1 (F := Ideal) j = 0 := by
  unfold k5_pay1
  exact Ideal.ofBits_zero_f32

/-! ## The blocks the points read, as rows and columns of the whole arrays -/

/-- Tile `t` of the features and the mean row as the points read them; the arrays they are blocks of. -/
abbrev tile (c : Dev nD) (t : Fin cfg5.N) : Spec.A2 2000 128 := iblk5 V c 0 t
abbrev meanRow (c : Dev nD) (t : Fin cfg5.N) : Spec.A2 1 128 := iblk5 V c 1 t
abbrev feat (c : Dev nD) : Spec.A2 100000 128 := V c main_call0_v90_0
abbrev meanArr (c : Dev nD) : Spec.A2 1 128 := V c main_call0_v93

/-- The block indices, decided over the grid: point `t` reads tile `t` and the one mean row, and its output block
    is the half `t / 25`. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 3) = t.val / 25 ∧ win5_2.index t (1 : Fin 3) = 0 ∧ win5_2.index t (2 : Fin 3) = 0 :=
  (by decide +kernel : ∀ t : Fin grid5.N, _)

/-- Row `r` of tile `t` is row `2000 t + r` of the features. -/
theorem tile_apply (c : Dev nD) (t : Fin cfg5.N) (r : Fin 2000) (d : Fin 128) (n : Fin 100000)
    (hn : n.val = t.val * 2000 + r.val) : tile V c t (ix2 r d) = feat V c (ix2 n d) := by
  obtain ⟨ea, eb, -⟩ := idx_facts t
  show V c main_call0_v90_0 (((cfg5.win 0).blk t).view.emb (ix2 r d)) = V c main_call0_v90_0 (ix2 n d)
  refine congrArg _ (funext fun a => Fin.ext ?_)
  match a with
  | ⟨0, _⟩ => show win5_0.index t (0 : Fin 2) * 2000 + 1 * r.val = n.val; omega
  | ⟨1, _⟩ => show win5_0.index t (1 : Fin 2) * 128 + 1 * d.val = d.val; omega

/-- The mean row read at any point is the mean array's one row. -/
theorem meanRow_apply (c : Dev nD) (t : Fin cfg5.N) (d : Fin 128) :
    meanRow V c t (ix2 (0 : Fin 1) d) = meanArr V c (ix2 (0 : Fin 1) d) := by
  obtain ⟨-, -, ea, eb, -⟩ := idx_facts t
  show V c main_call0_v93 (((cfg5.win 1).blk t).view.emb (ix2 (0 : Fin 1) d)) = V c main_call0_v93 (ix2 (0 : Fin 1) d)
  refine congrArg _ (funext fun a => Fin.ext ?_)
  match a with
  | ⟨0, _⟩ => show win5_1.index t (0 : Fin 2) * 1 + 1 * 0 = 0; omega
  | ⟨1, _⟩ => show win5_1.index t (1 : Fin 2) * 128 + 1 * d.val = d.val; omega

/-- Tile `n`'s column sum of the squared deviations, read off the whole arrays (0 past the last tile). -/
def tileSum (c : Dev nD) (n : ℕ) (d : Fin 128) : EReal :=
  if h : n < 50 then
    ∑ r : Fin 2000, Spec.sqE (feat V c) (meanArr V c) ⟨n * 2000 + r.val, by have := r.isLt; omega⟩ d
  else 0

/-- A point's update adds its tile's column sums to the carried block. -/
theorem step_apply (c : Dev nD) (t : Fin cfg5.N) (acc : Spec.A3 1 1 128) (d : Fin 128) :
    k5_pay2 (F := Ideal) (tile V c t) (meanRow V c t) acc (ix3 (0 : Fin 1) (0 : Fin 1) d)
      = acc (ix3 (0 : Fin 1) (0 : Fin 1) d) + tileSum V c t.val d := by
  have hN : t.val < 50 := lt_of_lt_of_eq t.isLt (show cfg5.N = 50 from N_5)
  refine (pay_apply (tile V c t) (meanRow V c t) acc d).trans ?_
  unfold tileSum
  rw [dif_pos hN]
  refine congrArg _ (Finset.sum_congr rfl fun r _ => ?_)
  have e := tile_apply V c t r d ⟨t.val * 2000 + r.val, by have := r.isLt; omega⟩ rfl
  have e' := meanRow_apply V c t d
  unfold Spec.sqE
  rw [e, e']

/-! ## The carried block after each point: the sum of the half's tiles so far -/

/-- At a resetting point the carried block is that point's tile sum alone. -/
theorem at_reset (c : Dev nD) (n : ℕ) (hn : n < cfg5.N) (h0 : n % 25 = 0) (d : Fin 128) :
    (outsAt5 V c n hn : Spec.A3 1 1 128) (ix3 (0 : Fin 1) (0 : Fin 1) d) = tileSum V c n d := by
  refine (congrFun (outsAt5_A V c ⟨n, hn⟩ h0) _).trans ?_
  refine (congrFun (out_A c (grid5.coords ⟨n, hn⟩) (ms5_0 ⟨n, hn⟩) (hs5_0 ⟨n, hn⟩) (ms5_1 ⟨n, hn⟩) (hs5_1 ⟨n, hn⟩)
    (ms5_2 ⟨n, hn⟩) (hs5_2 ⟨n, hn⟩) ((hcond5_0 ⟨n, hn⟩).mpr h0) (iblk5 V c 0 ⟨n, hn⟩) (iblk5 V c 1 ⟨n, hn⟩)) _).trans ?_
  refine (step_apply V c ⟨n, hn⟩ (k5_pay1 (F := Ideal)) d).trans ?_
  rw [zero_apply, zero_add]

/-- At every other point it is what the point before left plus that point's tile sum. -/
theorem at_step (c : Dev nD) (n : ℕ) (hn : n + 1 < cfg5.N) (h0 : ¬(n + 1) % 25 = 0) (d : Fin 128) :
    (outsAt5 V c (n + 1) hn : Spec.A3 1 1 128) (ix3 (0 : Fin 1) (0 : Fin 1) d)
      = (outsAt5 V c n (Nat.lt_of_succ_lt hn) : Spec.A3 1 1 128) (ix3 (0 : Fin 1) (0 : Fin 1) d) + tileSum V c (n + 1) d := by
  refine (congrFun (outsAt5_B V c ⟨n + 1, hn⟩ h0) _).trans ?_
  refine (congrFun (out_B c (grid5.coords ⟨n + 1, hn⟩) (ms5_0 ⟨n + 1, hn⟩) (hs5_0 ⟨n + 1, hn⟩) (ms5_1 ⟨n + 1, hn⟩) (hs5_1 ⟨n + 1, hn⟩)
    (ms5_2 ⟨n + 1, hn⟩) (hs5_2 ⟨n + 1, hn⟩) (fun h => h0 ((hcond5_0 ⟨n + 1, hn⟩).mp h)) (iblk5 V c 0 ⟨n + 1, hn⟩) (iblk5 V c 1 ⟨n + 1, hn⟩)
    (outsAt5 V c n (Nat.lt_of_succ_lt hn))) _).trans ?_
  exact step_apply V c ⟨n + 1, hn⟩ (outsAt5 V c n (Nat.lt_of_succ_lt hn)) d

/-- So after point `n` the carried block holds, at column `d`, the sum of the tile sums of the half's tiles up to `n`:
    the additions in point order are the finite sum. -/
theorem carried_eq (c : Dev nD) : ∀ (n : ℕ) (hn : n < cfg5.N) (d : Fin 128),
    (outsAt5 V c n hn : Spec.A3 1 1 128) (ix3 (0 : Fin 1) (0 : Fin 1) d)
      = ∑ s ∈ Finset.range (n % 25 + 1), tileSum V c (n - n % 25 + s) d
  | 0, hn, d => by
    rw [at_reset V c 0 hn rfl d]
    simp only [Nat.zero_mod, Nat.zero_add, Nat.sub_zero, Finset.sum_range_one]
  | n + 1, hn, d => by
    by_cases h0 : (n + 1) % 25 = 0
    · rw [at_reset V c (n + 1) hn h0 d, h0]
      simp only [Nat.zero_add, Nat.sub_zero, Finset.sum_range_one, Nat.add_zero]
    · have hm : (n + 1) % 25 = n % 25 + 1 := by omega
      have hb : n + 1 - (n % 25 + 1) = n - n % 25 := by omega
      have hl : n - n % 25 + (n % 25 + 1) = n + 1 := by omega
      rw [at_step V c n hn h0 d, carried_eq c n (Nat.lt_of_succ_lt hn) d, hm, hb, Finset.sum_range_succ _ (n % 25 + 1), hl]

/-! ## The written-back blocks and the array -/

/-- What the array is to end holding: each half's partial column sums of the squared deviations. -/
abbrev target (c : Dev nD) : Spec.A3 2 1 128 := Spec.psumA (Spec.sq (feat V c) (meanArr V c))

/-- The sum of a half's 25 tile sums is its partial sum: tile `25 q + i`'s rows are the rows `rowOf q i r`. -/
theorem half_eq (c : Dev nD) (q : Fin 2) (d : Fin 128) :
    ∑ s ∈ Finset.range 25, tileSum V c (25 * q.val + s) d = Spec.psum (Spec.sq (feat V c) (meanArr V c)) q d := by
  have hq : q.val < 2 := q.isLt
  rw [Finset.sum_range]
  unfold Spec.psum
  refine Finset.sum_congr rfl fun i _ => ?_
  have hi : i.val < 25 := i.isLt
  unfold tileSum
  rw [dif_pos (by omega)]
  refine Finset.sum_congr rfl fun r _ => ?_
  show Spec.sqE (feat V c) (meanArr V c) _ d = Spec.sqE (feat V c) (meanArr V c) (Spec.rowOf q i r) d
  exact congrArg (fun n => Spec.sqE (feat V c) (meanArr V c) n d) (Fin.ext rfl)

/-- A point that writes its block back is the last of its half (`t % 25 = 24`), and what it writes is block
    `t / 25` of the target: the carried block then holds all 25 tile sums of the half. -/
theorem flushed_eq (c : Dev nD) (t : Fin cfg5.N) (hf : (cfg5.win 2).flush t = true) :
    (dat5 (F := Ideal) V c).flushed 2 t = ((cfg5.win 2).blk t).view.read (Elt Ideal) (target V c) := by
  have hl : t.val % 25 = 24 := (flush5_2 t).mp hf
  have hN : t.val < 50 := lt_of_lt_of_eq t.isLt (show cfg5.N = 50 from N_5)
  obtain ⟨-, -, -, -, ea, eb, ec⟩ := idx_facts t
  show (cfg5.win 2).cut (grid5.coords t) ((dat5 V c).after 2 t) = _
  rw [after5_2]
  funext y
  have hya : (y 0).val < 1 := (y 0).isLt
  have hyb : (y 1).val < 1 := (y 1).isLt
  have hyc : (y 2).val < 128 := (y 2).isLt
  have ey : (cfg5.win 2).xinj (grid5.coords t) y = ix3 (0 : Fin 1) (0 : Fin 1) (⟨(y 2).val, hyc⟩ : Fin 128) :=
    funext fun a => Fin.ext (by
      match a with
      | ⟨0, _⟩ => show (y 0).val = 0; omega
      | ⟨1, _⟩ => show (y 1).val = 0; omega
      | ⟨2, _⟩ => rfl)
  have eemb : ((cfg5.win 2).blk t).view.emb y
      = ix3 (⟨t.val / 25, by omega⟩ : Fin 2) (0 : Fin 1) (⟨(y 2).val, hyc⟩ : Fin 128) :=
    funext fun a => Fin.ext (by
      match a with
      | ⟨0, _⟩ => show win5_2.index t (0 : Fin 3) * 1 + 1 * (y 0).val = t.val / 25; omega
      | ⟨1, _⟩ => show win5_2.index t (1 : Fin 3) * 1 + 1 * (y 1).val = 0; omega
      | ⟨2, _⟩ => show win5_2.index t (2 : Fin 3) * 128 + 1 * (y 2).val = (y 2).val; omega)
  show (outsAt5 V c t.val t.isLt : Spec.A3 1 1 128) ((cfg5.win 2).xinj (grid5.coords t) y)
    = target V c (((cfg5.win 2).blk t).view.emb y)
  rw [ey, eemb, carried_eq V c t.val t.isLt, hl, show t.val - 24 = 25 * (t.val / 25) from by omega]
  exact half_eq V c ⟨t.val / 25, by omega⟩ ⟨(y 2).val, hyc⟩

/-- Region 5: half c's block accumulates, tile by tile, the column sums of the squared deviations from the mean. -/
theorem arr5 (c : Dev nD) : (dat5 (F := Ideal) V c).arrAt 2 cfg5.N
    = Spec.psumA (Spec.sq (V c main_call0_v90_0) (V c main_call0_v93)) :=
  (dat5 (F := Ideal) V c).arrAt_eq_of_cover 2 (target V c) (flushed_eq V c) fun i => by
    have hia : (i 0).val < 2 := (i 0).isLt
    have hib : (i 1).val < 1 := (i 1).isLt
    have hic : (i 2).val < 128 := (i 2).isLt
    have hN : cfg5.N = 50 := N_5
    have hlast : 25 * (i 0).val + 24 < cfg5.N := by omega
    obtain ⟨-, -, -, -, ea, eb, ec⟩ := idx_facts ⟨25 * (i 0).val + 24, hlast⟩
    refine ⟨⟨25 * (i 0).val + 24, hlast⟩, (flush5_2 _).mpr (by show (25 * (i 0).val + 24) % 25 = 24; omega), ?_⟩
    show i ∈ ((View.whole main_call0_v94).slice (win5_2.rect ⟨25 * (i 0).val + 24, hlast⟩)).set
    rw [View.set_slice_whole, Rect.mem_set_unit]
    intro a
    match a with
    | ⟨0, _⟩ =>
      show win5_2.index ⟨25 * (i 0).val + 24, hlast⟩ (0 : Fin 3) * 1 ≤ (i 0).val
        ∧ (i 0).val < win5_2.index ⟨25 * (i 0).val + 24, hlast⟩ (0 : Fin 3) * 1 + 1
      rw [ea]; show (25 * (i 0).val + 24) / 25 * 1 ≤ (i 0).val ∧ (i 0).val < (25 * (i 0).val + 24) / 25 * 1 + 1; omega
    | ⟨1, _⟩ =>
      show win5_2.index ⟨25 * (i 0).val + 24, hlast⟩ (1 : Fin 3) * 1 ≤ (i 1).val
        ∧ (i 1).val < win5_2.index ⟨25 * (i 0).val + 24, hlast⟩ (1 : Fin 3) * 1 + 1
      omega
    | ⟨2, _⟩ =>
      show win5_2.index ⟨25 * (i 0).val + 24, hlast⟩ (2 : Fin 3) * 128 ≤ (i 2).val
        ∧ (i 2).val < win5_2.index ⟨25 * (i 0).val + 24, hlast⟩ (2 : Fin 3) * 128 + 128
      omega

end Cert.KernelIdeal.K5

end
-- ==== Proof.K6.lean ====
import proofs.«420895_j26731876451141_3_alg».proof.Proof.Gen.KernelIdeal.Frame
import proofs.«420895_j26731876451141_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.K6

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Facts₀ Cert.KernelIdeal.Facts

/-- The zero offsets of a whole-block access, as the constant function. -/
theorem hz : (![0, 0] : Fin 2 → Nat) = fun _ => 0 := funext fun a => by fin_cases a <;> rfl

/-! ## The matrix product of a tile with the 128 x 128 matrix, at an entry

The contraction runs over the tile's columns and the matrix's rows: entry (p, d) of the product reads the tile at
(p, k) and the matrix at (k, d), k the one contracted coordinate. -/

theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at entry (p, d): the sum over k of tile (p, k) times matrix (k, d). -/
theorem mm_apply (x : FVec Ideal S2000x128 .f32) (w : FVec Ideal S128x128 .f32) (p : Fin 2000) (d : Fin 128) :
    matmul dot_S2000x128_S128x128_S2000x128_1_0_0_1_n_n (some .fp32) x w (constant (F := Ideal) S2000x128 .f32 0x00000000#32) (ix2 p d)
      = ∑ k : Fin 128, x (ix2 p k) * w (ix2 k d) := by
  refine (Ideal.matmul_constant_zero_apply dot_S2000x128_S128x128_S2000x128_1_0_0_1_n_n (some .fp32) x w (ix2 p d)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p d) ((ValueIdx.contrEquiv1 dot_S2000x128_S128x128_S2000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 p d) ((ValueIdx.contrEquiv1 dot_S2000x128_S128x128_S2000x128_1_0_0_1_n_n 128 rfl rfl).symm k) = ix2 k d := funext fun a => Fin.ext (by
    match a with
    | ⟨0, _⟩ => exact (rhs_mm_0 _ _).trans hk
    | ⟨1, _⟩ => exact rhs_mm_1 _ _)
  rw [el, er]

/-! ## The body's arithmetic at an entry

Entry (p, d) of what the body stores: the sum over k of the clipped, normalised tile entry (p, k) times the matrix
entry (k, d); the four rows (mean, inverse deviation, scale, shift) are read at (0, k), each broadcast down the tile. -/

theorem pay_apply (x0 : Vec Ideal S2000x128 .f32) (x1 x2 x3 x4 : Vec Ideal S1x128 .f32) (x5 : Vec Ideal S128x128 .f32)
    (p : Fin 2000) (d : Fin 128) :
    k6_pay1 (F := Ideal) x0 x1 x2 x3 x4 x5 (ix2 p d)
      = ∑ k : Fin 128, max ((x0 (ix2 p k) - x1 (ix2 0 k)) * x2 (ix2 0 k) * x3 (ix2 0 k) + x4 (ix2 0 k)) Spec.z * x5 (ix2 k d) := by
  unfold k6_pay1
  refine (mm_apply _ _ p d).trans ?_
  refine Finset.sum_congr rfl fun k _ => ?_
  simp only [maximumf_apply, addf_apply, mulf_apply, subf_apply, broadcast_apply, shapeCast_self, broadcastTo_1b_ab_apply]
  rfl

/-! ## The printed index maps, decided over the 50 grid points

The tile window and the output window sit at block (t, 0); the four rows and the matrix at block (0, 0). -/

theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-! ## The specification's array at one tile

Over abstract blocks: if the tile block holds rows T * 2000 + p of the features and the other blocks are the whole
rows and the whole matrix, the body's entry (p, q) is the specification's entry (T * 2000 + p, q). -/

theorem point_eq (h : Spec.A2 100000 128) (mu is ga be : Spec.A2 1 128) (w : Spec.A2 128 128)
    (x0 : Vec Ideal S2000x128 .f32) (x1 x2 x3 x4 : Vec Ideal S1x128 .f32) (x5 : Vec Ideal S128x128 .f32)
    (T : Nat)
    (e0 : ∀ (p : Fin 2000) (k : Fin 128) (n : Fin 100000), n.val = T * 2000 + p.val → x0 (ix2 p k) = h (ix2 n k))
    (e1 : x1 = mu) (e2 : x2 = is) (e3 : x3 = ga) (e4 : x4 = be) (e5 : x5 = w)
    (p : Fin 2000) (q : Fin 128) (n : Fin 100000) (hn : n.val = T * 2000 + p.val) :
    k6_pay1 (F := Ideal) x0 x1 x2 x3 x4 x5 (ix2 p q) = Spec.mm (Spec.y h mu is ga be) w (ix2 n q) := by
  subst e1 e2 e3 e4 e5
  refine (pay_apply x0 x1 x2 x3 x4 x5 p q).trans ?_
  show _ = ∑ k : Fin 128, Spec.yE h x1 x2 x3 x4 n k * x5 (ix2 k q)
  refine Finset.sum_congr rfl fun k _ => ?_
  rw [e0 p k n hn]
  rfl

-- the buffer contents when the region is entered: any
variable (V : (c : Dev nD) → (b : Ref sig .tc) → Buf (Elt Ideal) ((c : Thread nD τ).loc b))

/-! ## Each input block as rows of its array

A block's coordinate is block index times block size plus the coordinate inside the block. -/

/-- The tile block at point t holds rows t * 2000 + p of the features. -/
theorem tile_apply (c : Dev nD) (t : Fin cfg6.N) (x : S2000x128.Idx) (k : S100000x128.Idx)
    (hk0 : (k 0).val = t.val * 2000 + (x 0).val) (hk1 : (k 1).val = (x 1).val) :
    (iblk6 (F := Ideal) V c 0 t : Vec Ideal S2000x128 .f32) x = (V c main_call0_v90_0 : S100000x128.Idx → EReal) k := by
  obtain ⟨e00, e01, -⟩ := idx_facts t
  unfold iblk6
  rw [View.read_apply]
  have hk : ((cfg6.win 0).blk t).view.emb x = k := by
    funext a; apply Fin.ext
    match a with
    | ⟨0, _⟩ => show win6_0.index t (0 : Fin 2) * 2000 + 1 * (x 0).val = (k 0).val; rw [e00, hk0]; omega
    | ⟨1, _⟩ => show win6_0.index t (1 : Fin 2) * 128 + 1 * (x 1).val = (k 1).val; rw [e01, hk1]; omega
  show V c main_call0_v90_0 (((cfg6.win 0).blk t).view.emb x) = V c main_call0_v90_0 k
  rw [hk]

/-- The mean's block is the whole row. -/
theorem mean_row_eq (c : Dev nD) (t : Fin cfg6.N) :
    (iblk6 (F := Ideal) V c 1 t : Vec Ideal S1x128 .f32) = (V c main_call0_v93 : S1x128.Idx → EReal) := by
  obtain ⟨-, -, e0, e1, -⟩ := idx_facts t
  funext x
  unfold iblk6
  rw [View.read_apply]
  have hk : ((cfg6.win 1).blk t).view.emb x = x := by
    funext a; apply Fin.ext
    match a with
    | ⟨0, _⟩ => show win6_1.index t (0 : Fin 2) * 1 + 1 * (x 0).val = (x 0).val; rw [e0]; omega
    | ⟨1, _⟩ => show win6_1.index t (1 : Fin 2) * 128 + 1 * (x 1).val = (x 1).val; rw [e1]; omega
  show V c main_call0_v93 (((cfg6.win 1).blk t).view.emb x) = V c main_call0_v93 x
  rw [hk]

/-- The inverse deviation's block is the whole row. -/
theorem istd_row_eq (c : Dev nD) (t : Fin cfg6.N) :
    (iblk6 (F := Ideal) V c 2 t : Vec Ideal S1x128 .f32) = (V c main_call0_v100 : S1x128.Idx → EReal) := by
  obtain ⟨-, -, -, -, e0, e1, -⟩ := idx_facts t
  funext x
  unfold iblk6
  rw [View.read_apply]
  have hk : ((cfg6.win 2).blk t).view.emb x = x := by
    funext a; apply Fin.ext
    match a with
    | ⟨0, _⟩ => show win6_2.index t (0 : Fin 2) * 1 + 1 * (x 0).val = (x 0).val; rw [e0]; omega
    | ⟨1, _⟩ => show win6_2.index t (1 : Fin 2) * 128 + 1 * (x 1).val = (x 1).val; rw [e1]; omega
  show V c main_call0_v100 (((cfg6.win 2).blk t).view.emb x) = V c main_call0_v100 x
  rw [hk]

/-- The scale's block is the whole row. -/
theorem scale_row_eq (c : Dev nD) (t : Fin cfg6.N) :
    (iblk6 (F := Ideal) V c 3 t : Vec Ideal S1x128 .f32) = (V c main_call0_v86 : S1x128.Idx → EReal) := by
  obtain ⟨-, -, -, -, -, -, e0, e1, -⟩ := idx_facts t
  funext x
  unfold iblk6
  rw [View.read_apply]
  have hk : ((cfg6.win 3).blk t).view.emb x = x := by
    funext a; apply Fin.ext
    match a with
    | ⟨0, _⟩ => show win6_3.index t (0 : Fin 2) * 1 + 1 * (x 0).val = (x 0).val; rw [e0]; omega
    | ⟨1, _⟩ => show win6_3.index t (1 : Fin 2) * 128 + 1 * (x 1).val = (x 1).val; rw [e1]; omega
  show V c main_call0_v86 (((cfg6.win 3).blk t).view.emb x) = V c main_call0_v86 x
  rw [hk]

/-- The shift's block is the whole row. -/
theorem shift_row_eq (c : Dev nD) (t : Fin cfg6.N) :
    (iblk6 (F := Ideal) V c 4 t : Vec Ideal S1x128 .f32) = (V c main_call0_v89 : S1x128.Idx → EReal) := by
  obtain ⟨-, -, -, -, -, -, -, -, e0, e1, -⟩ := idx_facts t
  funext x
  unfold iblk6
  rw [View.read_apply]
  have hk : ((cfg6.win 4).blk t).view.emb x = x := by
    funext a; apply Fin.ext
    match a with
    | ⟨0, _⟩ => show win6_4.index t (0 : Fin 2) * 1 + 1 * (x 0).val = (x 0).val; rw [e0]; omega
    | ⟨1, _⟩ => show win6_4.index t (1 : Fin 2) * 128 + 1 * (x 1).val = (x 1).val; rw [e1]; omega
  show V c main_call0_v89 (((cfg6.win 4).blk t).view.emb x) = V c main_call0_v89 x
  rw [hk]

/-- The matrix's block is the whole matrix. -/
theorem mat_eq (c : Dev nD) (t : Fin cfg6.N) :
    (iblk6 (F := Ideal) V c 5 t : Vec Ideal S128x128 .f32) = (V c main_call0_v102 : S128x128.Idx → EReal) := by
  obtain ⟨-, -, -, -, -, -, -, -, -, -, e0, e1, -⟩ := idx_facts t
  funext x
  unfold iblk6
  rw [View.read_apply]
  have hk : ((cfg6.win 5).blk t).view.emb x = x := by
    funext a; apply Fin.ext
    match a with
    | ⟨0, _⟩ => show win6_5.index t (0 : Fin 2) * 128 + 1 * (x 0).val = (x 0).val; rw [e0]; omega
    | ⟨1, _⟩ => show win6_5.index t (1 : Fin 2) * 128 + 1 * (x 1).val = (x 1).val; rw [e1]; omega
  show V c main_call0_v102 (((cfg6.win 5).blk t).view.emb x) = V c main_call0_v102 x
  rw [hk]

/-! ## What a point writes back is its tile of the specification's array -/

theorem flushed_eq (c : Dev nD) (t : Fin cfg6.N) :
    (dat6 (F := Ideal) V c).flushed 6 t = ((cfg6.win 6).blk t).view.read (Elt Ideal)
      (Spec.mm (Spec.y (V c main_call0_v90_0) (V c main_call0_v93) (V c main_call0_v100) (V c main_call0_v86) (V c main_call0_v89))
        (V c main_call0_v102)) := by
  show (cfg6.win 6).cut (grid6.coords t) ((dat6 V c).after 6 t) = _
  rw [after6_6]
  unfold out6_6
  rw [View.canon_unit_zero hz]
  simp only [View.ld_unit_zero (S := S2000x128) hz, View.ld_unit_zero (S := S1x128) hz, View.ld_unit_zero (S := S128x128) hz]
  obtain ⟨-, -, -, -, -, -, -, -, -, -, -, -, e0, e1⟩ := idx_facts t
  funext j
  obtain ⟨p, q, rfl⟩ : ∃ (p : Fin 2000) (q : Fin 128), j = ix2 p q := ⟨j 0, j 1, eq_ix2 j⟩
  rw [View.read_apply]
  have hN : cfg6.N = 50 := N_6
  have ht : t.val < 50 := hN ▸ t.isLt
  have hk : ((cfg6.win 6).blk t).view.emb (ix2 p q) = (ix2 (⟨t.val * 2000 + p.val, by omega⟩ : Fin 100000) q : S100000x128.Idx) := by
    funext a; apply Fin.ext
    match a with
    | ⟨0, _⟩ => show win6_6.index t (0 : Fin 2) * 2000 + 1 * p.val = t.val * 2000 + p.val; rw [e0]; omega
    | ⟨1, _⟩ => show win6_6.index t (1 : Fin 2) * 128 + 1 * q.val = q.val; rw [e1]; omega
  rw [hk]
  exact point_eq (V c main_call0_v90_0) (V c main_call0_v93) (V c main_call0_v100) (V c main_call0_v86) (V c main_call0_v89) (V c main_call0_v102)
    (iblk6 V c 0 t) (iblk6 V c 1 t) (iblk6 V c 2 t) (iblk6 V c 3 t) (iblk6 V c 4 t) (iblk6 V c 5 t) t.val
    (fun p' k n hn => tile_apply V c t (ix2 p' k) (ix2 n k) hn rfl)
    (mean_row_eq V c t) (istd_row_eq V c t) (scale_row_eq V c t) (shift_row_eq V c t) (mat_eq V c t)
    p q ⟨t.val * 2000 + p.val, by omega⟩ rfl

/-! ## The tiles cover the array: row r is in the tile of point r / 2000 -/

/-- An index of the array is in point t's tile iff each coordinate is in the tile's range on its axis. -/
theorem mem_blk (t : Fin cfg6.N) (i : S100000x128.Idx) :
    i ∈ ((cfg6.win 6).blk t).view.set ↔ ∀ a : Fin 2, win6_6.index t a * S2000x128.size a ≤ (i a).val ∧ (i a).val < win6_6.index t a * S2000x128.size a + S2000x128.size a := by
  show i ∈ ((View.whole main_call0_v103).slice (win6_6.rect t)).set ↔ _
  rw [View.set_slice_whole, Rect.mem_set_unit]
  exact Iff.rfl

theorem cover (i : S100000x128.Idx) :
    ∃ t : Fin cfg6.N, (cfg6.win 6).flush t = true ∧ i ∈ ((cfg6.win 6).blk t).view.set := by
  have hi0 : (i 0).val < 100000 := (i 0).isLt
  have hi1 : (i 1).val < 128 := (i 1).isLt
  have hN : cfg6.N = 50 := N_6
  obtain ⟨t, ht⟩ : ∃ t : Fin cfg6.N, t.val = (i 0).val / 2000 := ⟨⟨(i 0).val / 2000, by rw [hN]; omega⟩, rfl⟩
  obtain ⟨-, -, -, -, -, -, -, -, -, -, -, -, e0, e1⟩ := idx_facts t
  refine ⟨t, flush6_6 t, ?_⟩
  rw [mem_blk]
  intro a
  match a with
  | ⟨0, _⟩ => show win6_6.index t (0 : Fin 2) * 2000 ≤ (i 0).val ∧ (i 0).val < win6_6.index t (0 : Fin 2) * 2000 + 2000; rw [e0, ht]; omega
  | ⟨1, _⟩ => show win6_6.index t (1 : Fin 2) * 128 ≤ (i 1).val ∧ (i 1).val < win6_6.index t (1 : Fin 2) * 128 + 128; rw [e1]; omega

/-- Region 6: each tile is normalised, scaled, shifted, clipped at zero and multiplied by the next layer's matrix. -/
theorem arr6 (c : Dev nD) : (dat6 (F := Ideal) V c).arrAt 6 cfg6.N
    = Spec.mm (Spec.y (V c main_call0_v90_0) (V c main_call0_v93) (V c main_call0_v100) (V c main_call0_v86) (V c main_call0_v89))
        (V c main_call0_v102) :=
  (dat6 (F := Ideal) V c).arrAt_eq_of_cover 6 _ (fun t _ => flushed_eq V c t) cover

end Cert.KernelIdeal.K6

end
-- ==== Proof.K1.lean ====
/-
  Region 1: every tile of the features is agg + h_lin * sw + bias, and each half's carried row ends at that half's
  column sums of the features.
-/
import proofs.«420895_j26731876451141_3_alg».proof.Proof.Gen.KernelIdeal.Frame
import proofs.«420895_j26731876451141_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.K1

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Facts₀ Cert.KernelIdeal.Facts

section Pieces
variable {F : FTy → Type} [FloatOps F]

theorem hzB : (![0, 0] : Fin 2 → Nat) = fun _ => 0 := funext fun a => by fin_cases a <;> rfl
theorem hzC : (![0, 0, 0] : Fin 3 → Nat) = fun _ => 0 := funext fun a => by fin_cases a <;> rfl

theorem outAFeat_eq (c : Dev nD) (i : grid1.Coords) (ma : Memref sig .tc .vmem S2000x128 .f32) (wa : ma.IsWhole) (mb : Memref sig .tc .vmem S2000x128 .f32) (wb : mb.IsWhole) (mc : Memref sig .tc .vmem S2000x1 .f32) (wc : mc.IsWhole) (md : Memref sig .tc .vmem S1x128 .f32) (wd : md.IsWhole) (me : Memref sig .tc .vmem S2000x128 .f32) (we : me.IsWhole) (mf : Memref sig .tc .vmem S1x1x128 .f32) (wf : mf.IsWhole) (hc : cond1_0 i)
    (xa : Vec F S2000x128 .f32) (xb : Vec F S2000x128 .f32) (xc : Vec F S2000x1 .f32) (xd : Vec F S1x128 .f32) :
    out1_A_4 c i ma wa mb wb mc wc md wd me we mf wf hc xa xb xc xd = k1_pay2 xa xb xc xd := by
  unfold out1_A_4
  rw [View.read_writes_eq_canon _ _ _ (cover1_A_4 c i ma wa mb wb mc wc md wd me we mf wf hc xa xb xc xd)]
  unfold kernelRun1_A
  dsimp only
  sl_unfold_words
  rw [View.canon_unit_zero hzB]
  simp only [View.readAt_eq_ld, wa.read_unread, wb.read_unread, wc.read_unread, wd.read_unread,
    View.ld_unit_zero (S := S2000x128) hzB, View.ld_unit_zero (S := S2000x1) hzB, View.ld_unit_zero (S := S1x128) hzB]

theorem outBFeat_eq (c : Dev nD) (i : grid1.Coords) (ma : Memref sig .tc .vmem S2000x128 .f32) (wa : ma.IsWhole) (mb : Memref sig .tc .vmem S2000x128 .f32) (wb : mb.IsWhole) (mc : Memref sig .tc .vmem S2000x1 .f32) (wc : mc.IsWhole) (md : Memref sig .tc .vmem S1x128 .f32) (wd : md.IsWhole) (me : Memref sig .tc .vmem S2000x128 .f32) (we : me.IsWhole) (mf : Memref sig .tc .vmem S1x1x128 .f32) (wf : mf.IsWhole) (hc : ¬cond1_0 i)
    (xa : Vec F S2000x128 .f32) (xb : Vec F S2000x128 .f32) (xc : Vec F S2000x1 .f32) (xd : Vec F S1x128 .f32) (xo : Vec F S1x1x128 .f32) :
    out1_B_4 c i ma wa mb wb mc wc md wd me we mf wf hc xa xb xc xd xo = k1_pay2 xa xb xc xd := by
  unfold out1_B_4
  rw [View.read_writes_eq_canon _ _ _ (cover1_B_4 c i ma wa mb wb mc wc md wd me we mf wf hc xa xb xc xd xo)]
  unfold kernelRun1_B
  dsimp only
  sl_unfold_words
  rw [View.canon_unit_zero hzB]
  simp only [View.readAt_eq_ld, wa.read_unread, wb.read_unread, wc.read_unread, wd.read_unread,
    View.ld_unit_zero (S := S2000x128) hzB, View.ld_unit_zero (S := S2000x1) hzB, View.ld_unit_zero (S := S1x128) hzB]

theorem outBSum_eq (c : Dev nD) (i : grid1.Coords) (ma : Memref sig .tc .vmem S2000x128 .f32) (wa : ma.IsWhole) (mb : Memref sig .tc .vmem S2000x128 .f32) (wb : mb.IsWhole) (mc : Memref sig .tc .vmem S2000x1 .f32) (wc : mc.IsWhole) (md : Memref sig .tc .vmem S1x128 .f32) (wd : md.IsWhole) (me : Memref sig .tc .vmem S2000x128 .f32) (we : me.IsWhole) (mf : Memref sig .tc .vmem S1x1x128 .f32) (wf : mf.IsWhole) (hc : ¬cond1_0 i)
    (xa : Vec F S2000x128 .f32) (xb : Vec F S2000x128 .f32) (xc : Vec F S2000x1 .f32) (xd : Vec F S1x128 .f32) (xo : Vec F S1x1x128 .f32) :
    out1_B_5 c i ma wa mb wb mc wc md wd me we mf wf hc xa xb xc xd xo = k1_pay3 xa xb xc xd xo := by
  unfold out1_B_5
  rw [View.read_writes_eq_canon _ _ _ (cover1_B_5 c i ma wa mb wb mc wc md wd me we mf wf hc xa xb xc xd xo)]
  unfold kernelRun1_B
  dsimp only
  sl_unfold_words
  rw [View.canon_unit_zero hzC]
  simp only [View.readAt_eq_ld, wa.read_unread, wb.read_unread, wc.read_unread, wd.read_unread, wf.read_unread,
    View.ld_unit_zero (S := S2000x128) hzB, View.ld_unit_zero (S := S2000x1) hzB, View.ld_unit_zero (S := S1x128) hzB,
    View.ld_unit_zero (S := S1x1x128) hzC]

theorem outASum_eq (c : Dev nD) (i : grid1.Coords) (ma : Memref sig .tc .vmem S2000x128 .f32) (wa : ma.IsWhole) (mb : Memref sig .tc .vmem S2000x128 .f32) (wb : mb.IsWhole) (mc : Memref sig .tc .vmem S2000x1 .f32) (wc : mc.IsWhole) (md : Memref sig .tc .vmem S1x128 .f32) (wd : md.IsWhole) (me : Memref sig .tc .vmem S2000x128 .f32) (we : me.IsWhole) (mf : Memref sig .tc .vmem S1x1x128 .f32) (wf : mf.IsWhole) (hc : cond1_0 i)
    (xa : Vec F S2000x128 .f32) (xb : Vec F S2000x128 .f32) (xc : Vec F S2000x1 .f32) (xd : Vec F S1x128 .f32) :
    out1_A_5 c i ma wa mb wb mc wc md wd me we mf wf hc xa xb xc xd = k1_pay3 xa xb xc xd (k1_pay1 (F := F)) := by
  unfold out1_A_5
  rw [View.read_writes_eq_canon _ _ _ (cover1_A_5 c i ma wa mb wb mc wc md wd me we mf wf hc xa xb xc xd)]
  unfold kernelRun1_A
  dsimp only
  sl_unfold_words
  rw [View.canon_cons_unit_zero (S := S1x1x128) hzC, View.readCov_unit_zero (S := S1x1x128) _ hzC]
  simp only [View.readAt_eq_ld, wa.read_unread, wb.read_unread, wc.read_unread, wd.read_unread,
    View.ld_unit_zero (S := S2000x128) hzB, View.ld_unit_zero (S := S2000x1) hzB, View.ld_unit_zero (S := S1x128) hzB]

end Pieces

section Payload

theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem featPay_apply (xa xb : FVec Ideal S2000x128 .f32) (xc : FVec Ideal S2000x1 .f32) (xd : FVec Ideal S1x128 .f32)
    (r : Fin 2000) (d : Fin 128) :
    k1_pay2 (F := Ideal) xa xb xc xd (ix2 r d) = xa (ix2 r d) + xb (ix2 r d) * xc (ix2 r 0) + xd (ix2 0 d) := by
  unfold k1_pay2
  simp only [shapeCast_self]
  show xa (ix2 r d) + xb (ix2 r d) * broadcastTo S2000x128 xc _ (ix2 r d) + broadcastTo S2000x128 xd _ (ix2 r d) = _
  rw [broadcastTo_col_apply, broadcastTo_1b_ab_apply]

theorem colRed_apply (src : FVec Ideal S2000x128 .f32) (h : S2000x128.Reduces [0] S128) (hφ : FKind.Formats .f32)
    (hacc : (0x00000000#32 : BitVec 32) = FKind.add.neutral .f32 hφ) (d : Fin 128) :
    multiReduction .add [0] S128 src 0x00000000#32 h hφ hacc (ix1 d) = ∑ r : Fin 2000, src (ix2 r d) := by
  refine (Ideal.multiReduction_add_single src 0x00000000#32 h hφ hacc (ix1 d)).trans ?_
  refine Finset.sum_congr rfl fun k _ => congrArg src ?_
  funext a
  match a with
  | ⟨0, _⟩ => rfl
  | ⟨1, _⟩ => rfl

theorem sumPay_apply (xa xb : FVec Ideal S2000x128 .f32) (xc : FVec Ideal S2000x1 .f32) (xd : FVec Ideal S1x128 .f32)
    (xo : FVec Ideal S1x1x128 .f32) (u v : Fin 1) (d : Fin 128) :
    k1_pay3 (F := Ideal) xa xb xc xd xo (ix3 u v d)
      = xo (ix3 u v d) + ∑ r : Fin 2000, k1_pay2 (F := Ideal) xa xb xc xd (ix2 r d) := by
  unfold k1_pay3
  simp only [shapeCast_self]
  show xo (ix3 u v d) + shapeCast S1x1x128 (shapeCast S1x128 (multiReduction .add [0] S128 (k1_pay2 (F := Ideal) xa xb xc xd) 0x00000000#32 _ _ _) _) _ (ix3 u v d) = _
  rw [shapeCast_ab_1ab_apply, shapeCast_a_1a_apply]
  exact congrArg (xo (ix3 u v d) + ·) (colRed_apply (k1_pay2 (F := Ideal) xa xb xc xd) _ _ _ d)

end Payload

variable (V : (c : Dev nD) → (b : Ref sig .tc) → Buf (Elt Ideal) ((c : Thread nD τ).loc b))

def tileRow (n : Nat) (r : Fin 2000) : Fin 100000 := ⟨(n * 2000 + r.val) % 100000, Nat.mod_lt _ (by decide)⟩

theorem idxFacts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 3) = t.val / 25 ∧ win1_5.index t (1 : Fin 3) = 0 ∧ win1_5.index t (2 : Fin 3) = 0 :=
  (by decide +kernel : ∀ t : Fin grid1.N, _)

abbrev aggBlk (c : Dev nD) (t : Fin cfg1.N) : FVec Ideal S2000x128 .f32 := iblk1 V c 0 t
abbrev linBlk (c : Dev nD) (t : Fin cfg1.N) : FVec Ideal S2000x128 .f32 := iblk1 V c 1 t
abbrev swBlk (c : Dev nD) (t : Fin cfg1.N) : FVec Ideal S2000x1 .f32 := iblk1 V c 2 t
abbrev biasBlk (c : Dev nD) (t : Fin cfg1.N) : FVec Ideal S1x128 .f32 := iblk1 V c 3 t
abbrev aggArr (c : Dev nD) : Spec.A2 100000 128 := V c main_call0_v45
abbrev linArr (c : Dev nD) : Spec.A2 100000 128 := V c main_call0_v33
abbrev swArr (c : Dev nD) : Spec.A2 100000 1 := V c main_call0_v29
abbrev biasArr (c : Dev nD) : Spec.A2 1 128 := V c main_call0_v48

theorem aggBlk_apply (c : Dev nD) (t : Fin cfg1.N) (r : Fin 2000) (d : Fin 128) :
    aggBlk V c t (ix2 r d) = aggArr V c (ix2 (tileRow t.val r) d) := by
  obtain ⟨ea, eb, -⟩ := idxFacts t
  have hN : t.val < 50 := lt_of_lt_of_eq t.isLt (show cfg1.N = 50 from N_1)
  show V c main_call0_v45 (((cfg1.win 0).blk t).view.emb (ix2 r d)) = V c main_call0_v45 (ix2 (tileRow t.val r) d)
  refine congrArg _ ?_
  funext a; apply Fin.ext
  match a with
  | ⟨0, _⟩ => show win1_0.index t (0 : Fin 2) * 2000 + 1 * r.val = (t.val * 2000 + r.val) % 100000; rw [ea]; omega
  | ⟨1, _⟩ => show win1_0.index t (1 : Fin 2) * 128 + 1 * d.val = d.val; rw [eb]; omega

theorem linBlk_apply (c : Dev nD) (t : Fin cfg1.N) (r : Fin 2000) (d : Fin 128) :
    linBlk V c t (ix2 r d) = linArr V c (ix2 (tileRow t.val r) d) := by
  obtain ⟨-, -, ea, eb, -⟩ := idxFacts t
  have hN : t.val < 50 := lt_of_lt_of_eq t.isLt (show cfg1.N = 50 from N_1)
  show V c main_call0_v33 (((cfg1.win 1).blk t).view.emb (ix2 r d)) = V c main_call0_v33 (ix2 (tileRow t.val r) d)
  refine congrArg _ ?_
  funext a; apply Fin.ext
  match a with
  | ⟨0, _⟩ => show win1_1.index t (0 : Fin 2) * 2000 + 1 * r.val = (t.val * 2000 + r.val) % 100000; rw [ea]; omega
  | ⟨1, _⟩ => show win1_1.index t (1 : Fin 2) * 128 + 1 * d.val = d.val; rw [eb]; omega

theorem swBlk_apply (c : Dev nD) (t : Fin cfg1.N) (r : Fin 2000) :
    swBlk V c t (ix2 r 0) = swArr V c (ix2 (tileRow t.val r) 0) := by
  obtain ⟨-, -, -, -, ea, eb, -⟩ := idxFacts t
  have hN : t.val < 50 := lt_of_lt_of_eq t.isLt (show cfg1.N = 50 from N_1)
  show V c main_call0_v29 (((cfg1.win 2).blk t).view.emb (ix2 r 0)) = V c main_call0_v29 (ix2 (tileRow t.val r) 0)
  refine congrArg _ ?_
  funext a; apply Fin.ext
  match a with
  | ⟨0, _⟩ => show win1_2.index t (0 : Fin 2) * 2000 + 1 * r.val = (t.val * 2000 + r.val) % 100000; rw [ea]; omega
  | ⟨1, _⟩ => show win1_2.index t (1 : Fin 2) * 1 + 1 * 0 = 0; rw [eb]

theorem biasBlk_apply (c : Dev nD) (t : Fin cfg1.N) (d : Fin 128) :
    biasBlk V c t (ix2 0 d) = biasArr V c (ix2 0 d) := by
  obtain ⟨-, -, -, -, -, -, ea, eb, -⟩ := idxFacts t
  show V c main_call0_v48 (((cfg1.win 3).blk t).view.emb (ix2 0 d)) = V c main_call0_v48 (ix2 0 d)
  refine congrArg _ ?_
  funext a; apply Fin.ext
  match a with
  | ⟨0, _⟩ => show win1_3.index t (0 : Fin 2) * 1 + 1 * 0 = 0; rw [ea]
  | ⟨1, _⟩ => show win1_3.index t (1 : Fin 2) * 128 + 1 * d.val = d.val; rw [eb]; omega

abbrev feat (c : Dev nD) : Spec.A2 100000 128 := Spec.hb (aggArr V c) (linArr V c) (swArr V c) (biasArr V c)

theorem featTile_apply (c : Dev nD) (t : Fin cfg1.N) (r : Fin 2000) (d : Fin 128) :
    k1_pay2 (F := Ideal) (aggBlk V c t) (linBlk V c t) (swBlk V c t) (biasBlk V c t) (ix2 r d)
      = feat V c (ix2 (tileRow t.val r) d) := by
  rw [featPay_apply, aggBlk_apply, linBlk_apply, swBlk_apply, biasBlk_apply]
  rfl

def tileSum (c : Dev nD) (n : Nat) (d : Fin 128) : EReal := ∑ r : Fin 2000, feat V c (ix2 (tileRow n r) d)

theorem featAt_eq (c : Dev nD) (t : Fin cfg1.N) :
    (outsAt1 V c t.val t.isLt).1 = k1_pay2 (F := Ideal) (aggBlk V c t) (linBlk V c t) (swBlk V c t) (biasBlk V c t) := by
  by_cases hm : t.val % 25 = 0
  · rw [outsAt1_A V c t hm]
    dsimp only
    exact outAFeat_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr hm) (iblk1 V c 0 t) (iblk1 V c 1 t) (iblk1 V c 2 t) (iblk1 V c 3 t)
  · rw [outsAt1_B V c t hm]
    dsimp only
    exact outBFeat_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => hm ((hcond1_0 t).mp h)) (iblk1 V c 0 t) (iblk1 V c 1 t) (iblk1 V c 2 t) (iblk1 V c 3 t) (outsAt1 V c (t.val - 1) (Nat.lt_of_le_of_lt (Nat.sub_le _ _) t.isLt)).2

theorem sumsAt_A (c : Dev nD) (t : Fin cfg1.N) (hm : t.val % 25 = 0) (u v : Fin 1) (d : Fin 128) :
    (outsAt1 V c t.val t.isLt).2 (ix3 u v d) = tileSum V c t.val d := by
  rw [outsAt1_A V c t hm]
  dsimp only
  refine (congrFun (outASum_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr hm) (iblk1 V c 0 t) (iblk1 V c 1 t) (iblk1 V c 2 t) (iblk1 V c 3 t)) (ix3 u v d)).trans ?_
  refine (sumPay_apply (aggBlk V c t) (linBlk V c t) (swBlk V c t) (biasBlk V c t) (k1_pay1 (F := Ideal)) u v d).trans ?_
  have hz : k1_pay1 (F := Ideal) (ix3 u v d) = 0 := Ideal.ofBits_zero_f32
  rw [hz, zero_add]
  exact Finset.sum_congr rfl fun r _ => featTile_apply V c t r d

theorem sumsAt_B (c : Dev nD) (t : Fin cfg1.N) (hm : ¬t.val % 25 = 0) (u v : Fin 1) (d : Fin 128) :
    (outsAt1 V c t.val t.isLt).2 (ix3 u v d)
      = (outsAt1 V c (t.val - 1) (Nat.lt_of_le_of_lt (Nat.sub_le _ _) t.isLt)).2 (ix3 u v d) + tileSum V c t.val d := by
  rw [outsAt1_B V c t hm]
  dsimp only
  refine (congrFun (outBSum_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => hm ((hcond1_0 t).mp h)) (iblk1 V c 0 t) (iblk1 V c 1 t) (iblk1 V c 2 t) (iblk1 V c 3 t) (outsAt1 V c (t.val - 1) (Nat.lt_of_le_of_lt (Nat.sub_le _ _) t.isLt)).2) (ix3 u v d)).trans ?_
  refine (sumPay_apply (aggBlk V c t) (linBlk V c t) (swBlk V c t) (biasBlk V c t) (outsAt1 V c (t.val - 1) (Nat.lt_of_le_of_lt (Nat.sub_le _ _) t.isLt)).2 u v d).trans ?_
  exact congrArg (_ + ·) (Finset.sum_congr rfl fun r _ => featTile_apply V c t r d)

theorem sumsAt_eq (c : Dev nD) : ∀ (n : Nat) (h : n < cfg1.N) (u v : Fin 1) (d : Fin 128),
    (outsAt1 V c n h).2 (ix3 u v d) = ∑ s ∈ Finset.range (n % 25 + 1), tileSum V c (n - n % 25 + s) d
  | 0, h, u, v, d => by
    rw [sumsAt_A V c ⟨0, h⟩ rfl u v d]
    simp
  | n + 1, h, u, v, d => by
    by_cases hm : (n + 1) % 25 = 0
    · rw [sumsAt_A V c ⟨n + 1, h⟩ hm u v d]
      dsimp only
      rw [hm]
      simp
    · rw [sumsAt_B V c ⟨n + 1, h⟩ hm u v d]
      show (outsAt1 V c n _).2 (ix3 u v d) + tileSum V c (n + 1) d = _
      rw [sumsAt_eq c n _ u v d]
      have ea : (n + 1) % 25 = n % 25 + 1 := by omega
      have eb : n + 1 - (n % 25 + 1) = n - n % 25 := by omega
      have ec : n - n % 25 + (n % 25 + 1) = n + 1 := by omega
      rw [ea, eb, Finset.sum_range_succ _ (n % 25 + 1), ec]

theorem flushedFeat_eq (c : Dev nD) (t : Fin cfg1.N) :
    (dat1 (F := Ideal) V c).flushed 4 t = ((cfg1.win 4).blk t).view.read (Elt Ideal) (feat V c) := by
  obtain ⟨-, -, -, -, -, -, -, -, ea, eb, -⟩ := idxFacts t
  have hN : t.val < 50 := lt_of_lt_of_eq t.isLt (show cfg1.N = 50 from N_1)
  show (cfg1.win 4).cut (grid1.coords t) ((dat1 (F := Ideal) V c).after 4 t) = _
  rw [after1_4, featAt_eq]
  have key : ∀ y : S2000x128.Idx,
      k1_pay2 (F := Ideal) (aggBlk V c t) (linBlk V c t) (swBlk V c t) (biasBlk V c t) y
        = feat V c (((cfg1.win 4).blk t).view.emb y) := fun y => by
    obtain ⟨r, d, rfl⟩ : ∃ (r : Fin 2000) (d : Fin 128), y = ix2 r d := ⟨y 0, y 1, eq_ix2 y⟩
    rw [featTile_apply]
    refine congrArg (feat V c) ?_
    funext a; apply Fin.ext
    match a with
    | ⟨0, _⟩ => show (t.val * 2000 + r.val) % 100000 = win1_4.index t (0 : Fin 2) * 2000 + 1 * r.val; rw [ea]; omega
    | ⟨1, _⟩ => show d.val = win1_4.index t (1 : Fin 2) * 128 + 1 * d.val; rw [eb]; omega
  funext j
  exact key j

theorem mem_featBlk (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_call0_v55_0).slice (win1_4.rect t)).set ↔ _
  rw [View.set_slice_whole, Rect.mem_set_unit]
  exact Iff.rfl

theorem arr1_hb (c : Dev nD) : (dat1 (F := Ideal) V c).arrAt 4 cfg1.N
    = Spec.hb (V c main_call0_v45) (V c main_call0_v33) (V c main_call0_v29) (V c main_call0_v48) :=
  (dat1 (F := Ideal) V c).arrAt_eq_of_cover 4 (feat V c) (fun t _ => flushedFeat_eq V c t) fun i => by
    have hi : ∀ j : S100000x128.Idx, ∃ t : Fin cfg1.N, (cfg1.win 4).flush t = true ∧ j ∈ ((cfg1.win 4).blk t).view.set := fun j => by
      have ha : (j 0).val < 100000 := (j 0).isLt
      have hb : (j 1).val < 128 := (j 1).isLt
      have hlt : (j 0).val / 2000 < cfg1.N := by rw [show cfg1.N = 50 from N_1]; omega
      obtain ⟨-, -, -, -, -, -, -, -, ea, eb, -⟩ := idxFacts ⟨(j 0).val / 2000, hlt⟩
      refine ⟨⟨(j 0).val / 2000, hlt⟩, flush1_4 _, ?_⟩
      rw [mem_featBlk]
      intro a
      match a with
      | ⟨0, _⟩ =>
        show win1_4.index ⟨(j 0).val / 2000, hlt⟩ (0 : Fin 2) * 2000 ≤ (j 0).val
          ∧ (j 0).val < win1_4.index ⟨(j 0).val / 2000, hlt⟩ (0 : Fin 2) * 2000 + 2000
        rw [ea]; dsimp only; omega
      | ⟨1, _⟩ =>
        show win1_4.index ⟨(j 0).val / 2000, hlt⟩ (1 : Fin 2) * 128 ≤ (j 1).val
          ∧ (j 1).val < win1_4.index ⟨(j 0).val / 2000, hlt⟩ (1 : Fin 2) * 128 + 128
        rw [eb]; omega
    exact hi i

theorem flushedSum_eq (c : Dev nD) (t : Fin cfg1.N) (hf : (cfg1.win 5).flush t = true) :
    (dat1 (F := Ideal) V c).flushed 5 t = ((cfg1.win 5).blk t).view.read (Elt Ideal) (Spec.psumA (feat V c)) := by
  have hlast : t.val % 25 = 24 := (flush1_5 t).mp hf
  have hN : t.val < 50 := lt_of_lt_of_eq t.isLt (show cfg1.N = 50 from N_1)
  obtain ⟨-, -, -, -, -, -, -, -, -, -, ea, eb, ec⟩ := idxFacts t
  show (cfg1.win 5).cut (grid1.coords t) ((dat1 (F := Ideal) V c).after 5 t) = _
  rw [after1_5]
  have key : ∀ y : S1x1x128.Idx,
      (outsAt1 V c t.val t.isLt).2 y = Spec.psumA (feat V c) (((cfg1.win 5).blk t).view.emb y) := fun y => by
    obtain ⟨u, v, d, rfl⟩ : ∃ (u v : Fin 1) (d : Fin 128), y = ix3 u v d := ⟨y 0, y 1, y 2, eq_ix3 y⟩
    have he : ((cfg1.win 5).blk t).view.emb (ix3 u v d)
        = (ix3 (⟨t.val / 25, by omega⟩ : Fin 2) (0 : Fin 1) d : S2x1x128.Idx) := by
      funext a; apply Fin.ext
      match a with
      | ⟨0, _⟩ => show win1_5.index t (0 : Fin 3) * 1 + 1 * u.val = t.val / 25; rw [ea]; omega
      | ⟨1, _⟩ => show win1_5.index t (1 : Fin 3) * 1 + 1 * v.val = 0; rw [eb]; omega
      | ⟨2, _⟩ => show win1_5.index t (2 : Fin 3) * 128 + 1 * d.val = d.val; rw [ec]; omega
    rw [he, sumsAt_eq V c t.val t.isLt u v d, hlast]
    show ∑ s ∈ Finset.range 25, tileSum V c (t.val - 24 + s) d
      = ∑ i : Fin 25, ∑ r : Fin 2000, feat V c (ix2 (Spec.rowOf (⟨t.val / 25, by omega⟩ : Fin 2) i r) d)
    rw [Finset.sum_range]
    refine Finset.sum_congr rfl fun i _ => Finset.sum_congr rfl fun r _ => congrArg (fun n => feat V c (ix2 n d)) ?_
    apply Fin.ext
    have hi : i.val < 25 := i.isLt
    have hr : r.val < 2000 := r.isLt
    show ((t.val - 24 + i.val) * 2000 + r.val) % 100000 = (25 * (t.val / 25) + i.val) * 2000 + r.val
    omega
  funext j
  exact key j

theorem mem_sumBlk (t : Fin cfg1.N) (i : S2x1x128.Idx) :
    i ∈ ((cfg1.win 5).blk t).view.set ↔ ∀ a : Fin 3, win1_5.index t a * S1x1x128.size a ≤ (i a).val
      ∧ (i a).val < win1_5.index t a * S1x1x128.size a + S1x1x128.size a := by
  show i ∈ ((View.whole main_call0_v55_1).slice (win1_5.rect t)).set ↔ _
  rw [View.set_slice_whole, Rect.mem_set_unit]
  exact Iff.rfl

theorem arr1_ps (c : Dev nD) : (dat1 (F := Ideal) V c).arrAt 5 cfg1.N
    = Spec.psumA (Spec.hb (V c main_call0_v45) (V c main_call0_v33) (V c main_call0_v29) (V c main_call0_v48)) :=
  (dat1 (F := Ideal) V c).arrAt_eq_of_cover 5 (Spec.psumA (feat V c)) (flushedSum_eq V c) fun i => by
    have hi : ∀ j : S2x1x128.Idx, ∃ t : Fin cfg1.N, (cfg1.win 5).flush t = true ∧ j ∈ ((cfg1.win 5).blk t).view.set := fun j => by
      have ha : (j 0).val < 2 := (j 0).isLt
      have hb : (j 1).val < 1 := (j 1).isLt
      have hc : (j 2).val < 128 := (j 2).isLt
      have hlt : 25 * (j 0).val + 24 < cfg1.N := by rw [show cfg1.N = 50 from N_1]; omega
      obtain ⟨-, -, -, -, -, -, -, -, -, -, ea, eb, ec⟩ := idxFacts ⟨25 * (j 0).val + 24, hlt⟩
      refine ⟨⟨25 * (j 0).val + 24, hlt⟩, (flush1_5 _).mpr (by dsimp only; omega), ?_⟩
      rw [mem_sumBlk]
      intro a
      match a with
      | ⟨0, _⟩ =>
        show win1_5.index ⟨25 * (j 0).val + 24, hlt⟩ (0 : Fin 3) * 1 ≤ (j 0).val
          ∧ (j 0).val < win1_5.index ⟨25 * (j 0).val + 24, hlt⟩ (0 : Fin 3) * 1 + 1
        rw [ea]; dsimp only; omega
      | ⟨1, _⟩ =>
        show win1_5.index ⟨25 * (j 0).val + 24, hlt⟩ (1 : Fin 3) * 1 ≤ (j 1).val
          ∧ (j 1).val < win1_5.index ⟨25 * (j 0).val + 24, hlt⟩ (1 : Fin 3) * 1 + 1
        rw [eb]; omega
      | ⟨2, _⟩ =>
        show win1_5.index ⟨25 * (j 0).val + 24, hlt⟩ (2 : Fin 3) * 128 ≤ (j 2).val
          ∧ (j 2).val < win1_5.index ⟨25 * (j 0).val + 24, hlt⟩ (2 : Fin 3) * 128 + 128
        rw [ec]; omega
    exact hi i

end Cert.KernelIdeal.K1

end
-- ==== Proof.K2.lean ====
/-
  Region 2: each half's carried row ends at that half's column sums of the squared deviations from the mean.
-/
import proofs.«420895_j26731876451141_3_alg».proof.Proof.Gen.KernelIdeal.Frame
import proofs.«420895_j26731876451141_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.K2

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Facts₀ Cert.KernelIdeal.Facts

variable (V : (c : Dev nD) → (b : Ref sig .tc) → Buf (Elt Ideal) ((c : Thread nD τ).loc b))

theorem hzPair : (![0, 0] : Fin 2 → Nat) = fun _ => 0 := funext fun a => by fin_cases a <;> rfl
theorem hzTriple : (![0, 0, 0] : Fin 3 → Nat) = fun _ => 0 := funext fun a => by fin_cases a <;> rfl

theorem out_B (c : Dev nD) (i : grid2.Coords) (a0 : Memref sig .tc .vmem S2000x128 .f32) (h0 : a0.IsWhole)
    (a1 : Memref sig .tc .vmem S1x128 .f32) (h1 : a1.IsWhole) (a3 : Memref sig .tc .vmem S1x1x128 .f32) (h3 : a3.IsWhole)
    (hc : ¬cond2_0 i) (x : Vec Ideal S2000x128 .f32) (mu : Vec Ideal S1x128 .f32) (acc : Vec Ideal S1x1x128 .f32) :
    out2_B_2 (F := Ideal) c i a0 h0 a1 h1 a3 h3 hc x mu acc = k2_pay2 x mu acc := by
  unfold out2_B_2
  rw [View.read_writes_eq_canon _ _ _ (cover2_B_2 c i a0 h0 a1 h1 a3 h3 hc x mu acc)]
  unfold kernelRun2_B
  dsimp only
  sl_unfold_words
  rw [View.canon_unit_zero hzTriple]
  simp only [View.readAt_eq_ld, h0.read_unread, h1.read_unread, h3.read_unread,
    View.ld_unit_zero (S := S2000x128) hzPair, View.ld_unit_zero (S := S1x128) hzPair,
    View.ld_unit_zero (S := S1x1x128) hzTriple]

theorem out_A (c : Dev nD) (i : grid2.Coords) (a0 : Memref sig .tc .vmem S2000x128 .f32) (h0 : a0.IsWhole)
    (a1 : Memref sig .tc .vmem S1x128 .f32) (h1 : a1.IsWhole) (a3 : Memref sig .tc .vmem S1x1x128 .f32) (h3 : a3.IsWhole)
    (hc : cond2_0 i) (x : Vec Ideal S2000x128 .f32) (mu : Vec Ideal S1x128 .f32) :
    out2_A_2 (F := Ideal) c i a0 h0 a1 h1 a3 h3 hc x mu = k2_pay2 x mu (k2_pay1 (F := Ideal)) := by
  unfold out2_A_2
  rw [View.read_writes_eq_canon _ _ _ (cover2_A_2 c i a0 h0 a1 h1 a3 h3 hc x mu)]
  unfold kernelRun2_A
  dsimp only
  sl_unfold_words
  rw [View.canon_cons_unit_zero (S := S1x1x128) hzTriple, View.readCov_unit_zero (S := S1x1x128) _ hzTriple]
  simp only [View.readAt_eq_ld, h0.read_unread, h1.read_unread,
    View.ld_unit_zero (S := S2000x128) hzPair, View.ld_unit_zero (S := S1x128) hzPair]

theorem lift_row (h : S2000x128.Reduces [0] S128) (d : Fin 128) (k : Fin 2000) :
    h.lift (ix1 d) k = ix2 k d := by
  funext a
  apply Fin.ext
  show h.liftVal (ix1 d) k.val a = (ix2 k d a).val
  unfold Shape.Reduces.liftVal
  match a with
  | ⟨0, _⟩ => rfl
  | ⟨1, _⟩ => rfl

theorem colred_apply (src : FVec Ideal S2000x128 .f32) (h : S2000x128.Reduces [0] S128) (hf : FKind.Formats .f32)
    (hacc : (0x00000000#32 : BitVec 32) = 0x00000000#32) (d : Fin 128) :
    multiReduction (F := Ideal) .add [0] S128 src 0x00000000#32 h hf hacc (ix1 d) = ∑ r : Fin 2000, src (ix2 r d) := by
  refine (Ideal.multiReduction_add_single src 0x00000000#32 h hf hacc (ix1 d)).trans ?_
  exact Finset.sum_congr rfl fun r _ => congrArg src (lift_row h d r)

theorem dev_apply (x : Spec.A2 2000 128) (mu : Spec.A2 1 128) (hx : S2000x128.ShapeCasts S2000x128)
    (hm : S1x128.ShapeCasts S1x128) (hb : S1x128.Broadcasts S2000x128) (r : Fin 2000) (d : Fin 128) :
    subf (F := Ideal) (φ := .f32) (shapeCast S2000x128 x hx) (broadcastTo S2000x128 (shapeCast S1x128 mu hm) hb) (ix2 r d)
      = x (ix2 r d) - mu (ix2 (0 : Fin 1) d) := by
  refine (subf_apply _ _ _).trans ?_
  refine congrArg₂ (· - ·) (congrFun (shapeCast_self x _) _) ?_
  refine (broadcastTo_1b_ab_apply _ _ r d).trans ?_
  exact congrFun (shapeCast_self mu _) _

theorem pay_apply (x : Spec.A2 2000 128) (mu : Spec.A2 1 128) (acc : Spec.A3 1 1 128) (d : Fin 128) :
    k2_pay2 (F := Ideal) x mu acc (ix3 (0 : Fin 1) (0 : Fin 1) d)
      = acc (ix3 (0 : Fin 1) (0 : Fin 1) d)
        + ∑ r : Fin 2000, (x (ix2 r d) - mu (ix2 (0 : Fin 1) d)) * (x (ix2 r d) - mu (ix2 (0 : Fin 1) d)) := by
  unfold k2_pay2
  dsimp only
  refine (addf_apply _ _ _).trans ?_
  refine congrArg₂ (· + ·) (congrFun (shapeCast_self acc _) _) ?_
  refine (shapeCast_ab_1ab_apply _ _ (0 : Fin 1) (0 : Fin 1) d).trans ?_
  refine (shapeCast_a_1a_apply _ _ (0 : Fin 1) d).trans ?_
  refine (colred_apply _ _ _ _ d).trans ?_
  refine Finset.sum_congr rfl fun r _ => ?_
  refine (mulf_apply _ _ _).trans ?_
  exact congrArg₂ (· * ·) (dev_apply x mu _ _ _ r d) (dev_apply x mu _ _ _ r d)

theorem zero_apply (j : S1x1x128.Idx) : k2_pay1 (F := Ideal) j = 0 := by
  unfold k2_pay1
  exact Ideal.ofBits_zero_f32

abbrev tile (c : Dev nD) (t : Fin cfg2.N) : Spec.A2 2000 128 := iblk2 V c 0 t
abbrev meanRow (c : Dev nD) (t : Fin cfg2.N) : Spec.A2 1 128 := iblk2 V c 1 t
abbrev feat (c : Dev nD) : Spec.A2 100000 128 := V c main_call0_v55_0
abbrev meanArr (c : Dev nD) : Spec.A2 1 128 := V c main_call0_v58

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 3) = t.val / 25 ∧ win2_2.index t (1 : Fin 3) = 0 ∧ win2_2.index t (2 : Fin 3) = 0 :=
  (by decide +kernel : ∀ t : Fin grid2.N, _)

theorem tile_apply (c : Dev nD) (t : Fin cfg2.N) (r : Fin 2000) (d : Fin 128) (n : Fin 100000)
    (hn : n.val = t.val * 2000 + r.val) : tile V c t (ix2 r d) = feat V c (ix2 n d) := by
  obtain ⟨ea, eb, -⟩ := idx_facts t
  show V c main_call0_v55_0 (((cfg2.win 0).blk t).view.emb (ix2 r d)) = V c main_call0_v55_0 (ix2 n d)
  refine congrArg _ (funext fun a => Fin.ext ?_)
  match a with
  | ⟨0, _⟩ => show win2_0.index t (0 : Fin 2) * 2000 + 1 * r.val = n.val; omega
  | ⟨1, _⟩ => show win2_0.index t (1 : Fin 2) * 128 + 1 * d.val = d.val; omega

theorem meanRow_apply (c : Dev nD) (t : Fin cfg2.N) (d : Fin 128) :
    meanRow V c t (ix2 (0 : Fin 1) d) = meanArr V c (ix2 (0 : Fin 1) d) := by
  obtain ⟨-, -, ea, eb, -⟩ := idx_facts t
  show V c main_call0_v58 (((cfg2.win 1).blk t).view.emb (ix2 (0 : Fin 1) d)) = V c main_call0_v58 (ix2 (0 : Fin 1) d)
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * d.val = d.val; omega

def tileSum (c : Dev nD) (n : ℕ) (d : Fin 128) : EReal :=
  if h : n < 50 then
    ∑ r : Fin 2000, Spec.sqE (feat V c) (meanArr V c) ⟨n * 2000 + r.val, by have := r.isLt; omega⟩ d
  else 0

theorem step_apply (c : Dev nD) (t : Fin cfg2.N) (acc : Spec.A3 1 1 128) (d : Fin 128) :
    k2_pay2 (F := Ideal) (tile V c t) (meanRow V c t) acc (ix3 (0 : Fin 1) (0 : Fin 1) d)
      = acc (ix3 (0 : Fin 1) (0 : Fin 1) d) + tileSum V c t.val d := by
  have hN : t.val < 50 := lt_of_lt_of_eq t.isLt (show cfg2.N = 50 from N_2)
  refine (pay_apply (tile V c t) (meanRow V c t) acc d).trans ?_
  unfold tileSum
  rw [dif_pos hN]
  refine congrArg _ (Finset.sum_congr rfl fun r _ => ?_)
  have e := tile_apply V c t r d ⟨t.val * 2000 + r.val, by have := r.isLt; omega⟩ rfl
  have e' := meanRow_apply V c t d
  unfold Spec.sqE
  rw [e, e']

theorem at_reset (c : Dev nD) (n : ℕ) (hn : n < cfg2.N) (h0 : n % 25 = 0) (d : Fin 128) :
    (outsAt2 V c n hn : Spec.A3 1 1 128) (ix3 (0 : Fin 1) (0 : Fin 1) d) = tileSum V c n d := by
  refine (congrFun (outsAt2_A V c ⟨n, hn⟩ h0) _).trans ?_
  refine (congrFun (out_A c (grid2.coords ⟨n, hn⟩) (ms2_0 ⟨n, hn⟩) (hs2_0 ⟨n, hn⟩) (ms2_1 ⟨n, hn⟩) (hs2_1 ⟨n, hn⟩)
    (ms2_2 ⟨n, hn⟩) (hs2_2 ⟨n, hn⟩) ((hcond2_0 ⟨n, hn⟩).mpr h0) (iblk2 V c 0 ⟨n, hn⟩) (iblk2 V c 1 ⟨n, hn⟩)) _).trans ?_
  refine (step_apply V c ⟨n, hn⟩ (k2_pay1 (F := Ideal)) d).trans ?_
  rw [zero_apply, zero_add]

theorem at_step (c : Dev nD) (n : ℕ) (hn : n + 1 < cfg2.N) (h0 : ¬(n + 1) % 25 = 0) (d : Fin 128) :
    (outsAt2 V c (n + 1) hn : Spec.A3 1 1 128) (ix3 (0 : Fin 1) (0 : Fin 1) d)
      = (outsAt2 V c n (Nat.lt_of_succ_lt hn) : Spec.A3 1 1 128) (ix3 (0 : Fin 1) (0 : Fin 1) d) + tileSum V c (n + 1) d := by
  refine (congrFun (outsAt2_B V c ⟨n + 1, hn⟩ h0) _).trans ?_
  refine (congrFun (out_B c (grid2.coords ⟨n + 1, hn⟩) (ms2_0 ⟨n + 1, hn⟩) (hs2_0 ⟨n + 1, hn⟩) (ms2_1 ⟨n + 1, hn⟩) (hs2_1 ⟨n + 1, hn⟩)
    (ms2_2 ⟨n + 1, hn⟩) (hs2_2 ⟨n + 1, hn⟩) (fun h => h0 ((hcond2_0 ⟨n + 1, hn⟩).mp h)) (iblk2 V c 0 ⟨n + 1, hn⟩) (iblk2 V c 1 ⟨n + 1, hn⟩)
    (outsAt2 V c n (Nat.lt_of_succ_lt hn))) _).trans ?_
  exact step_apply V c ⟨n + 1, hn⟩ (outsAt2 V c n (Nat.lt_of_succ_lt hn)) d

theorem carried_eq (c : Dev nD) : ∀ (n : ℕ) (hn : n < cfg2.N) (d : Fin 128),
    (outsAt2 V c n hn : Spec.A3 1 1 128) (ix3 (0 : Fin 1) (0 : Fin 1) d)
      = ∑ s ∈ Finset.range (n % 25 + 1), tileSum V c (n - n % 25 + s) d
  | 0, hn, d => by
    rw [at_reset V c 0 hn rfl d]
    simp only [Nat.zero_mod, Nat.zero_add, Nat.sub_zero, Finset.sum_range_one]
  | n + 1, hn, d => by
    by_cases h0 : (n + 1) % 25 = 0
    · rw [at_reset V c (n + 1) hn h0 d, h0]
      simp only [Nat.zero_add, Nat.sub_zero, Finset.sum_range_one, Nat.add_zero]
    · have hm : (n + 1) % 25 = n % 25 + 1 := by omega
      have hb : n + 1 - (n % 25 + 1) = n - n % 25 := by omega
      have hl : n - n % 25 + (n % 25 + 1) = n + 1 := by omega
      rw [at_step V c n hn h0 d, carried_eq c n (Nat.lt_of_succ_lt hn) d, hm, hb, Finset.sum_range_succ _ (n % 25 + 1), hl]

abbrev target (c : Dev nD) : Spec.A3 2 1 128 := Spec.psumA (Spec.sq (feat V c) (meanArr V c))

theorem half_eq (c : Dev nD) (q : Fin 2) (d : Fin 128) :
    ∑ s ∈ Finset.range 25, tileSum V c (25 * q.val + s) d = Spec.psum (Spec.sq (feat V c) (meanArr V c)) q d := by
  have hq : q.val < 2 := q.isLt
  rw [Finset.sum_range]
  unfold Spec.psum
  refine Finset.sum_congr rfl fun i _ => ?_
  have hi : i.val < 25 := i.isLt
  unfold tileSum
  rw [dif_pos (by omega)]
  refine Finset.sum_congr rfl fun r _ => ?_
  show Spec.sqE (feat V c) (meanArr V c) _ d = Spec.sqE (feat V c) (meanArr V c) (Spec.rowOf q i r) d
  exact congrArg (fun n => Spec.sqE (feat V c) (meanArr V c) n d) (Fin.ext rfl)

theorem flushed_eq (c : Dev nD) (t : Fin cfg2.N) (hf : (cfg2.win 2).flush t = true) :
    (dat2 (F := Ideal) V c).flushed 2 t = ((cfg2.win 2).blk t).view.read (Elt Ideal) (target V c) := by
  have hl : t.val % 25 = 24 := (flush2_2 t).mp hf
  have hN : t.val < 50 := lt_of_lt_of_eq t.isLt (show cfg2.N = 50 from N_2)
  obtain ⟨-, -, -, -, ea, eb, ec⟩ := idx_facts t
  show (cfg2.win 2).cut (grid2.coords t) ((dat2 V c).after 2 t) = _
  rw [after2_2]
  funext y
  have hya : (y 0).val < 1 := (y 0).isLt
  have hyb : (y 1).val < 1 := (y 1).isLt
  have hyc : (y 2).val < 128 := (y 2).isLt
  have ey : (cfg2.win 2).xinj (grid2.coords t) y = ix3 (0 : Fin 1) (0 : Fin 1) (⟨(y 2).val, hyc⟩ : Fin 128) :=
    funext fun a => Fin.ext (by
      match a with
      | ⟨0, _⟩ => show (y 0).val = 0; omega
      | ⟨1, _⟩ => show (y 1).val = 0; omega
      | ⟨2, _⟩ => rfl)
  have eemb : ((cfg2.win 2).blk t).view.emb y
      = ix3 (⟨t.val / 25, by omega⟩ : Fin 2) (0 : Fin 1) (⟨(y 2).val, hyc⟩ : Fin 128) :=
    funext fun a => Fin.ext (by
      match a with
      | ⟨0, _⟩ => show win2_2.index t (0 : Fin 3) * 1 + 1 * (y 0).val = t.val / 25; omega
      | ⟨1, _⟩ => show win2_2.index t (1 : Fin 3) * 1 + 1 * (y 1).val = 0; omega
      | ⟨2, _⟩ => show win2_2.index t (2 : Fin 3) * 128 + 1 * (y 2).val = (y 2).val; omega)
  show (outsAt2 V c t.val t.isLt : Spec.A3 1 1 128) ((cfg2.win 2).xinj (grid2.coords t) y)
    = target V c (((cfg2.win 2).blk t).view.emb y)
  rw [ey, eemb, carried_eq V c t.val t.isLt, hl, show t.val - 24 = 25 * (t.val / 25) from by omega]
  exact half_eq V c ⟨t.val / 25, by omega⟩ ⟨(y 2).val, hyc⟩

theorem arr2 (c : Dev nD) : (dat2 (F := Ideal) V c).arrAt 2 cfg2.N
    = Spec.psumA (Spec.sq (V c main_call0_v55_0) (V c main_call0_v58)) :=
  (dat2 (F := Ideal) V c).arrAt_eq_of_cover 2 (target V c) (flushed_eq V c) fun i => by
    have hia : (i 0).val < 2 := (i 0).isLt
    have hib : (i 1).val < 1 := (i 1).isLt
    have hic : (i 2).val < 128 := (i 2).isLt
    have hN : cfg2.N = 50 := N_2
    have hlast : 25 * (i 0).val + 24 < cfg2.N := by omega
    obtain ⟨-, -, -, -, ea, eb, ec⟩ := idx_facts ⟨25 * (i 0).val + 24, hlast⟩
    refine ⟨⟨25 * (i 0).val + 24, hlast⟩, (flush2_2 _).mpr (by show (25 * (i 0).val + 24) % 25 = 24; omega), ?_⟩
    show i ∈ ((View.whole main_call0_v59).slice (win2_2.rect ⟨25 * (i 0).val + 24, hlast⟩)).set
    rw [View.set_slice_whole, Rect.mem_set_unit]
    intro a
    match a with
    | ⟨0, _⟩ =>
      show win2_2.index ⟨25 * (i 0).val + 24, hlast⟩ (0 : Fin 3) * 1 ≤ (i 0).val
        ∧ (i 0).val < win2_2.index ⟨25 * (i 0).val + 24, hlast⟩ (0 : Fin 3) * 1 + 1
      rw [ea]; show (25 * (i 0).val + 24) / 25 * 1 ≤ (i 0).val ∧ (i 0).val < (25 * (i 0).val + 24) / 25 * 1 + 1; omega
    | ⟨1, _⟩ =>
      show win2_2.index ⟨25 * (i 0).val + 24, hlast⟩ (1 : Fin 3) * 1 ≤ (i 1).val
        ∧ (i 1).val < win2_2.index ⟨25 * (i 0).val + 24, hlast⟩ (1 : Fin 3) * 1 + 1
      omega
    | ⟨2, _⟩ =>
      show win2_2.index ⟨25 * (i 0).val + 24, hlast⟩ (2 : Fin 3) * 128 ≤ (i 2).val
        ∧ (i 2).val < win2_2.index ⟨25 * (i 0).val + 24, hlast⟩ (2 : Fin 3) * 128 + 128
      omega

end Cert.KernelIdeal.K2

end
-- ==== Proof.K3.lean ====
/-
  Region 3: every tile of the output is the normalised, rectified features times the next layer's matrix.
-/
import proofs.«420895_j26731876451141_3_alg».proof.Proof.Gen.KernelIdeal.Frame
import proofs.«420895_j26731876451141_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.K3

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Facts₀ Cert.KernelIdeal.Facts

theorem hz : (![0, 0] : Fin 2 → Nat) = fun _ => 0 := funext fun a => by fin_cases a <;> rfl

theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem mm_apply (x : FVec Ideal S2000x128 .f32) (w : FVec Ideal S128x128 .f32) (p : Fin 2000) (d : Fin 128) :
    matmul dot_S2000x128_S128x128_S2000x128_1_0_0_1_n_n (some .fp32) x w (constant (F := Ideal) S2000x128 .f32 0x00000000#32) (ix2 p d)
      = ∑ k : Fin 128, x (ix2 p k) * w (ix2 k d) := by
  refine (Ideal.matmul_constant_zero_apply dot_S2000x128_S128x128_S2000x128_1_0_0_1_n_n (some .fp32) x w (ix2 p d)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p d) ((ValueIdx.contrEquiv1 dot_S2000x128_S128x128_S2000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 p d) ((ValueIdx.contrEquiv1 dot_S2000x128_S128x128_S2000x128_1_0_0_1_n_n 128 rfl rfl).symm k) = ix2 k d := funext fun a => Fin.ext (by
    match a with
    | ⟨0, _⟩ => exact (rhs_mm_0 _ _).trans hk
    | ⟨1, _⟩ => exact rhs_mm_1 _ _)
  rw [el, er]

theorem pay_apply (x0 : Vec Ideal S2000x128 .f32) (x1 x2 x3 x4 : Vec Ideal S1x128 .f32) (x5 : Vec Ideal S128x128 .f32)
    (p : Fin 2000) (d : Fin 128) :
    k3_pay1 (F := Ideal) x0 x1 x2 x3 x4 x5 (ix2 p d)
      = ∑ k : Fin 128, max ((x0 (ix2 p k) - x1 (ix2 0 k)) * x2 (ix2 0 k) * x3 (ix2 0 k) + x4 (ix2 0 k)) Spec.z * x5 (ix2 k d) := by
  unfold k3_pay1
  refine (mm_apply _ _ p d).trans ?_
  refine Finset.sum_congr rfl fun k _ => ?_
  simp only [maximumf_apply, addf_apply, mulf_apply, subf_apply, broadcast_apply, shapeCast_self, broadcastTo_1b_ab_apply]
  rfl

theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem point_eq (h : Spec.A2 100000 128) (mu is ga be : Spec.A2 1 128) (w : Spec.A2 128 128)
    (x0 : Vec Ideal S2000x128 .f32) (x1 x2 x3 x4 : Vec Ideal S1x128 .f32) (x5 : Vec Ideal S128x128 .f32)
    (T : Nat)
    (e0 : ∀ (p : Fin 2000) (k : Fin 128) (n : Fin 100000), n.val = T * 2000 + p.val → x0 (ix2 p k) = h (ix2 n k))
    (e1 : x1 = mu) (e2 : x2 = is) (e3 : x3 = ga) (e4 : x4 = be) (e5 : x5 = w)
    (p : Fin 2000) (q : Fin 128) (n : Fin 100000) (hn : n.val = T * 2000 + p.val) :
    k3_pay1 (F := Ideal) x0 x1 x2 x3 x4 x5 (ix2 p q) = Spec.mm (Spec.y h mu is ga be) w (ix2 n q) := by
  subst e1 e2 e3 e4 e5
  refine (pay_apply x0 x1 x2 x3 x4 x5 p q).trans ?_
  show _ = ∑ k : Fin 128, Spec.yE h x1 x2 x3 x4 n k * x5 (ix2 k q)
  refine Finset.sum_congr rfl fun k _ => ?_
  rw [e0 p k n hn]
  rfl

variable (V : (c : Dev nD) → (b : Ref sig .tc) → Buf (Elt Ideal) ((c : Thread nD τ).loc b))

theorem tile_apply (c : Dev nD) (t : Fin cfg3.N) (x : S2000x128.Idx) (k : S100000x128.Idx)
    (hk0 : (k 0).val = t.val * 2000 + (x 0).val) (hk1 : (k 1).val = (x 1).val) :
    (iblk3 (F := Ideal) V c 0 t : Vec Ideal S2000x128 .f32) x = (V c main_call0_v55_0 : S100000x128.Idx → EReal) k := by
  obtain ⟨e00, e01, -⟩ := idx_facts t
  unfold iblk3
  rw [View.read_apply]
  have hk : ((cfg3.win 0).blk t).view.emb x = k := by
    funext a; apply Fin.ext
    match a with
    | ⟨0, _⟩ => show win3_0.index t (0 : Fin 2) * 2000 + 1 * (x 0).val = (k 0).val; rw [e00, hk0]; omega
    | ⟨1, _⟩ => show win3_0.index t (1 : Fin 2) * 128 + 1 * (x 1).val = (k 1).val; rw [e01, hk1]; omega
  show V c main_call0_v55_0 (((cfg3.win 0).blk t).view.emb x) = V c main_call0_v55_0 k
  rw [hk]

theorem mean_row_eq (c : Dev nD) (t : Fin cfg3.N) :
    (iblk3 (F := Ideal) V c 1 t : Vec Ideal S1x128 .f32) = (V c main_call0_v58 : S1x128.Idx → EReal) := by
  obtain ⟨-, -, e0, e1, -⟩ := idx_facts t
  funext x
  unfold iblk3
  rw [View.read_apply]
  have hk : ((cfg3.win 1).blk t).view.emb x = x := by
    funext a; apply Fin.ext
    match a with
    | ⟨0, _⟩ => show win3_1.index t (0 : Fin 2) * 1 + 1 * (x 0).val = (x 0).val; rw [e0]; omega
    | ⟨1, _⟩ => show win3_1.index t (1 : Fin 2) * 128 + 1 * (x 1).val = (x 1).val; rw [e1]; omega
  show V c main_call0_v58 (((cfg3.win 1).blk t).view.emb x) = V c main_call0_v58 x
  rw [hk]

theorem istd_row_eq (c : Dev nD) (t : Fin cfg3.N) :
    (iblk3 (F := Ideal) V c 2 t : Vec Ideal S1x128 .f32) = (V c main_call0_v65 : S1x128.Idx → EReal) := by
  obtain ⟨-, -, -, -, e0, e1, -⟩ := idx_facts t
  funext x
  unfold iblk3
  rw [View.read_apply]
  have hk : ((cfg3.win 2).blk t).view.emb x = x := by
    funext a; apply Fin.ext
    match a with
    | ⟨0, _⟩ => show win3_2.index t (0 : Fin 2) * 1 + 1 * (x 0).val = (x 0).val; rw [e0]; omega
    | ⟨1, _⟩ => show win3_2.index t (1 : Fin 2) * 128 + 1 * (x 1).val = (x 1).val; rw [e1]; omega
  show V c main_call0_v65 (((cfg3.win 2).blk t).view.emb x) = V c main_call0_v65 x
  rw [hk]

theorem scale_row_eq (c : Dev nD) (t : Fin cfg3.N) :
    (iblk3 (F := Ideal) V c 3 t : Vec Ideal S1x128 .f32) = (V c main_call0_v51 : S1x128.Idx → EReal) := by
  obtain ⟨-, -, -, -, -, -, e0, e1, -⟩ := idx_facts t
  funext x
  unfold iblk3
  rw [View.read_apply]
  have hk : ((cfg3.win 3).blk t).view.emb x = x := by
    funext a; apply Fin.ext
    match a with
    | ⟨0, _⟩ => show win3_3.index t (0 : Fin 2) * 1 + 1 * (x 0).val = (x 0).val; rw [e0]; omega
    | ⟨1, _⟩ => show win3_3.index t (1 : Fin 2) * 128 + 1 * (x 1).val = (x 1).val; rw [e1]; omega
  show V c main_call0_v51 (((cfg3.win 3).blk t).view.emb x) = V c main_call0_v51 x
  rw [hk]

theorem shift_row_eq (c : Dev nD) (t : Fin cfg3.N) :
    (iblk3 (F := Ideal) V c 4 t : Vec Ideal S1x128 .f32) = (V c main_call0_v54 : S1x128.Idx → EReal) := by
  obtain ⟨-, -, -, -, -, -, -, -, e0, e1, -⟩ := idx_facts t
  funext x
  unfold iblk3
  rw [View.read_apply]
  have hk : ((cfg3.win 4).blk t).view.emb x = x := by
    funext a; apply Fin.ext
    match a with
    | ⟨0, _⟩ => show win3_4.index t (0 : Fin 2) * 1 + 1 * (x 0).val = (x 0).val; rw [e0]; omega
    | ⟨1, _⟩ => show win3_4.index t (1 : Fin 2) * 128 + 1 * (x 1).val = (x 1).val; rw [e1]; omega
  show V c main_call0_v54 (((cfg3.win 4).blk t).view.emb x) = V c main_call0_v54 x
  rw [hk]

theorem mat_eq (c : Dev nD) (t : Fin cfg3.N) :
    (iblk3 (F := Ideal) V c 5 t : Vec Ideal S128x128 .f32) = (V c main_call0_v67 : S128x128.Idx → EReal) := by
  obtain ⟨-, -, -, -, -, -, -, -, -, -, e0, e1, -⟩ := idx_facts t
  funext x
  unfold iblk3
  rw [View.read_apply]
  have hk : ((cfg3.win 5).blk t).view.emb x = x := by
    funext a; apply Fin.ext
    match a with
    | ⟨0, _⟩ => show win3_5.index t (0 : Fin 2) * 128 + 1 * (x 0).val = (x 0).val; rw [e0]; omega
    | ⟨1, _⟩ => show win3_5.index t (1 : Fin 2) * 128 + 1 * (x 1).val = (x 1).val; rw [e1]; omega
  show V c main_call0_v67 (((cfg3.win 5).blk t).view.emb x) = V c main_call0_v67 x
  rw [hk]

theorem flushed_eq (c : Dev nD) (t : Fin cfg3.N) :
    (dat3 (F := Ideal) V c).flushed 6 t = ((cfg3.win 6).blk t).view.read (Elt Ideal)
      (Spec.mm (Spec.y (V c main_call0_v55_0) (V c main_call0_v58) (V c main_call0_v65) (V c main_call0_v51) (V c main_call0_v54))
        (V c main_call0_v67)) := by
  show (cfg3.win 6).cut (grid3.coords t) ((dat3 V c).after 6 t) = _
  rw [after3_6]
  unfold out3_6
  rw [View.canon_unit_zero hz]
  simp only [View.ld_unit_zero (S := S2000x128) hz, View.ld_unit_zero (S := S1x128) hz, View.ld_unit_zero (S := S128x128) hz]
  obtain ⟨-, -, -, -, -, -, -, -, -, -, -, -, e0, e1⟩ := idx_facts t
  funext j
  obtain ⟨p, q, rfl⟩ : ∃ (p : Fin 2000) (q : Fin 128), j = ix2 p q := ⟨j 0, j 1, eq_ix2 j⟩
  rw [View.read_apply]
  have hN : cfg3.N = 50 := N_3
  have ht : t.val < 50 := hN ▸ t.isLt
  have hk : ((cfg3.win 6).blk t).view.emb (ix2 p q) = (ix2 (⟨t.val * 2000 + p.val, by omega⟩ : Fin 100000) q : S100000x128.Idx) := by
    funext a; apply Fin.ext
    match a with
    | ⟨0, _⟩ => show win3_6.index t (0 : Fin 2) * 2000 + 1 * p.val = t.val * 2000 + p.val; rw [e0]; omega
    | ⟨1, _⟩ => show win3_6.index t (1 : Fin 2) * 128 + 1 * q.val = q.val; rw [e1]; omega
  rw [hk]
  exact point_eq (V c main_call0_v55_0) (V c main_call0_v58) (V c main_call0_v65) (V c main_call0_v51) (V c main_call0_v54) (V c main_call0_v67)
    (iblk3 V c 0 t) (iblk3 V c 1 t) (iblk3 V c 2 t) (iblk3 V c 3 t) (iblk3 V c 4 t) (iblk3 V c 5 t) t.val
    (fun p' k n hn => tile_apply V c t (ix2 p' k) (ix2 n k) hn rfl)
    (mean_row_eq V c t) (istd_row_eq V c t) (scale_row_eq V c t) (shift_row_eq V c t) (mat_eq V c t)
    p q ⟨t.val * 2000 + p.val, by omega⟩ rfl

theorem mem_blk (t : Fin cfg3.N) (i : S100000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_call0_v68).slice (win3_6.rect t)).set ↔ _
  rw [View.set_slice_whole, Rect.mem_set_unit]
  exact Iff.rfl

theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, -, -, -, -, -, -, -, -, e0, e1⟩ := idx_facts t
  refine ⟨t, flush3_6 t, ?_⟩
  rw [mem_blk]
  intro a
  match a with
  | ⟨0, _⟩ => show win3_6.index t (0 : Fin 2) * 2000 ≤ (i 0).val ∧ (i 0).val < win3_6.index t (0 : Fin 2) * 2000 + 2000; rw [e0, ht]; omega
  | ⟨1, _⟩ => show win3_6.index t (1 : Fin 2) * 128 ≤ (i 1).val ∧ (i 1).val < win3_6.index t (1 : Fin 2) * 128 + 128; rw [e1]; omega

theorem arr3 (c : Dev nD) : (dat3 (F := Ideal) V c).arrAt 6 cfg3.N
    = Spec.mm (Spec.y (V c main_call0_v55_0) (V c main_call0_v58) (V c main_call0_v65) (V c main_call0_v51) (V c main_call0_v54))
        (V c main_call0_v67) :=
  (dat3 (F := Ideal) V c).arrAt_eq_of_cover 6 _ (fun t _ => flushed_eq V c t) cover

end Cert.KernelIdeal.K3

end
-- ==== Proof.K0.lean ====
/-
  Region 0: every 2000-row tile of the output is that tile of x times the first layer's matrix, so the output array is
  the matrix product.
-/
import proofs.«420895_j26731876451141_3_alg».proof.Proof.Gen.KernelIdeal.Frame
import proofs.«420895_j26731876451141_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.K0

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Facts₀ Cert.KernelIdeal.Facts

variable (V : (c : Dev nD) → (b : Ref sig .tc) → Buf (Elt Ideal) ((c : Thread nD τ).loc b))

theorem lhs_ax0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_ax1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_ax0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_ax1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem pay_apply (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  rw [shapeCast_self]
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

theorem tile_apply (x : Vec Ideal S2000x128 .f32) (w : Vec Ideal S128x128 .f32) (X : Spec.A2 100000 128) (W : Spec.A2 128 128)
    (p : Fin 2000) (q : Fin 128) (i : S100000x128.Idx)
    (hx : ∀ k : Fin 128, x (ix2 p k) = X (ix2 (i 0) k)) (hw : ∀ k : Fin 128, w (ix2 k q) = W (ix2 k (i 1))) :
    k0_pay1 (F := Ideal) x w (ix2 p q) = Spec.mm X W i := by
  rw [pay_apply]
  unfold Spec.mm Spec.mmE
  exact Finset.sum_congr rfl fun k _ => by rw [hx k, hw k]

theorem hz : (![0, 0] : Fin 2 → Nat) = fun _ => 0 := funext fun a => by fin_cases a <;> rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed_eq (c : Dev nD) (t : Fin cfg0.N) :
    (dat0 (F := Ideal) V c).flushed 2 t = ((cfg0.win 2).blk t).view.read (Elt Ideal) (Spec.mm (V c main_arg0) (V c main_call0_v32)) := by
  show (cfg0.win 2).cut (grid0.coords t) ((dat0 (F := Ideal) V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q) = Spec.mm (V c main_arg0) (V c main_call0_v32) (((cfg0.win 2).blk t).view.emb (ix2 p q))
  refine tile_apply (iblk0 V c 0 t) (iblk0 V c 1 t) (V c main_arg0) (V c main_call0_v32) p q (((cfg0.win 2).blk t).view.emb (ix2 p q)) ?_ ?_
  · intro k
    show V c main_arg0 (((cfg0.win 0).blk t).view.emb (ix2 p k)) = V c main_arg0 _
    refine congrArg (V c main_arg0) ?_
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · intro k
    show V c main_call0_v32 (((cfg0.win 1).blk t).view.emb (ix2 k q)) = V c main_call0_v32 _
    refine congrArg (V c main_call0_v32) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_call0_v33).slice (win0_2.rect t)).set ↔ _
  rw [View.set_slice_whole, Rect.mem_set_unit]
  exact Iff.rfl

theorem cover (i : S100000x128.Idx) : ∃ t : Fin cfg0.N, (cfg0.win 2).flush t = true ∧ i ∈ ((cfg0.win 2).blk t).view.set := by
  have h0 : (i 0).val < 100000 := (i 0).isLt
  have h1 : (i 1).val < 128 := (i 1).isLt
  have hN : cfg0.N = 50 := N_0
  have ht : (i 0).val / 2000 < cfg0.N := by rw [hN]; omega
  obtain ⟨e0, e1, e2, e3, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]; omega

theorem arr0 (c : Dev nD) : (dat0 (F := Ideal) V c).arrAt 2 cfg0.N = Spec.mm (V c main_arg0) (V c main_call0_v32) :=
  (dat0 (F := Ideal) V c).arrAt_eq_of_cover 2 (Spec.mm (V c main_arg0) (V c main_call0_v32)) (fun t _ => flushed_eq V c t) cover

end Cert.KernelIdeal.K0

end
-- ==== Proof.KChainP.lean ====
/-
  Before the first region the kernel program's host operations are the reference's own, so their results are the
  reference's stages.
-/
import proofs.«420895_j26731876451141_3_alg».proof.Proof.Gen.KernelIdeal.Frame
import proofs.«420895_j26731876451141_3_alg».proof.Proof.RefRead
import proofs.«420895_j26731876451141_3_alg».proof.Proof.Spec
import proofs.«420895_j26731876451141_3_alg».proof.Proof.KHostTail
import Idealize.ShloMosaic.Lib.StableHlo.Run
import Idealize.ShloMosaic.Lib.Tactic

set_option maxRecDepth 16384

noncomputable section

namespace Cert.KernelIdeal.KChainP

open Cert.KernelIdeal Cert.KernelIdeal.Gen Idealize.ShloMosaic Idealize.ShloMosaic.TcCoe Idealize.SL.Sem Idealize.ShloMosaic.StableHlo
open Cert.ReferenceIdeal.Read

section Generic

variable {F : FTy → Type} [FloatOps F] (V : Valuation τ sig (Elt F))

theorem g_v1 : after (hostOps0 (F := F)) V (Proc.devRef .tc main_call0_v1) = val_main_v1 (F := F) (V (Proc.devRef .tc main_arg1)) := by
  after_results_simp
  rfl
theorem g_v3 : after (hostOps0 (F := F)) V (Proc.devRef .tc main_call0_v3) = val_main_v3 (F := F) (V (Proc.devRef .tc main_arg1)) := by
  after_results_simp
  rfl
theorem g_v26 : after (hostOps0 (F := F)) V (Proc.devRef .tc main_call0_v26) = val_main_v26 (F := F) (V (Proc.devRef .tc main_arg1)) := by
  after_results_simp
  rfl
theorem g_v29 : after (hostOps0 (F := F)) V (Proc.devRef .tc main_call0_v29) = val_main_v29 (F := F) (V (Proc.devRef .tc main_arg1)) := by
  after_results_simp
  rfl

theorem g_v30 : after (hostOps0 (F := F)) V (Proc.devRef .tc main_call0_v30)
    = (shapeCast S100000x1 (V (Proc.devRef .tc main_arg2)) shapeCasts_S100000_S100000x1 : (⟨S100000x1, .i32⟩ : BufTy).Contents (Elt F)) := by
  after_results_simp
  rfl
theorem g_v32 : after (hostOps0 (F := F)) V (Proc.devRef .tc main_call0_v32) = val_main_v31 (F := F) (V (Proc.devRef .tc main_arg3)) := by
  after_results_simp
  rfl

end Generic

variable (m : (ℓ : Loc nD τ sig) → Buf (Elt Ideal) ℓ) (ρ : Dev nD → PrngReg)

theorem s0_v1 (c : Dev nD) : W1 m ρ c (Proc.devRef .tc main_call0_v1) = val_main_v1 (F := Ideal) (m ((c : Thread nD τ).loc main_arg1)) :=
  g_v1 (W0 m ρ c)
theorem s0_v3 (c : Dev nD) : W1 m ρ c (Proc.devRef .tc main_call0_v3) = val_main_v3 (F := Ideal) (m ((c : Thread nD τ).loc main_arg1)) :=
  g_v3 (W0 m ρ c)
theorem s0_v26 (c : Dev nD) : W1 m ρ c (Proc.devRef .tc main_call0_v26) = val_main_v26 (F := Ideal) (m ((c : Thread nD τ).loc main_arg1)) :=
  g_v26 (W0 m ρ c)
theorem s0_v29 (c : Dev nD) : W1 m ρ c (Proc.devRef .tc main_call0_v29) = val_main_v29 (F := Ideal) (m ((c : Thread nD τ).loc main_arg1)) :=
  g_v29 (W0 m ρ c)
theorem s0_v30 (c : Dev nD) : W1 m ρ c (Proc.devRef .tc main_call0_v30) = Spec.col1 (m ((c : Thread nD τ).loc main_arg2)) :=
  (g_v30 (W0 m ρ c)).trans (KHostTail.col1_eq _)
theorem s0_v32 (c : Dev nD) : W1 m ρ c (Proc.devRef .tc main_call0_v32) = val_main_v31 (F := Ideal) (m ((c : Thread nD τ).loc main_arg3)) :=
  g_v32 (W0 m ρ c)

end Cert.KernelIdeal.KChainP

end
-- ==== Proof.KChainL0.lean ====
/-
  One layer of the kernel program, boundary by boundary: each buffer a later step reads holds the reference's stage of
  the same arguments.  The edge aggregate is the same host operations in both programs; the features, their mean and
  inverse standard deviation and the next product are the specification's functions, which the reference's operations
  of those stages also are; the two halves' partial sums add up to the column sums.
-/
import proofs.«420895_j26731876451141_3_alg».proof.Proof.Gen.KernelIdeal.Frame
import proofs.«420895_j26731876451141_3_alg».proof.Proof.KKeep
import proofs.«420895_j26731876451141_3_alg».proof.Proof.RefRead
import proofs.«420895_j26731876451141_3_alg».proof.Proof.Spec
import proofs.«420895_j26731876451141_3_alg».proof.Proof.KAgg
import proofs.«420895_j26731876451141_3_alg».proof.Proof.KHostStat
import proofs.«420895_j26731876451141_3_alg».proof.Proof.KHostTail
import proofs.«420895_j26731876451141_3_alg».proof.Proof.RefLayer
import proofs.«420895_j26731876451141_3_alg».proof.Proof.K1
import proofs.«420895_j26731876451141_3_alg».proof.Proof.K2
import proofs.«420895_j26731876451141_3_alg».proof.Proof.K3
import proofs.«420895_j26731876451141_3_alg».proof.Proof.K0
import proofs.«420895_j26731876451141_3_alg».proof.Proof.KChainP
import Idealize.ShloMosaic.Lib.StableHlo.Run
import Idealize.ShloMosaic.Lib.Tactic

set_option maxRecDepth 16384

noncomputable section

namespace Cert.KernelIdeal.KChainL0

open Cert.KernelIdeal Cert.KernelIdeal.Gen Idealize.ShloMosaic Idealize.ShloMosaic.TcCoe Idealize.SL.Sem Idealize.ShloMosaic.StableHlo
open Cert.ReferenceIdeal.Read

/-- The layer's aggregate, read off its host operations for any float family and any contents before them. -/
theorem g_agg {F : FTy → Type} [FloatOps F] (V : Valuation τ sig (Elt F)) :
    StableHlo.after (hostOps1 (F := F)) V (Proc.devRef .tc main_call0_v45)
      = KAgg.agg (V (Proc.devRef .tc main_call0_v3)) (V (Proc.devRef .tc main_call0_v26)) (V (Proc.devRef .tc main_call0_v33)) (V (Proc.devRef .tc main_call0_v1)) := by
  after_results_simp <;> rfl

/-- The same operations on the reference's stages are the reference's aggregate. -/
theorem agg_ref {F : FTy → Type} [FloatOps F] (x0 : (⟨Cert.ReferenceIdeal.S100000x128, .f32⟩ : BufTy).Contents (Elt F)) (x1 : (⟨Cert.ReferenceIdeal.S2x800000, .i32⟩ : BufTy).Contents (Elt F))
    (x3 : (⟨Cert.ReferenceIdeal.S3x128x128, .f32⟩ : BufTy).Contents (Elt F)) (x4 x5 x6 : (⟨Cert.ReferenceIdeal.S3x128, .f32⟩ : BufTy).Contents (Elt F)) :
    KAgg.agg (val_main_v3 (F := F) x1) (val_main_v26 (F := F) x1) (val_main_v32 (F := F) x0 x3) (val_main_v1 (F := F) x1)
      = val_main_v44 (F := F) x0 x1 x3 := by
  unfold KAgg.agg
  simp only [val_main_v44, val_main_v43, val_main_v42, val_main_cst_8, val_main_v41, val_main_v40, val_main_v39, val_main_v38, val_main_v37, val_main_v36, val_main_v35, val_main_c_7, val_main_v34, val_main_v33, val_main_c_6]
  rfl

variable (m : (ℓ : Loc nD τ sig) → Buf (Elt Ideal) ℓ) (ρ : Dev nD → PrngReg)

/-- What the layer reads of what came before it: the edge sources and targets, the edge weights, the self weights, the
    three tables and the per-node features. -/
theorem c_v1 (c : Dev nD) : W2 m ρ c (Proc.devRef .tc main_call0_v1) = val_main_v1 (F := Ideal) (m ((c : Thread nD τ).loc main_arg1)) := (keep_v1_1_2 m ρ c).trans (KChainP.s0_v1 m ρ c)
theorem c_v3 (c : Dev nD) : W2 m ρ c (Proc.devRef .tc main_call0_v3) = val_main_v3 (F := Ideal) (m ((c : Thread nD τ).loc main_arg1)) := (keep_v3_1_2 m ρ c).trans (KChainP.s0_v3 m ρ c)
theorem c_v26 (c : Dev nD) : W2 m ρ c (Proc.devRef .tc main_call0_v26) = val_main_v26 (F := Ideal) (m ((c : Thread nD τ).loc main_arg1)) := (keep_v26_1_2 m ρ c).trans (KChainP.s0_v26 m ρ c)
theorem c_v29 (c : Dev nD) : W3 m ρ c (Proc.devRef .tc main_call0_v29) = val_main_v29 (F := Ideal) (m ((c : Thread nD τ).loc main_arg1)) := (keep_v29_1_3 m ρ c).trans (KChainP.s0_v29 m ρ c)
theorem c_arg4 (c : Dev nD) : W2 m ρ c (Proc.devRef .tc main_arg4) = (m ((c : Thread nD τ).loc main_arg4)) := keep_arg4_0_2 m ρ c
theorem c_arg5 (c : Dev nD) : W2 m ρ c (Proc.devRef .tc main_arg5) = (m ((c : Thread nD τ).loc main_arg5)) := keep_arg5_0_2 m ρ c
theorem c_arg6 (c : Dev nD) : W2 m ρ c (Proc.devRef .tc main_arg6) = (m ((c : Thread nD τ).loc main_arg6)) := keep_arg6_0_2 m ρ c
theorem c_arg3 (c : Dev nD) : W6 m ρ c (Proc.devRef .tc main_arg3) = (m ((c : Thread nD τ).loc main_arg3)) := keep_arg3_0_6 m ρ c

/-- Region 0: the first product x W, tile by tile. -/
theorem hlin (c : Dev nD) : W2 m ρ c (Proc.devRef .tc main_call0_v33) = val_main_v32 (F := Ideal) (m ((c : Thread nD τ).loc main_arg0)) (m ((c : Thread nD τ).loc main_arg3)) := by
  refine (W2_arr m ρ c 2).trans ((K0.arr0 (V1 m ρ) c).trans ?_)
  rw [Cert.ReferenceIdeal.RefLayer.v32_eq]
  show Spec.mm (W1 m ρ c (Proc.devRef .tc main_arg0)) (W1 m ρ c (Proc.devRef .tc main_call0_v32)) = _
  rw [keep_arg0_0_1 m ρ c, KChainP.s0_v32 m ρ c]

/-! ## The layer's host operations: the aggregate and the three rows -/

theorem aggv (c : Dev nD) : W3 m ρ c (Proc.devRef .tc main_call0_v45) = val_main_v44 (F := Ideal) (m ((c : Thread nD τ).loc main_arg0)) (m ((c : Thread nD τ).loc main_arg1)) (m ((c : Thread nD τ).loc main_arg3)) := by
  rw [show W3 m ρ c (Proc.devRef .tc main_call0_v45) = _ from g_agg (W2 m ρ c), c_v3 m ρ c, c_v26 m ρ c, hlin m ρ c, c_v1 m ρ c]
  exact agg_ref _ _ _ (m ((c : Thread nD τ).loc main_arg4)) (m ((c : Thread nD τ).loc main_arg5)) (m ((c : Thread nD τ).loc main_arg6))

theorem biasrow (c : Dev nD) : W3 m ρ c (Proc.devRef .tc main_call0_v48) = Spec.row3 (m ((c : Thread nD τ).loc main_arg4)) 0 := by
  have e : W3 m ρ c (Proc.devRef .tc main_call0_v48) = shapeCast S1x128 (shapeCast S128 (extractStridedSlice S1x128 ![0, 0] (W2 m ρ c (Proc.devRef .tc main_arg4)) slices_S3x128_S1x128_0_0) shapeCasts_S1x128_S128) shapeCasts_S128_S1x128 := by
    show StableHlo.after hostOps1 (W2 m ρ c) (Proc.devRef .tc main_call0_v48) = _
    after_results
    rfl
  rw [e, c_arg4 m ρ c]
  exact KHostTail.row3_0 _

theorem gammarow (c : Dev nD) : W3 m ρ c (Proc.devRef .tc main_call0_v51) = Spec.row3 (m ((c : Thread nD τ).loc main_arg5)) 0 := by
  have e : W3 m ρ c (Proc.devRef .tc main_call0_v51) = shapeCast S1x128 (shapeCast S128 (extractStridedSlice S1x128 ![0, 0] (W2 m ρ c (Proc.devRef .tc main_arg5)) slices_S3x128_S1x128_0_0) shapeCasts_S1x128_S128) shapeCasts_S128_S1x128 := by
    show StableHlo.after hostOps1 (W2 m ρ c) (Proc.devRef .tc main_call0_v51) = _
    after_results
    rfl
  rw [e, c_arg5 m ρ c]
  exact KHostTail.row3_0 _

theorem betarow (c : Dev nD) : W3 m ρ c (Proc.devRef .tc main_call0_v54) = Spec.row3 (m ((c : Thread nD τ).loc main_arg6)) 0 := by
  have e : W3 m ρ c (Proc.devRef .tc main_call0_v54) = shapeCast S1x128 (shapeCast S128 (extractStridedSlice S1x128 ![0, 0] (W2 m ρ c (Proc.devRef .tc main_arg6)) slices_S3x128_S1x128_0_0) shapeCasts_S1x128_S128) shapeCasts_S128_S1x128 := by
    show StableHlo.after hostOps1 (W2 m ρ c) (Proc.devRef .tc main_call0_v54) = _
    after_results
    rfl
  rw [e, c_arg6 m ρ c]
  exact KHostTail.row3_0 _

/-! ## Region 1: the features and the halves' column sums -/

theorem feat (c : Dev nD) : W4 m ρ c (Proc.devRef .tc main_call0_v55_0) = val_main_v52 (F := Ideal) (m ((c : Thread nD τ).loc main_arg0)) (m ((c : Thread nD τ).loc main_arg1)) (m ((c : Thread nD τ).loc main_arg3)) (m ((c : Thread nD τ).loc main_arg4)) := by
  refine (W4_arr m ρ c 4).trans ((K1.arr1_hb (V3 m ρ) c).trans ?_)
  rw [Cert.ReferenceIdeal.RefLayer.v52_eq, Cert.ReferenceIdeal.RefLayer.v50_eq]
  show Spec.hb (W3 m ρ c (Proc.devRef .tc main_call0_v45)) (W3 m ρ c (Proc.devRef .tc main_call0_v33)) (W3 m ρ c (Proc.devRef .tc main_call0_v29)) (W3 m ρ c (Proc.devRef .tc main_call0_v48)) = _
  rw [aggv m ρ c, keep_v33_2_3 m ρ c, hlin m ρ c, c_v29 m ρ c, biasrow m ρ c]

theorem psums (c : Dev nD) : W4 m ρ c (Proc.devRef .tc main_call0_v55_1) = Spec.psumA (val_main_v52 (F := Ideal) (m ((c : Thread nD τ).loc main_arg0)) (m ((c : Thread nD τ).loc main_arg1)) (m ((c : Thread nD τ).loc main_arg3)) (m ((c : Thread nD τ).loc main_arg4))) := by
  refine (W4_arr m ρ c 5).trans ((K1.arr1_ps (V3 m ρ) c).trans ?_)
  rw [Cert.ReferenceIdeal.RefLayer.v52_eq, Cert.ReferenceIdeal.RefLayer.v50_eq]
  show Spec.psumA (Spec.hb (W3 m ρ c (Proc.devRef .tc main_call0_v45)) (W3 m ρ c (Proc.devRef .tc main_call0_v33)) (W3 m ρ c (Proc.devRef .tc main_call0_v29)) (W3 m ρ c (Proc.devRef .tc main_call0_v48))) = _
  rw [aggv m ρ c, keep_v33_2_3 m ρ c, hlin m ρ c, c_v29 m ρ c, biasrow m ρ c]

/-! ## The mean -/

theorem meanv (c : Dev nD) : W5 m ρ c (Proc.devRef .tc main_call0_v58) = val_main_v56 (F := Ideal) (m ((c : Thread nD τ).loc main_arg0)) (m ((c : Thread nD τ).loc main_arg1)) (m ((c : Thread nD τ).loc main_arg3)) (m ((c : Thread nD τ).loc main_arg4)) := by
  have e : W5 m ρ c (Proc.devRef .tc main_call0_v58)
      = Host.divf (F := Ideal) (Host.reduceAdd (F := Ideal) (W4 m ρ c (Proc.devRef .tc main_call0_v55_1)) (constant (F := Ideal) S_ .f32 0x00000000#32) reducesTo_S2x1x128_S1x128_d0 h_S_)
          (broadcastInDim S1x128 ![] bcast_S_S1x128 (constant (F := Ideal) S_ .f32 0x47C35000#32)) := by
    show StableHlo.after hostOps2 (W4 m ρ c) (Proc.devRef .tc main_call0_v58) = _
    after_results
    rfl
  rw [e, psums m ρ c, Cert.ReferenceIdeal.RefLayer.v56_eq]
  exact KHostStat.mean_eq _

/-! ## Region 2 and the inverse standard deviation -/

theorem sqsums (c : Dev nD) : W6 m ρ c (Proc.devRef .tc main_call0_v59)
    = Spec.psumA (Spec.sq (val_main_v52 (F := Ideal) (m ((c : Thread nD τ).loc main_arg0)) (m ((c : Thread nD τ).loc main_arg1)) (m ((c : Thread nD τ).loc main_arg3)) (m ((c : Thread nD τ).loc main_arg4))) (val_main_v56 (F := Ideal) (m ((c : Thread nD τ).loc main_arg0)) (m ((c : Thread nD τ).loc main_arg1)) (m ((c : Thread nD τ).loc main_arg3)) (m ((c : Thread nD τ).loc main_arg4)))) := by
  refine (W6_arr m ρ c 2).trans ((K2.arr2 (V5 m ρ) c).trans ?_)
  show Spec.psumA (Spec.sq (W5 m ρ c (Proc.devRef .tc main_call0_v55_0)) (W5 m ρ c (Proc.devRef .tc main_call0_v58))) = _
  rw [keep_v55_0_4_5 m ρ c, feat m ρ c, meanv m ρ c]

theorem istdv (c : Dev nD) : W7 m ρ c (Proc.devRef .tc main_call0_v65) = val_main_v69 (F := Ideal) (m ((c : Thread nD τ).loc main_arg0)) (m ((c : Thread nD τ).loc main_arg1)) (m ((c : Thread nD τ).loc main_arg3)) (m ((c : Thread nD τ).loc main_arg4)) := by
  have e : W7 m ρ c (Proc.devRef .tc main_call0_v65)
      = Host.rsqrt (F := Ideal) (addf (Host.divf (F := Ideal) (Host.reduceAdd (F := Ideal) (W6 m ρ c (Proc.devRef .tc main_call0_v59)) (constant (F := Ideal) S_ .f32 0x00000000#32) reducesTo_S2x1x128_S1x128_d0 h_S_)
          (broadcastInDim S1x128 ![] bcast_S_S1x128 (constant (F := Ideal) S_ .f32 0x47C35000#32)))
          (broadcastInDim S1x128 ![] bcast_S_S1x128 (constant (F := Ideal) S_ .f32 0x3727C5AC#32))) := by
    show StableHlo.after hostOps3 (W6 m ρ c) (Proc.devRef .tc main_call0_v65) = _
    after_results
    rfl
  rw [e, sqsums m ρ c, Cert.ReferenceIdeal.RefLayer.v69_eq]
  exact KHostStat.istd_eq _ _

/-- The next layer's matrix: a slice of the table of matrices, as both programs take it. -/
theorem wnext (c : Dev nD) : W7 m ρ c (Proc.devRef .tc main_call0_v67) = val_main_v84 (F := Ideal) (m ((c : Thread nD τ).loc main_arg3)) := by
  have e : W7 m ρ c (Proc.devRef .tc main_call0_v67) = shapeCast S128x128 (extractStridedSlice S1x128x128 ![1, 0, 0] (W6 m ρ c (Proc.devRef .tc main_arg3)) slices_S3x128x128_S1x128x128_1_0_0) shapeCasts_S1x128x128_S128x128 := by
    show StableHlo.after hostOps3 (W6 m ρ c) (Proc.devRef .tc main_call0_v67) = _
    after_results
    rfl
  rw [e, c_arg3 m ρ c]
  simp only [val_main_v84, val_main_v83]

/-- Region 3: normalise, scale, shift, clip at zero, and multiply by the next layer's matrix. -/
theorem next (c : Dev nD) : W8 m ρ c (Proc.devRef .tc main_call0_v68) = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 6).trans ((K3.arr3 (V7 m ρ) c).trans ?_)
  rw [Cert.ReferenceIdeal.RefLayer.v85_eq, Cert.ReferenceIdeal.RefLayer.v82_eq, Cert.ReferenceIdeal.RefLayer.v74_eq, Cert.ReferenceIdeal.RefLayer.v79_eq]
  show Spec.mm (Spec.y (W7 m ρ c (Proc.devRef .tc main_call0_v55_0)) (W7 m ρ c (Proc.devRef .tc main_call0_v58)) (W7 m ρ c (Proc.devRef .tc main_call0_v65)) (W7 m ρ c (Proc.devRef .tc main_call0_v51)) (W7 m ρ c (Proc.devRef .tc main_call0_v54))) (W7 m ρ c (Proc.devRef .tc main_call0_v67)) = _
  rw [keep_v55_0_5_7 m ρ c, keep_v55_0_4_5 m ρ c, feat m ρ c, keep_v58_5_7 m ρ c, meanv m ρ c, istdv m ρ c,
    keep_v51_3_7 m ρ c, gammarow m ρ c, keep_v54_3_7 m ρ c, betarow m ρ c, wnext m ρ c]

end Cert.KernelIdeal.KChainL0

end
-- ==== Proof.KChainL1.lean ====
/-
  One layer of the kernel program, boundary by boundary: each buffer a later step reads holds the reference's stage of
  the same arguments.  The edge aggregate is the same host operations in both programs; the features, their mean and
  inverse standard deviation and the next product are the specification's functions, which the reference's operations
  of those stages also are; the two halves' partial sums add up to the column sums.
-/
import proofs.«420895_j26731876451141_3_alg».proof.Proof.Gen.KernelIdeal.Frame
import proofs.«420895_j26731876451141_3_alg».proof.Proof.KKeep
import proofs.«420895_j26731876451141_3_alg».proof.Proof.RefRead
import proofs.«420895_j26731876451141_3_alg».proof.Proof.Spec
import proofs.«420895_j26731876451141_3_alg».proof.Proof.KAgg
import proofs.«420895_j26731876451141_3_alg».proof.Proof.KHostStat
import proofs.«420895_j26731876451141_3_alg».proof.Proof.KHostTail
import proofs.«420895_j26731876451141_3_alg».proof.Proof.RefLayer
import proofs.«420895_j26731876451141_3_alg».proof.Proof.K4
import proofs.«420895_j26731876451141_3_alg».proof.Proof.K5
import proofs.«420895_j26731876451141_3_alg».proof.Proof.K6
import proofs.«420895_j26731876451141_3_alg».proof.Proof.KChainL0
import Idealize.ShloMosaic.Lib.StableHlo.Run
import Idealize.ShloMosaic.Lib.Tactic

set_option maxRecDepth 16384

noncomputable section

namespace Cert.KernelIdeal.KChainL1

open Cert.KernelIdeal Cert.KernelIdeal.Gen Idealize.ShloMosaic Idealize.ShloMosaic.TcCoe Idealize.SL.Sem Idealize.ShloMosaic.StableHlo
open Cert.ReferenceIdeal.Read

/-- The layer's aggregate, read off its host operations for any float family and any contents before them. -/
theorem g_agg {F : FTy → Type} [FloatOps F] (V : Valuation τ sig (Elt F)) :
    StableHlo.after (hostOps4 (F := F)) V (Proc.devRef .tc main_call0_v80)
      = KAgg.agg (V (Proc.devRef .tc main_call0_v3)) (V (Proc.devRef .tc main_call0_v26)) (V (Proc.devRef .tc main_call0_v68)) (V (Proc.devRef .tc main_call0_v1)) := by
  after_results_simp <;> rfl

/-- The same operations on the reference's stages are the reference's aggregate. -/
theorem agg_ref {F : FTy → Type} [FloatOps F] (x0 : (⟨Cert.ReferenceIdeal.S100000x128, .f32⟩ : BufTy).Contents (Elt F)) (x1 : (⟨Cert.ReferenceIdeal.S2x800000, .i32⟩ : BufTy).Contents (Elt F))
    (x3 : (⟨Cert.ReferenceIdeal.S3x128x128, .f32⟩ : BufTy).Contents (Elt F)) (x4 x5 x6 : (⟨Cert.ReferenceIdeal.S3x128, .f32⟩ : BufTy).Contents (Elt F)) :
    KAgg.agg (val_main_v3 (F := F) x1) (val_main_v26 (F := F) x1) (val_main_v85 (F := F) x0 x1 x3 x4 x5 x6) (val_main_v1 (F := F) x1)
      = val_main_v97 (F := F) x0 x1 x3 x4 x5 x6 := by
  unfold KAgg.agg
  simp only [val_main_v97, val_main_v96, val_main_v95, val_main_cst_16, val_main_v94, val_main_v93, val_main_v92, val_main_v91, val_main_v90, val_main_v89, val_main_v88, val_main_c_15, val_main_v87, val_main_v86, val_main_c_14]
  rfl

variable (m : (ℓ : Loc nD τ sig) → Buf (Elt Ideal) ℓ) (ρ : Dev nD → PrngReg)

/-- What the layer reads of what came before it: the edge sources and targets, the edge weights, the self weights, the
    three tables and the per-node features (the layer before's product). -/
theorem c_v1 (c : Dev nD) : W8 m ρ c (Proc.devRef .tc main_call0_v1) = val_main_v1 (F := Ideal) (m ((c : Thread nD τ).loc main_arg1)) := (keep_v1_2_8 m ρ c).trans (KChainL0.c_v1 m ρ c)
theorem c_v3 (c : Dev nD) : W8 m ρ c (Proc.devRef .tc main_call0_v3) = val_main_v3 (F := Ideal) (m ((c : Thread nD τ).loc main_arg1)) := (keep_v3_2_8 m ρ c).trans (KChainL0.c_v3 m ρ c)
theorem c_v26 (c : Dev nD) : W8 m ρ c (Proc.devRef .tc main_call0_v26) = val_main_v26 (F := Ideal) (m ((c : Thread nD τ).loc main_arg1)) := (keep_v26_2_8 m ρ c).trans (KChainL0.c_v26 m ρ c)
theorem c_v29 (c : Dev nD) : W9 m ρ c (Proc.devRef .tc main_call0_v29) = val_main_v29 (F := Ideal) (m ((c : Thread nD τ).loc main_arg1)) := (keep_v29_3_9 m ρ c).trans (KChainL0.c_v29 m ρ c)
theorem c_arg4 (c : Dev nD) : W8 m ρ c (Proc.devRef .tc main_arg4) = (m ((c : Thread nD τ).loc main_arg4)) := (keep_arg4_2_8 m ρ c).trans (KChainL0.c_arg4 m ρ c)
theorem c_arg5 (c : Dev nD) : W8 m ρ c (Proc.devRef .tc main_arg5) = (m ((c : Thread nD τ).loc main_arg5)) := (keep_arg5_2_8 m ρ c).trans (KChainL0.c_arg5 m ρ c)
theorem c_arg6 (c : Dev nD) : W8 m ρ c (Proc.devRef .tc main_arg6) = (m ((c : Thread nD τ).loc main_arg6)) := (keep_arg6_2_8 m ρ c).trans (KChainL0.c_arg6 m ρ c)
theorem c_arg3 (c : Dev nD) : W12 m ρ c (Proc.devRef .tc main_arg3) = (m ((c : Thread nD τ).loc main_arg3)) := (keep_arg3_6_12 m ρ c).trans (KChainL0.c_arg3 m ρ c)

theorem hlin (c : Dev nD) : W8 m ρ c (Proc.devRef .tc main_call0_v68) = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := KChainL0.next m ρ c

/-! ## The layer's host operations: the aggregate and the three rows -/

theorem aggv (c : Dev nD) : W9 m ρ c (Proc.devRef .tc main_call0_v80) = val_main_v97 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [show W9 m ρ c (Proc.devRef .tc main_call0_v80) = _ from g_agg (W8 m ρ c), c_v3 m ρ c, c_v26 m ρ c, hlin m ρ c, c_v1 m ρ c]
  exact agg_ref _ _ _ (m ((c : Thread nD τ).loc main_arg4)) (m ((c : Thread nD τ).loc main_arg5)) (m ((c : Thread nD τ).loc main_arg6))

theorem biasrow (c : Dev nD) : W9 m ρ c (Proc.devRef .tc main_call0_v83) = Spec.row3 (m ((c : Thread nD τ).loc main_arg4)) 1 := by
  have e : W9 m ρ c (Proc.devRef .tc main_call0_v83) = shapeCast S1x128 (shapeCast S128 (extractStridedSlice S1x128 ![1, 0] (W8 m ρ c (Proc.devRef .tc main_arg4)) slices_S3x128_S1x128_1_0) shapeCasts_S1x128_S128) shapeCasts_S128_S1x128 := by
    show StableHlo.after hostOps4 (W8 m ρ c) (Proc.devRef .tc main_call0_v83) = _
    after_results
    rfl
  rw [e, c_arg4 m ρ c]
  exact KHostTail.row3_1 _

theorem gammarow (c : Dev nD) : W9 m ρ c (Proc.devRef .tc main_call0_v86) = Spec.row3 (m ((c : Thread nD τ).loc main_arg5)) 1 := by
  have e : W9 m ρ c (Proc.devRef .tc main_call0_v86) = shapeCast S1x128 (shapeCast S128 (extractStridedSlice S1x128 ![1, 0] (W8 m ρ c (Proc.devRef .tc main_arg5)) slices_S3x128_S1x128_1_0) shapeCasts_S1x128_S128) shapeCasts_S128_S1x128 := by
    show StableHlo.after hostOps4 (W8 m ρ c) (Proc.devRef .tc main_call0_v86) = _
    after_results
    rfl
  rw [e, c_arg5 m ρ c]
  exact KHostTail.row3_1 _

theorem betarow (c : Dev nD) : W9 m ρ c (Proc.devRef .tc main_call0_v89) = Spec.row3 (m ((c : Thread nD τ).loc main_arg6)) 1 := by
  have e : W9 m ρ c (Proc.devRef .tc main_call0_v89) = shapeCast S1x128 (shapeCast S128 (extractStridedSlice S1x128 ![1, 0] (W8 m ρ c (Proc.devRef .tc main_arg6)) slices_S3x128_S1x128_1_0) shapeCasts_S1x128_S128) shapeCasts_S128_S1x128 := by
    show StableHlo.after hostOps4 (W8 m ρ c) (Proc.devRef .tc main_call0_v89) = _
    after_results
    rfl
  rw [e, c_arg6 m ρ c]
  exact KHostTail.row3_1 _

/-! ## Region 4: the features and the halves' column sums -/

theorem feat (c : Dev nD) : W10 m ρ c (Proc.devRef .tc main_call0_v90_0) = val_main_v105 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W10_arr m ρ c 4).trans ((K4.arr4_hb (V9 m ρ) c).trans ?_)
  rw [Cert.ReferenceIdeal.RefLayer.v105_eq, Cert.ReferenceIdeal.RefLayer.v103_eq]
  show Spec.hb (W9 m ρ c (Proc.devRef .tc main_call0_v80)) (W9 m ρ c (Proc.devRef .tc main_call0_v68)) (W9 m ρ c (Proc.devRef .tc main_call0_v29)) (W9 m ρ c (Proc.devRef .tc main_call0_v83)) = _
  rw [aggv m ρ c, keep_v68_8_9 m ρ c, hlin m ρ c, c_v29 m ρ c, biasrow m ρ c]

theorem psums (c : Dev nD) : W10 m ρ c (Proc.devRef .tc main_call0_v90_1) = Spec.psumA (val_main_v105 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W10_arr m ρ c 5).trans ((K4.arr4_ps (V9 m ρ) c).trans ?_)
  rw [Cert.ReferenceIdeal.RefLayer.v105_eq, Cert.ReferenceIdeal.RefLayer.v103_eq]
  show Spec.psumA (Spec.hb (W9 m ρ c (Proc.devRef .tc main_call0_v80)) (W9 m ρ c (Proc.devRef .tc main_call0_v68)) (W9 m ρ c (Proc.devRef .tc main_call0_v29)) (W9 m ρ c (Proc.devRef .tc main_call0_v83))) = _
  rw [aggv m ρ c, keep_v68_8_9 m ρ c, hlin m ρ c, c_v29 m ρ c, biasrow m ρ c]

/-! ## The mean -/

theorem meanv (c : Dev nD) : W11 m ρ c (Proc.devRef .tc main_call0_v93) = val_main_v109 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have e : W11 m ρ c (Proc.devRef .tc main_call0_v93)
      = Host.divf (F := Ideal) (Host.reduceAdd (F := Ideal) (W10 m ρ c (Proc.devRef .tc main_call0_v90_1)) (constant (F := Ideal) S_ .f32 0x00000000#32) reducesTo_S2x1x128_S1x128_d0 h_S_)
          (broadcastInDim S1x128 ![] bcast_S_S1x128 (constant (F := Ideal) S_ .f32 0x47C35000#32)) := by
    show StableHlo.after hostOps5 (W10 m ρ c) (Proc.devRef .tc main_call0_v93) = _
    after_results
    rfl
  rw [e, psums m ρ c, Cert.ReferenceIdeal.RefLayer.v109_eq]
  exact KHostStat.mean_eq _

/-! ## Region 5 and the inverse standard deviation -/

theorem sqsums (c : Dev nD) : W12 m ρ c (Proc.devRef .tc main_call0_v94)
    = Spec.psumA (Spec.sq (val_main_v105 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (val_main_v109 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) := by
  refine (W12_arr m ρ c 2).trans ((K5.arr5 (V11 m ρ) c).trans ?_)
  show Spec.psumA (Spec.sq (W11 m ρ c (Proc.devRef .tc main_call0_v90_0)) (W11 m ρ c (Proc.devRef .tc main_call0_v93))) = _
  rw [keep_v90_0_10_11 m ρ c, feat m ρ c, meanv m ρ c]

theorem istdv (c : Dev nD) : W13 m ρ c (Proc.devRef .tc main_call0_v100) = val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have e : W13 m ρ c (Proc.devRef .tc main_call0_v100)
      = Host.rsqrt (F := Ideal) (addf (Host.divf (F := Ideal) (Host.reduceAdd (F := Ideal) (W12 m ρ c (Proc.devRef .tc main_call0_v94)) (constant (F := Ideal) S_ .f32 0x00000000#32) reducesTo_S2x1x128_S1x128_d0 h_S_)
          (broadcastInDim S1x128 ![] bcast_S_S1x128 (constant (F := Ideal) S_ .f32 0x47C35000#32)))
          (broadcastInDim S1x128 ![] bcast_S_S1x128 (constant (F := Ideal) S_ .f32 0x3727C5AC#32))) := by
    show StableHlo.after hostOps6 (W12 m ρ c) (Proc.devRef .tc main_call0_v100) = _
    after_results
    rfl
  rw [e, sqsums m ρ c, Cert.ReferenceIdeal.RefLayer.v122_eq]
  exact KHostStat.istd_eq _ _

/-- The next layer's matrix: a slice of the table of matrices, as both programs take it. -/
theorem wnext (c : Dev nD) : W13 m ρ c (Proc.devRef .tc main_call0_v102) = val_main_v137 (F := Ideal) (m ((c : Thread nD τ).loc main_arg3)) := by
  have e : W13 m ρ c (Proc.devRef .tc main_call0_v102) = shapeCast S128x128 (extractStridedSlice S1x128x128 ![2, 0, 0] (W12 m ρ c (Proc.devRef .tc main_arg3)) slices_S3x128x128_S1x128x128_2_0_0) shapeCasts_S1x128x128_S128x128 := by
    show StableHlo.after hostOps6 (W12 m ρ c) (Proc.devRef .tc main_call0_v102) = _
    after_results
    rfl
  rw [e, c_arg3 m ρ c]
  simp only [val_main_v137, val_main_v136]

/-- Region 6: normalise, scale, shift, clip at zero, and multiply by the next layer's matrix. -/
theorem next (c : Dev nD) : W14 m ρ c (Proc.devRef .tc main_call0_v103) = val_main_v138 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W14_arr m ρ c 6).trans ((K6.arr6 (V13 m ρ) c).trans ?_)
  rw [Cert.ReferenceIdeal.RefLayer.v138_eq, Cert.ReferenceIdeal.RefLayer.v135_eq, Cert.ReferenceIdeal.RefLayer.v127_eq, Cert.ReferenceIdeal.RefLayer.v132_eq]
  show Spec.mm (Spec.y (W13 m ρ c (Proc.devRef .tc main_call0_v90_0)) (W13 m ρ c (Proc.devRef .tc main_call0_v93)) (W13 m ρ c (Proc.devRef .tc main_call0_v100)) (W13 m ρ c (Proc.devRef .tc main_call0_v86)) (W13 m ρ c (Proc.devRef .tc main_call0_v89))) (W13 m ρ c (Proc.devRef .tc main_call0_v102)) = _
  rw [keep_v90_0_11_13 m ρ c, keep_v90_0_10_11 m ρ c, feat m ρ c, keep_v93_11_13 m ρ c, meanv m ρ c, istdv m ρ c,
    keep_v86_9_13 m ρ c, gammarow m ρ c, keep_v89_9_13 m ρ c, betarow m ρ c, wnext m ρ c]

end Cert.KernelIdeal.KChainL1

end
-- ==== Proof.KChainL2.lean ====
/-
  One layer of the kernel program, boundary by boundary: each buffer a later step reads holds the reference's stage of
  the same arguments.  The edge aggregate is the same host operations in both programs; the features, their mean and
  inverse standard deviation and the next product are the specification's functions, which the reference's operations
  of those stages also are; the two halves' partial sums add up to the column sums.
-/
import proofs.«420895_j26731876451141_3_alg».proof.Proof.Gen.KernelIdeal.Frame
import proofs.«420895_j26731876451141_3_alg».proof.Proof.KKeep
import proofs.«420895_j26731876451141_3_alg».proof.Proof.RefRead
import proofs.«420895_j26731876451141_3_alg».proof.Proof.Spec
import proofs.«420895_j26731876451141_3_alg».proof.Proof.KAgg
import proofs.«420895_j26731876451141_3_alg».proof.Proof.KHostStat
import proofs.«420895_j26731876451141_3_alg».proof.Proof.KHostTail
import proofs.«420895_j26731876451141_3_alg».proof.Proof.RefLayer
import proofs.«420895_j26731876451141_3_alg».proof.Proof.K7
import proofs.«420895_j26731876451141_3_alg».proof.Proof.K8
import proofs.«420895_j26731876451141_3_alg».proof.Proof.KChainL1
import Idealize.ShloMosaic.Lib.StableHlo.Run
import Idealize.ShloMosaic.Lib.Tactic

set_option maxRecDepth 16384

noncomputable section

namespace Cert.KernelIdeal.KChainL2

open Cert.KernelIdeal Cert.KernelIdeal.Gen Idealize.ShloMosaic Idealize.ShloMosaic.TcCoe Idealize.SL.Sem Idealize.ShloMosaic.StableHlo
open Cert.ReferenceIdeal.Read

/-- The layer's aggregate, read off its host operations for any float family and any contents before them. -/
theorem g_agg {F : FTy → Type} [FloatOps F] (V : Valuation τ sig (Elt F)) :
    StableHlo.after (hostOps7 (F := F)) V (Proc.devRef .tc main_call0_v115)
      = KAgg.agg (V (Proc.devRef .tc main_call0_v3)) (V (Proc.devRef .tc main_call0_v26)) (V (Proc.devRef .tc main_call0_v103)) (V (Proc.devRef .tc main_call0_v1)) := by
  after_results_simp <;> rfl

/-- The same operations on the reference's stages are the reference's aggregate. -/
theorem agg_ref {F : FTy → Type} [FloatOps F] (x0 : (⟨Cert.ReferenceIdeal.S100000x128, .f32⟩ : BufTy).Contents (Elt F)) (x1 : (⟨Cert.ReferenceIdeal.S2x800000, .i32⟩ : BufTy).Contents (Elt F))
    (x3 : (⟨Cert.ReferenceIdeal.S3x128x128, .f32⟩ : BufTy).Contents (Elt F)) (x4 x5 x6 : (⟨Cert.ReferenceIdeal.S3x128, .f32⟩ : BufTy).Contents (Elt F)) :
    KAgg.agg (val_main_v3 (F := F) x1) (val_main_v26 (F := F) x1) (val_main_v138 (F := F) x0 x1 x3 x4 x5 x6) (val_main_v1 (F := F) x1)
      = val_main_v150 (F := F) x0 x1 x3 x4 x5 x6 := by
  unfold KAgg.agg
  simp only [val_main_v150, val_main_v149, val_main_v148, val_main_cst_24, val_main_v147, val_main_v146, val_main_v145, val_main_v144, val_main_v143, val_main_v142, val_main_v141, val_main_c_23, val_main_v140, val_main_v139, val_main_c_22]
  rfl

variable (m : (ℓ : Loc nD τ sig) → Buf (Elt Ideal) ℓ) (ρ : Dev nD → PrngReg)

/-- What the layer reads of what came before it: the edge sources and targets, the edge weights, the self weights, the
    three tables and the per-node features (the layer before's product). -/
theorem c_v1 (c : Dev nD) : W14 m ρ c (Proc.devRef .tc main_call0_v1) = val_main_v1 (F := Ideal) (m ((c : Thread nD τ).loc main_arg1)) := (keep_v1_8_14 m ρ c).trans (KChainL1.c_v1 m ρ c)
theorem c_v3 (c : Dev nD) : W14 m ρ c (Proc.devRef .tc main_call0_v3) = val_main_v3 (F := Ideal) (m ((c : Thread nD τ).loc main_arg1)) := (keep_v3_8_14 m ρ c).trans (KChainL1.c_v3 m ρ c)
theorem c_v26 (c : Dev nD) : W14 m ρ c (Proc.devRef .tc main_call0_v26) = val_main_v26 (F := Ideal) (m ((c : Thread nD τ).loc main_arg1)) := (keep_v26_8_14 m ρ c).trans (KChainL1.c_v26 m ρ c)
theorem c_v29 (c : Dev nD) : W15 m ρ c (Proc.devRef .tc main_call0_v29) = val_main_v29 (F := Ideal) (m ((c : Thread nD τ).loc main_arg1)) := (keep_v29_9_15 m ρ c).trans (KChainL1.c_v29 m ρ c)
theorem c_arg4 (c : Dev nD) : W14 m ρ c (Proc.devRef .tc main_arg4) = (m ((c : Thread nD τ).loc main_arg4)) := (keep_arg4_8_14 m ρ c).trans (KChainL1.c_arg4 m ρ c)
theorem c_arg5 (c : Dev nD) : W14 m ρ c (Proc.devRef .tc main_arg5) = (m ((c : Thread nD τ).loc main_arg5)) := (keep_arg5_8_14 m ρ c).trans (KChainL1.c_arg5 m ρ c)
theorem c_arg6 (c : Dev nD) : W14 m ρ c (Proc.devRef .tc main_arg6) = (m ((c : Thread nD τ).loc main_arg6)) := (keep_arg6_8_14 m ρ c).trans (KChainL1.c_arg6 m ρ c)

theorem hlin (c : Dev nD) : W14 m ρ c (Proc.devRef .tc main_call0_v103) = val_main_v138 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := KChainL1.next m ρ c

/-! ## The layer's host operations: the aggregate and the three rows -/

theorem aggv (c : Dev nD) : W15 m ρ c (Proc.devRef .tc main_call0_v115) = val_main_v150 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [show W15 m ρ c (Proc.devRef .tc main_call0_v115) = _ from g_agg (W14 m ρ c), c_v3 m ρ c, c_v26 m ρ c, hlin m ρ c, c_v1 m ρ c]
  exact agg_ref _ _ _ (m ((c : Thread nD τ).loc main_arg4)) (m ((c : Thread nD τ).loc main_arg5)) (m ((c : Thread nD τ).loc main_arg6))

theorem biasrow (c : Dev nD) : W15 m ρ c (Proc.devRef .tc main_call0_v118) = Spec.row3 (m ((c : Thread nD τ).loc main_arg4)) 2 := by
  have e : W15 m ρ c (Proc.devRef .tc main_call0_v118) = shapeCast S1x128 (shapeCast S128 (extractStridedSlice S1x128 ![2, 0] (W14 m ρ c (Proc.devRef .tc main_arg4)) slices_S3x128_S1x128_2_0) shapeCasts_S1x128_S128) shapeCasts_S128_S1x128 := by
    show StableHlo.after hostOps7 (W14 m ρ c) (Proc.devRef .tc main_call0_v118) = _
    after_results
    rfl
  rw [e, c_arg4 m ρ c]
  exact KHostTail.row3_2 _

theorem gammarow (c : Dev nD) : W15 m ρ c (Proc.devRef .tc main_call0_v121) = Spec.row3 (m ((c : Thread nD τ).loc main_arg5)) 2 := by
  have e : W15 m ρ c (Proc.devRef .tc main_call0_v121) = shapeCast S1x128 (shapeCast S128 (extractStridedSlice S1x128 ![2, 0] (W14 m ρ c (Proc.devRef .tc main_arg5)) slices_S3x128_S1x128_2_0) shapeCasts_S1x128_S128) shapeCasts_S128_S1x128 := by
    show StableHlo.after hostOps7 (W14 m ρ c) (Proc.devRef .tc main_call0_v121) = _
    after_results
    rfl
  rw [e, c_arg5 m ρ c]
  exact KHostTail.row3_2 _

theorem betarow (c : Dev nD) : W15 m ρ c (Proc.devRef .tc main_call0_v124) = Spec.row3 (m ((c : Thread nD τ).loc main_arg6)) 2 := by
  have e : W15 m ρ c (Proc.devRef .tc main_call0_v124) = shapeCast S1x128 (shapeCast S128 (extractStridedSlice S1x128 ![2, 0] (W14 m ρ c (Proc.devRef .tc main_arg6)) slices_S3x128_S1x128_2_0) shapeCasts_S1x128_S128) shapeCasts_S128_S1x128 := by
    show StableHlo.after hostOps7 (W14 m ρ c) (Proc.devRef .tc main_call0_v124) = _
    after_results
    rfl
  rw [e, c_arg6 m ρ c]
  exact KHostTail.row3_2 _

/-! ## Region 7: the features and the halves' column sums -/

theorem feat (c : Dev nD) : W16 m ρ c (Proc.devRef .tc main_call0_v125_0) = val_main_v158 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W16_arr m ρ c 4).trans ((K7.arr7_hb (V15 m ρ) c).trans ?_)
  rw [Cert.ReferenceIdeal.RefLayer.v158_eq, Cert.ReferenceIdeal.RefLayer.v156_eq]
  show Spec.hb (W15 m ρ c (Proc.devRef .tc main_call0_v115)) (W15 m ρ c (Proc.devRef .tc main_call0_v103)) (W15 m ρ c (Proc.devRef .tc main_call0_v29)) (W15 m ρ c (Proc.devRef .tc main_call0_v118)) = _
  rw [aggv m ρ c, keep_v103_14_15 m ρ c, hlin m ρ c, c_v29 m ρ c, biasrow m ρ c]

theorem psums (c : Dev nD) : W16 m ρ c (Proc.devRef .tc main_call0_v125_1) = Spec.psumA (val_main_v158 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W16_arr m ρ c 5).trans ((K7.arr7_ps (V15 m ρ) c).trans ?_)
  rw [Cert.ReferenceIdeal.RefLayer.v158_eq, Cert.ReferenceIdeal.RefLayer.v156_eq]
  show Spec.psumA (Spec.hb (W15 m ρ c (Proc.devRef .tc main_call0_v115)) (W15 m ρ c (Proc.devRef .tc main_call0_v103)) (W15 m ρ c (Proc.devRef .tc main_call0_v29)) (W15 m ρ c (Proc.devRef .tc main_call0_v118))) = _
  rw [aggv m ρ c, keep_v103_14_15 m ρ c, hlin m ρ c, c_v29 m ρ c, biasrow m ρ c]

/-! ## The mean -/

theorem meanv (c : Dev nD) : W17 m ρ c (Proc.devRef .tc main_call0_v128) = val_main_v162 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have e : W17 m ρ c (Proc.devRef .tc main_call0_v128)
      = Host.divf (F := Ideal) (Host.reduceAdd (F := Ideal) (W16 m ρ c (Proc.devRef .tc main_call0_v125_1)) (constant (F := Ideal) S_ .f32 0x00000000#32) reducesTo_S2x1x128_S1x128_d0 h_S_)
          (broadcastInDim S1x128 ![] bcast_S_S1x128 (constant (F := Ideal) S_ .f32 0x47C35000#32)) := by
    show StableHlo.after hostOps8 (W16 m ρ c) (Proc.devRef .tc main_call0_v128) = _
    after_results
    rfl
  rw [e, psums m ρ c, Cert.ReferenceIdeal.RefLayer.v162_eq]
  exact KHostStat.mean_eq _

/-! ## Region 8 and the inverse standard deviation -/

theorem sqsums (c : Dev nD) : W18 m ρ c (Proc.devRef .tc main_call0_v129)
    = Spec.psumA (Spec.sq (val_main_v158 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (val_main_v162 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) := by
  refine (W18_arr m ρ c 2).trans ((K8.arr8 (V17 m ρ) c).trans ?_)
  show Spec.psumA (Spec.sq (W17 m ρ c (Proc.devRef .tc main_call0_v125_0)) (W17 m ρ c (Proc.devRef .tc main_call0_v128))) = _
  rw [keep_v125_0_16_17 m ρ c, feat m ρ c, meanv m ρ c]

theorem istdv (c : Dev nD) : W19 m ρ c (Proc.devRef .tc main_call0_v135) = val_main_v175 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have e : W19 m ρ c (Proc.devRef .tc main_call0_v135)
      = Host.rsqrt (F := Ideal) (addf (Host.divf (F := Ideal) (Host.reduceAdd (F := Ideal) (W18 m ρ c (Proc.devRef .tc main_call0_v129)) (constant (F := Ideal) S_ .f32 0x00000000#32) reducesTo_S2x1x128_S1x128_d0 h_S_)
          (broadcastInDim S1x128 ![] bcast_S_S1x128 (constant (F := Ideal) S_ .f32 0x47C35000#32)))
          (broadcastInDim S1x128 ![] bcast_S_S1x128 (constant (F := Ideal) S_ .f32 0x3727C5AC#32))) := by
    show StableHlo.after hostOps9 (W18 m ρ c) (Proc.devRef .tc main_call0_v135) = _
    after_results
    rfl
  rw [e, sqsums m ρ c, Cert.ReferenceIdeal.RefLayer.v175_eq]
  exact KHostStat.istd_eq _ _

end Cert.KernelIdeal.KChainL2

end
-- ==== Proof.KChainT.lean ====
/-
  From the pool to the result, each buffer holds the reference's stage of the same arguments; a sum over all nodes is
  the sum of the two halves.
-/
import proofs.«420895_j26731876451141_3_alg».proof.Proof.Gen.KernelIdeal.Frame
import proofs.«420895_j26731876451141_3_alg».proof.Proof.KKeep
import proofs.«420895_j26731876451141_3_alg».proof.Proof.RefRead
import proofs.«420895_j26731876451141_3_alg».proof.Proof.Spec
import proofs.«420895_j26731876451141_3_alg».proof.Proof.K9
import proofs.«420895_j26731876451141_3_alg».proof.Proof.K10
import proofs.«420895_j26731876451141_3_alg».proof.Proof.KHostTail
import proofs.«420895_j26731876451141_3_alg».proof.Proof.RefLayer
import proofs.«420895_j26731876451141_3_alg».proof.Proof.RefTail
import proofs.«420895_j26731876451141_3_alg».proof.Proof.RefHead
import proofs.«420895_j26731876451141_3_alg».proof.Proof.KChainL2
import proofs.«420895_j26731876451141_3_alg».proof.Proof.KChainP
import Idealize.ShloMosaic.Lib.StableHlo.Run
import Idealize.ShloMosaic.Lib.Tactic

set_option maxRecDepth 16384

noncomputable section

namespace Cert.KernelIdeal.KChainT

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

theorem r9_s (c : Dev nD) : W20 m ρ c (Proc.devRef .tc main_call0_v136_0)
    = Spec.ppoolA (val_main_v188 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
        (Spec.col1 (m ((c : Thread nD τ).loc main_arg2))) := by
  refine (W20_arr m ρ c 6).trans ((K9.arr9_s (V19 m ρ) c).trans ?_)
  rw [Cert.ReferenceIdeal.RefLayer.v188_eq, Cert.ReferenceIdeal.RefLayer.v180_eq, Cert.ReferenceIdeal.RefLayer.v185_eq]
  show Spec.ppoolA (Spec.y (W19 m ρ c (Proc.devRef .tc main_call0_v125_0)) (W19 m ρ c (Proc.devRef .tc main_call0_v128)) (W19 m ρ c (Proc.devRef .tc main_call0_v135)) (W19 m ρ c (Proc.devRef .tc main_call0_v121)) (W19 m ρ c (Proc.devRef .tc main_call0_v124))) (W19 m ρ c (Proc.devRef .tc main_call0_v30)) = _
  rw [keep_v125_0_17_19 m ρ c, keep_v125_0_16_17 m ρ c, KChainL2.feat m ρ c, keep_v128_17_19 m ρ c, KChainL2.meanv m ρ c,
    KChainL2.istdv m ρ c, keep_v121_15_19 m ρ c, KChainL2.gammarow m ρ c, keep_v124_15_19 m ρ c, KChainL2.betarow m ρ c,
    keep_v30_1_19 m ρ c, KChainP.s0_v30 m ρ c]

theorem r9_c (c : Dev nD) : W20 m ρ c (Proc.devRef .tc main_call0_v136_1)
    = Spec.pcntA (Spec.col1 (m ((c : Thread nD τ).loc main_arg2))) := by
  refine (W20_arr m ρ c 7).trans ((K9.arr9_c (V19 m ρ) c).trans ?_)
  show Spec.pcntA (W19 m ρ c (Proc.devRef .tc main_call0_v30)) = _
  rw [keep_v30_1_19 m ρ c, KChainP.s0_v30 m ρ c]

theorem s10_v143 (c : Dev nD) : W21 m ρ c (Proc.devRef .tc main_call0_v143)
    = val_main_v200 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : W21 m ρ c (Proc.devRef .tc main_call0_v143)
      = Host.divf (F := Ideal) (Host.reduceAdd (F := Ideal) (W20 m ρ c (Proc.devRef .tc main_call0_v136_0)) (constant (F := Ideal) S_ .f32 0x00000000#32) reducesTo_S2x512x128_S512x128_d0 h_S_)
          (broadcastInDim S512x128 ![0, 1] bcast_S512x1_S512x128_0_1
            (maximumf (shapeCast S512x1 (Host.reduceAdd (F := Ideal) (W20 m ρ c (Proc.devRef .tc main_call0_v136_1)) (constant (F := Ideal) S_ .f32 0x00000000#32) reducesTo_S2x1x512_S1x512_d0 h_S_) shapeCasts_S1x512_S512x1)
              (broadcastInDim S512x1 ![] bcast_S_S512x1 (constant (F := Ideal) S_ .f32 0x3F800000#32)))) := by
    show StableHlo.after hostOps10 (W20 m ρ c) (Proc.devRef .tc main_call0_v143) = _
    after_results
    rfl
  rw [e, r9_s m ρ c, r9_c m ρ c, KHostTail.pool_eq, KHostTail.cnt1_eq, KHostTail.zp_eq,
    Cert.ReferenceIdeal.RefHead.v200_eq, Cert.ReferenceIdeal.RefTail.v191_eq, Cert.ReferenceIdeal.RefTail.v198_eq,
    Cert.ReferenceIdeal.RefTail.v190_eq]

theorem s10_v144 (c : Dev nD) : W21 m ρ c (Proc.devRef .tc main_call0_v144) = Spec.rowv (m ((c : Thread nD τ).loc main_arg8)) := by
  have e : W21 m ρ c (Proc.devRef .tc main_call0_v144) = shapeCast S1x128 (W20 m ρ c (Proc.devRef .tc main_arg8)) shapeCasts_S128_S1x128 := by
    show StableHlo.after hostOps10 (W20 m ρ c) (Proc.devRef .tc main_call0_v144) = _
    after_results
    rfl
  rw [e, keep_arg8_0_20 m ρ c]
  exact KHostTail.rowv_eq _

theorem s10_v145 (c : Dev nD) : W21 m ρ c (Proc.devRef .tc main_call0_v145) = Spec.one1 (m ((c : Thread nD τ).loc main_arg10)) := by
  have e : W21 m ρ c (Proc.devRef .tc main_call0_v145) = shapeCast S1x1 (W20 m ρ c (Proc.devRef .tc main_arg10)) shapeCasts_S1_S1x1 := by
    show StableHlo.after hostOps10 (W20 m ρ c) (Proc.devRef .tc main_call0_v145) = _
    after_results
    rfl
  rw [e, keep_arg10_0_20 m ρ c]
  exact KHostTail.one1_eq _

theorem final (c : Dev nD) : W22 m ρ c (Proc.devRef .tc main_v0)
    = val_main_v209 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (W22_arr m ρ c 5).trans ((K10.arr10 (V21 m ρ) c).trans ?_)
  rw [Cert.ReferenceIdeal.RefHead.v209_eq]
  show Spec.head (W21 m ρ c (Proc.devRef .tc main_call0_v143)) (W21 m ρ c (Proc.devRef .tc main_arg7)) (W21 m ρ c (Proc.devRef .tc main_call0_v144)) (W21 m ρ c (Proc.devRef .tc main_arg9)) (W21 m ρ c (Proc.devRef .tc main_call0_v145)) = _
  rw [s10_v143 m ρ c, keep_arg7_0_21 m ρ c, s10_v144 m ρ c, keep_arg9_0_21 m ρ c, s10_v145 m ρ c]
  all_goals rfl

end Cert.KernelIdeal.KChainT

end
-- ==== Proof.lean ====
/-
  The five claims.  The kernel program's two readings run with their arguments unchanged by their frames; the reference
  runs with every buffer at the fold of its operations, none of which writes an argument.  Over the extended reals the
  kernel's result buffer and the reference's result are both the reference's last stage of the same eleven arguments.
-/
import proofs.«420895_j26731876451141_3_alg».proof.Defs
import proofs.«420895_j26731876451141_3_alg».proof.Proof.Gen.Kernel
import proofs.«420895_j26731876451141_3_alg».proof.Proof.Gen.Kernel.Skeleton
import proofs.«420895_j26731876451141_3_alg».proof.Proof.Gen.Kernel.Launch
import proofs.«420895_j26731876451141_3_alg».proof.Proof.Gen.Kernel.Points
import proofs.«420895_j26731876451141_3_alg».proof.Proof.Gen.Kernel.Frame
import proofs.«420895_j26731876451141_3_alg».proof.Proof.Gen.KernelIdeal
import proofs.«420895_j26731876451141_3_alg».proof.Proof.Gen.KernelIdeal.Skeleton
import proofs.«420895_j26731876451141_3_alg».proof.Proof.Gen.KernelIdeal.Launch
import proofs.«420895_j26731876451141_3_alg».proof.Proof.Gen.KernelIdeal.Points
import proofs.«420895_j26731876451141_3_alg».proof.Proof.Gen.KernelIdeal.Frame
import proofs.«420895_j26731876451141_3_alg».proof.Proof.Gen.ReferenceIdeal
import proofs.«420895_j26731876451141_3_alg».proof.Proof.Gen.Pre_finite_inputs
import proofs.«420895_j26731876451141_3_alg».proof.Proof.KRun
import proofs.«420895_j26731876451141_3_alg».proof.Proof.RefRunBase
import proofs.«420895_j26731876451141_3_alg».proof.Proof.RefRead
import proofs.«420895_j26731876451141_3_alg».proof.Proof.RefRun
import proofs.«420895_j26731876451141_3_alg».proof.Proof.KChainT
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun r h c => Cert.ReferenceIdeal.RefRun.args_kept m c (h c))
    (Cert.ReferenceIdeal.Value.run_ops (F := Ideal) m ρ)

theorem algebraic : Cert.algebraic_KernelIdeal_ReferenceIdeal := by
  intro m ρ m' ρ' _ hagree
  refine ⟨fun c => Cert.KernelIdeal.Gen.W22 m ρ c (Proc.devRef .tc Cert.KernelIdeal.main_v0),
    Cert.KernelIdeal.Gen.run_result (F := Ideal) m ρ, ?_⟩
  refine (θ_run Cert.ReferenceIdeal.defs _ _).mono (fun r h c =>
    ⟨?_, Cert.ReferenceIdeal.RefRun.args_kept m' c (h c)⟩) (Cert.ReferenceIdeal.Value.run_ops (F := Ideal) m' ρ')
  refine (h c _).trans ((Cert.ReferenceIdeal.RefRun.result_eq m' c).trans ?_)
  obtain ⟨a0, a1, a2, a3, a4, a5, a6, a7, a8, a9, a10⟩ := hagree c
  rw [a0, a1, a2, a3, a4, a5, a6, a7, a8, a9, a10]
  exact (Cert.KernelIdeal.KChainT.final m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
